-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![8192, 1024]⟩ (Layout.meshBlock [2, 2, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Pre_finite_inputs_ReferenceIdeal.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  main_v3
-- ==== Kernel.lean ====
abbrev S4096x1024 : Shape := ⟨2, ![4096, 1024]⟩
abbrev S32x32x1024 : Shape := ⟨3, ![32, 32, 1024]⟩
abbrev S16x32x1024 : Shape := ⟨3, ![16, 32, 1024]⟩
abbrev S32 : Shape := ⟨1, ![32]⟩
abbrev S48 : Shape := ⟨1, ![48]⟩
abbrev S16 : Shape := ⟨1, ![16]⟩
abbrev S_ : Shape := ⟨0, ![]⟩
abbrev S1 : Shape := ⟨1, ![1]⟩
abbrev S1x32x1024 : Shape := ⟨3, ![1, 32, 1024]⟩
abbrev S32x1024 : Shape := ⟨2, ![32, 1024]⟩

abbrev nBuf : Space → Nat
  | .hbm => 2
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .local _ .vmem, ⟨0, _⟩ => ⟨S4096x1024, .f32⟩
  | .local _ .vmem, ⟨1, _⟩ => ⟨S4096x1024, .f32⟩
  | .local _ .vmem, ⟨2, _⟩ => ⟨S32x32x1024, .f32⟩
  | .local _ .vmem, ⟨3, _⟩ => ⟨S32x32x1024, .f32⟩
  | .local _ .vmem, ⟨4, _⟩ => ⟨S16x32x1024, .f32⟩
  | .local _ .vmem, ⟨5, _⟩ => ⟨S32x32x1024, .f32⟩
  | .local _ .vmem, ⟨6, _⟩ => ⟨S16x32x1024, .f32⟩
  | _, _ => ⟨S4096x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 258 → Bool
  | ⟨i, _⟩ => dmaSemScopedAt i

abbrev sig : RefSig :=
  (ofTc nBuf bufTy 1 258 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_23 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_22 : BitVec 32 := 8#32
  let v41 : BitVec 32 := Scalar.muli v2 c8_i32_22
  let v42 : BitVec 32 := Scalar.addi c0_i32_23 v41
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_24 : BitVec 32 := 4#32
  let v43 : BitVec 32 := Scalar.muli v22 c4_i32_24
  let v44 : BitVec 32 := Scalar.addi v42 v43
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v45 : BitVec 32 := Scalar.muli v8 c1_i32_25
  let v46 : BitVec 32 := Scalar.addi v44 v45
  v46.toNat
def k0_dev2 (d0 : Dev nD) : Nat :=
  let c0_i32_28 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_27 : BitVec 32 := 8#32
  let v47 : BitVec 32 := Scalar.muli v23 c8_i32_27
  let v48 : BitVec 32 := Scalar.addi c0_i32_28 v47
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_29 : BitVec 32 := 4#32
  let v49 : BitVec 32 := Scalar.muli v5 c4_i32_29
  let v50 : BitVec 32 := Scalar.addi v48 v49
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_30 : BitVec 32 := 1#32
  let v51 : BitVec 32 := Scalar.muli v8 c1_i32_30
  let v52 : BitVec 32 := Scalar.addi v50 v51
  v52.toNat
def k0_dev3 (d0 : Dev nD) : Nat :=
  let c0_i32_33 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_32 : BitVec 32 := 8#32
  let v53 : BitVec 32 := Scalar.muli v2 c8_i32_32
  let v54 : BitVec 32 := Scalar.addi c0_i32_33 v53
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_34 : BitVec 32 := 4#32
  let v55 : BitVec 32 := Scalar.muli v5 c4_i32_34
  let v56 : BitVec 32 := Scalar.addi v54 v55
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_35 : BitVec 32 := 1#32
  let v57 : BitVec 32 := Scalar.muli v21 c1_i32_35
  let v58 : BitVec 32 := Scalar.addi v56 v57
  v58.toNat
def k0_off1 (d0 : Dev nD) (c0_i32_36 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v24 : BitVec 32 := Scalar.muli v2 c2048_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c1024_i32 : BitVec 32 := 1024#32
  let v25 : BitVec 32 := Scalar.muli v18 c1024_i32
  let v26 : BitVec 32 := Scalar.addi v24 v25
  let v59 : BitVec 32 := Scalar.addi v26 c0_i32_36
  let c0_i32_46 : BitVec 32 := 0#32
  ![v59.toNat, 0]
def k0_dev4 (d0 : Dev nD) : Nat :=
  let c0_i32_41 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_40 : BitVec 32 := 8#32
  let v60 : BitVec 32 := Scalar.muli v2 c8_i32_40
  let v61 : BitVec 32 := Scalar.addi c0_i32_41 v60
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_42 : BitVec 32 := 4#32
  let v62 : BitVec 32 := Scalar.muli v22 c4_i32_42
  let v63 : BitVec 32 := Scalar.addi v61 v62
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_43 : BitVec 32 := 1#32
  let v64 : BitVec 32 := Scalar.muli v8 c1_i32_43
  let v65 : BitVec 32 := Scalar.addi v63 v64
  v65.toNat
def k0_dev5 (d0 : Dev nD) : Nat :=
  let c0_i32_51 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_50 : BitVec 32 := 8#32
  let v74 : BitVec 32 := Scalar.muli v2 c8_i32_50
  let v75 : BitVec 32 := Scalar.addi c0_i32_51 v74
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_52 : BitVec 32 := 4#32
  let v76 : BitVec 32 := Scalar.muli v22 c4_i32_52
  let v77 : BitVec 32 := Scalar.addi v75 v76
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_53 : BitVec 32 := 1#32
  let v78 : BitVec 32 := Scalar.muli v8 c1_i32_53
  let v79 : BitVec 32 := Scalar.addi v77 v78
  v79.toNat
def k0_dev6 (d0 : Dev nD) : Nat :=
  let c0_i32_61 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_60 : BitVec 32 := 8#32
  let v88 : BitVec 32 := Scalar.muli v2 c8_i32_60
  let v89 : BitVec 32 := Scalar.addi c0_i32_61 v88
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_62 : BitVec 32 := 4#32
  let v90 : BitVec 32 := Scalar.muli v22 c4_i32_62
  let v91 : BitVec 32 := Scalar.addi v89 v90
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_63 : BitVec 32 := 1#32
  let v92 : BitVec 32 := Scalar.muli v8 c1_i32_63
  let v93 : BitVec 32 := Scalar.addi v91 v92
  v93.toNat
def k0_dev7 (d0 : Dev nD) : Nat :=
  let c0_i32_71 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_70 : BitVec 32 := 8#32
  let v102 : BitVec 32 := Scalar.muli v2 c8_i32_70
  let v103 : BitVec 32 := Scalar.addi c0_i32_71 v102
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_72 : BitVec 32 := 4#32
  let v104 : BitVec 32 := Scalar.muli v22 c4_i32_72
  let v105 : BitVec 32 := Scalar.addi v103 v104
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_73 : BitVec 32 := 1#32
  let v106 : BitVec 32 := Scalar.muli v8 c1_i32_73
  let v107 : BitVec 32 := Scalar.addi v105 v106
  v107.toNat
def k0_dev8 (d0 : Dev nD) : Nat :=
  let c0_i32_81 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_80 : BitVec 32 := 8#32
  let v116 : BitVec 32 := Scalar.muli v2 c8_i32_80
  let v117 : BitVec 32 := Scalar.addi c0_i32_81 v116
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_82 : BitVec 32 := 4#32
  let v118 : BitVec 32 := Scalar.muli v22 c4_i32_82
  let v119 : BitVec 32 := Scalar.addi v117 v118
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_83 : BitVec 32 := 1#32
  let v120 : BitVec 32 := Scalar.muli v8 c1_i32_83
  let v121 : BitVec 32 := Scalar.addi v119 v120
  v121.toNat
def k0_dev9 (d0 : Dev nD) : Nat :=
  let c0_i32_90 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_89 : BitVec 32 := 8#32
  let v130 : BitVec 32 := Scalar.muli v2 c8_i32_89
  let v131 : BitVec 32 := Scalar.addi c0_i32_90 v130
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_91 : BitVec 32 := 4#32
  let v132 : BitVec 32 := Scalar.muli v22 c4_i32_91
  let v133 : BitVec 32 := Scalar.addi v131 v132
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_92 : BitVec 32 := 1#32
  let v134 : BitVec 32 := Scalar.muli v8 c1_i32_92
  let v135 : BitVec 32 := Scalar.addi v133 v134
  v135.toNat
def k0_dev10 (d0 : Dev nD) : Nat :=
  let c0_i32_99 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_98 : BitVec 32 := 8#32
  let v144 : BitVec 32 := Scalar.muli v2 c8_i32_98
  let v145 : BitVec 32 := Scalar.addi c0_i32_99 v144
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_100 : BitVec 32 := 4#32
  let v146 : BitVec 32 := Scalar.muli v22 c4_i32_100
  let v147 : BitVec 32 := Scalar.addi v145 v146
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_101 : BitVec 32 := 1#32
  let v148 : BitVec 32 := Scalar.muli v8 c1_i32_101
  let v149 : BitVec 32 := Scalar.addi v147 v148
  v149.toNat
def k0_dev11 (d0 : Dev nD) : Nat :=
  let c0_i32_108 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_107 : BitVec 32 := 8#32
  let v158 : BitVec 32 := Scalar.muli v2 c8_i32_107
  let v159 : BitVec 32 := Scalar.addi c0_i32_108 v158
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_109 : BitVec 32 := 4#32
  let v160 : BitVec 32 := Scalar.muli v22 c4_i32_109
  let v161 : BitVec 32 := Scalar.addi v159 v160
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_110 : BitVec 32 := 1#32
  let v162 : BitVec 32 := Scalar.muli v8 c1_i32_110
  let v163 : BitVec 32 := Scalar.addi v161 v162
  v163.toNat
def k0_dev12 (d0 : Dev nD) : Nat :=
  let c0_i32_118 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_117 : BitVec 32 := 8#32
  let v172 : BitVec 32 := Scalar.muli v2 c8_i32_117
  let v173 : BitVec 32 := Scalar.addi c0_i32_118 v172
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_119 : BitVec 32 := 4#32
  let v174 : BitVec 32 := Scalar.muli v22 c4_i32_119
  let v175 : BitVec 32 := Scalar.addi v173 v174
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_120 : BitVec 32 := 1#32
  let v176 : BitVec 32 := Scalar.muli v8 c1_i32_120
  let v177 : BitVec 32 := Scalar.addi v175 v176
  v177.toNat
def k0_dev13 (d0 : Dev nD) : Nat :=
  let c0_i32_127 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_126 : BitVec 32 := 8#32
  let v186 : BitVec 32 := Scalar.muli v2 c8_i32_126
  let v187 : BitVec 32 := Scalar.addi c0_i32_127 v186
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_128 : BitVec 32 := 4#32
  let v188 : BitVec 32 := Scalar.muli v22 c4_i32_128
  let v189 : BitVec 32 := Scalar.addi v187 v188
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_129 : BitVec 32 := 1#32
  let v190 : BitVec 32 := Scalar.muli v8 c1_i32_129
  let v191 : BitVec 32 := Scalar.addi v189 v190
  v191.toNat
def k0_dev14 (d0 : Dev nD) : Nat :=
  let c0_i32_136 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_135 : BitVec 32 := 8#32
  let v200 : BitVec 32 := Scalar.muli v2 c8_i32_135
  let v201 : BitVec 32 := Scalar.addi c0_i32_136 v200
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_137 : BitVec 32 := 4#32
  let v202 : BitVec 32 := Scalar.muli v22 c4_i32_137
  let v203 : BitVec 32 := Scalar.addi v201 v202
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_138 : BitVec 32 := 1#32
  let v204 : BitVec 32 := Scalar.muli v8 c1_i32_138
  let v205 : BitVec 32 := Scalar.addi v203 v204
  v205.toNat
def k0_dev15 (d0 : Dev nD) : Nat :=
  let c0_i32_145 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_144 : BitVec 32 := 8#32
  let v214 : BitVec 32 := Scalar.muli v2 c8_i32_144
  let v215 : BitVec 32 := Scalar.addi c0_i32_145 v214
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_146 : BitVec 32 := 4#32
  let v216 : BitVec 32 := Scalar.muli v22 c4_i32_146
  let v217 : BitVec 32 := Scalar.addi v215 v216
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_147 : BitVec 32 := 1#32
  let v218 : BitVec 32 := Scalar.muli v8 c1_i32_147
  let v219 : BitVec 32 := Scalar.addi v217 v218
  v219.toNat
def k0_dev16 (d0 : Dev nD) : Nat :=
  let c0_i32_154 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_153 : BitVec 32 := 8#32
  let v228 : BitVec 32 := Scalar.muli v2 c8_i32_153
  let v229 : BitVec 32 := Scalar.addi c0_i32_154 v228
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_155 : BitVec 32 := 4#32
  let v230 : BitVec 32 := Scalar.muli v22 c4_i32_155
  let v231 : BitVec 32 := Scalar.addi v229 v230
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_156 : BitVec 32 := 1#32
  let v232 : BitVec 32 := Scalar.muli v8 c1_i32_156
  let v233 : BitVec 32 := Scalar.addi v231 v232
  v233.toNat
def k0_dev17 (d0 : Dev nD) : Nat :=
  let c0_i32_163 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_162 : BitVec 32 := 8#32
  let v242 : BitVec 32 := Scalar.muli v2 c8_i32_162
  let v243 : BitVec 32 := Scalar.addi c0_i32_163 v242
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_164 : BitVec 32 := 4#32
  let v244 : BitVec 32 := Scalar.muli v22 c4_i32_164
  let v245 : BitVec 32 := Scalar.addi v243 v244
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_165 : BitVec 32 := 1#32
  let v246 : BitVec 32 := Scalar.muli v8 c1_i32_165
  let v247 : BitVec 32 := Scalar.addi v245 v246
  v247.toNat
def k0_dev18 (d0 : Dev nD) : Nat :=
  let c0_i32_172 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_171 : BitVec 32 := 8#32
  let v256 : BitVec 32 := Scalar.muli v2 c8_i32_171
  let v257 : BitVec 32 := Scalar.addi c0_i32_172 v256
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_173 : BitVec 32 := 4#32
  let v258 : BitVec 32 := Scalar.muli v22 c4_i32_173
  let v259 : BitVec 32 := Scalar.addi v257 v258
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_174 : BitVec 32 := 1#32
  let v260 : BitVec 32 := Scalar.muli v8 c1_i32_174
  let v261 : BitVec 32 := Scalar.addi v259 v260
  v261.toNat
def k0_dev19 (d0 : Dev nD) : Nat :=
  let c0_i32_181 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_180 : BitVec 32 := 8#32
  let v270 : BitVec 32 := Scalar.muli v2 c8_i32_180
  let v271 : BitVec 32 := Scalar.addi c0_i32_181 v270
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_182 : BitVec 32 := 4#32
  let v272 : BitVec 32 := Scalar.muli v22 c4_i32_182
  let v273 : BitVec 32 := Scalar.addi v271 v272
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_183 : BitVec 32 := 1#32
  let v274 : BitVec 32 := Scalar.muli v8 c1_i32_183
  let v275 : BitVec 32 := Scalar.addi v273 v274
  v275.toNat
def k0_dev20 (d0 : Dev nD) : Nat :=
  let c0_i32_190 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_189 : BitVec 32 := 8#32
  let v284 : BitVec 32 := Scalar.muli v2 c8_i32_189
  let v285 : BitVec 32 := Scalar.addi c0_i32_190 v284
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_191 : BitVec 32 := 4#32
  let v286 : BitVec 32 := Scalar.muli v22 c4_i32_191
  let v287 : BitVec 32 := Scalar.addi v285 v286
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_192 : BitVec 32 := 1#32
  let v288 : BitVec 32 := Scalar.muli v8 c1_i32_192
  let v289 : BitVec 32 := Scalar.addi v287 v288
  v289.toNat
def k0_dev21 (d0 : Dev nD) : Nat :=
  let c0_i32_199 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_198 : BitVec 32 := 8#32
  let v298 : BitVec 32 := Scalar.muli v2 c8_i32_198
  let v299 : BitVec 32 := Scalar.addi c0_i32_199 v298
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_200 : BitVec 32 := 4#32
  let v300 : BitVec 32 := Scalar.muli v22 c4_i32_200
  let v301 : BitVec 32 := Scalar.addi v299 v300
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_201 : BitVec 32 := 1#32
  let v302 : BitVec 32 := Scalar.muli v8 c1_i32_201
  let v303 : BitVec 32 := Scalar.addi v301 v302
  v303.toNat
def k0_dev22 (d0 : Dev nD) : Nat :=
  let c0_i32_208 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_207 : BitVec 32 := 8#32
  let v312 : BitVec 32 := Scalar.muli v2 c8_i32_207
  let v313 : BitVec 32 := Scalar.addi c0_i32_208 v312
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_209 : BitVec 32 := 4#32
  let v314 : BitVec 32 := Scalar.muli v22 c4_i32_209
  let v315 : BitVec 32 := Scalar.addi v313 v314
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_210 : BitVec 32 := 1#32
  let v316 : BitVec 32 := Scalar.muli v8 c1_i32_210
  let v317 : BitVec 32 := Scalar.addi v315 v316
  v317.toNat
def k0_dev23 (d0 : Dev nD) : Nat :=
  let c0_i32_217 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_216 : BitVec 32 := 8#32
  let v326 : BitVec 32 := Scalar.muli v2 c8_i32_216
  let v327 : BitVec 32 := Scalar.addi c0_i32_217 v326
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_218 : BitVec 32 := 4#32
  let v328 : BitVec 32 := Scalar.muli v22 c4_i32_218
  let v329 : BitVec 32 := Scalar.addi v327 v328
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_219 : BitVec 32 := 1#32
  let v330 : BitVec 32 := Scalar.muli v8 c1_i32_219
  let v331 : BitVec 32 := Scalar.addi v329 v330
  v331.toNat
def k0_dev24 (d0 : Dev nD) : Nat :=
  let c0_i32_226 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_225 : BitVec 32 := 8#32
  let v340 : BitVec 32 := Scalar.muli v2 c8_i32_225
  let v341 : BitVec 32 := Scalar.addi c0_i32_226 v340
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_227 : BitVec 32 := 4#32
  let v342 : BitVec 32 := Scalar.muli v22 c4_i32_227
  let v343 : BitVec 32 := Scalar.addi v341 v342
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_228 : BitVec 32 := 1#32
  let v344 : BitVec 32 := Scalar.muli v8 c1_i32_228
  let v345 : BitVec 32 := Scalar.addi v343 v344
  v345.toNat
def k0_dev25 (d0 : Dev nD) : Nat :=
  let c0_i32_235 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_234 : BitVec 32 := 8#32
  let v354 : BitVec 32 := Scalar.muli v2 c8_i32_234
  let v355 : BitVec 32 := Scalar.addi c0_i32_235 v354
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_236 : BitVec 32 := 4#32
  let v356 : BitVec 32 := Scalar.muli v22 c4_i32_236
  let v357 : BitVec 32 := Scalar.addi v355 v356
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_237 : BitVec 32 := 1#32
  let v358 : BitVec 32 := Scalar.muli v8 c1_i32_237
  let v359 : BitVec 32 := Scalar.addi v357 v358
  v359.toNat
def k0_dev26 (d0 : Dev nD) : Nat :=
  let c0_i32_244 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_243 : BitVec 32 := 8#32
  let v368 : BitVec 32 := Scalar.muli v2 c8_i32_243
  let v369 : BitVec 32 := Scalar.addi c0_i32_244 v368
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_245 : BitVec 32 := 4#32
  let v370 : BitVec 32 := Scalar.muli v22 c4_i32_245
  let v371 : BitVec 32 := Scalar.addi v369 v370
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_246 : BitVec 32 := 1#32
  let v372 : BitVec 32 := Scalar.muli v8 c1_i32_246
  let v373 : BitVec 32 := Scalar.addi v371 v372
  v373.toNat
def k0_dev27 (d0 : Dev nD) : Nat :=
  let c0_i32_253 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_252 : BitVec 32 := 8#32
  let v382 : BitVec 32 := Scalar.muli v2 c8_i32_252
  let v383 : BitVec 32 := Scalar.addi c0_i32_253 v382
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_254 : BitVec 32 := 4#32
  let v384 : BitVec 32 := Scalar.muli v22 c4_i32_254
  let v385 : BitVec 32 := Scalar.addi v383 v384
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_255 : BitVec 32 := 1#32
  let v386 : BitVec 32 := Scalar.muli v8 c1_i32_255
  let v387 : BitVec 32 := Scalar.addi v385 v386
  v387.toNat
def k0_dev28 (d0 : Dev nD) : Nat :=
  let c0_i32_262 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_261 : BitVec 32 := 8#32
  let v396 : BitVec 32 := Scalar.muli v2 c8_i32_261
  let v397 : BitVec 32 := Scalar.addi c0_i32_262 v396
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_263 : BitVec 32 := 4#32
  let v398 : BitVec 32 := Scalar.muli v22 c4_i32_263
  let v399 : BitVec 32 := Scalar.addi v397 v398
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_264 : BitVec 32 := 1#32
  let v400 : BitVec 32 := Scalar.muli v8 c1_i32_264
  let v401 : BitVec 32 := Scalar.addi v399 v400
  v401.toNat
def k0_dev29 (d0 : Dev nD) : Nat :=
  let c0_i32_271 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_270 : BitVec 32 := 8#32
  let v410 : BitVec 32 := Scalar.muli v2 c8_i32_270
  let v411 : BitVec 32 := Scalar.addi c0_i32_271 v410
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_272 : BitVec 32 := 4#32
  let v412 : BitVec 32 := Scalar.muli v22 c4_i32_272
  let v413 : BitVec 32 := Scalar.addi v411 v412
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_273 : BitVec 32 := 1#32
  let v414 : BitVec 32 := Scalar.muli v8 c1_i32_273
  let v415 : BitVec 32 := Scalar.addi v413 v414
  v415.toNat
def k0_dev30 (d0 : Dev nD) : Nat :=
  let c0_i32_280 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_279 : BitVec 32 := 8#32
  let v424 : BitVec 32 := Scalar.muli v2 c8_i32_279
  let v425 : BitVec 32 := Scalar.addi c0_i32_280 v424
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_281 : BitVec 32 := 4#32
  let v426 : BitVec 32 := Scalar.muli v22 c4_i32_281
  let v427 : BitVec 32 := Scalar.addi v425 v426
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_282 : BitVec 32 := 1#32
  let v428 : BitVec 32 := Scalar.muli v8 c1_i32_282
  let v429 : BitVec 32 := Scalar.addi v427 v428
  v429.toNat
def k0_dev31 (d0 : Dev nD) : Nat :=
  let c0_i32_289 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_288 : BitVec 32 := 8#32
  let v438 : BitVec 32 := Scalar.muli v2 c8_i32_288
  let v439 : BitVec 32 := Scalar.addi c0_i32_289 v438
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_290 : BitVec 32 := 4#32
  let v440 : BitVec 32 := Scalar.muli v22 c4_i32_290
  let v441 : BitVec 32 := Scalar.addi v439 v440
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_291 : BitVec 32 := 1#32
  let v442 : BitVec 32 := Scalar.muli v8 c1_i32_291
  let v443 : BitVec 32 := Scalar.addi v441 v442
  v443.toNat
def k0_dev32 (d0 : Dev nD) : Nat :=
  let c0_i32_298 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_297 : BitVec 32 := 8#32
  let v452 : BitVec 32 := Scalar.muli v2 c8_i32_297
  let v453 : BitVec 32 := Scalar.addi c0_i32_298 v452
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_299 : BitVec 32 := 4#32
  let v454 : BitVec 32 := Scalar.muli v22 c4_i32_299
  let v455 : BitVec 32 := Scalar.addi v453 v454
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_300 : BitVec 32 := 1#32
  let v456 : BitVec 32 := Scalar.muli v8 c1_i32_300
  let v457 : BitVec 32 := Scalar.addi v455 v456
  v457.toNat
def k0_dev33 (d0 : Dev nD) : Nat :=
  let c0_i32_307 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_306 : BitVec 32 := 8#32
  let v466 : BitVec 32 := Scalar.muli v2 c8_i32_306
  let v467 : BitVec 32 := Scalar.addi c0_i32_307 v466
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_308 : BitVec 32 := 4#32
  let v468 : BitVec 32 := Scalar.muli v22 c4_i32_308
  let v469 : BitVec 32 := Scalar.addi v467 v468
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_309 : BitVec 32 := 1#32
  let v470 : BitVec 32 := Scalar.muli v8 c1_i32_309
  let v471 : BitVec 32 := Scalar.addi v469 v470
  v471.toNat
def k0_dev34 (d0 : Dev nD) : Nat :=
  let c0_i32_316 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_315 : BitVec 32 := 8#32
  let v480 : BitVec 32 := Scalar.muli v2 c8_i32_315
  let v481 : BitVec 32 := Scalar.addi c0_i32_316 v480
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_317 : BitVec 32 := 4#32
  let v482 : BitVec 32 := Scalar.muli v22 c4_i32_317
  let v483 : BitVec 32 := Scalar.addi v481 v482
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_318 : BitVec 32 := 1#32
  let v484 : BitVec 32 := Scalar.muli v8 c1_i32_318
  let v485 : BitVec 32 := Scalar.addi v483 v484
  v485.toNat
def k0_dev35 (d0 : Dev nD) : Nat :=
  let c0_i32_325 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_324 : BitVec 32 := 8#32
  let v494 : BitVec 32 := Scalar.muli v2 c8_i32_324
  let v495 : BitVec 32 := Scalar.addi c0_i32_325 v494
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_9 v5
  let c4_i32_326 : BitVec 32 := 4#32
  let v496 : BitVec 32 := Scalar.muli v22 c4_i32_326
  let v497 : BitVec 32 := Scalar.addi v495 v496
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_327 : BitVec 32 := 1#32
  let v498 : BitVec 32 := Scalar.muli v8 c1_i32_327
  let v499 : BitVec 32 := Scalar.addi v497 v498
  v499.toNat
def k0_dev36 (d0 : Dev nD) : Nat :=
  let c0_i32_346 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_345 : BitVec 32 := 8#32
  let v518 : BitVec 32 := Scalar.muli v23 c8_i32_345
  let v519 : BitVec 32 := Scalar.addi c0_i32_346 v518
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_347 : BitVec 32 := 4#32
  let v520 : BitVec 32 := Scalar.muli v5 c4_i32_347
  let v521 : BitVec 32 := Scalar.addi v519 v520
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_348 : BitVec 32 := 1#32
  let v522 : BitVec 32 := Scalar.muli v8 c1_i32_348
  let v523 : BitVec 32 := Scalar.addi v521 v522
  v523.toNat
def k0_dev37 (d0 : Dev nD) : Nat :=
  let c0_i32_358 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_357 : BitVec 32 := 8#32
  let v532 : BitVec 32 := Scalar.muli v2 c8_i32_357
  let v533 : BitVec 32 := Scalar.addi c0_i32_358 v532
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_359 : BitVec 32 := 4#32
  let v534 : BitVec 32 := Scalar.muli v5 c4_i32_359
  let v535 : BitVec 32 := Scalar.addi v533 v534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_360 : BitVec 32 := 1#32
  let v536 : BitVec 32 := Scalar.muli v21 c1_i32_360
  let v537 : BitVec 32 := Scalar.addi v535 v536
  v537.toNat
def k0_off2 (d0 : Dev nD) (c0_i32_365 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v24 : BitVec 32 := Scalar.muli v2 c2048_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c1024_i32 : BitVec 32 := 1024#32
  let v25 : BitVec 32 := Scalar.muli v18 c1024_i32
  let v26 : BitVec 32 := Scalar.addi v24 v25
  let v546 : BitVec 32 := Scalar.addi v26 c0_i32_365
  let v547 : Index := Scalar.indexCast v546
  let c0 : Index := 0#32
  ![v547.toNat, 0]
def k0_dev38 (d0 : Dev nD) : Nat :=
  let c0_i32_385 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_384 : BitVec 32 := 8#32
  let v566 : BitVec 32 := Scalar.muli v23 c8_i32_384
  let v567 : BitVec 32 := Scalar.addi c0_i32_385 v566
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_386 : BitVec 32 := 4#32
  let v568 : BitVec 32 := Scalar.muli v5 c4_i32_386
  let v569 : BitVec 32 := Scalar.addi v567 v568
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_387 : BitVec 32 := 1#32
  let v570 : BitVec 32 := Scalar.muli v8 c1_i32_387
  let v571 : BitVec 32 := Scalar.addi v569 v570
  v571.toNat
def k0_dev39 (d0 : Dev nD) : Nat :=
  let c0_i32_397 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_396 : BitVec 32 := 8#32
  let v580 : BitVec 32 := Scalar.muli v2 c8_i32_396
  let v581 : BitVec 32 := Scalar.addi c0_i32_397 v580
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_398 : BitVec 32 := 4#32
  let v582 : BitVec 32 := Scalar.muli v5 c4_i32_398
  let v583 : BitVec 32 := Scalar.addi v581 v582
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_399 : BitVec 32 := 1#32
  let v584 : BitVec 32 := Scalar.muli v21 c1_i32_399
  let v585 : BitVec 32 := Scalar.addi v583 v584
  v585.toNat
def k0_dev40 (d0 : Dev nD) : Nat :=
  let c0_i32_424 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_423 : BitVec 32 := 8#32
  let v614 : BitVec 32 := Scalar.muli v23 c8_i32_423
  let v615 : BitVec 32 := Scalar.addi c0_i32_424 v614
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_425 : BitVec 32 := 4#32
  let v616 : BitVec 32 := Scalar.muli v5 c4_i32_425
  let v617 : BitVec 32 := Scalar.addi v615 v616
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_426 : BitVec 32 := 1#32
  let v618 : BitVec 32 := Scalar.muli v8 c1_i32_426
  let v619 : BitVec 32 := Scalar.addi v617 v618
  v619.toNat
def k0_dev41 (d0 : Dev nD) : Nat :=
  let c0_i32_436 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_435 : BitVec 32 := 8#32
  let v628 : BitVec 32 := Scalar.muli v2 c8_i32_435
  let v629 : BitVec 32 := Scalar.addi c0_i32_436 v628
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_437 : BitVec 32 := 4#32
  let v630 : BitVec 32 := Scalar.muli v5 c4_i32_437
  let v631 : BitVec 32 := Scalar.addi v629 v630
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_438 : BitVec 32 := 1#32
  let v632 : BitVec 32 := Scalar.muli v21 c1_i32_438
  let v633 : BitVec 32 := Scalar.addi v631 v632
  v633.toNat
def k0_dev42 (d0 : Dev nD) : Nat :=
  let c0_i32_463 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_462 : BitVec 32 := 8#32
  let v662 : BitVec 32 := Scalar.muli v23 c8_i32_462
  let v663 : BitVec 32 := Scalar.addi c0_i32_463 v662
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_464 : BitVec 32 := 4#32
  let v664 : BitVec 32 := Scalar.muli v5 c4_i32_464
  let v665 : BitVec 32 := Scalar.addi v663 v664
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_465 : BitVec 32 := 1#32
  let v666 : BitVec 32 := Scalar.muli v8 c1_i32_465
  let v667 : BitVec 32 := Scalar.addi v665 v666
  v667.toNat
def k0_dev43 (d0 : Dev nD) : Nat :=
  let c0_i32_475 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_474 : BitVec 32 := 8#32
  let v676 : BitVec 32 := Scalar.muli v2 c8_i32_474
  let v677 : BitVec 32 := Scalar.addi c0_i32_475 v676
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_476 : BitVec 32 := 4#32
  let v678 : BitVec 32 := Scalar.muli v5 c4_i32_476
  let v679 : BitVec 32 := Scalar.addi v677 v678
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_477 : BitVec 32 := 1#32
  let v680 : BitVec 32 := Scalar.muli v21 c1_i32_477
  let v681 : BitVec 32 := Scalar.addi v679 v680
  v681.toNat
def k0_dev44 (d0 : Dev nD) : Nat :=
  let c0_i32_502 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_501 : BitVec 32 := 8#32
  let v710 : BitVec 32 := Scalar.muli v23 c8_i32_501
  let v711 : BitVec 32 := Scalar.addi c0_i32_502 v710
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_503 : BitVec 32 := 4#32
  let v712 : BitVec 32 := Scalar.muli v5 c4_i32_503
  let v713 : BitVec 32 := Scalar.addi v711 v712
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_504 : BitVec 32 := 1#32
  let v714 : BitVec 32 := Scalar.muli v8 c1_i32_504
  let v715 : BitVec 32 := Scalar.addi v713 v714
  v715.toNat
def k0_dev45 (d0 : Dev nD) : Nat :=
  let c0_i32_514 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_513 : BitVec 32 := 8#32
  let v724 : BitVec 32 := Scalar.muli v2 c8_i32_513
  let v725 : BitVec 32 := Scalar.addi c0_i32_514 v724
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_515 : BitVec 32 := 4#32
  let v726 : BitVec 32 := Scalar.muli v5 c4_i32_515
  let v727 : BitVec 32 := Scalar.addi v725 v726
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_516 : BitVec 32 := 1#32
  let v728 : BitVec 32 := Scalar.muli v21 c1_i32_516
  let v729 : BitVec 32 := Scalar.addi v727 v728
  v729.toNat
def k0_dev46 (d0 : Dev nD) : Nat :=
  let c0_i32_541 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_540 : BitVec 32 := 8#32
  let v758 : BitVec 32 := Scalar.muli v23 c8_i32_540
  let v759 : BitVec 32 := Scalar.addi c0_i32_541 v758
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_542 : BitVec 32 := 4#32
  let v760 : BitVec 32 := Scalar.muli v5 c4_i32_542
  let v761 : BitVec 32 := Scalar.addi v759 v760
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_543 : BitVec 32 := 1#32
  let v762 : BitVec 32 := Scalar.muli v8 c1_i32_543
  let v763 : BitVec 32 := Scalar.addi v761 v762
  v763.toNat
def k0_dev47 (d0 : Dev nD) : Nat :=
  let c0_i32_553 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_552 : BitVec 32 := 8#32
  let v772 : BitVec 32 := Scalar.muli v2 c8_i32_552
  let v773 : BitVec 32 := Scalar.addi c0_i32_553 v772
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_554 : BitVec 32 := 4#32
  let v774 : BitVec 32 := Scalar.muli v5 c4_i32_554
  let v775 : BitVec 32 := Scalar.addi v773 v774
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_555 : BitVec 32 := 1#32
  let v776 : BitVec 32 := Scalar.muli v21 c1_i32_555
  let v777 : BitVec 32 := Scalar.addi v775 v776
  v777.toNat
def k0_dev48 (d0 : Dev nD) : Nat :=
  let c0_i32_580 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_579 : BitVec 32 := 8#32
  let v806 : BitVec 32 := Scalar.muli v23 c8_i32_579
  let v807 : BitVec 32 := Scalar.addi c0_i32_580 v806
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_581 : BitVec 32 := 4#32
  let v808 : BitVec 32 := Scalar.muli v5 c4_i32_581
  let v809 : BitVec 32 := Scalar.addi v807 v808
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_582 : BitVec 32 := 1#32
  let v810 : BitVec 32 := Scalar.muli v8 c1_i32_582
  let v811 : BitVec 32 := Scalar.addi v809 v810
  v811.toNat
def k0_dev49 (d0 : Dev nD) : Nat :=
  let c0_i32_592 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_591 : BitVec 32 := 8#32
  let v820 : BitVec 32 := Scalar.muli v2 c8_i32_591
  let v821 : BitVec 32 := Scalar.addi c0_i32_592 v820
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_593 : BitVec 32 := 4#32
  let v822 : BitVec 32 := Scalar.muli v5 c4_i32_593
  let v823 : BitVec 32 := Scalar.addi v821 v822
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_594 : BitVec 32 := 1#32
  let v824 : BitVec 32 := Scalar.muli v21 c1_i32_594
  let v825 : BitVec 32 := Scalar.addi v823 v824
  v825.toNat
def k0_dev50 (d0 : Dev nD) : Nat :=
  let c0_i32_619 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_618 : BitVec 32 := 8#32
  let v854 : BitVec 32 := Scalar.muli v23 c8_i32_618
  let v855 : BitVec 32 := Scalar.addi c0_i32_619 v854
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_620 : BitVec 32 := 4#32
  let v856 : BitVec 32 := Scalar.muli v5 c4_i32_620
  let v857 : BitVec 32 := Scalar.addi v855 v856
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_621 : BitVec 32 := 1#32
  let v858 : BitVec 32 := Scalar.muli v8 c1_i32_621
  let v859 : BitVec 32 := Scalar.addi v857 v858
  v859.toNat
def k0_dev51 (d0 : Dev nD) : Nat :=
  let c0_i32_631 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_630 : BitVec 32 := 8#32
  let v868 : BitVec 32 := Scalar.muli v2 c8_i32_630
  let v869 : BitVec 32 := Scalar.addi c0_i32_631 v868
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_632 : BitVec 32 := 4#32
  let v870 : BitVec 32 := Scalar.muli v5 c4_i32_632
  let v871 : BitVec 32 := Scalar.addi v869 v870
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_633 : BitVec 32 := 1#32
  let v872 : BitVec 32 := Scalar.muli v21 c1_i32_633
  let v873 : BitVec 32 := Scalar.addi v871 v872
  v873.toNat
def k0_dev52 (d0 : Dev nD) : Nat :=
  let c0_i32_658 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_657 : BitVec 32 := 8#32
  let v902 : BitVec 32 := Scalar.muli v23 c8_i32_657
  let v903 : BitVec 32 := Scalar.addi c0_i32_658 v902
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_659 : BitVec 32 := 4#32
  let v904 : BitVec 32 := Scalar.muli v5 c4_i32_659
  let v905 : BitVec 32 := Scalar.addi v903 v904
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_660 : BitVec 32 := 1#32
  let v906 : BitVec 32 := Scalar.muli v8 c1_i32_660
  let v907 : BitVec 32 := Scalar.addi v905 v906
  v907.toNat
def k0_dev53 (d0 : Dev nD) : Nat :=
  let c0_i32_670 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_669 : BitVec 32 := 8#32
  let v916 : BitVec 32 := Scalar.muli v2 c8_i32_669
  let v917 : BitVec 32 := Scalar.addi c0_i32_670 v916
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_671 : BitVec 32 := 4#32
  let v918 : BitVec 32 := Scalar.muli v5 c4_i32_671
  let v919 : BitVec 32 := Scalar.addi v917 v918
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_672 : BitVec 32 := 1#32
  let v920 : BitVec 32 := Scalar.muli v21 c1_i32_672
  let v921 : BitVec 32 := Scalar.addi v919 v920
  v921.toNat
def k0_dev54 (d0 : Dev nD) : Nat :=
  let c0_i32_697 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_696 : BitVec 32 := 8#32
  let v950 : BitVec 32 := Scalar.muli v23 c8_i32_696
  let v951 : BitVec 32 := Scalar.addi c0_i32_697 v950
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_698 : BitVec 32 := 4#32
  let v952 : BitVec 32 := Scalar.muli v5 c4_i32_698
  let v953 : BitVec 32 := Scalar.addi v951 v952
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_699 : BitVec 32 := 1#32
  let v954 : BitVec 32 := Scalar.muli v8 c1_i32_699
  let v955 : BitVec 32 := Scalar.addi v953 v954
  v955.toNat
def k0_dev55 (d0 : Dev nD) : Nat :=
  let c0_i32_709 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_708 : BitVec 32 := 8#32
  let v964 : BitVec 32 := Scalar.muli v2 c8_i32_708
  let v965 : BitVec 32 := Scalar.addi c0_i32_709 v964
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_710 : BitVec 32 := 4#32
  let v966 : BitVec 32 := Scalar.muli v5 c4_i32_710
  let v967 : BitVec 32 := Scalar.addi v965 v966
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_711 : BitVec 32 := 1#32
  let v968 : BitVec 32 := Scalar.muli v21 c1_i32_711
  let v969 : BitVec 32 := Scalar.addi v967 v968
  v969.toNat
def k0_dev56 (d0 : Dev nD) : Nat :=
  let c0_i32_736 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_735 : BitVec 32 := 8#32
  let v998 : BitVec 32 := Scalar.muli v23 c8_i32_735
  let v999 : BitVec 32 := Scalar.addi c0_i32_736 v998
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_737 : BitVec 32 := 4#32
  let v1000 : BitVec 32 := Scalar.muli v5 c4_i32_737
  let v1001 : BitVec 32 := Scalar.addi v999 v1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v1002 : BitVec 32 := Scalar.muli v8 c1_i32_738
  let v1003 : BitVec 32 := Scalar.addi v1001 v1002
  v1003.toNat
def k0_dev57 (d0 : Dev nD) : Nat :=
  let c0_i32_748 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_747 : BitVec 32 := 8#32
  let v1012 : BitVec 32 := Scalar.muli v2 c8_i32_747
  let v1013 : BitVec 32 := Scalar.addi c0_i32_748 v1012
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_749 : BitVec 32 := 4#32
  let v1014 : BitVec 32 := Scalar.muli v5 c4_i32_749
  let v1015 : BitVec 32 := Scalar.addi v1013 v1014
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_750 : BitVec 32 := 1#32
  let v1016 : BitVec 32 := Scalar.muli v21 c1_i32_750
  let v1017 : BitVec 32 := Scalar.addi v1015 v1016
  v1017.toNat
def k0_dev58 (d0 : Dev nD) : Nat :=
  let c0_i32_775 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_774 : BitVec 32 := 8#32
  let v1046 : BitVec 32 := Scalar.muli v23 c8_i32_774
  let v1047 : BitVec 32 := Scalar.addi c0_i32_775 v1046
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_776 : BitVec 32 := 4#32
  let v1048 : BitVec 32 := Scalar.muli v5 c4_i32_776
  let v1049 : BitVec 32 := Scalar.addi v1047 v1048
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_777 : BitVec 32 := 1#32
  let v1050 : BitVec 32 := Scalar.muli v8 c1_i32_777
  let v1051 : BitVec 32 := Scalar.addi v1049 v1050
  v1051.toNat
def k0_dev59 (d0 : Dev nD) : Nat :=
  let c0_i32_787 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_786 : BitVec 32 := 8#32
  let v1060 : BitVec 32 := Scalar.muli v2 c8_i32_786
  let v1061 : BitVec 32 := Scalar.addi c0_i32_787 v1060
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_788 : BitVec 32 := 4#32
  let v1062 : BitVec 32 := Scalar.muli v5 c4_i32_788
  let v1063 : BitVec 32 := Scalar.addi v1061 v1062
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_789 : BitVec 32 := 1#32
  let v1064 : BitVec 32 := Scalar.muli v21 c1_i32_789
  let v1065 : BitVec 32 := Scalar.addi v1063 v1064
  v1065.toNat
def k0_dev60 (d0 : Dev nD) : Nat :=
  let c0_i32_814 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_813 : BitVec 32 := 8#32
  let v1094 : BitVec 32 := Scalar.muli v23 c8_i32_813
  let v1095 : BitVec 32 := Scalar.addi c0_i32_814 v1094
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_815 : BitVec 32 := 4#32
  let v1096 : BitVec 32 := Scalar.muli v5 c4_i32_815
  let v1097 : BitVec 32 := Scalar.addi v1095 v1096
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_816 : BitVec 32 := 1#32
  let v1098 : BitVec 32 := Scalar.muli v8 c1_i32_816
  let v1099 : BitVec 32 := Scalar.addi v1097 v1098
  v1099.toNat
def k0_dev61 (d0 : Dev nD) : Nat :=
  let c0_i32_826 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_825 : BitVec 32 := 8#32
  let v1108 : BitVec 32 := Scalar.muli v2 c8_i32_825
  let v1109 : BitVec 32 := Scalar.addi c0_i32_826 v1108
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_827 : BitVec 32 := 4#32
  let v1110 : BitVec 32 := Scalar.muli v5 c4_i32_827
  let v1111 : BitVec 32 := Scalar.addi v1109 v1110
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_828 : BitVec 32 := 1#32
  let v1112 : BitVec 32 := Scalar.muli v21 c1_i32_828
  let v1113 : BitVec 32 := Scalar.addi v1111 v1112
  v1113.toNat
def k0_dev62 (d0 : Dev nD) : Nat :=
  let c0_i32_853 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_852 : BitVec 32 := 8#32
  let v1142 : BitVec 32 := Scalar.muli v23 c8_i32_852
  let v1143 : BitVec 32 := Scalar.addi c0_i32_853 v1142
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_854 : BitVec 32 := 4#32
  let v1144 : BitVec 32 := Scalar.muli v5 c4_i32_854
  let v1145 : BitVec 32 := Scalar.addi v1143 v1144
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_855 : BitVec 32 := 1#32
  let v1146 : BitVec 32 := Scalar.muli v8 c1_i32_855
  let v1147 : BitVec 32 := Scalar.addi v1145 v1146
  v1147.toNat
def k0_dev63 (d0 : Dev nD) : Nat :=
  let c0_i32_865 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_864 : BitVec 32 := 8#32
  let v1156 : BitVec 32 := Scalar.muli v2 c8_i32_864
  let v1157 : BitVec 32 := Scalar.addi c0_i32_865 v1156
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_866 : BitVec 32 := 4#32
  let v1158 : BitVec 32 := Scalar.muli v5 c4_i32_866
  let v1159 : BitVec 32 := Scalar.addi v1157 v1158
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_867 : BitVec 32 := 1#32
  let v1160 : BitVec 32 := Scalar.muli v21 c1_i32_867
  let v1161 : BitVec 32 := Scalar.addi v1159 v1160
  v1161.toNat
def k0_dev64 (d0 : Dev nD) : Nat :=
  let c0_i32_892 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_891 : BitVec 32 := 8#32
  let v1190 : BitVec 32 := Scalar.muli v23 c8_i32_891
  let v1191 : BitVec 32 := Scalar.addi c0_i32_892 v1190
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_893 : BitVec 32 := 4#32
  let v1192 : BitVec 32 := Scalar.muli v5 c4_i32_893
  let v1193 : BitVec 32 := Scalar.addi v1191 v1192
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_894 : BitVec 32 := 1#32
  let v1194 : BitVec 32 := Scalar.muli v8 c1_i32_894
  let v1195 : BitVec 32 := Scalar.addi v1193 v1194
  v1195.toNat
def k0_dev65 (d0 : Dev nD) : Nat :=
  let c0_i32_904 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_903 : BitVec 32 := 8#32
  let v1204 : BitVec 32 := Scalar.muli v2 c8_i32_903
  let v1205 : BitVec 32 := Scalar.addi c0_i32_904 v1204
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_905 : BitVec 32 := 4#32
  let v1206 : BitVec 32 := Scalar.muli v5 c4_i32_905
  let v1207 : BitVec 32 := Scalar.addi v1205 v1206
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_906 : BitVec 32 := 1#32
  let v1208 : BitVec 32 := Scalar.muli v21 c1_i32_906
  let v1209 : BitVec 32 := Scalar.addi v1207 v1208
  v1209.toNat
def k0_dev66 (d0 : Dev nD) : Nat :=
  let c0_i32_931 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_930 : BitVec 32 := 8#32
  let v1238 : BitVec 32 := Scalar.muli v23 c8_i32_930
  let v1239 : BitVec 32 := Scalar.addi c0_i32_931 v1238
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_932 : BitVec 32 := 4#32
  let v1240 : BitVec 32 := Scalar.muli v5 c4_i32_932
  let v1241 : BitVec 32 := Scalar.addi v1239 v1240
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_933 : BitVec 32 := 1#32
  let v1242 : BitVec 32 := Scalar.muli v8 c1_i32_933
  let v1243 : BitVec 32 := Scalar.addi v1241 v1242
  v1243.toNat
def k0_dev67 (d0 : Dev nD) : Nat :=
  let c0_i32_943 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_942 : BitVec 32 := 8#32
  let v1252 : BitVec 32 := Scalar.muli v2 c8_i32_942
  let v1253 : BitVec 32 := Scalar.addi c0_i32_943 v1252
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_944 : BitVec 32 := 4#32
  let v1254 : BitVec 32 := Scalar.muli v5 c4_i32_944
  let v1255 : BitVec 32 := Scalar.addi v1253 v1254
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_945 : BitVec 32 := 1#32
  let v1256 : BitVec 32 := Scalar.muli v21 c1_i32_945
  let v1257 : BitVec 32 := Scalar.addi v1255 v1256
  v1257.toNat
def k0_dev68 (d0 : Dev nD) : Nat :=
  let c0_i32_970 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_969 : BitVec 32 := 8#32
  let v1286 : BitVec 32 := Scalar.muli v23 c8_i32_969
  let v1287 : BitVec 32 := Scalar.addi c0_i32_970 v1286
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_971 : BitVec 32 := 4#32
  let v1288 : BitVec 32 := Scalar.muli v5 c4_i32_971
  let v1289 : BitVec 32 := Scalar.addi v1287 v1288
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_972 : BitVec 32 := 1#32
  let v1290 : BitVec 32 := Scalar.muli v8 c1_i32_972
  let v1291 : BitVec 32 := Scalar.addi v1289 v1290
  v1291.toNat
def k0_dev69 (d0 : Dev nD) : Nat :=
  let c0_i32_982 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_981 : BitVec 32 := 8#32
  let v1300 : BitVec 32 := Scalar.muli v2 c8_i32_981
  let v1301 : BitVec 32 := Scalar.addi c0_i32_982 v1300
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_983 : BitVec 32 := 4#32
  let v1302 : BitVec 32 := Scalar.muli v5 c4_i32_983
  let v1303 : BitVec 32 := Scalar.addi v1301 v1302
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_984 : BitVec 32 := 1#32
  let v1304 : BitVec 32 := Scalar.muli v21 c1_i32_984
  let v1305 : BitVec 32 := Scalar.addi v1303 v1304
  v1305.toNat
def k0_dev70 (d0 : Dev nD) : Nat :=
  let c0_i32_1009 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_1008 : BitVec 32 := 8#32
  let v1334 : BitVec 32 := Scalar.muli v23 c8_i32_1008
  let v1335 : BitVec 32 := Scalar.addi c0_i32_1009 v1334
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1010 : BitVec 32 := 4#32
  let v1336 : BitVec 32 := Scalar.muli v5 c4_i32_1010
  let v1337 : BitVec 32 := Scalar.addi v1335 v1336
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1011 : BitVec 32 := 1#32
  let v1338 : BitVec 32 := Scalar.muli v8 c1_i32_1011
  let v1339 : BitVec 32 := Scalar.addi v1337 v1338
  v1339.toNat
def k0_dev71 (d0 : Dev nD) : Nat :=
  let c0_i32_1021 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1020 : BitVec 32 := 8#32
  let v1348 : BitVec 32 := Scalar.muli v2 c8_i32_1020
  let v1349 : BitVec 32 := Scalar.addi c0_i32_1021 v1348
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1022 : BitVec 32 := 4#32
  let v1350 : BitVec 32 := Scalar.muli v5 c4_i32_1022
  let v1351 : BitVec 32 := Scalar.addi v1349 v1350
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_1023 : BitVec 32 := 1#32
  let v1352 : BitVec 32 := Scalar.muli v21 c1_i32_1023
  let v1353 : BitVec 32 := Scalar.addi v1351 v1352
  v1353.toNat
def k0_dev72 (d0 : Dev nD) : Nat :=
  let c0_i32_1048 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_1047 : BitVec 32 := 8#32
  let v1382 : BitVec 32 := Scalar.muli v23 c8_i32_1047
  let v1383 : BitVec 32 := Scalar.addi c0_i32_1048 v1382
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1049 : BitVec 32 := 4#32
  let v1384 : BitVec 32 := Scalar.muli v5 c4_i32_1049
  let v1385 : BitVec 32 := Scalar.addi v1383 v1384
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1050 : BitVec 32 := 1#32
  let v1386 : BitVec 32 := Scalar.muli v8 c1_i32_1050
  let v1387 : BitVec 32 := Scalar.addi v1385 v1386
  v1387.toNat
def k0_dev73 (d0 : Dev nD) : Nat :=
  let c0_i32_1060 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1059 : BitVec 32 := 8#32
  let v1396 : BitVec 32 := Scalar.muli v2 c8_i32_1059
  let v1397 : BitVec 32 := Scalar.addi c0_i32_1060 v1396
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1061 : BitVec 32 := 4#32
  let v1398 : BitVec 32 := Scalar.muli v5 c4_i32_1061
  let v1399 : BitVec 32 := Scalar.addi v1397 v1398
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_1062 : BitVec 32 := 1#32
  let v1400 : BitVec 32 := Scalar.muli v21 c1_i32_1062
  let v1401 : BitVec 32 := Scalar.addi v1399 v1400
  v1401.toNat
def k0_dev74 (d0 : Dev nD) : Nat :=
  let c0_i32_1087 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_1086 : BitVec 32 := 8#32
  let v1430 : BitVec 32 := Scalar.muli v23 c8_i32_1086
  let v1431 : BitVec 32 := Scalar.addi c0_i32_1087 v1430
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1088 : BitVec 32 := 4#32
  let v1432 : BitVec 32 := Scalar.muli v5 c4_i32_1088
  let v1433 : BitVec 32 := Scalar.addi v1431 v1432
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1089 : BitVec 32 := 1#32
  let v1434 : BitVec 32 := Scalar.muli v8 c1_i32_1089
  let v1435 : BitVec 32 := Scalar.addi v1433 v1434
  v1435.toNat
def k0_dev75 (d0 : Dev nD) : Nat :=
  let c0_i32_1099 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1098 : BitVec 32 := 8#32
  let v1444 : BitVec 32 := Scalar.muli v2 c8_i32_1098
  let v1445 : BitVec 32 := Scalar.addi c0_i32_1099 v1444
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1100 : BitVec 32 := 4#32
  let v1446 : BitVec 32 := Scalar.muli v5 c4_i32_1100
  let v1447 : BitVec 32 := Scalar.addi v1445 v1446
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_1101 : BitVec 32 := 1#32
  let v1448 : BitVec 32 := Scalar.muli v21 c1_i32_1101
  let v1449 : BitVec 32 := Scalar.addi v1447 v1448
  v1449.toNat
def k0_dev76 (d0 : Dev nD) : Nat :=
  let c0_i32_1126 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_1125 : BitVec 32 := 8#32
  let v1478 : BitVec 32 := Scalar.muli v23 c8_i32_1125
  let v1479 : BitVec 32 := Scalar.addi c0_i32_1126 v1478
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1127 : BitVec 32 := 4#32
  let v1480 : BitVec 32 := Scalar.muli v5 c4_i32_1127
  let v1481 : BitVec 32 := Scalar.addi v1479 v1480
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1128 : BitVec 32 := 1#32
  let v1482 : BitVec 32 := Scalar.muli v8 c1_i32_1128
  let v1483 : BitVec 32 := Scalar.addi v1481 v1482
  v1483.toNat
def k0_dev77 (d0 : Dev nD) : Nat :=
  let c0_i32_1138 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1137 : BitVec 32 := 8#32
  let v1492 : BitVec 32 := Scalar.muli v2 c8_i32_1137
  let v1493 : BitVec 32 := Scalar.addi c0_i32_1138 v1492
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1139 : BitVec 32 := 4#32
  let v1494 : BitVec 32 := Scalar.muli v5 c4_i32_1139
  let v1495 : BitVec 32 := Scalar.addi v1493 v1494
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_1140 : BitVec 32 := 1#32
  let v1496 : BitVec 32 := Scalar.muli v21 c1_i32_1140
  let v1497 : BitVec 32 := Scalar.addi v1495 v1496
  v1497.toNat
def k0_dev78 (d0 : Dev nD) : Nat :=
  let c0_i32_1165 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_1164 : BitVec 32 := 8#32
  let v1526 : BitVec 32 := Scalar.muli v23 c8_i32_1164
  let v1527 : BitVec 32 := Scalar.addi c0_i32_1165 v1526
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1166 : BitVec 32 := 4#32
  let v1528 : BitVec 32 := Scalar.muli v5 c4_i32_1166
  let v1529 : BitVec 32 := Scalar.addi v1527 v1528
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1167 : BitVec 32 := 1#32
  let v1530 : BitVec 32 := Scalar.muli v8 c1_i32_1167
  let v1531 : BitVec 32 := Scalar.addi v1529 v1530
  v1531.toNat
def k0_dev79 (d0 : Dev nD) : Nat :=
  let c0_i32_1177 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1176 : BitVec 32 := 8#32
  let v1540 : BitVec 32 := Scalar.muli v2 c8_i32_1176
  let v1541 : BitVec 32 := Scalar.addi c0_i32_1177 v1540
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1178 : BitVec 32 := 4#32
  let v1542 : BitVec 32 := Scalar.muli v5 c4_i32_1178
  let v1543 : BitVec 32 := Scalar.addi v1541 v1542
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_1179 : BitVec 32 := 1#32
  let v1544 : BitVec 32 := Scalar.muli v21 c1_i32_1179
  let v1545 : BitVec 32 := Scalar.addi v1543 v1544
  v1545.toNat
def k0_dev80 (d0 : Dev nD) : Nat :=
  let c0_i32_1204 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_1203 : BitVec 32 := 8#32
  let v1574 : BitVec 32 := Scalar.muli v23 c8_i32_1203
  let v1575 : BitVec 32 := Scalar.addi c0_i32_1204 v1574
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1205 : BitVec 32 := 4#32
  let v1576 : BitVec 32 := Scalar.muli v5 c4_i32_1205
  let v1577 : BitVec 32 := Scalar.addi v1575 v1576
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1206 : BitVec 32 := 1#32
  let v1578 : BitVec 32 := Scalar.muli v8 c1_i32_1206
  let v1579 : BitVec 32 := Scalar.addi v1577 v1578
  v1579.toNat
def k0_dev81 (d0 : Dev nD) : Nat :=
  let c0_i32_1216 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1215 : BitVec 32 := 8#32
  let v1588 : BitVec 32 := Scalar.muli v2 c8_i32_1215
  let v1589 : BitVec 32 := Scalar.addi c0_i32_1216 v1588
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1217 : BitVec 32 := 4#32
  let v1590 : BitVec 32 := Scalar.muli v5 c4_i32_1217
  let v1591 : BitVec 32 := Scalar.addi v1589 v1590
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_1218 : BitVec 32 := 1#32
  let v1592 : BitVec 32 := Scalar.muli v21 c1_i32_1218
  let v1593 : BitVec 32 := Scalar.addi v1591 v1592
  v1593.toNat
def k0_dev82 (d0 : Dev nD) : Nat :=
  let c0_i32_1243 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_1242 : BitVec 32 := 8#32
  let v1622 : BitVec 32 := Scalar.muli v23 c8_i32_1242
  let v1623 : BitVec 32 := Scalar.addi c0_i32_1243 v1622
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1244 : BitVec 32 := 4#32
  let v1624 : BitVec 32 := Scalar.muli v5 c4_i32_1244
  let v1625 : BitVec 32 := Scalar.addi v1623 v1624
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1245 : BitVec 32 := 1#32
  let v1626 : BitVec 32 := Scalar.muli v8 c1_i32_1245
  let v1627 : BitVec 32 := Scalar.addi v1625 v1626
  v1627.toNat
def k0_dev83 (d0 : Dev nD) : Nat :=
  let c0_i32_1255 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1254 : BitVec 32 := 8#32
  let v1636 : BitVec 32 := Scalar.muli v2 c8_i32_1254
  let v1637 : BitVec 32 := Scalar.addi c0_i32_1255 v1636
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1256 : BitVec 32 := 4#32
  let v1638 : BitVec 32 := Scalar.muli v5 c4_i32_1256
  let v1639 : BitVec 32 := Scalar.addi v1637 v1638
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_1257 : BitVec 32 := 1#32
  let v1640 : BitVec 32 := Scalar.muli v21 c1_i32_1257
  let v1641 : BitVec 32 := Scalar.addi v1639 v1640
  v1641.toNat
def k0_dev84 (d0 : Dev nD) : Nat :=
  let c0_i32_1282 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_1281 : BitVec 32 := 8#32
  let v1670 : BitVec 32 := Scalar.muli v23 c8_i32_1281
  let v1671 : BitVec 32 := Scalar.addi c0_i32_1282 v1670
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1283 : BitVec 32 := 4#32
  let v1672 : BitVec 32 := Scalar.muli v5 c4_i32_1283
  let v1673 : BitVec 32 := Scalar.addi v1671 v1672
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1284 : BitVec 32 := 1#32
  let v1674 : BitVec 32 := Scalar.muli v8 c1_i32_1284
  let v1675 : BitVec 32 := Scalar.addi v1673 v1674
  v1675.toNat
def k0_dev85 (d0 : Dev nD) : Nat :=
  let c0_i32_1294 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1293 : BitVec 32 := 8#32
  let v1684 : BitVec 32 := Scalar.muli v2 c8_i32_1293
  let v1685 : BitVec 32 := Scalar.addi c0_i32_1294 v1684
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1295 : BitVec 32 := 4#32
  let v1686 : BitVec 32 := Scalar.muli v5 c4_i32_1295
  let v1687 : BitVec 32 := Scalar.addi v1685 v1686
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_1296 : BitVec 32 := 1#32
  let v1688 : BitVec 32 := Scalar.muli v21 c1_i32_1296
  let v1689 : BitVec 32 := Scalar.addi v1687 v1688
  v1689.toNat
def k0_dev86 (d0 : Dev nD) : Nat :=
  let c0_i32_1321 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_1320 : BitVec 32 := 8#32
  let v1718 : BitVec 32 := Scalar.muli v23 c8_i32_1320
  let v1719 : BitVec 32 := Scalar.addi c0_i32_1321 v1718
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1322 : BitVec 32 := 4#32
  let v1720 : BitVec 32 := Scalar.muli v5 c4_i32_1322
  let v1721 : BitVec 32 := Scalar.addi v1719 v1720
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1323 : BitVec 32 := 1#32
  let v1722 : BitVec 32 := Scalar.muli v8 c1_i32_1323
  let v1723 : BitVec 32 := Scalar.addi v1721 v1722
  v1723.toNat
def k0_dev87 (d0 : Dev nD) : Nat :=
  let c0_i32_1333 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1332 : BitVec 32 := 8#32
  let v1732 : BitVec 32 := Scalar.muli v2 c8_i32_1332
  let v1733 : BitVec 32 := Scalar.addi c0_i32_1333 v1732
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1334 : BitVec 32 := 4#32
  let v1734 : BitVec 32 := Scalar.muli v5 c4_i32_1334
  let v1735 : BitVec 32 := Scalar.addi v1733 v1734
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_1335 : BitVec 32 := 1#32
  let v1736 : BitVec 32 := Scalar.muli v21 c1_i32_1335
  let v1737 : BitVec 32 := Scalar.addi v1735 v1736
  v1737.toNat
def k0_dev88 (d0 : Dev nD) : Nat :=
  let c0_i32_1360 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_1359 : BitVec 32 := 8#32
  let v1766 : BitVec 32 := Scalar.muli v23 c8_i32_1359
  let v1767 : BitVec 32 := Scalar.addi c0_i32_1360 v1766
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1361 : BitVec 32 := 4#32
  let v1768 : BitVec 32 := Scalar.muli v5 c4_i32_1361
  let v1769 : BitVec 32 := Scalar.addi v1767 v1768
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1362 : BitVec 32 := 1#32
  let v1770 : BitVec 32 := Scalar.muli v8 c1_i32_1362
  let v1771 : BitVec 32 := Scalar.addi v1769 v1770
  v1771.toNat
def k0_dev89 (d0 : Dev nD) : Nat :=
  let c0_i32_1372 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1371 : BitVec 32 := 8#32
  let v1780 : BitVec 32 := Scalar.muli v2 c8_i32_1371
  let v1781 : BitVec 32 := Scalar.addi c0_i32_1372 v1780
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1373 : BitVec 32 := 4#32
  let v1782 : BitVec 32 := Scalar.muli v5 c4_i32_1373
  let v1783 : BitVec 32 := Scalar.addi v1781 v1782
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_1374 : BitVec 32 := 1#32
  let v1784 : BitVec 32 := Scalar.muli v21 c1_i32_1374
  let v1785 : BitVec 32 := Scalar.addi v1783 v1784
  v1785.toNat
def k0_dev90 (d0 : Dev nD) : Nat :=
  let c0_i32_1399 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_1398 : BitVec 32 := 8#32
  let v1814 : BitVec 32 := Scalar.muli v23 c8_i32_1398
  let v1815 : BitVec 32 := Scalar.addi c0_i32_1399 v1814
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1400 : BitVec 32 := 4#32
  let v1816 : BitVec 32 := Scalar.muli v5 c4_i32_1400
  let v1817 : BitVec 32 := Scalar.addi v1815 v1816
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1401 : BitVec 32 := 1#32
  let v1818 : BitVec 32 := Scalar.muli v8 c1_i32_1401
  let v1819 : BitVec 32 := Scalar.addi v1817 v1818
  v1819.toNat
def k0_dev91 (d0 : Dev nD) : Nat :=
  let c0_i32_1411 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1410 : BitVec 32 := 8#32
  let v1828 : BitVec 32 := Scalar.muli v2 c8_i32_1410
  let v1829 : BitVec 32 := Scalar.addi c0_i32_1411 v1828
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1412 : BitVec 32 := 4#32
  let v1830 : BitVec 32 := Scalar.muli v5 c4_i32_1412
  let v1831 : BitVec 32 := Scalar.addi v1829 v1830
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_1413 : BitVec 32 := 1#32
  let v1832 : BitVec 32 := Scalar.muli v21 c1_i32_1413
  let v1833 : BitVec 32 := Scalar.addi v1831 v1832
  v1833.toNat
def k0_dev92 (d0 : Dev nD) : Nat :=
  let c0_i32_1438 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_1437 : BitVec 32 := 8#32
  let v1862 : BitVec 32 := Scalar.muli v23 c8_i32_1437
  let v1863 : BitVec 32 := Scalar.addi c0_i32_1438 v1862
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1439 : BitVec 32 := 4#32
  let v1864 : BitVec 32 := Scalar.muli v5 c4_i32_1439
  let v1865 : BitVec 32 := Scalar.addi v1863 v1864
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1440 : BitVec 32 := 1#32
  let v1866 : BitVec 32 := Scalar.muli v8 c1_i32_1440
  let v1867 : BitVec 32 := Scalar.addi v1865 v1866
  v1867.toNat
def k0_dev93 (d0 : Dev nD) : Nat :=
  let c0_i32_1450 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1449 : BitVec 32 := 8#32
  let v1876 : BitVec 32 := Scalar.muli v2 c8_i32_1449
  let v1877 : BitVec 32 := Scalar.addi c0_i32_1450 v1876
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1451 : BitVec 32 := 4#32
  let v1878 : BitVec 32 := Scalar.muli v5 c4_i32_1451
  let v1879 : BitVec 32 := Scalar.addi v1877 v1878
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_1452 : BitVec 32 := 1#32
  let v1880 : BitVec 32 := Scalar.muli v21 c1_i32_1452
  let v1881 : BitVec 32 := Scalar.addi v1879 v1880
  v1881.toNat
def k0_dev94 (d0 : Dev nD) : Nat :=
  let c0_i32_1477 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_1476 : BitVec 32 := 8#32
  let v1910 : BitVec 32 := Scalar.muli v23 c8_i32_1476
  let v1911 : BitVec 32 := Scalar.addi c0_i32_1477 v1910
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1478 : BitVec 32 := 4#32
  let v1912 : BitVec 32 := Scalar.muli v5 c4_i32_1478
  let v1913 : BitVec 32 := Scalar.addi v1911 v1912
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1479 : BitVec 32 := 1#32
  let v1914 : BitVec 32 := Scalar.muli v8 c1_i32_1479
  let v1915 : BitVec 32 := Scalar.addi v1913 v1914
  v1915.toNat
def k0_dev95 (d0 : Dev nD) : Nat :=
  let c0_i32_1489 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1488 : BitVec 32 := 8#32
  let v1924 : BitVec 32 := Scalar.muli v2 c8_i32_1488
  let v1925 : BitVec 32 := Scalar.addi c0_i32_1489 v1924
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1490 : BitVec 32 := 4#32
  let v1926 : BitVec 32 := Scalar.muli v5 c4_i32_1490
  let v1927 : BitVec 32 := Scalar.addi v1925 v1926
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_1491 : BitVec 32 := 1#32
  let v1928 : BitVec 32 := Scalar.muli v21 c1_i32_1491
  let v1929 : BitVec 32 := Scalar.addi v1927 v1928
  v1929.toNat
def k0_dev96 (d0 : Dev nD) : Nat :=
  let c0_i32_1516 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_1515 : BitVec 32 := 8#32
  let v1958 : BitVec 32 := Scalar.muli v23 c8_i32_1515
  let v1959 : BitVec 32 := Scalar.addi c0_i32_1516 v1958
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1517 : BitVec 32 := 4#32
  let v1960 : BitVec 32 := Scalar.muli v5 c4_i32_1517
  let v1961 : BitVec 32 := Scalar.addi v1959 v1960
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1518 : BitVec 32 := 1#32
  let v1962 : BitVec 32 := Scalar.muli v8 c1_i32_1518
  let v1963 : BitVec 32 := Scalar.addi v1961 v1962
  v1963.toNat
def k0_dev97 (d0 : Dev nD) : Nat :=
  let c0_i32_1528 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1527 : BitVec 32 := 8#32
  let v1972 : BitVec 32 := Scalar.muli v2 c8_i32_1527
  let v1973 : BitVec 32 := Scalar.addi c0_i32_1528 v1972
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1529 : BitVec 32 := 4#32
  let v1974 : BitVec 32 := Scalar.muli v5 c4_i32_1529
  let v1975 : BitVec 32 := Scalar.addi v1973 v1974
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_1530 : BitVec 32 := 1#32
  let v1976 : BitVec 32 := Scalar.muli v21 c1_i32_1530
  let v1977 : BitVec 32 := Scalar.addi v1975 v1976
  v1977.toNat
def k0_dev98 (d0 : Dev nD) : Nat :=
  let c0_i32_1555 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_1554 : BitVec 32 := 8#32
  let v2006 : BitVec 32 := Scalar.muli v23 c8_i32_1554
  let v2007 : BitVec 32 := Scalar.addi c0_i32_1555 v2006
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1556 : BitVec 32 := 4#32
  let v2008 : BitVec 32 := Scalar.muli v5 c4_i32_1556
  let v2009 : BitVec 32 := Scalar.addi v2007 v2008
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1557 : BitVec 32 := 1#32
  let v2010 : BitVec 32 := Scalar.muli v8 c1_i32_1557
  let v2011 : BitVec 32 := Scalar.addi v2009 v2010
  v2011.toNat
def k0_dev99 (d0 : Dev nD) : Nat :=
  let c0_i32_1567 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1566 : BitVec 32 := 8#32
  let v2020 : BitVec 32 := Scalar.muli v2 c8_i32_1566
  let v2021 : BitVec 32 := Scalar.addi c0_i32_1567 v2020
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1568 : BitVec 32 := 4#32
  let v2022 : BitVec 32 := Scalar.muli v5 c4_i32_1568
  let v2023 : BitVec 32 := Scalar.addi v2021 v2022
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_1569 : BitVec 32 := 1#32
  let v2024 : BitVec 32 := Scalar.muli v21 c1_i32_1569
  let v2025 : BitVec 32 := Scalar.addi v2023 v2024
  v2025.toNat
def k0_dev100 (d0 : Dev nD) : Nat :=
  let c0_i32_1596 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_1595 : BitVec 32 := 8#32
  let v2055 : BitVec 32 := Scalar.muli v23 c8_i32_1595
  let v2056 : BitVec 32 := Scalar.addi c0_i32_1596 v2055
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1597 : BitVec 32 := 4#32
  let v2057 : BitVec 32 := Scalar.muli v5 c4_i32_1597
  let v2058 : BitVec 32 := Scalar.addi v2056 v2057
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1598 : BitVec 32 := 1#32
  let v2059 : BitVec 32 := Scalar.muli v8 c1_i32_1598
  let v2060 : BitVec 32 := Scalar.addi v2058 v2059
  v2060.toNat
def k0_off3 (d0 : Dev nD) (c0_i32_1603 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32_14 : BitVec 32 := 2048#32
  let v31 : BitVec 32 := Scalar.muli v2 c2048_i32_14
  let c1_i32_15 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v32 : BitVec 32 := Scalar.subi c1_i32_15 v18
  let c1024_i32_16 : BitVec 32 := 1024#32
  let v33 : BitVec 32 := Scalar.muli v32 c1024_i32_16
  let v34 : BitVec 32 := Scalar.addi v31 v33
  let v2069 : BitVec 32 := Scalar.addi v34 c0_i32_1603
  let v2070 : Index := Scalar.indexCast v2069
  let c0_1604 : Index := 0#32
  ![v2070.toNat, 0]
def k0_dev101 (d0 : Dev nD) : Nat :=
  let c0_i32_1625 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_1624 : BitVec 32 := 8#32
  let v2090 : BitVec 32 := Scalar.muli v23 c8_i32_1624
  let v2091 : BitVec 32 := Scalar.addi c0_i32_1625 v2090
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1626 : BitVec 32 := 4#32
  let v2092 : BitVec 32 := Scalar.muli v5 c4_i32_1626
  let v2093 : BitVec 32 := Scalar.addi v2091 v2092
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1627 : BitVec 32 := 1#32
  let v2094 : BitVec 32 := Scalar.muli v8 c1_i32_1627
  let v2095 : BitVec 32 := Scalar.addi v2093 v2094
  v2095.toNat
def k0_dev102 (d0 : Dev nD) : Nat :=
  let c0_i32_1654 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_1653 : BitVec 32 := 8#32
  let v2125 : BitVec 32 := Scalar.muli v23 c8_i32_1653
  let v2126 : BitVec 32 := Scalar.addi c0_i32_1654 v2125
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1655 : BitVec 32 := 4#32
  let v2127 : BitVec 32 := Scalar.muli v5 c4_i32_1655
  let v2128 : BitVec 32 := Scalar.addi v2126 v2127
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1656 : BitVec 32 := 1#32
  let v2129 : BitVec 32 := Scalar.muli v8 c1_i32_1656
  let v2130 : BitVec 32 := Scalar.addi v2128 v2129
  v2130.toNat
def k0_dev103 (d0 : Dev nD) : Nat :=
  let c0_i32_1683 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_1682 : BitVec 32 := 8#32
  let v2160 : BitVec 32 := Scalar.muli v23 c8_i32_1682
  let v2161 : BitVec 32 := Scalar.addi c0_i32_1683 v2160
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1684 : BitVec 32 := 4#32
  let v2162 : BitVec 32 := Scalar.muli v5 c4_i32_1684
  let v2163 : BitVec 32 := Scalar.addi v2161 v2162
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1685 : BitVec 32 := 1#32
  let v2164 : BitVec 32 := Scalar.muli v8 c1_i32_1685
  let v2165 : BitVec 32 := Scalar.addi v2163 v2164
  v2165.toNat
def k0_dev104 (d0 : Dev nD) : Nat :=
  let c0_i32_1712 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_1711 : BitVec 32 := 8#32
  let v2195 : BitVec 32 := Scalar.muli v23 c8_i32_1711
  let v2196 : BitVec 32 := Scalar.addi c0_i32_1712 v2195
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1713 : BitVec 32 := 4#32
  let v2197 : BitVec 32 := Scalar.muli v5 c4_i32_1713
  let v2198 : BitVec 32 := Scalar.addi v2196 v2197
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1714 : BitVec 32 := 1#32
  let v2199 : BitVec 32 := Scalar.muli v8 c1_i32_1714
  let v2200 : BitVec 32 := Scalar.addi v2198 v2199
  v2200.toNat
def k0_dev105 (d0 : Dev nD) : Nat :=
  let c0_i32_1741 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_1740 : BitVec 32 := 8#32
  let v2230 : BitVec 32 := Scalar.muli v23 c8_i32_1740
  let v2231 : BitVec 32 := Scalar.addi c0_i32_1741 v2230
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1742 : BitVec 32 := 4#32
  let v2232 : BitVec 32 := Scalar.muli v5 c4_i32_1742
  let v2233 : BitVec 32 := Scalar.addi v2231 v2232
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1743 : BitVec 32 := 1#32
  let v2234 : BitVec 32 := Scalar.muli v8 c1_i32_1743
  let v2235 : BitVec 32 := Scalar.addi v2233 v2234
  v2235.toNat
def k0_dev106 (d0 : Dev nD) : Nat :=
  let c0_i32_1770 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_1769 : BitVec 32 := 8#32
  let v2265 : BitVec 32 := Scalar.muli v23 c8_i32_1769
  let v2266 : BitVec 32 := Scalar.addi c0_i32_1770 v2265
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1771 : BitVec 32 := 4#32
  let v2267 : BitVec 32 := Scalar.muli v5 c4_i32_1771
  let v2268 : BitVec 32 := Scalar.addi v2266 v2267
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1772 : BitVec 32 := 1#32
  let v2269 : BitVec 32 := Scalar.muli v8 c1_i32_1772
  let v2270 : BitVec 32 := Scalar.addi v2268 v2269
  v2270.toNat
def k0_dev107 (d0 : Dev nD) : Nat :=
  let c0_i32_1799 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_1798 : BitVec 32 := 8#32
  let v2300 : BitVec 32 := Scalar.muli v23 c8_i32_1798
  let v2301 : BitVec 32 := Scalar.addi c0_i32_1799 v2300
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1800 : BitVec 32 := 4#32
  let v2302 : BitVec 32 := Scalar.muli v5 c4_i32_1800
  let v2303 : BitVec 32 := Scalar.addi v2301 v2302
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1801 : BitVec 32 := 1#32
  let v2304 : BitVec 32 := Scalar.muli v8 c1_i32_1801
  let v2305 : BitVec 32 := Scalar.addi v2303 v2304
  v2305.toNat
def k0_dev108 (d0 : Dev nD) : Nat :=
  let c0_i32_1828 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_1827 : BitVec 32 := 8#32
  let v2335 : BitVec 32 := Scalar.muli v23 c8_i32_1827
  let v2336 : BitVec 32 := Scalar.addi c0_i32_1828 v2335
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1829 : BitVec 32 := 4#32
  let v2337 : BitVec 32 := Scalar.muli v5 c4_i32_1829
  let v2338 : BitVec 32 := Scalar.addi v2336 v2337
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1830 : BitVec 32 := 1#32
  let v2339 : BitVec 32 := Scalar.muli v8 c1_i32_1830
  let v2340 : BitVec 32 := Scalar.addi v2338 v2339
  v2340.toNat
def k0_dev109 (d0 : Dev nD) : Nat :=
  let c0_i32_1857 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_1856 : BitVec 32 := 8#32
  let v2370 : BitVec 32 := Scalar.muli v23 c8_i32_1856
  let v2371 : BitVec 32 := Scalar.addi c0_i32_1857 v2370
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1858 : BitVec 32 := 4#32
  let v2372 : BitVec 32 := Scalar.muli v5 c4_i32_1858
  let v2373 : BitVec 32 := Scalar.addi v2371 v2372
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1859 : BitVec 32 := 1#32
  let v2374 : BitVec 32 := Scalar.muli v8 c1_i32_1859
  let v2375 : BitVec 32 := Scalar.addi v2373 v2374
  v2375.toNat
def k0_dev110 (d0 : Dev nD) : Nat :=
  let c0_i32_1886 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_1885 : BitVec 32 := 8#32
  let v2405 : BitVec 32 := Scalar.muli v23 c8_i32_1885
  let v2406 : BitVec 32 := Scalar.addi c0_i32_1886 v2405
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1887 : BitVec 32 := 4#32
  let v2407 : BitVec 32 := Scalar.muli v5 c4_i32_1887
  let v2408 : BitVec 32 := Scalar.addi v2406 v2407
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1888 : BitVec 32 := 1#32
  let v2409 : BitVec 32 := Scalar.muli v8 c1_i32_1888
  let v2410 : BitVec 32 := Scalar.addi v2408 v2409
  v2410.toNat
def k0_dev111 (d0 : Dev nD) : Nat :=
  let c0_i32_1915 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_1914 : BitVec 32 := 8#32
  let v2440 : BitVec 32 := Scalar.muli v23 c8_i32_1914
  let v2441 : BitVec 32 := Scalar.addi c0_i32_1915 v2440
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1916 : BitVec 32 := 4#32
  let v2442 : BitVec 32 := Scalar.muli v5 c4_i32_1916
  let v2443 : BitVec 32 := Scalar.addi v2441 v2442
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1917 : BitVec 32 := 1#32
  let v2444 : BitVec 32 := Scalar.muli v8 c1_i32_1917
  let v2445 : BitVec 32 := Scalar.addi v2443 v2444
  v2445.toNat
def k0_dev112 (d0 : Dev nD) : Nat :=
  let c0_i32_1944 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_1943 : BitVec 32 := 8#32
  let v2475 : BitVec 32 := Scalar.muli v23 c8_i32_1943
  let v2476 : BitVec 32 := Scalar.addi c0_i32_1944 v2475
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1945 : BitVec 32 := 4#32
  let v2477 : BitVec 32 := Scalar.muli v5 c4_i32_1945
  let v2478 : BitVec 32 := Scalar.addi v2476 v2477
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1946 : BitVec 32 := 1#32
  let v2479 : BitVec 32 := Scalar.muli v8 c1_i32_1946
  let v2480 : BitVec 32 := Scalar.addi v2478 v2479
  v2480.toNat
def k0_dev113 (d0 : Dev nD) : Nat :=
  let c0_i32_1973 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_1972 : BitVec 32 := 8#32
  let v2510 : BitVec 32 := Scalar.muli v23 c8_i32_1972
  let v2511 : BitVec 32 := Scalar.addi c0_i32_1973 v2510
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1974 : BitVec 32 := 4#32
  let v2512 : BitVec 32 := Scalar.muli v5 c4_i32_1974
  let v2513 : BitVec 32 := Scalar.addi v2511 v2512
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1975 : BitVec 32 := 1#32
  let v2514 : BitVec 32 := Scalar.muli v8 c1_i32_1975
  let v2515 : BitVec 32 := Scalar.addi v2513 v2514
  v2515.toNat
def k0_dev114 (d0 : Dev nD) : Nat :=
  let c0_i32_2002 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_2001 : BitVec 32 := 8#32
  let v2545 : BitVec 32 := Scalar.muli v23 c8_i32_2001
  let v2546 : BitVec 32 := Scalar.addi c0_i32_2002 v2545
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2003 : BitVec 32 := 4#32
  let v2547 : BitVec 32 := Scalar.muli v5 c4_i32_2003
  let v2548 : BitVec 32 := Scalar.addi v2546 v2547
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2004 : BitVec 32 := 1#32
  let v2549 : BitVec 32 := Scalar.muli v8 c1_i32_2004
  let v2550 : BitVec 32 := Scalar.addi v2548 v2549
  v2550.toNat
def k0_dev115 (d0 : Dev nD) : Nat :=
  let c0_i32_2031 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_10 v2
  let c8_i32_2030 : BitVec 32 := 8#32
  let v2580 : BitVec 32 := Scalar.muli v23 c8_i32_2030
  let v2581 : BitVec 32 := Scalar.addi c0_i32_2031 v2580
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2032 : BitVec 32 := 4#32
  let v2582 : BitVec 32 := Scalar.muli v5 c4_i32_2032
  let v2583 : BitVec 32 := Scalar.addi v2581 v2582
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2033 : BitVec 32 := 1#32
  let v2584 : BitVec 32 := Scalar.muli v8 c1_i32_2033
  let v2585 : BitVec 32 := Scalar.addi v2583 v2584
  v2585.toNat
def k0_off4 (d0 : Dev nD) (c0_i32_2344 : BitVec 32) : Fin 2 → Nat :=
  let c1_i32_11 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.subi c1_i32_11 v2
  let c2048_i32_12 : BitVec 32 := 2048#32
  let v28 : BitVec 32 := Scalar.muli v27 c2048_i32_12
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c1024_i32_13 : BitVec 32 := 1024#32
  let v29 : BitVec 32 := Scalar.muli v18 c1024_i32_13
  let v30 : BitVec 32 := Scalar.addi v28 v29
  let v2951 : BitVec 32 := Scalar.addi v30 c0_i32_2344
  let v2952 : Index := Scalar.indexCast v2951
  let c0_2345 : Index := 0#32
  ![v2952.toNat, 0]
def k0_dev116 (d0 : Dev nD) : Nat :=
  let c0_i32_2637 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2636 : BitVec 32 := 8#32
  let v3287 : BitVec 32 := Scalar.muli v2 c8_i32_2636
  let v3288 : BitVec 32 := Scalar.addi c0_i32_2637 v3287
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2638 : BitVec 32 := 4#32
  let v3289 : BitVec 32 := Scalar.muli v5 c4_i32_2638
  let v3290 : BitVec 32 := Scalar.addi v3288 v3289
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_2639 : BitVec 32 := 1#32
  let v3291 : BitVec 32 := Scalar.muli v21 c1_i32_2639
  let v3292 : BitVec 32 := Scalar.addi v3290 v3291
  v3292.toNat
def k0_dev117 (d0 : Dev nD) : Nat :=
  let c0_i32_2667 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2666 : BitVec 32 := 8#32
  let v3322 : BitVec 32 := Scalar.muli v2 c8_i32_2666
  let v3323 : BitVec 32 := Scalar.addi c0_i32_2667 v3322
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2668 : BitVec 32 := 4#32
  let v3324 : BitVec 32 := Scalar.muli v5 c4_i32_2668
  let v3325 : BitVec 32 := Scalar.addi v3323 v3324
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_2669 : BitVec 32 := 1#32
  let v3326 : BitVec 32 := Scalar.muli v21 c1_i32_2669
  let v3327 : BitVec 32 := Scalar.addi v3325 v3326
  v3327.toNat
def k0_dev118 (d0 : Dev nD) : Nat :=
  let c0_i32_2697 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2696 : BitVec 32 := 8#32
  let v3357 : BitVec 32 := Scalar.muli v2 c8_i32_2696
  let v3358 : BitVec 32 := Scalar.addi c0_i32_2697 v3357
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2698 : BitVec 32 := 4#32
  let v3359 : BitVec 32 := Scalar.muli v5 c4_i32_2698
  let v3360 : BitVec 32 := Scalar.addi v3358 v3359
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_2699 : BitVec 32 := 1#32
  let v3361 : BitVec 32 := Scalar.muli v21 c1_i32_2699
  let v3362 : BitVec 32 := Scalar.addi v3360 v3361
  v3362.toNat
def k0_dev119 (d0 : Dev nD) : Nat :=
  let c0_i32_2727 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2726 : BitVec 32 := 8#32
  let v3392 : BitVec 32 := Scalar.muli v2 c8_i32_2726
  let v3393 : BitVec 32 := Scalar.addi c0_i32_2727 v3392
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2728 : BitVec 32 := 4#32
  let v3394 : BitVec 32 := Scalar.muli v5 c4_i32_2728
  let v3395 : BitVec 32 := Scalar.addi v3393 v3394
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_2729 : BitVec 32 := 1#32
  let v3396 : BitVec 32 := Scalar.muli v21 c1_i32_2729
  let v3397 : BitVec 32 := Scalar.addi v3395 v3396
  v3397.toNat
def k0_dev120 (d0 : Dev nD) : Nat :=
  let c0_i32_2757 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2756 : BitVec 32 := 8#32
  let v3427 : BitVec 32 := Scalar.muli v2 c8_i32_2756
  let v3428 : BitVec 32 := Scalar.addi c0_i32_2757 v3427
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2758 : BitVec 32 := 4#32
  let v3429 : BitVec 32 := Scalar.muli v5 c4_i32_2758
  let v3430 : BitVec 32 := Scalar.addi v3428 v3429
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_2759 : BitVec 32 := 1#32
  let v3431 : BitVec 32 := Scalar.muli v21 c1_i32_2759
  let v3432 : BitVec 32 := Scalar.addi v3430 v3431
  v3432.toNat
def k0_dev121 (d0 : Dev nD) : Nat :=
  let c0_i32_2787 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2786 : BitVec 32 := 8#32
  let v3462 : BitVec 32 := Scalar.muli v2 c8_i32_2786
  let v3463 : BitVec 32 := Scalar.addi c0_i32_2787 v3462
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2788 : BitVec 32 := 4#32
  let v3464 : BitVec 32 := Scalar.muli v5 c4_i32_2788
  let v3465 : BitVec 32 := Scalar.addi v3463 v3464
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_2789 : BitVec 32 := 1#32
  let v3466 : BitVec 32 := Scalar.muli v21 c1_i32_2789
  let v3467 : BitVec 32 := Scalar.addi v3465 v3466
  v3467.toNat
def k0_dev122 (d0 : Dev nD) : Nat :=
  let c0_i32_2817 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2816 : BitVec 32 := 8#32
  let v3497 : BitVec 32 := Scalar.muli v2 c8_i32_2816
  let v3498 : BitVec 32 := Scalar.addi c0_i32_2817 v3497
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2818 : BitVec 32 := 4#32
  let v3499 : BitVec 32 := Scalar.muli v5 c4_i32_2818
  let v3500 : BitVec 32 := Scalar.addi v3498 v3499
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_2819 : BitVec 32 := 1#32
  let v3501 : BitVec 32 := Scalar.muli v21 c1_i32_2819
  let v3502 : BitVec 32 := Scalar.addi v3500 v3501
  v3502.toNat
def k0_dev123 (d0 : Dev nD) : Nat :=
  let c0_i32_2847 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2846 : BitVec 32 := 8#32
  let v3532 : BitVec 32 := Scalar.muli v2 c8_i32_2846
  let v3533 : BitVec 32 := Scalar.addi c0_i32_2847 v3532
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2848 : BitVec 32 := 4#32
  let v3534 : BitVec 32 := Scalar.muli v5 c4_i32_2848
  let v3535 : BitVec 32 := Scalar.addi v3533 v3534
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_2849 : BitVec 32 := 1#32
  let v3536 : BitVec 32 := Scalar.muli v21 c1_i32_2849
  let v3537 : BitVec 32 := Scalar.addi v3535 v3536
  v3537.toNat
def k0_dev124 (d0 : Dev nD) : Nat :=
  let c0_i32_2877 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2876 : BitVec 32 := 8#32
  let v3567 : BitVec 32 := Scalar.muli v2 c8_i32_2876
  let v3568 : BitVec 32 := Scalar.addi c0_i32_2877 v3567
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2878 : BitVec 32 := 4#32
  let v3569 : BitVec 32 := Scalar.muli v5 c4_i32_2878
  let v3570 : BitVec 32 := Scalar.addi v3568 v3569
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_2879 : BitVec 32 := 1#32
  let v3571 : BitVec 32 := Scalar.muli v21 c1_i32_2879
  let v3572 : BitVec 32 := Scalar.addi v3570 v3571
  v3572.toNat
def k0_dev125 (d0 : Dev nD) : Nat :=
  let c0_i32_2907 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2906 : BitVec 32 := 8#32
  let v3602 : BitVec 32 := Scalar.muli v2 c8_i32_2906
  let v3603 : BitVec 32 := Scalar.addi c0_i32_2907 v3602
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2908 : BitVec 32 := 4#32
  let v3604 : BitVec 32 := Scalar.muli v5 c4_i32_2908
  let v3605 : BitVec 32 := Scalar.addi v3603 v3604
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_2909 : BitVec 32 := 1#32
  let v3606 : BitVec 32 := Scalar.muli v21 c1_i32_2909
  let v3607 : BitVec 32 := Scalar.addi v3605 v3606
  v3607.toNat
def k0_dev126 (d0 : Dev nD) : Nat :=
  let c0_i32_2937 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2936 : BitVec 32 := 8#32
  let v3637 : BitVec 32 := Scalar.muli v2 c8_i32_2936
  let v3638 : BitVec 32 := Scalar.addi c0_i32_2937 v3637
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2938 : BitVec 32 := 4#32
  let v3639 : BitVec 32 := Scalar.muli v5 c4_i32_2938
  let v3640 : BitVec 32 := Scalar.addi v3638 v3639
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_2939 : BitVec 32 := 1#32
  let v3641 : BitVec 32 := Scalar.muli v21 c1_i32_2939
  let v3642 : BitVec 32 := Scalar.addi v3640 v3641
  v3642.toNat
def k0_dev127 (d0 : Dev nD) : Nat :=
  let c0_i32_2967 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2966 : BitVec 32 := 8#32
  let v3672 : BitVec 32 := Scalar.muli v2 c8_i32_2966
  let v3673 : BitVec 32 := Scalar.addi c0_i32_2967 v3672
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2968 : BitVec 32 := 4#32
  let v3674 : BitVec 32 := Scalar.muli v5 c4_i32_2968
  let v3675 : BitVec 32 := Scalar.addi v3673 v3674
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_2969 : BitVec 32 := 1#32
  let v3676 : BitVec 32 := Scalar.muli v21 c1_i32_2969
  let v3677 : BitVec 32 := Scalar.addi v3675 v3676
  v3677.toNat
def k0_dev128 (d0 : Dev nD) : Nat :=
  let c0_i32_2997 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2996 : BitVec 32 := 8#32
  let v3707 : BitVec 32 := Scalar.muli v2 c8_i32_2996
  let v3708 : BitVec 32 := Scalar.addi c0_i32_2997 v3707
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2998 : BitVec 32 := 4#32
  let v3709 : BitVec 32 := Scalar.muli v5 c4_i32_2998
  let v3710 : BitVec 32 := Scalar.addi v3708 v3709
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_2999 : BitVec 32 := 1#32
  let v3711 : BitVec 32 := Scalar.muli v21 c1_i32_2999
  let v3712 : BitVec 32 := Scalar.addi v3710 v3711
  v3712.toNat
def k0_dev129 (d0 : Dev nD) : Nat :=
  let c0_i32_3027 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3026 : BitVec 32 := 8#32
  let v3742 : BitVec 32 := Scalar.muli v2 c8_i32_3026
  let v3743 : BitVec 32 := Scalar.addi c0_i32_3027 v3742
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3028 : BitVec 32 := 4#32
  let v3744 : BitVec 32 := Scalar.muli v5 c4_i32_3028
  let v3745 : BitVec 32 := Scalar.addi v3743 v3744
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_3029 : BitVec 32 := 1#32
  let v3746 : BitVec 32 := Scalar.muli v21 c1_i32_3029
  let v3747 : BitVec 32 := Scalar.addi v3745 v3746
  v3747.toNat
def k0_dev130 (d0 : Dev nD) : Nat :=
  let c0_i32_3057 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3056 : BitVec 32 := 8#32
  let v3777 : BitVec 32 := Scalar.muli v2 c8_i32_3056
  let v3778 : BitVec 32 := Scalar.addi c0_i32_3057 v3777
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3058 : BitVec 32 := 4#32
  let v3779 : BitVec 32 := Scalar.muli v5 c4_i32_3058
  let v3780 : BitVec 32 := Scalar.addi v3778 v3779
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_3059 : BitVec 32 := 1#32
  let v3781 : BitVec 32 := Scalar.muli v21 c1_i32_3059
  let v3782 : BitVec 32 := Scalar.addi v3780 v3781
  v3782.toNat
def k0_dev131 (d0 : Dev nD) : Nat :=
  let c0_i32_3087 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3086 : BitVec 32 := 8#32
  let v3812 : BitVec 32 := Scalar.muli v2 c8_i32_3086
  let v3813 : BitVec 32 := Scalar.addi c0_i32_3087 v3812
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3088 : BitVec 32 := 4#32
  let v3814 : BitVec 32 := Scalar.muli v5 c4_i32_3088
  let v3815 : BitVec 32 := Scalar.addi v3813 v3814
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.addi v8 c1_i32_7
  let c2_i32_8 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.muli c2_i32_8 v18
  let v21 : BitVec 32 := Scalar.subi v19 v20
  let c1_i32_3089 : BitVec 32 := 1#32
  let v3816 : BitVec 32 := Scalar.muli v21 c1_i32_3089
  let v3817 : BitVec 32 := Scalar.addi v3815 v3816
  v3817.toNat
def k0_off5 (d0 : Dev nD) (c0_i32_3112 : BitVec 32) : Fin 2 → Nat :=
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v35 : BitVec 32 := Scalar.subi c1_i32_17 v2
  let c2048_i32_18 : BitVec 32 := 2048#32
  let v36 : BitVec 32 := Scalar.muli v35 c2048_i32_18
  let c1_i32_19 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v37 : BitVec 32 := Scalar.subi c1_i32_19 v18
  let c1024_i32_20 : BitVec 32 := 1024#32
  let v38 : BitVec 32 := Scalar.muli v37 c1024_i32_20
  let v39 : BitVec 32 := Scalar.addi v36 v38
  let v3847 : BitVec 32 := Scalar.addi v39 c0_i32_3112
  let v3848 : Index := Scalar.indexCast v3847
  let c0_3113 : Index := 0#32
  ![v3848.toNat, 0]
abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_3 : (3#32 : BitVec 32).msb = false
  inb_S32_S1_0 : ∀ a, (![0] : Fin 1 → Nat) a + S1.size a ≤ S32.size a
  squeezes_S1_S_ : S1.Squeezes S_
  inb_S32x32x1024_S1x32x1024_0_0_0 : ∀ a, (![0, 0, 0] : Fin 3 → Nat) a + S1x32x1024.size a ≤ S32x32x1024.size a
  squeezes_S1x32x1024_S32x1024 : S1x32x1024.Squeezes S32x1024
  inb_S32_S1_1 : ∀ a, (![1] : Fin 1 → Nat) a + S1.size a ≤ S32.size a
  inb_S32x32x1024_S1x32x1024_1_0_0 : ∀ a, (![1, 0, 0] : Fin 3 → Nat) a + S1x32x1024.size a ≤ S32x32x1024.size a
  inb_S32_S1_2 : ∀ a, (![2] : Fin 1 → Nat) a + S1.size a ≤ S32.size a
  inb_S32x32x1024_S1x32x1024_2_0_0 : ∀ a, (![2, 0, 0] : Fin 3 → Nat) a + S1x32x1024.size a ≤ S32x32x1024.size a
  inb_S32_S1_3 : ∀ a, (![3] : Fin 1 → Nat) a + S1.size a ≤ S32.size a
  inb_S32x32x1024_S1x32x1024_3_0_0 : ∀ a, (![3, 0, 0] : Fin 3 → Nat) a + S1x32x1024.size a ≤ S32x32x1024.size a
  inb_S32_S1_4 : ∀ a, (![4] : Fin 1 → Nat) a + S1.size a ≤ S32.size a
  inb_S32x32x1024_S1x32x1024_4_0_0 : ∀ a, (![4, 0, 0] : Fin 3 → Nat) a + S1x32x1024.size a ≤ S32x32x1024.size a
  inb_S32_S1_5 : ∀ a, (![5] : Fin 1 → Nat) a + S1.size a ≤ S32.size a
  inb_S32x32x1024_S1x32x1024_5_0_0 : ∀ a, (![5, 0, 0] : Fin 3 → Nat) a + S1x32x1024.size a ≤ S32x32x1024.size a
  inb_S32_S1_6 : ∀ a, (![6] : Fin 1 → Nat) a + S1.size a ≤ S32.size a
  inb_S32x32x1024_S1x32x1024_6_0_0 : ∀ a, (![6, 0, 0] : Fin 3 → Nat) a + S1x32x1024.size a ≤ S32x32x1024.size a
  inb_S32_S1_7 : ∀ a, (![7] : Fin 1 → Nat) a + S1.size a ≤ S32.size a
  inb_S32x32x1024_S1x32x1024_7_0_0 : ∀ a, (![7, 0, 0] : Fin 3 → Nat) a + S1x32x1024.size a ≤ S32x32x1024.size a
  inb_S32_S1_8 : ∀ a, (![8] : Fin 1 → Nat) a + S1.size a ≤ S32.size a
  inb_S32x32x1024_S1x32x1024_8_0_0 : ∀ a, (![8, 0, 0] : Fin 3 → Nat) a + S1x32x1024.size a ≤ S32x32x1024.size a
  inb_S32_S1_9 : ∀ a, (![9] : Fin 1 → Nat) a + S1.size a ≤ S32.size a
  inb_S32x32x1024_S1x32x1024_9_0_0 : ∀ a, (![9, 0, 0] : Fin 3 → Nat) a + S1x32x1024.size a ≤ S32x32x1024.size a
  inb_S32_S1_10 : ∀ a, (![10] : Fin 1 → Nat) a + S1.size a ≤ S32.size a
  inb_S32x32x1024_S1x32x1024_10_0_0 : ∀ a, (![10, 0, 0] : Fin 3 → Nat) a + S1x32x1024.size a ≤ S32x32x1024.size a
  inb_S32_S1_11 : ∀ a, (![11] : Fin 1 → Nat) a + S1.size a ≤ S32.size a
  inb_S32x32x1024_S1x32x1024_11_0_0 : ∀ a, (![11, 0, 0] : Fin 3 → Nat) a + S1x32x1024.size a ≤ S32x32x1024.size a
  inb_S32_S1_12 : ∀ a, (![12] : Fin 1 → Nat) a + S1.size a ≤ S32.size a
  inb_S32x32x1024_S1x32x1024_12_0_0 : ∀ a, (![12, 0, 0] : Fin 3 → Nat) a + S1x32x1024.size a ≤ S32x32x1024.size a
  inb_S32_S1_13 : ∀ a, (![13] : Fin 1 → Nat) a + S1.size a ≤ S32.size a
  inb_S32x32x1024_S1x32x1024_13_0_0 : ∀ a, (![13, 0, 0] : Fin 3 → Nat) a + S1x32x1024.size a ≤ S32x32x1024.size a
  inb_S32_S1_14 : ∀ a, (![14] : Fin 1 → Nat) a + S1.size a ≤ S32.size a
  inb_S32x32x1024_S1x32x1024_14_0_0 : ∀ a, (![14, 0, 0] : Fin 3 → Nat) a + S1x32x1024.size a ≤ S32x32x1024.size a
  inb_S32_S1_15 : ∀ a, (![15] : Fin 1 → Nat) a + S1.size a ≤ S32.size a
  inb_S32x32x1024_S1x32x1024_15_0_0 : ∀ a, (![15, 0, 0] : Fin 3 → Nat) a + S1x32x1024.size a ≤ S32x32x1024.size a
  inb_S32_S1_16 : ∀ a, (![16] : Fin 1 → Nat) a + S1.size a ≤ S32.size a
  inb_S32x32x1024_S1x32x1024_16_0_0 : ∀ a, (![16, 0, 0] : Fin 3 → Nat) a + S1x32x1024.size a ≤ S32x32x1024.size a
  inb_S32_S1_17 : ∀ a, (![17] : Fin 1 → Nat) a + S1.size a ≤ S32.size a
  inb_S32x32x1024_S1x32x1024_17_0_0 : ∀ a, (![17, 0, 0] : Fin 3 → Nat) a + S1x32x1024.size a ≤ S32x32x1024.size a
  inb_S32_S1_18 : ∀ a, (![18] : Fin 1 → Nat) a + S1.size a ≤ S32.size a
  inb_S32x32x1024_S1x32x1024_18_0_0 : ∀ a, (![18, 0, 0] : Fin 3 → Nat) a + S1x32x1024.size a ≤ S32x32x1024.size a
  inb_S32_S1_19 : ∀ a, (![19] : Fin 1 → Nat) a + S1.size a ≤ S32.size a
  inb_S32x32x1024_S1x32x1024_19_0_0 : ∀ a, (![19, 0, 0] : Fin 3 → Nat) a + S1x32x1024.size a ≤ S32x32x1024.size a
  inb_S32_S1_20 : ∀ a, (![20] : Fin 1 → Nat) a + S1.size a ≤ S32.size a
  inb_S32x32x1024_S1x32x1024_20_0_0 : ∀ a, (![20, 0, 0] : Fin 3 → Nat) a + S1x32x1024.size a ≤ S32x32x1024.size a
  inb_S32_S1_21 : ∀ a, (![21] : Fin 1 → Nat) a + S1.size a ≤ S32.size a
  inb_S32x32x1024_S1x32x1024_21_0_0 : ∀ a, (![21, 0, 0] : Fin 3 → Nat) a + S1x32x1024.size a ≤ S32x32x1024.size a
  inb_S32_S1_22 : ∀ a, (![22] : Fin 1 → Nat) a + S1.size a ≤ S32.size a
  inb_S32x32x1024_S1x32x1024_22_0_0 : ∀ a, (![22, 0, 0] : Fin 3 → Nat) a + S1x32x1024.size a ≤ S32x32x1024.size a
  inb_S32_S1_23 : ∀ a, (![23] : Fin 1 → Nat) a + S1.size a ≤ S32.size a
  inb_S32x32x1024_S1x32x1024_23_0_0 : ∀ a, (![23, 0, 0] : Fin 3 → Nat) a + S1x32x1024.size a ≤ S32x32x1024.size a
  inb_S32_S1_24 : ∀ a, (![24] : Fin 1 → Nat) a + S1.size a ≤ S32.size a
  inb_S32x32x1024_S1x32x1024_24_0_0 : ∀ a, (![24, 0, 0] : Fin 3 → Nat) a + S1x32x1024.size a ≤ S32x32x1024.size a
  inb_S32_S1_25 : ∀ a, (![25] : Fin 1 → Nat) a + S1.size a ≤ S32.size a
  inb_S32x32x1024_S1x32x1024_25_0_0 : ∀ a, (![25, 0, 0] : Fin 3 → Nat) a + S1x32x1024.size a ≤ S32x32x1024.size a
  inb_S32_S1_26 : ∀ a, (![26] : Fin 1 → Nat) a + S1.size a ≤ S32.size a
  inb_S32x32x1024_S1x32x1024_26_0_0 : ∀ a, (![26, 0, 0] : Fin 3 → Nat) a + S1x32x1024.size a ≤ S32x32x1024.size a
  inb_S32_S1_27 : ∀ a, (![27] : Fin 1 → Nat) a + S1.size a ≤ S32.size a
  inb_S32x32x1024_S1x32x1024_27_0_0 : ∀ a, (![27, 0, 0] : Fin 3 → Nat) a + S1x32x1024.size a ≤ S32x32x1024.size a
  inb_S32_S1_28 : ∀ a, (![28] : Fin 1 → Nat) a + S1.size a ≤ S32.size a
  inb_S32x32x1024_S1x32x1024_28_0_0 : ∀ a, (![28, 0, 0] : Fin 3 → Nat) a + S1x32x1024.size a ≤ S32x32x1024.size a
  inb_S32_S1_29 : ∀ a, (![29] : Fin 1 → Nat) a + S1.size a ≤ S32.size a
  inb_S32x32x1024_S1x32x1024_29_0_0 : ∀ a, (![29, 0, 0] : Fin 3 → Nat) a + S1x32x1024.size a ≤ S32x32x1024.size a
  inb_S32_S1_30 : ∀ a, (![30] : Fin 1 → Nat) a + S1.size a ≤ S32.size a
  inb_S32x32x1024_S1x32x1024_30_0_0 : ∀ a, (![30, 0, 0] : Fin 3 → Nat) a + S1x32x1024.size a ≤ S32x32x1024.size a
  inb_S32_S1_31 : ∀ a, (![31] : Fin 1 → Nat) a + S1.size a ≤ S32.size a
  inb_S32x32x1024_S1x32x1024_31_0_0 : ∀ a, (![31, 0, 0] : Fin 3 → Nat) a + S1x32x1024.size a ≤ S32x32x1024.size a
  inb_S48_S1_0 : ∀ a, (![0] : Fin 1 → Nat) a + S1.size a ≤ S48.size a
  h_S32x1024 : 0 < S32x1024.numel
  shapeCasts_S32x1024_S32x1024 : S32x1024.ShapeCasts S32x1024
  h_S1x32x1024 : 0 < S1x32x1024.numel
  shapeCasts_S1x32x1024_S32x1024 : S1x32x1024.ShapeCasts S32x1024
  inb_S48_S1_1 : ∀ a, (![1] : Fin 1 → Nat) a + S1.size a ≤ S48.size a
  inb_S48_S1_2 : ∀ a, (![2] : Fin 1 → Nat) a + S1.size a ≤ S48.size a
  inb_S48_S1_3 : ∀ a, (![3] : Fin 1 → Nat) a + S1.size a ≤ S48.size a
  inb_S48_S1_4 : ∀ a, (![4] : Fin 1 → Nat) a + S1.size a ≤ S48.size a
  inb_S48_S1_5 : ∀ a, (![5] : Fin 1 → Nat) a + S1.size a ≤ S48.size a
  inb_S48_S1_6 : ∀ a, (![6] : Fin 1 → Nat) a + S1.size a ≤ S48.size a
  inb_S48_S1_7 : ∀ a, (![7] : Fin 1 → Nat) a + S1.size a ≤ S48.size a
  inb_S48_S1_8 : ∀ a, (![8] : Fin 1 → Nat) a + S1.size a ≤ S48.size a
  inb_S48_S1_9 : ∀ a, (![9] : Fin 1 → Nat) a + S1.size a ≤ S48.size a
  inb_S48_S1_10 : ∀ a, (![10] : Fin 1 → Nat) a + S1.size a ≤ S48.size a
  inb_S48_S1_11 : ∀ a, (![11] : Fin 1 → Nat) a + S1.size a ≤ S48.size a
  inb_S48_S1_12 : ∀ a, (![12] : Fin 1 → Nat) a + S1.size a ≤ S48.size a
  inb_S48_S1_13 : ∀ a, (![13] : Fin 1 → Nat) a + S1.size a ≤ S48.size a
  inb_S48_S1_14 : ∀ a, (![14] : Fin 1 → Nat) a + S1.size a ≤ S48.size a
  inb_S48_S1_15 : ∀ a, (![15] : Fin 1 → Nat) a + S1.size a ≤ S48.size a
  inb_S48_S1_16 : ∀ a, (![16] : Fin 1 → Nat) a + S1.size a ≤ S48.size a
  inb_S48_S1_17 : ∀ a, (![17] : Fin 1 → Nat) a + S1.size a ≤ S48.size a
  inb_S48_S1_18 : ∀ a, (![18] : Fin 1 → Nat) a + S1.size a ≤ S48.size a
  inb_S48_S1_19 : ∀ a, (![19] : Fin 1 → Nat) a + S1.size a ≤ S48.size a
  inb_S48_S1_20 : ∀ a, (![20] : Fin 1 → Nat) a + S1.size a ≤ S48.size a
  inb_S48_S1_21 : ∀ a, (![21] : Fin 1 → Nat) a + S1.size a ≤ S48.size a
  inb_S48_S1_22 : ∀ a, (![22] : Fin 1 → Nat) a + S1.size a ≤ S48.size a
  inb_S48_S1_23 : ∀ a, (![23] : Fin 1 → Nat) a + S1.size a ≤ S48.size a
  inb_S48_S1_24 : ∀ a, (![24] : Fin 1 → Nat) a + S1.size a ≤ S48.size a
  inb_S48_S1_25 : ∀ a, (![25] : Fin 1 → Nat) a + S1.size a ≤ S48.size a
  inb_S48_S1_26 : ∀ a, (![26] : Fin 1 → Nat) a + S1.size a ≤ S48.size a
  inb_S48_S1_27 : ∀ a, (![27] : Fin 1 → Nat) a + S1.size a ≤ S48.size a
  inb_S48_S1_28 : ∀ a, (![28] : Fin 1 → Nat) a + S1.size a ≤ S48.size a
  inb_S48_S1_29 : ∀ a, (![29] : Fin 1 → Nat) a + S1.size a ≤ S48.size a
  inb_S48_S1_30 : ∀ a, (![30] : Fin 1 → Nat) a + S1.size a ≤ S48.size a
  inb_S48_S1_31 : ∀ a, (![31] : Fin 1 → Nat) a + S1.size a ≤ S48.size a
  inb_S48_S1_32 : ∀ a, (![32] : Fin 1 → Nat) a + S1.size a ≤ S48.size a
  inb_S16_S1_0 : ∀ a, (![0] : Fin 1 → Nat) a + S1.size a ≤ S16.size a
  inb_S16x32x1024_S1x32x1024_0_0_0 : ∀ a, (![0, 0, 0] : Fin 3 → Nat) a + S1x32x1024.size a ≤ S16x32x1024.size a
  inb_S48_S1_33 : ∀ a, (![33] : Fin 1 → Nat) a + S1.size a ≤ S48.size a
  inb_S16_S1_1 : ∀ a, (![1] : Fin 1 → Nat) a + S1.size a ≤ S16.size a
  inb_S16x32x1024_S1x32x1024_1_0_0 : ∀ a, (![1, 0, 0] : Fin 3 → Nat) a + S1x32x1024.size a ≤ S16x32x1024.size a
  inb_S48_S1_34 : ∀ a, (![34] : Fin 1 → Nat) a + S1.size a ≤ S48.size a
  inb_S16_S1_2 : ∀ a, (![2] : Fin 1 → Nat) a + S1.size a ≤ S16.size a
  inb_S16x32x1024_S1x32x1024_2_0_0 : ∀ a, (![2, 0, 0] : Fin 3 → Nat) a + S1x32x1024.size a ≤ S16x32x1024.size a
  inb_S48_S1_35 : ∀ a, (![35] : Fin 1 → Nat) a + S1.size a ≤ S48.size a
  inb_S16_S1_3 : ∀ a, (![3] : Fin 1 → Nat) a + S1.size a ≤ S16.size a
  inb_S16x32x1024_S1x32x1024_3_0_0 : ∀ a, (![3, 0, 0] : Fin 3 → Nat) a + S1x32x1024.size a ≤ S16x32x1024.size a
  inb_S48_S1_36 : ∀ a, (![36] : Fin 1 → Nat) a + S1.size a ≤ S48.size a
  inb_S16_S1_4 : ∀ a, (![4] : Fin 1 → Nat) a + S1.size a ≤ S16.size a
  inb_S16x32x1024_S1x32x1024_4_0_0 : ∀ a, (![4, 0, 0] : Fin 3 → Nat) a + S1x32x1024.size a ≤ S16x32x1024.size a
  inb_S48_S1_37 : ∀ a, (![37] : Fin 1 → Nat) a + S1.size a ≤ S48.size a
  inb_S16_S1_5 : ∀ a, (![5] : Fin 1 → Nat) a + S1.size a ≤ S16.size a
  inb_S16x32x1024_S1x32x1024_5_0_0 : ∀ a, (![5, 0, 0] : Fin 3 → Nat) a + S1x32x1024.size a ≤ S16x32x1024.size a
  inb_S48_S1_38 : ∀ a, (![38] : Fin 1 → Nat) a + S1.size a ≤ S48.size a
  inb_S16_S1_6 : ∀ a, (![6] : Fin 1 → Nat) a + S1.size a ≤ S16.size a
  inb_S16x32x1024_S1x32x1024_6_0_0 : ∀ a, (![6, 0, 0] : Fin 3 → Nat) a + S1x32x1024.size a ≤ S16x32x1024.size a
  inb_S48_S1_39 : ∀ a, (![39] : Fin 1 → Nat) a + S1.size a ≤ S48.size a
  inb_S16_S1_7 : ∀ a, (![7] : Fin 1 → Nat) a + S1.size a ≤ S16.size a
  inb_S16x32x1024_S1x32x1024_7_0_0 : ∀ a, (![7, 0, 0] : Fin 3 → Nat) a + S1x32x1024.size a ≤ S16x32x1024.size a
  inb_S48_S1_40 : ∀ a, (![40] : Fin 1 → Nat) a + S1.size a ≤ S48.size a
  inb_S16_S1_8 : ∀ a, (![8] : Fin 1 → Nat) a + S1.size a ≤ S16.size a
  inb_S16x32x1024_S1x32x1024_8_0_0 : ∀ a, (![8, 0, 0] : Fin 3 → Nat) a + S1x32x1024.size a ≤ S16x32x1024.size a
  inb_S48_S1_41 : ∀ a, (![41] : Fin 1 → Nat) a + S1.size a ≤ S48.size a
  inb_S16_S1_9 : ∀ a, (![9] : Fin 1 → Nat) a + S1.size a ≤ S16.size a
  inb_S16x32x1024_S1x32x1024_9_0_0 : ∀ a, (![9, 0, 0] : Fin 3 → Nat) a + S1x32x1024.size a ≤ S16x32x1024.size a
  inb_S48_S1_42 : ∀ a, (![42] : Fin 1 → Nat) a + S1.size a ≤ S48.size a
  inb_S16_S1_10 : ∀ a, (![10] : Fin 1 → Nat) a + S1.size a ≤ S16.size a
  inb_S16x32x1024_S1x32x1024_10_0_0 : ∀ a, (![10, 0, 0] : Fin 3 → Nat) a + S1x32x1024.size a ≤ S16x32x1024.size a
  inb_S48_S1_43 : ∀ a, (![43] : Fin 1 → Nat) a + S1.size a ≤ S48.size a
  inb_S16_S1_11 : ∀ a, (![11] : Fin 1 → Nat) a + S1.size a ≤ S16.size a
  inb_S16x32x1024_S1x32x1024_11_0_0 : ∀ a, (![11, 0, 0] : Fin 3 → Nat) a + S1x32x1024.size a ≤ S16x32x1024.size a
  inb_S48_S1_44 : ∀ a, (![44] : Fin 1 → Nat) a + S1.size a ≤ S48.size a
  inb_S16_S1_12 : ∀ a, (![12] : Fin 1 → Nat) a + S1.size a ≤ S16.size a
  inb_S16x32x1024_S1x32x1024_12_0_0 : ∀ a, (![12, 0, 0] : Fin 3 → Nat) a + S1x32x1024.size a ≤ S16x32x1024.size a
  inb_S48_S1_45 : ∀ a, (![45] : Fin 1 → Nat) a + S1.size a ≤ S48.size a
  inb_S16_S1_13 : ∀ a, (![13] : Fin 1 → Nat) a + S1.size a ≤ S16.size a
  inb_S16x32x1024_S1x32x1024_13_0_0 : ∀ a, (![13, 0, 0] : Fin 3 → Nat) a + S1x32x1024.size a ≤ S16x32x1024.size a
  inb_S48_S1_46 : ∀ a, (![46] : Fin 1 → Nat) a + S1.size a ≤ S48.size a
  inb_S16_S1_14 : ∀ a, (![14] : Fin 1 → Nat) a + S1.size a ≤ S16.size a
  inb_S16x32x1024_S1x32x1024_14_0_0 : ∀ a, (![14, 0, 0] : Fin 3 → Nat) a + S1x32x1024.size a ≤ S16x32x1024.size a
  inb_S48_S1_47 : ∀ a, (![47] : Fin 1 → Nat) a + S1.size a ≤ S48.size a
  inb_S16_S1_15 : ∀ a, (![15] : Fin 1 → Nat) a + S1.size a ≤ S16.size a
  inb_S16x32x1024_S1x32x1024_15_0_0 : ∀ a, (![15, 0, 0] : Fin 3 → Nat) a + S1x32x1024.size a ≤ S16x32x1024.size a
  hcc0_scratch5 : 2 + S32.numel ≤ 258
  hcc0_scratch6 : 34 + S32.numel ≤ 258
  hcc0_scratch7 : 66 + S48.numel ≤ 258
  hcc0_scratch8 : 114 + S32.numel ≤ 258
  hcc0_scratch9 : 146 + S16.numel ≤ 258
  hcc0_scratch10 : 162 + S48.numel ≤ 258
  hcc0_scratch11 : 210 + S32.numel ≤ 258
  hcc0_scratch12 : 242 + S16.numel ≤ 258
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ (r : Fin 32), ∀ a, (k0_off1 d0 (BitVec.ofNat 32 (32 * r.val))) a + S32x1024.size a ≤ S4096x1024.size a
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_off2_inb : ∀ d0 : Dev nD, ∀ (r : Fin 32), ∀ a, (k0_off2 d0 (BitVec.ofNat 32 (32 * r.val))) a + S32x1024.size a ≤ S4096x1024.size a
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  k0_dev63_lt : ∀ d0 : Dev nD, (k0_dev63 d0) < nD
  k0_dev64_lt : ∀ d0 : Dev nD, (k0_dev64 d0) < nD
  k0_dev65_lt : ∀ d0 : Dev nD, (k0_dev65 d0) < nD
  k0_dev66_lt : ∀ d0 : Dev nD, (k0_dev66 d0) < nD
  k0_dev67_lt : ∀ d0 : Dev nD, (k0_dev67 d0) < nD
  k0_dev68_lt : ∀ d0 : Dev nD, (k0_dev68 d0) < nD
  k0_dev69_lt : ∀ d0 : Dev nD, (k0_dev69 d0) < nD
  k0_dev70_lt : ∀ d0 : Dev nD, (k0_dev70 d0) < nD
  k0_dev71_lt : ∀ d0 : Dev nD, (k0_dev71 d0) < nD
  k0_dev72_lt : ∀ d0 : Dev nD, (k0_dev72 d0) < nD
  k0_dev73_lt : ∀ d0 : Dev nD, (k0_dev73 d0) < nD
  k0_dev74_lt : ∀ d0 : Dev nD, (k0_dev74 d0) < nD
  k0_dev75_lt : ∀ d0 : Dev nD, (k0_dev75 d0) < nD
  k0_dev76_lt : ∀ d0 : Dev nD, (k0_dev76 d0) < nD
  k0_dev77_lt : ∀ d0 : Dev nD, (k0_dev77 d0) < nD
  k0_dev78_lt : ∀ d0 : Dev nD, (k0_dev78 d0) < nD
  k0_dev79_lt : ∀ d0 : Dev nD, (k0_dev79 d0) < nD
  k0_dev80_lt : ∀ d0 : Dev nD, (k0_dev80 d0) < nD
  k0_dev81_lt : ∀ d0 : Dev nD, (k0_dev81 d0) < nD
  k0_dev82_lt : ∀ d0 : Dev nD, (k0_dev82 d0) < nD
  k0_dev83_lt : ∀ d0 : Dev nD, (k0_dev83 d0) < nD
  k0_dev84_lt : ∀ d0 : Dev nD, (k0_dev84 d0) < nD
  k0_dev85_lt : ∀ d0 : Dev nD, (k0_dev85 d0) < nD
  k0_dev86_lt : ∀ d0 : Dev nD, (k0_dev86 d0) < nD
  k0_dev87_lt : ∀ d0 : Dev nD, (k0_dev87 d0) < nD
  k0_dev88_lt : ∀ d0 : Dev nD, (k0_dev88 d0) < nD
  k0_dev89_lt : ∀ d0 : Dev nD, (k0_dev89 d0) < nD
  k0_dev90_lt : ∀ d0 : Dev nD, (k0_dev90 d0) < nD
  k0_dev91_lt : ∀ d0 : Dev nD, (k0_dev91 d0) < nD
  k0_dev92_lt : ∀ d0 : Dev nD, (k0_dev92 d0) < nD
  k0_dev93_lt : ∀ d0 : Dev nD, (k0_dev93 d0) < nD
  k0_dev94_lt : ∀ d0 : Dev nD, (k0_dev94 d0) < nD
  k0_dev95_lt : ∀ d0 : Dev nD, (k0_dev95 d0) < nD
  k0_dev96_lt : ∀ d0 : Dev nD, (k0_dev96 d0) < nD
  k0_dev97_lt : ∀ d0 : Dev nD, (k0_dev97 d0) < nD
  k0_dev98_lt : ∀ d0 : Dev nD, (k0_dev98 d0) < nD
  k0_dev99_lt : ∀ d0 : Dev nD, (k0_dev99 d0) < nD
  k0_dev100_lt : ∀ d0 : Dev nD, (k0_dev100 d0) < nD
  k0_off3_inb : ∀ d0 : Dev nD, ∀ (r : Fin 32), ∀ a, (k0_off3 d0 (BitVec.ofNat 32 (32 * r.val))) a + S32x1024.size a ≤ S4096x1024.size a
  k0_dev101_lt : ∀ d0 : Dev nD, (k0_dev101 d0) < nD
  k0_dev102_lt : ∀ d0 : Dev nD, (k0_dev102 d0) < nD
  k0_dev103_lt : ∀ d0 : Dev nD, (k0_dev103 d0) < nD
  k0_dev104_lt : ∀ d0 : Dev nD, (k0_dev104 d0) < nD
  k0_dev105_lt : ∀ d0 : Dev nD, (k0_dev105 d0) < nD
  k0_dev106_lt : ∀ d0 : Dev nD, (k0_dev106 d0) < nD
  k0_dev107_lt : ∀ d0 : Dev nD, (k0_dev107 d0) < nD
  k0_dev108_lt : ∀ d0 : Dev nD, (k0_dev108 d0) < nD
  k0_dev109_lt : ∀ d0 : Dev nD, (k0_dev109 d0) < nD
  k0_dev110_lt : ∀ d0 : Dev nD, (k0_dev110 d0) < nD
  k0_dev111_lt : ∀ d0 : Dev nD, (k0_dev111 d0) < nD
  k0_dev112_lt : ∀ d0 : Dev nD, (k0_dev112 d0) < nD
  k0_dev113_lt : ∀ d0 : Dev nD, (k0_dev113 d0) < nD
  k0_dev114_lt : ∀ d0 : Dev nD, (k0_dev114 d0) < nD
  k0_dev115_lt : ∀ d0 : Dev nD, (k0_dev115 d0) < nD
  k0_off4_inb : ∀ d0 : Dev nD, ∀ (r : Fin 32), ∀ a, (k0_off4 d0 (BitVec.ofNat 32 (32 * r.val))) a + S32x1024.size a ≤ S4096x1024.size a
  k0_dev116_lt : ∀ d0 : Dev nD, (k0_dev116 d0) < nD
  k0_dev117_lt : ∀ d0 : Dev nD, (k0_dev117 d0) < nD
  k0_dev118_lt : ∀ d0 : Dev nD, (k0_dev118 d0) < nD
  k0_dev119_lt : ∀ d0 : Dev nD, (k0_dev119 d0) < nD
  k0_dev120_lt : ∀ d0 : Dev nD, (k0_dev120 d0) < nD
  k0_dev121_lt : ∀ d0 : Dev nD, (k0_dev121 d0) < nD
  k0_dev122_lt : ∀ d0 : Dev nD, (k0_dev122 d0) < nD
  k0_dev123_lt : ∀ d0 : Dev nD, (k0_dev123 d0) < nD
  k0_dev124_lt : ∀ d0 : Dev nD, (k0_dev124 d0) < nD
  k0_dev125_lt : ∀ d0 : Dev nD, (k0_dev125 d0) < nD
  k0_dev126_lt : ∀ d0 : Dev nD, (k0_dev126 d0) < nD
  k0_dev127_lt : ∀ d0 : Dev nD, (k0_dev127 d0) < nD
  k0_dev128_lt : ∀ d0 : Dev nD, (k0_dev128 d0) < nD
  k0_dev129_lt : ∀ d0 : Dev nD, (k0_dev129 d0) < nD
  k0_dev130_lt : ∀ d0 : Dev nD, (k0_dev130 d0) < nD
  k0_dev131_lt : ∀ d0 : Dev nD, (k0_dev131 d0) < nD
  k0_off5_inb : ∀ d0 : Dev nD, ∀ (r : Fin 32), ∀ a, (k0_off5 d0 (BitVec.ofNat 32 (32 * r.val))) a + S32x1024.size a ≤ S4096x1024.size a
  hstage0_0 : ∀ j, (stage0_0 j).IsWhole
  hstage0_1 : ∀ j, (stage0_1 j).IsWhole

variable [Facts₀]

abbrev cc0_scratch5 : DmaSems sig S32 := SemArray.consecutive 2 S32 hcc0_scratch5
abbrev cc0_scratch6 : DmaSems sig S32 := SemArray.consecutive 34 S32 hcc0_scratch6
abbrev cc0_scratch7 : DmaSems sig S48 := SemArray.consecutive 66 S48 hcc0_scratch7
abbrev cc0_scratch8 : DmaSems sig S32 := SemArray.consecutive 114 S32 hcc0_scratch8
abbrev cc0_scratch9 : DmaSems sig S16 := SemArray.consecutive 146 S16 hcc0_scratch9
abbrev cc0_scratch10 : DmaSems sig S48 := SemArray.consecutive 162 S48 hcc0_scratch10
abbrev cc0_scratch11 : DmaSems sig S32 := SemArray.consecutive 210 S32 hcc0_scratch11
abbrev cc0_scratch12 : DmaSems sig S16 := SemArray.consecutive 242 S16 hcc0_scratch12

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S2x4096x1024 : Shape := ⟨3, ![2, 4096, 1024]⟩
abbrev S_ : Shape := ⟨0, ![]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x4096x1024, .f32⟩
  | .hbm, ⟨2, _⟩ => ⟨S_, .f32⟩
  | .hbm, ⟨3, _⟩ => ⟨S4096x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S8192x1024_S2x4096x1024 : S8192x1024.ShapeCasts S2x4096x1024
  reducesTo_S2x4096x1024_S4096x1024_d0 : S2x4096x1024.ReducesTo [0] S4096x1024
  h_S_ : 0 < S_.numel

variable [Facts₀]

class Facts : Prop extends Facts₀ where

variable [Facts]
-- ==== Proof.HandKernelIdeal.Nbr.lean ====
import proofs.«900716_g7700000000000717_dist_ar_v7x_xyz2x2x4_y_m4096_n1024_f32_1_alg».proof.Proof.Gen.KernelIdeal

noncomputable section

namespace Cert.KernelIdeal.Hand

open Idealize.ShloMosaic Idealize.SL.Sem Cert.KernelIdeal

/-- The devices across the y axis, across the x axis and inside the z pair: bits 2, 3 and 0 of the linear id flipped. -/
def yN (c : Dev nD) : Dev nD := ⟨(c.val ^^^ 4) % 16, Nat.mod_lt _ (by decide)⟩
def xN (c : Dev nD) : Dev nD := ⟨(c.val ^^^ 8) % 16, Nat.mod_lt _ (by decide)⟩
def zN (c : Dev nD) : Dev nD := ⟨(c.val ^^^ 1) % 16, Nat.mod_lt _ (by decide)⟩

theorem yN_yN (c : Dev nD) : yN (yN c) = c := by revert c; decide
theorem xN_xN (c : Dev nD) : xN (xN c) = c := by revert c; decide
theorem zN_zN (c : Dev nD) : zN (zN c) = c := by revert c; decide
theorem zN_xN (c : Dev nD) : zN (xN c) = xN (zN c) := by revert c; decide

end Cert.KernelIdeal.Hand

end
-- ==== Proof.HandKernelIdeal.Cells.lean ====
import proofs.«900716_g7700000000000717_dist_ar_v7x_xyz2x2x4_y_m4096_n1024_f32_1_alg».proof.Proof.HandKernelIdeal.Nbr
import proofs.«900716_g7700000000000717_dist_ar_v7x_xyz2x2x4_y_m4096_n1024_f32_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the pipeline's part, and rounds on cells with at most three duties each. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

abbrev xM : Memref sig .tc .vmem S4096x1024 .f32 := Memref.whole cc0_stg0_0
/-- The landing buffers: across y; across x, first and second hop; inside the z pair, first and second hop. -/
abbrev yrM : Memref sig .tc .vmem S32x32x1024 .f32 := Memref.whole cc0_scratch0
abbrev xsM : Memref sig .tc .vmem S32x32x1024 .f32 := Memref.whole cc0_scratch1
abbrev xdM : Memref sig .tc .vmem S16x32x1024 .f32 := Memref.whole cc0_scratch2
abbrev zsM : Memref sig .tc .vmem S32x32x1024 .f32 := Memref.whole cc0_scratch3
abbrev zdM : Memref sig .tc .vmem S16x32x1024 .f32 := Memref.whole cc0_scratch4

theorem inb32 (i : Fin 32) : ∀ a, (![i.val, 0, 0] : Fin 3 → Nat) a + S1x32x1024.size a ≤ S32x32x1024.size a := by
  intro a; fin_cases a
  · show i.val + 1 ≤ 32; omega
  · show 0 + 32 ≤ 32; omega
  · show 0 + 1024 ≤ 1024; omega
theorem inb16 (i : Fin 16) : ∀ a, (![i.val, 0, 0] : Fin 3 → Nat) a + S1x32x1024.size a ≤ S16x32x1024.size a := by
  intro a; fin_cases a
  · show i.val + 1 ≤ 16; omega
  · show 0 + 32 ≤ 32; omega
  · show 0 + 1024 ≤ 1024; omega

/-- Chunk i of a landing buffer of 32 chunks, and of one of 16 chunks. -/
def slot32 (M : Memref sig .tc .vmem S32x32x1024 .f32) (i : Fin 32) : Memref sig .tc .vmem S32x1024 .f32 :=
  (M.slice (Rect.unit (s := S32x32x1024) ![i.val, 0, 0] S1x32x1024.size (inb32 i)) (fun _ => rfl)).squeeze S32x1024 squeezes_S1x32x1024_S32x1024
def slot16 (M : Memref sig .tc .vmem S16x32x1024 .f32) (i : Fin 16) : Memref sig .tc .vmem S32x1024 .f32 :=
  (M.slice (Rect.unit (s := S16x32x1024) ![i.val, 0, 0] S1x32x1024.size (inb16 i)) (fun _ => rfl)).squeeze S32x1024 squeezes_S1x32x1024_S32x1024

/-- Rows 32·i to 32·i + 31 of the device's own quarter of its block. -/
def xrow (c : Dev nD) (i : Fin 32) : Memref sig .tc .vmem S32x1024 .f32 :=
  xM.slice (Rect.unit (s := S4096x1024) (k0_off1 c (BitVec.ofNat 32 (32 * i.val))) S32x1024.size (k0_off1_inb c i)) (fun _ => rfl)

abbrev barS : Sem sig := (SemArray.scalar (sig.barrier 0 rfl) : Sems sig S_).sem

abbrev dsem (k : Nat) (h : k < 258) : DmaSem sig := ⟨k, h⟩

abbrev barCell (c : Dev nD) : GSem nD τ sig := ((c : Thread nD τ), .reg barS)
abbrev dcell (c : Dev nD) (k : Nat) (h : k < 258) : GSem nD τ sig := ((c : Thread nD τ), .dma (dsem k h))

/-- The eight families of a device's own cells: departures and arrivals across y, then for x and for z departures, first-hop and second-hop arrivals. -/
abbrev ysendC (c : Dev nD) (i : Fin 32) := dcell c (2 + i.val) (by omega)
abbrev yrecvC (c : Dev nD) (i : Fin 32) := dcell c (34 + i.val) (by omega)
abbrev xsendC (c : Dev nD) (j : Fin 48) := dcell c (66 + j.val) (by omega)
abbrev xrecvSC (c : Dev nD) (i : Fin 32) := dcell c (114 + i.val) (by omega)
abbrev xrecvDC (c : Dev nD) (i : Fin 16) := dcell c (146 + i.val) (by omega)
abbrev zsendC (c : Dev nD) (j : Fin 48) := dcell c (162 + j.val) (by omega)
abbrev zrecvSC (c : Dev nD) (i : Fin 32) := dcell c (210 + i.val) (by omega)
abbrev zrecvDC (c : Dev nD) (i : Fin 16) := dcell c (242 + i.val) (by omega)

/-- The credit of one chunk's transfer. -/
abbrev N : ℕ := (slot32 yrM 0 : Memref sig .tc .vmem S32x1024 .f32).view.dmaCredit

end Cert.KernelIdeal.Hand

end
-- ==== Proof.HandKernelIdeal.Sched.lean ====
import proofs.«900716_g7700000000000717_dist_ar_v7x_xyz2x2x4_y_m4096_n1024_f32_1_alg».proof.Proof.HandKernelIdeal.Cells

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

def Xs (c : Dev nD) : (cc0_stg0_0 : Ref sig .tc).ty.Contents (Elt F) :=
  (win0_0.blk t0_0).view.read (Elt F) (m ((c : Thread nD τ).loc main_arg0))

def Jy (c : Dev nD) : Buf (Elt F) ((yrM : Memref sig .tc .vmem S32x32x1024 .f32).view.loc (c : Thread nD τ)) := m _
def Jxs (c : Dev nD) : Buf (Elt F) ((xsM : Memref sig .tc .vmem S32x32x1024 .f32).view.loc (c : Thread nD τ)) := m _
def Jxd (c : Dev nD) : Buf (Elt F) ((xdM : Memref sig .tc .vmem S16x32x1024 .f32).view.loc (c : Thread nD τ)) := m _
def Jzs (c : Dev nD) : Buf (Elt F) ((zsM : Memref sig .tc .vmem S32x32x1024 .f32).view.loc (c : Thread nD τ)) := m _
def Jzd (c : Dev nD) : Buf (Elt F) ((zdM : Memref sig .tc .vmem S16x32x1024 .f32).view.loc (c : Thread nD τ)) := m _

def Vy (c : Dev nD) (i : Fin 32) : S32x1024.Idx → Elt F .f32 := (xrow (yN c) i).view.read (Elt F) (Xs m (yN c))
def Yc (c : Dev nD) (i : Fin 32) := (slot32 yrM i).view.write (Elt F) (Jy m c) (Vy m c i) Finset.univ
def Vxs (c : Dev nD) (i : Fin 32) : S32x1024.Idx → Elt F .f32 := Vy m (xN c) i
def XSc (c : Dev nD) (i : Fin 32) := (slot32 xsM i).view.write (Elt F) (Jxs m c) (Vxs m c i) Finset.univ
def Vzs (c : Dev nD) (i : Fin 32) : S32x1024.Idx → Elt F .f32 := Vy m (zN c) i
def ZSc (c : Dev nD) (i : Fin 32) := (slot32 zsM i).view.write (Elt F) (Jzs m c) (Vzs m c i) Finset.univ
def lo (i : Fin 16) : Fin 32 := ⟨i.val, by omega⟩
def hi (i : Fin 16) : Fin 32 := ⟨16 + i.val, by omega⟩
def Vxd (c : Dev nD) (i : Fin 16) : S32x1024.Idx → Elt F .f32 := Vzs m (xN c) (lo i)
def XDc (c : Dev nD) (i : Fin 16) := (slot16 xdM i).view.write (Elt F) (Jxd m c) (Vxd m c i) Finset.univ
def Vzd (c : Dev nD) (i : Fin 16) : S32x1024.Idx → Elt F .f32 := Vxs m (zN c) (hi i)
def ZDc (c : Dev nD) (i : Fin 16) := (slot16 zdM i).view.write (Elt F) (Jzd m c) (Vzd m c i) Finset.univ

abbrev qa : PosShare TreeShare := fullShare.left
abbrev qb : PosShare TreeShare := fullShare.right.left
abbrev qc : PosShare TreeShare := fullShare.right.right

abbrev chunkAt (c : Dev nD) (v : Memref sig .tc .vmem S32x1024 .f32) (q : PosShare TreeShare) (f : Buf (Elt F) (v.view.loc (c : Thread nD τ))) : sProp 𝕄 :=
  v.view.loc (c : Thread nD τ) ↦[v.view.set]{q} f

def ysendPay (c : Dev nD) (i : Fin 32) : sProp 𝕄 := chunkAt c (xrow c i) qa (Xs m c)
def yrecvPay (c : Dev nD) (i : Fin 32) : sProp 𝕄 := chunkAt c (slot32 yrM i) fullShare (Yc m c i)
def xsendPay (c : Dev nD) (j : Fin 48) : sProp 𝕄 :=
  if h : j.val < 32 then chunkAt c (slot32 yrM ⟨j.val, h⟩) qa (Yc m c ⟨j.val, h⟩)
  else chunkAt c (slot32 zsM ⟨j.val - 32, by omega⟩) qa (ZSc m c ⟨j.val - 32, by omega⟩)
def zsendPay (c : Dev nD) (j : Fin 48) : sProp 𝕄 :=
  if h : j.val < 32 then chunkAt c (slot32 yrM ⟨j.val, h⟩) qb (Yc m c ⟨j.val, h⟩)
  else chunkAt c (slot32 xsM ⟨j.val - 16, by omega⟩) qa (XSc m c ⟨j.val - 16, by omega⟩)
def xrecvSPay (c : Dev nD) (i : Fin 32) : sProp 𝕄 := chunkAt c (slot32 xsM i) fullShare (XSc m c i)
def xrecvDPay (c : Dev nD) (i : Fin 16) : sProp 𝕄 := chunkAt c (slot16 xdM i) fullShare (XDc m c i)
def zrecvSPay (c : Dev nD) (i : Fin 32) : sProp 𝕄 := chunkAt c (slot32 zsM i) fullShare (ZSc m c i)
def zrecvDPay (c : Dev nD) (i : Fin 16) : sProp 𝕄 := chunkAt c (slot16 zdM i) fullShare (ZDc m c i)

abbrev freeChunk (d : Dev nD) (v : Memref sig .tc .vmem S32x1024 .f32) : sProp 𝕄 := iprop(∃ f, chunkAt d v fullShare f)

def barPay (c : Dev nD) (d : Fin 3) : sProp 𝕄 :=
  if d = 0 then bigSep Finset.univ fun i : Fin 32 => freeChunk (yN c) (slot32 yrM i)
  else if d = 1 then iprop((bigSep Finset.univ fun i : Fin 32 => freeChunk (xN c) (slot32 xsM i)) ∗ bigSep Finset.univ fun i : Fin 16 => freeChunk (xN c) (slot16 xdM i))
  else iprop((bigSep Finset.univ fun i : Fin 32 => freeChunk (zN c) (slot32 zsM i)) ∗ bigSep Finset.univ fun i : Fin 16 => freeChunk (zN c) (slot16 zdM i))

def dmaPay (c : Dev nD) (k : Nat) : sProp 𝕄 :=
  if k < 2 then iprop(emp)
  else if h : k < 34 then ysendPay m c ⟨k - 2, by omega⟩
  else if h : k < 66 then yrecvPay m c ⟨k - 34, by omega⟩
  else if h : k < 114 then xsendPay m c ⟨k - 66, by omega⟩
  else if h : k < 146 then xrecvSPay m c ⟨k - 114, by omega⟩
  else if h : k < 162 then xrecvDPay m c ⟨k - 146, by omega⟩
  else if h : k < 210 then zsendPay m c ⟨k - 162, by omega⟩
  else if h : k < 242 then zrecvSPay m c ⟨k - 210, by omega⟩
  else if h : k < 258 then zrecvDPay m c ⟨k - 242, by omega⟩
  else iprop(emp)

def Rd : Rounds.Schedule (GSem nD τ sig) (Fin 3) 𝕄 where
  duties g r :=
    if r = 0 ∧ g.1.2 = .tc then
      (match g.2 with
        | .reg s => if s = barS then Finset.univ else ∅
        | .dma q => if 2 ≤ q.val then {0} else ∅)
    else ∅
  unitless _ := False
  amount g _ _ := match g.2 with | .reg _ => 1 | .dma _ => N
  payload g _ d := match g.2 with | .reg _ => barPay g.1.1 d | .dma q => dmaPay m g.1.1 q.val
  amount_pos g _ _ _ := by
    cases g.2 with
    | reg _ => exact Nat.one_pos
    | dma _ => exact View.dmaCredit_pos _ (by decide)

end Cert.KernelIdeal.Hand

end
-- ==== Proof.HandKernelIdeal.SchedTab.lean ====
import proofs.«900716_g7700000000000717_dist_ar_v7x_xyz2x2x4_y_m4096_n1024_f32_1_alg».proof.Proof.HandKernelIdeal.Sched

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
theorem chunkAt_storable (c : Dev nD) (v : Memref sig .tc .vmem S32x1024 .f32) (q : PosShare TreeShare)
    (f : Buf (Elt F) (v.view.loc (c : Thread nD τ))) : BI.Storable (upEmb : UEmb _ 𝕄) (chunkAt (F := F) c v q f) := inferInstance

instance Rd_payload_storable (g : GSem nD τ sig) (r : ℕ) (d : Fin 3) :
    BI.Storable (upEmb : UEmb _ 𝕄) ((Rd (F := F) m).payload g r d) := by
  obtain ⟨t, s⟩ := g
  cases s with
  | reg s =>
    show BI.Storable upEmb (barPay t.1 d)
    unfold barPay
    (repeat' split) <;> infer_instance
  | dma q =>
    show BI.Storable upEmb (dmaPay m t.1 q.val)
    unfold dmaPay ysendPay yrecvPay xsendPay xrecvSPay xrecvDPay zsendPay zrecvSPay zrecvDPay
    (repeat' split) <;> first | infer_instance | exact chunkAt_storable _ _ _ _

section
omit [FloatOps F]

@[sl_rounds] theorem duties_bar (c : Dev nD) : (Rd (F := F) m).duties (barCell c) 0 = Finset.univ := by
  dsimp only [Rd]; rw [if_pos ⟨rfl, rfl⟩]; exact if_pos rfl
@[sl_rounds] theorem amount_bar (c : Dev nD) (d : Fin 3) : (Rd (F := F) m).amount (barCell c) 0 d = 1 := rfl
@[sl_rounds] theorem expect_bar (c : Dev nD) : (Rd (F := F) m).expect (barCell c) 0 = 3 := by
  unfold Schedule.expect Schedule.amountOf
  rw [duties_bar, Finset.sum_congr rfl fun d _ => amount_bar m c d, Finset.sum_const, Finset.card_univ, Fintype.card_fin,
    smul_eq_mul, Nat.mul_one]
@[sl_rounds] theorem payload_bar (c : Dev nD) (d : Fin 3) : (Rd (F := F) m).payload (barCell c) 0 d = barPay c d := rfl
@[sl_rounds high] theorem payload_bar0 (c : Dev nD) :
    (Rd (F := F) m).payload (barCell c) 0 0 = bigSep Finset.univ fun i : Fin 32 => freeChunk (yN c) (slot32 yrM i) := by
  rw [payload_bar]; unfold barPay; rw [if_pos rfl]
@[sl_rounds high] theorem payload_bar1 (c : Dev nD) :
    (Rd (F := F) m).payload (barCell c) 0 1
      = iprop((bigSep Finset.univ fun i : Fin 32 => freeChunk (xN c) (slot32 xsM i)) ∗ bigSep Finset.univ fun i : Fin 16 => freeChunk (xN c) (slot16 xdM i)) := by
  rw [payload_bar]; unfold barPay; rw [if_neg (show ¬ (1 : Fin 3) = 0 by decide), if_pos rfl]
@[sl_rounds high] theorem payload_bar2 (c : Dev nD) :
    (Rd (F := F) m).payload (barCell c) 0 2
      = iprop((bigSep Finset.univ fun i : Fin 32 => freeChunk (zN c) (slot32 zsM i)) ∗ bigSep Finset.univ fun i : Fin 16 => freeChunk (zN c) (slot16 zdM i)) := by
  rw [payload_bar]; unfold barPay; rw [if_neg (show ¬ (2 : Fin 3) = 0 by decide), if_neg (show ¬ (2 : Fin 3) = 1 by decide)]
@[sl_rounds] theorem rest_bar (c : Dev nD) :
    bigSep ((Rd (F := F) m).duties (barCell c) 0 \ ∅) (fun d => (Rd (F := F) m).payload (barCell c) 0 d)
      = iprop(barPay c 0 ∗ barPay c 1 ∗ barPay c 2) := by
  rw [Finset.sdiff_empty, duties_bar, bigSep_univ_eq_bigSepL [0, 1, 2] (by decide) (by decide), bigSepL_cons_cons, bigSepL_cons_cons,
    bigSepL_singleton, payload_bar, payload_bar, payload_bar]
  all_goals rfl

theorem duties_later (g : GSem nD τ sig) : ∀ r, 1 ≤ r → (Rd (F := F) m).duties g r = ∅ :=
  fun r hr => by dsimp only [Rd]; rw [if_neg fun h => absurd h.1 (by omega)]

-- DMA cell number n ≥ 2 of a device has one duty, of one chunk's credit, and hands over what dmaPay names for n.
theorem duties_dma (c : Dev nD) (n : ℕ) (h : n < 258) (g : 2 ≤ n) : (Rd (F := F) m).duties (dcell c n h) 0 = {0} := by
  dsimp only [Rd]; rw [if_pos ⟨rfl, rfl⟩]; exact if_pos g
theorem expect_dma (c : Dev nD) (n : ℕ) (h : n < 258) (g : 2 ≤ n) : (Rd (F := F) m).expect (dcell c n h) 0 = N := by
  unfold Schedule.expect Schedule.amountOf; rw [duties_dma m c n h g, Finset.sum_singleton]; rfl
theorem rest_dma (c : Dev nD) (n : ℕ) (h : n < 258) (g : 2 ≤ n) :
    bigSep ((Rd (F := F) m).duties (dcell c n h) 0 \ ∅) (fun d => (Rd (F := F) m).payload (dcell c n h) 0 d)
      = (Rd (F := F) m).payload (dcell c n h) 0 0 := by
  rw [Finset.sdiff_empty, duties_dma m c n h g, bigSep_singleton]

@[sl_rounds] theorem duties_ysend (c : Dev nD) (i : Fin 32) : (Rd (F := F) m).duties (ysendC c i) 0 = {0} := duties_dma m c _ _ (by omega)
@[sl_rounds] theorem amount_ysend (c : Dev nD) (i : Fin 32) (d : Fin 3) : (Rd (F := F) m).amount (ysendC c i) 0 d = N := rfl
@[sl_rounds] theorem expect_ysend (c : Dev nD) (i : Fin 32) : (Rd (F := F) m).expect (ysendC c i) 0 = N := expect_dma m c _ _ (by omega)
@[sl_rounds] theorem payload_ysend (c : Dev nD) (i : Fin 32) (d : Fin 3) : (Rd (F := F) m).payload (ysendC c i) 0 d = ysendPay m c i := by
  show dmaPay m c (2 + i.val) = _; unfold dmaPay; split_ifs <;> first | omega | exact congrArg _ (Fin.ext (Nat.add_sub_cancel_left _ _))
@[sl_rounds] theorem rest_ysend (c : Dev nD) (i : Fin 32) :
    bigSep ((Rd (F := F) m).duties (ysendC c i) 0 \ ∅) (fun d => (Rd (F := F) m).payload (ysendC c i) 0 d) = ysendPay m c i :=
  (rest_dma m c _ _ (by omega)).trans (payload_ysend m c i 0)

@[sl_rounds] theorem duties_yrecv (c : Dev nD) (i : Fin 32) : (Rd (F := F) m).duties (yrecvC c i) 0 = {0} := duties_dma m c _ _ (by omega)
@[sl_rounds] theorem amount_yrecv (c : Dev nD) (i : Fin 32) (d : Fin 3) : (Rd (F := F) m).amount (yrecvC c i) 0 d = N := rfl
@[sl_rounds] theorem expect_yrecv (c : Dev nD) (i : Fin 32) : (Rd (F := F) m).expect (yrecvC c i) 0 = N := expect_dma m c _ _ (by omega)
@[sl_rounds] theorem payload_yrecv (c : Dev nD) (i : Fin 32) (d : Fin 3) : (Rd (F := F) m).payload (yrecvC c i) 0 d = yrecvPay m c i := by
  show dmaPay m c (34 + i.val) = _; unfold dmaPay; split_ifs <;> first | omega | exact congrArg _ (Fin.ext (Nat.add_sub_cancel_left _ _))
@[sl_rounds] theorem rest_yrecv (c : Dev nD) (i : Fin 32) :
    bigSep ((Rd (F := F) m).duties (yrecvC c i) 0 \ ∅) (fun d => (Rd (F := F) m).payload (yrecvC c i) 0 d) = yrecvPay m c i :=
  (rest_dma m c _ _ (by omega)).trans (payload_yrecv m c i 0)

@[sl_rounds] theorem duties_xsend (c : Dev nD) (j : Fin 48) : (Rd (F := F) m).duties (xsendC c j) 0 = {0} := duties_dma m c _ _ (by omega)
@[sl_rounds] theorem amount_xsend (c : Dev nD) (j : Fin 48) (d : Fin 3) : (Rd (F := F) m).amount (xsendC c j) 0 d = N := rfl
@[sl_rounds] theorem expect_xsend (c : Dev nD) (j : Fin 48) : (Rd (F := F) m).expect (xsendC c j) 0 = N := expect_dma m c _ _ (by omega)
@[sl_rounds] theorem payload_xsend (c : Dev nD) (j : Fin 48) (d : Fin 3) : (Rd (F := F) m).payload (xsendC c j) 0 d = xsendPay m c j := by
  show dmaPay m c (66 + j.val) = _; unfold dmaPay; split_ifs <;> first | omega | exact congrArg _ (Fin.ext (Nat.add_sub_cancel_left _ _))
@[sl_rounds] theorem rest_xsend (c : Dev nD) (j : Fin 48) :
    bigSep ((Rd (F := F) m).duties (xsendC c j) 0 \ ∅) (fun d => (Rd (F := F) m).payload (xsendC c j) 0 d) = xsendPay m c j :=
  (rest_dma m c _ _ (by omega)).trans (payload_xsend m c j 0)

@[sl_rounds] theorem duties_xrecvS (c : Dev nD) (i : Fin 32) : (Rd (F := F) m).duties (xrecvSC c i) 0 = {0} := duties_dma m c _ _ (by omega)
@[sl_rounds] theorem amount_xrecvS (c : Dev nD) (i : Fin 32) (d : Fin 3) : (Rd (F := F) m).amount (xrecvSC c i) 0 d = N := rfl
@[sl_rounds] theorem expect_xrecvS (c : Dev nD) (i : Fin 32) : (Rd (F := F) m).expect (xrecvSC c i) 0 = N := expect_dma m c _ _ (by omega)
@[sl_rounds] theorem payload_xrecvS (c : Dev nD) (i : Fin 32) (d : Fin 3) : (Rd (F := F) m).payload (xrecvSC c i) 0 d = xrecvSPay m c i := by
  show dmaPay m c (114 + i.val) = _; unfold dmaPay; split_ifs <;> first | omega | exact congrArg _ (Fin.ext (Nat.add_sub_cancel_left _ _))
@[sl_rounds] theorem rest_xrecvS (c : Dev nD) (i : Fin 32) :
    bigSep ((Rd (F := F) m).duties (xrecvSC c i) 0 \ ∅) (fun d => (Rd (F := F) m).payload (xrecvSC c i) 0 d) = xrecvSPay m c i :=
  (rest_dma m c _ _ (by omega)).trans (payload_xrecvS m c i 0)

@[sl_rounds] theorem duties_xrecvD (c : Dev nD) (i : Fin 16) : (Rd (F := F) m).duties (xrecvDC c i) 0 = {0} := duties_dma m c _ _ (by omega)
@[sl_rounds] theorem amount_xrecvD (c : Dev nD) (i : Fin 16) (d : Fin 3) : (Rd (F := F) m).amount (xrecvDC c i) 0 d = N := rfl
@[sl_rounds] theorem expect_xrecvD (c : Dev nD) (i : Fin 16) : (Rd (F := F) m).expect (xrecvDC c i) 0 = N := expect_dma m c _ _ (by omega)
@[sl_rounds] theorem payload_xrecvD (c : Dev nD) (i : Fin 16) (d : Fin 3) : (Rd (F := F) m).payload (xrecvDC c i) 0 d = xrecvDPay m c i := by
  show dmaPay m c (146 + i.val) = _; unfold dmaPay; split_ifs <;> first | omega | exact congrArg _ (Fin.ext (Nat.add_sub_cancel_left _ _))
@[sl_rounds] theorem rest_xrecvD (c : Dev nD) (i : Fin 16) :
    bigSep ((Rd (F := F) m).duties (xrecvDC c i) 0 \ ∅) (fun d => (Rd (F := F) m).payload (xrecvDC c i) 0 d) = xrecvDPay m c i :=
  (rest_dma m c _ _ (by omega)).trans (payload_xrecvD m c i 0)

@[sl_rounds] theorem duties_zsend (c : Dev nD) (j : Fin 48) : (Rd (F := F) m).duties (zsendC c j) 0 = {0} := duties_dma m c _ _ (by omega)
@[sl_rounds] theorem amount_zsend (c : Dev nD) (j : Fin 48) (d : Fin 3) : (Rd (F := F) m).amount (zsendC c j) 0 d = N := rfl
@[sl_rounds] theorem expect_zsend (c : Dev nD) (j : Fin 48) : (Rd (F := F) m).expect (zsendC c j) 0 = N := expect_dma m c _ _ (by omega)
@[sl_rounds] theorem payload_zsend (c : Dev nD) (j : Fin 48) (d : Fin 3) : (Rd (F := F) m).payload (zsendC c j) 0 d = zsendPay m c j := by
  show dmaPay m c (162 + j.val) = _; unfold dmaPay; split_ifs <;> first | omega | exact congrArg _ (Fin.ext (Nat.add_sub_cancel_left _ _))
@[sl_rounds] theorem rest_zsend (c : Dev nD) (j : Fin 48) :
    bigSep ((Rd (F := F) m).duties (zsendC c j) 0 \ ∅) (fun d => (Rd (F := F) m).payload (zsendC c j) 0 d) = zsendPay m c j :=
  (rest_dma m c _ _ (by omega)).trans (payload_zsend m c j 0)

@[sl_rounds] theorem duties_zrecvS (c : Dev nD) (i : Fin 32) : (Rd (F := F) m).duties (zrecvSC c i) 0 = {0} := duties_dma m c _ _ (by omega)
@[sl_rounds] theorem amount_zrecvS (c : Dev nD) (i : Fin 32) (d : Fin 3) : (Rd (F := F) m).amount (zrecvSC c i) 0 d = N := rfl
@[sl_rounds] theorem expect_zrecvS (c : Dev nD) (i : Fin 32) : (Rd (F := F) m).expect (zrecvSC c i) 0 = N := expect_dma m c _ _ (by omega)
@[sl_rounds] theorem payload_zrecvS (c : Dev nD) (i : Fin 32) (d : Fin 3) : (Rd (F := F) m).payload (zrecvSC c i) 0 d = zrecvSPay m c i := by
  show dmaPay m c (210 + i.val) = _; unfold dmaPay; split_ifs <;> first | omega | exact congrArg _ (Fin.ext (Nat.add_sub_cancel_left _ _))
@[sl_rounds] theorem rest_zrecvS (c : Dev nD) (i : Fin 32) :
    bigSep ((Rd (F := F) m).duties (zrecvSC c i) 0 \ ∅) (fun d => (Rd (F := F) m).payload (zrecvSC c i) 0 d) = zrecvSPay m c i :=
  (rest_dma m c _ _ (by omega)).trans (payload_zrecvS m c i 0)

@[sl_rounds] theorem duties_zrecvD (c : Dev nD) (i : Fin 16) : (Rd (F := F) m).duties (zrecvDC c i) 0 = {0} := duties_dma m c _ _ (by omega)
@[sl_rounds] theorem amount_zrecvD (c : Dev nD) (i : Fin 16) (d : Fin 3) : (Rd (F := F) m).amount (zrecvDC c i) 0 d = N := rfl
@[sl_rounds] theorem expect_zrecvD (c : Dev nD) (i : Fin 16) : (Rd (F := F) m).expect (zrecvDC c i) 0 = N := expect_dma m c _ _ (by omega)
@[sl_rounds] theorem payload_zrecvD (c : Dev nD) (i : Fin 16) (d : Fin 3) : (Rd (F := F) m).payload (zrecvDC c i) 0 d = zrecvDPay m c i := by
  show dmaPay m c (242 + i.val) = _; unfold dmaPay; split_ifs <;> first | omega | exact congrArg _ (Fin.ext (Nat.add_sub_cancel_left _ _))
@[sl_rounds] theorem rest_zrecvD (c : Dev nD) (i : Fin 16) :
    bigSep ((Rd (F := F) m).duties (zrecvDC c i) 0 \ ∅) (fun d => (Rd (F := F) m).payload (zrecvDC c i) 0 d) = zrecvDPay m c i :=
  (rest_dma m c _ _ (by omega)).trans (payload_zrecvD m c i 0)

theorem payload_xsend_lo (c : Dev nD) (i : Fin 32) :
    xsendPay m c ⟨i.val, by omega⟩ = chunkAt c (slot32 yrM i) qa (Yc m c i) := by
  unfold xsendPay; exact dif_pos i.isLt
theorem payload_xsend_hi (c : Dev nD) (i : Fin 16) :
    xsendPay m c ⟨32 + i.val, by omega⟩ = chunkAt c (slot32 zsM (lo i)) qa (ZSc m c (lo i)) := by
  unfold xsendPay; rw [dif_neg (show ¬ (32 + i.val < 32) by omega)]
  exact congrArg (fun j => chunkAt c (slot32 zsM j) qa (ZSc m c j)) (Fin.ext (by show 32 + i.val - 32 = i.val; omega))
theorem payload_zsend_lo (c : Dev nD) (i : Fin 32) :
    zsendPay m c ⟨i.val, by omega⟩ = chunkAt c (slot32 yrM i) qb (Yc m c i) := by
  unfold zsendPay; exact dif_pos i.isLt
theorem payload_zsend_hi (c : Dev nD) (i : Fin 16) :
    zsendPay m c ⟨32 + i.val, by omega⟩ = chunkAt c (slot32 xsM (hi i)) qa (XSc m c (hi i)) := by
  unfold zsendPay; rw [dif_neg (show ¬ (32 + i.val < 32) by omega)]
  exact congrArg (fun j => chunkAt c (slot32 xsM j) qa (XSc m c j)) (Fin.ext (by show 32 + i.val - 16 = 16 + i.val; omega))

end

def L (g : GSem nD τ sig) : Finset Unit := if g.1.2 = .tc then {()} else ∅

theorem L_of_ne (g : GSem nD τ sig) (h : g.1.2 ≠ .tc) : L g = ∅ := if_neg h
theorem L_tc (c : Dev nD) (sm : SemLoc sig) : L ((c : Thread nD τ), sm) = {()} := if_pos rfl

def lv (g : GSem nD τ sig) (_ : Unit) : ℕ :=
  match g.2 with
  | .reg s => if s = barS then 1 else 0
  | .dma q =>
    if q.val < 34 then 0 else if q.val < 66 then 2 else if q.val < 114 then 0 else if q.val < 146 then 3
    else if q.val < 162 then 4 else if q.val < 210 then 0 else if q.val < 242 then 3 else if q.val < 258 then 4 else 0

theorem lv_bar (c : Dev nD) : lv (barCell c) () = 1 := by dsimp only [lv]; exact if_pos rfl
theorem lv_stage (t : Thread nD τ) (q : DmaSem sig) (hq : q.val < 2) : lv (t, .dma q) () = 0 := by
  dsimp only [lv]; exact if_pos (by omega)

def arrive (c : Dev nD) (k : Fin 128) : GSem nD τ sig :=
  if h : k.val < 32 then yrecvC (yN c) ⟨k.val, h⟩
  else if h₁ : k.val < 96 then
    (if (k.val - 32) % 2 = 0 then xrecvSC (xN c) ⟨(k.val - 32) / 2, by omega⟩ else zrecvSC (zN c) ⟨(k.val - 32) / 2, by omega⟩)
  else if h₂ : k.val < 112 then xrecvDC (xN c) ⟨k.val - 96, by omega⟩
  else zrecvDC (zN c) ⟨k.val - 112, by omega⟩

theorem arrive_y (c : Dev nD) (i : Fin 32) : arrive c ⟨i.val, by omega⟩ = yrecvC (yN c) i := by
  unfold arrive; exact dif_pos i.isLt
theorem arrive_xs (c : Dev nD) (i : Fin 32) : arrive c ⟨32 + 2 * i.val, by omega⟩ = xrecvSC (xN c) i := by
  unfold arrive; dsimp only; split_ifs <;> first | omega | exact congrArg _ (Fin.ext (by show (32 + 2 * i.val - 32) / 2 = i.val; omega))
theorem arrive_zs (c : Dev nD) (i : Fin 32) : arrive c ⟨33 + 2 * i.val, by omega⟩ = zrecvSC (zN c) i := by
  unfold arrive; dsimp only; split_ifs <;> first | omega | exact congrArg _ (Fin.ext (by show (33 + 2 * i.val - 32) / 2 = i.val; omega))
theorem arrive_xd (c : Dev nD) (i : Fin 16) : arrive c ⟨96 + i.val, by omega⟩ = xrecvDC (xN c) i := by
  unfold arrive; dsimp only; split_ifs <;> first | omega | exact congrArg _ (Fin.ext (Nat.add_sub_cancel_left _ _))
theorem arrive_zd (c : Dev nD) (i : Fin 16) : arrive c ⟨112 + i.val, by omega⟩ = zrecvDC (zN c) i := by
  unfold arrive; dsimp only; split_ifs <;> first | omega | exact congrArg _ (Fin.ext (Nat.add_sub_cancel_left _ _))

theorem L_arrive (c : Dev nD) (k : Fin 128) : L (arrive c k) = {()} := by
  unfold arrive; split_ifs <;> exact L_tc _ _

theorem lv_arrive (c : Dev nD) (k : Fin 128) :
    lv (arrive c k) () = if k.val < 32 then 2 else if k.val < 96 then 3 else 4 := by
  unfold arrive; split_ifs <;> (dsimp only [lv]; split_ifs <;> omega)

def Orem (c : Dev nD) (k : Nat) : CellTallies nD τ sig Unit :=
  ∑ j ∈ Finset.univ.filter (fun j : Fin 128 => k ≤ j.val), tallyAt (arrive c j) () N

theorem Orem_peel (c : Dev nD) (k : Fin 128) : Orem c k.val = Orem c (k.val + 1) + tallyAt (arrive c k) () N := by
  have hs : Finset.univ.filter (fun j : Fin 128 => k.val ≤ j.val)
      = insert k (Finset.univ.filter (fun j : Fin 128 => k.val + 1 ≤ j.val)) := by
    ext j; simp only [Finset.mem_filter, Finset.mem_univ, true_and, Finset.mem_insert, Fin.ext_iff]; omega
  unfold Orem
  rw [hs, Finset.sum_insert (fun h => by have := (Finset.mem_filter.mp h).2; omega), add_comm]

theorem Orem_end (c : Dev nD) : Orem c 128 = 0 :=
  Finset.sum_eq_zero fun j hj => absurd (Finset.mem_filter.mp hj).2 (by have := j.isLt; omega)

theorem Orem_pos {c : Dev nD} {k : Nat} {g : GSem nD τ sig} {u : Unit} (h : 0 < Orem c k g u) :
    ∃ j : Fin 128, k ≤ j.val ∧ g = arrive c j := by
  by_contra hn
  rw [not_exists] at hn
  unfold Orem at h
  rw [Finset.sum_apply, Finsupp.finset_sum_apply, Finset.sum_eq_zero] at h
  · exact Nat.lt_irrefl 0 h
  · intro j hj
    rw [tallyAt_apply]
    exact if_neg fun h' => hn j ⟨(Finset.mem_filter.mp hj).2, h'.1⟩

def O₀ (c : Dev nD) : CellTallies nD τ sig Unit :=
  Orem c 0 + tallyAt (barCell (zN c)) () 1 + tallyAt (barCell (xN c)) () 1 + tallyAt (barCell (yN c)) () 1

theorem O₀_pos {c : Dev nD} {g : GSem nD τ sig} {u : Unit} (h : 0 < O₀ c g u) :
    (∃ j : Fin 128, g = arrive c j) ∨ g = barCell (zN c) ∨ g = barCell (xN c) ∨ g = barCell (yN c) := by
  by_contra hn
  rw [not_or, not_or, not_or] at hn
  unfold O₀ at h
  rw [Pi.add_apply, Finsupp.add_apply, Pi.add_apply, Finsupp.add_apply, Pi.add_apply, Finsupp.add_apply,
    tallyAt_apply, tallyAt_apply, tallyAt_apply,
    if_neg (fun h' => hn.2.1 h'.1), if_neg (fun h' => hn.2.2.1 h'.1), if_neg (fun h' => hn.2.2.2 h'.1)] at h
  have h0 : 0 < Orem c 0 g u := by omega
  obtain ⟨j, -, hj⟩ := Orem_pos h0
  exact hn.1 ⟨j, hj⟩

omit [FloatOps F] in
theorem mayWait_rem (c : Dev nD) (k : Nat) (sm : SemLoc sig)
    (h : lv ((c : Thread nD τ), sm) () < (if k < 32 then 2 else if k < 96 then 3 else if k < 128 then 4 else 5)) :
    (levAts L lv : sProp 𝕄) ⊢ MayWait (c : Thread nD τ) sm () (Orem c k) :=
  MayOwe.of_cut (L := L) (lev := lv) (lv ((c : Thread nD τ), sm) ())
    (fun p hp => by rw [Finset.mem_singleton.mp hp, L_tc]; exact Finset.mem_singleton_self _)
    (fun g u hg => by
      obtain ⟨j, -, rfl⟩ := Orem_pos hg
      rw [L_arrive]; exact Finset.mem_singleton_self _)
    (fun p hp => by rw [Finset.mem_singleton.mp hp])
    (fun g u hg => by
      obtain ⟨j, hj, rfl⟩ := Orem_pos hg
      have hl : lv (arrive c j) u = if j.val < 32 then 2 else if j.val < 96 then 3 else 4 := lv_arrive c j
      have := j.isLt
      split_ifs at h hl <;> omega)

omit [FloatOps F] in
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0
      (fun p hp => by rw [Finset.mem_singleton.mp hp, L_tc]; exact Finset.mem_singleton_self _)
      (fun g u hg => by
        rcases O₀_pos hg with ⟨j, rfl⟩ | rfl | rfl | rfl
        · rw [L_arrive]; exact Finset.mem_singleton_self _
        all_goals exact Finset.mem_singleton_self _)
      (fun p hp => by rw [Finset.mem_singleton.mp hp, lv_stage _ _ hq])
      (fun g u hg => by
        cases u
        rcases O₀_pos hg with ⟨j, rfl⟩ | rfl | rfl | rfl
        · rw [lv_arrive]; split_ifs <;> omega
        all_goals (rw [lv_bar]; exact Nat.one_pos))
  · rw [MayWait_zero]; iintro -; iempintro

/-- info: 'Cert.KernelIdeal.Hand.mayWait_stage' depends on axioms: [propext, Classical.choice, Quot.sound] -/
#guard_msgs in #print axioms mayWait_stage

end Cert.KernelIdeal.Hand

end
-- ==== Proof.HandKernelIdeal.Mesh.lean ====
import proofs.«900716_g7700000000000717_dist_ar_v7x_xyz2x2x4_y_m4096_n1024_f32_1_alg».proof.Proof.Gen.KernelIdeal
import proofs.«900716_g7700000000000717_dist_ar_v7x_xyz2x2x4_y_m4096_n1024_f32_1_alg».proof.Proof.HandKernelIdeal.Nbr

set_option Elab.async false

noncomputable section

namespace Cert.KernelIdeal.Hand

open Idealize.ShloMosaic Idealize.SL.Sem Cert.KernelIdeal Cert.KernelIdeal.Gen

@[sl_canon] theorem dev1_eq (c : Dev nD) : (⟨k0_dev1 c, k0_dev1_lt c⟩ : Dev nD) = yN c := by revert c; decide +kernel
@[sl_canon] theorem dev2_eq (c : Dev nD) : (⟨k0_dev2 c, k0_dev2_lt c⟩ : Dev nD) = xN c := by revert c; decide +kernel
@[sl_canon] theorem dev3_eq (c : Dev nD) : (⟨k0_dev3 c, k0_dev3_lt c⟩ : Dev nD) = zN c := by revert c; decide +kernel
@[sl_canon] theorem dev4_eq (c : Dev nD) : (⟨k0_dev4 c, k0_dev4_lt c⟩ : Dev nD) = yN c := by revert c; decide +kernel
@[sl_canon] theorem dev5_eq (c : Dev nD) : (⟨k0_dev5 c, k0_dev5_lt c⟩ : Dev nD) = yN c := by revert c; decide +kernel
@[sl_canon] theorem dev6_eq (c : Dev nD) : (⟨k0_dev6 c, k0_dev6_lt c⟩ : Dev nD) = yN c := by revert c; decide +kernel
@[sl_canon] theorem dev7_eq (c : Dev nD) : (⟨k0_dev7 c, k0_dev7_lt c⟩ : Dev nD) = yN c := by revert c; decide +kernel
@[sl_canon] theorem dev8_eq (c : Dev nD) : (⟨k0_dev8 c, k0_dev8_lt c⟩ : Dev nD) = yN c := by revert c; decide +kernel
@[sl_canon] theorem dev9_eq (c : Dev nD) : (⟨k0_dev9 c, k0_dev9_lt c⟩ : Dev nD) = yN c := by revert c; decide +kernel
@[sl_canon] theorem dev10_eq (c : Dev nD) : (⟨k0_dev10 c, k0_dev10_lt c⟩ : Dev nD) = yN c := by revert c; decide +kernel
@[sl_canon] theorem dev11_eq (c : Dev nD) : (⟨k0_dev11 c, k0_dev11_lt c⟩ : Dev nD) = yN c := by revert c; decide +kernel
@[sl_canon] theorem dev12_eq (c : Dev nD) : (⟨k0_dev12 c, k0_dev12_lt c⟩ : Dev nD) = yN c := by revert c; decide +kernel
@[sl_canon] theorem dev13_eq (c : Dev nD) : (⟨k0_dev13 c, k0_dev13_lt c⟩ : Dev nD) = yN c := by revert c; decide +kernel
@[sl_canon] theorem dev14_eq (c : Dev nD) : (⟨k0_dev14 c, k0_dev14_lt c⟩ : Dev nD) = yN c := by revert c; decide +kernel
@[sl_canon] theorem dev15_eq (c : Dev nD) : (⟨k0_dev15 c, k0_dev15_lt c⟩ : Dev nD) = yN c := by revert c; decide +kernel
@[sl_canon] theorem dev16_eq (c : Dev nD) : (⟨k0_dev16 c, k0_dev16_lt c⟩ : Dev nD) = yN c := by revert c; decide +kernel
@[sl_canon] theorem dev17_eq (c : Dev nD) : (⟨k0_dev17 c, k0_dev17_lt c⟩ : Dev nD) = yN c := by revert c; decide +kernel
@[sl_canon] theorem dev18_eq (c : Dev nD) : (⟨k0_dev18 c, k0_dev18_lt c⟩ : Dev nD) = yN c := by revert c; decide +kernel
@[sl_canon] theorem dev19_eq (c : Dev nD) : (⟨k0_dev19 c, k0_dev19_lt c⟩ : Dev nD) = yN c := by revert c; decide +kernel
@[sl_canon] theorem dev20_eq (c : Dev nD) : (⟨k0_dev20 c, k0_dev20_lt c⟩ : Dev nD) = yN c := by revert c; decide +kernel
@[sl_canon] theorem dev21_eq (c : Dev nD) : (⟨k0_dev21 c, k0_dev21_lt c⟩ : Dev nD) = yN c := by revert c; decide +kernel
@[sl_canon] theorem dev22_eq (c : Dev nD) : (⟨k0_dev22 c, k0_dev22_lt c⟩ : Dev nD) = yN c := by revert c; decide +kernel
@[sl_canon] theorem dev23_eq (c : Dev nD) : (⟨k0_dev23 c, k0_dev23_lt c⟩ : Dev nD) = yN c := by revert c; decide +kernel
@[sl_canon] theorem dev24_eq (c : Dev nD) : (⟨k0_dev24 c, k0_dev24_lt c⟩ : Dev nD) = yN c := by revert c; decide +kernel
@[sl_canon] theorem dev25_eq (c : Dev nD) : (⟨k0_dev25 c, k0_dev25_lt c⟩ : Dev nD) = yN c := by revert c; decide +kernel
@[sl_canon] theorem dev26_eq (c : Dev nD) : (⟨k0_dev26 c, k0_dev26_lt c⟩ : Dev nD) = yN c := by revert c; decide +kernel
@[sl_canon] theorem dev27_eq (c : Dev nD) : (⟨k0_dev27 c, k0_dev27_lt c⟩ : Dev nD) = yN c := by revert c; decide +kernel
@[sl_canon] theorem dev28_eq (c : Dev nD) : (⟨k0_dev28 c, k0_dev28_lt c⟩ : Dev nD) = yN c := by revert c; decide +kernel
@[sl_canon] theorem dev29_eq (c : Dev nD) : (⟨k0_dev29 c, k0_dev29_lt c⟩ : Dev nD) = yN c := by revert c; decide +kernel
@[sl_canon] theorem dev30_eq (c : Dev nD) : (⟨k0_dev30 c, k0_dev30_lt c⟩ : Dev nD) = yN c := by revert c; decide +kernel
@[sl_canon] theorem dev31_eq (c : Dev nD) : (⟨k0_dev31 c, k0_dev31_lt c⟩ : Dev nD) = yN c := by revert c; decide +kernel
@[sl_canon] theorem dev32_eq (c : Dev nD) : (⟨k0_dev32 c, k0_dev32_lt c⟩ : Dev nD) = yN c := by revert c; decide +kernel
@[sl_canon] theorem dev33_eq (c : Dev nD) : (⟨k0_dev33 c, k0_dev33_lt c⟩ : Dev nD) = yN c := by revert c; decide +kernel
@[sl_canon] theorem dev34_eq (c : Dev nD) : (⟨k0_dev34 c, k0_dev34_lt c⟩ : Dev nD) = yN c := by revert c; decide +kernel
@[sl_canon] theorem dev35_eq (c : Dev nD) : (⟨k0_dev35 c, k0_dev35_lt c⟩ : Dev nD) = yN c := by revert c; decide +kernel
@[sl_canon] theorem dev36_eq (c : Dev nD) : (⟨k0_dev36 c, k0_dev36_lt c⟩ : Dev nD) = xN c := by revert c; decide +kernel
@[sl_canon] theorem dev37_eq (c : Dev nD) : (⟨k0_dev37 c, k0_dev37_lt c⟩ : Dev nD) = zN c := by revert c; decide +kernel
@[sl_canon] theorem dev38_eq (c : Dev nD) : (⟨k0_dev38 c, k0_dev38_lt c⟩ : Dev nD) = xN c := by revert c; decide +kernel
@[sl_canon] theorem dev39_eq (c : Dev nD) : (⟨k0_dev39 c, k0_dev39_lt c⟩ : Dev nD) = zN c := by revert c; decide +kernel
@[sl_canon] theorem dev40_eq (c : Dev nD) : (⟨k0_dev40 c, k0_dev40_lt c⟩ : Dev nD) = xN c := by revert c; decide +kernel
@[sl_canon] theorem dev41_eq (c : Dev nD) : (⟨k0_dev41 c, k0_dev41_lt c⟩ : Dev nD) = zN c := by revert c; decide +kernel
@[sl_canon] theorem dev42_eq (c : Dev nD) : (⟨k0_dev42 c, k0_dev42_lt c⟩ : Dev nD) = xN c := by revert c; decide +kernel
@[sl_canon] theorem dev43_eq (c : Dev nD) : (⟨k0_dev43 c, k0_dev43_lt c⟩ : Dev nD) = zN c := by revert c; decide +kernel
@[sl_canon] theorem dev44_eq (c : Dev nD) : (⟨k0_dev44 c, k0_dev44_lt c⟩ : Dev nD) = xN c := by revert c; decide +kernel
@[sl_canon] theorem dev45_eq (c : Dev nD) : (⟨k0_dev45 c, k0_dev45_lt c⟩ : Dev nD) = zN c := by revert c; decide +kernel
@[sl_canon] theorem dev46_eq (c : Dev nD) : (⟨k0_dev46 c, k0_dev46_lt c⟩ : Dev nD) = xN c := by revert c; decide +kernel
@[sl_canon] theorem dev47_eq (c : Dev nD) : (⟨k0_dev47 c, k0_dev47_lt c⟩ : Dev nD) = zN c := by revert c; decide +kernel
@[sl_canon] theorem dev48_eq (c : Dev nD) : (⟨k0_dev48 c, k0_dev48_lt c⟩ : Dev nD) = xN c := by revert c; decide +kernel
@[sl_canon] theorem dev49_eq (c : Dev nD) : (⟨k0_dev49 c, k0_dev49_lt c⟩ : Dev nD) = zN c := by revert c; decide +kernel
@[sl_canon] theorem dev50_eq (c : Dev nD) : (⟨k0_dev50 c, k0_dev50_lt c⟩ : Dev nD) = xN c := by revert c; decide +kernel
@[sl_canon] theorem dev51_eq (c : Dev nD) : (⟨k0_dev51 c, k0_dev51_lt c⟩ : Dev nD) = zN c := by revert c; decide +kernel
@[sl_canon] theorem dev52_eq (c : Dev nD) : (⟨k0_dev52 c, k0_dev52_lt c⟩ : Dev nD) = xN c := by revert c; decide +kernel
@[sl_canon] theorem dev53_eq (c : Dev nD) : (⟨k0_dev53 c, k0_dev53_lt c⟩ : Dev nD) = zN c := by revert c; decide +kernel
@[sl_canon] theorem dev54_eq (c : Dev nD) : (⟨k0_dev54 c, k0_dev54_lt c⟩ : Dev nD) = xN c := by revert c; decide +kernel
@[sl_canon] theorem dev55_eq (c : Dev nD) : (⟨k0_dev55 c, k0_dev55_lt c⟩ : Dev nD) = zN c := by revert c; decide +kernel
@[sl_canon] theorem dev56_eq (c : Dev nD) : (⟨k0_dev56 c, k0_dev56_lt c⟩ : Dev nD) = xN c := by revert c; decide +kernel
@[sl_canon] theorem dev57_eq (c : Dev nD) : (⟨k0_dev57 c, k0_dev57_lt c⟩ : Dev nD) = zN c := by revert c; decide +kernel
@[sl_canon] theorem dev58_eq (c : Dev nD) : (⟨k0_dev58 c, k0_dev58_lt c⟩ : Dev nD) = xN c := by revert c; decide +kernel
@[sl_canon] theorem dev59_eq (c : Dev nD) : (⟨k0_dev59 c, k0_dev59_lt c⟩ : Dev nD) = zN c := by revert c; decide +kernel
@[sl_canon] theorem dev60_eq (c : Dev nD) : (⟨k0_dev60 c, k0_dev60_lt c⟩ : Dev nD) = xN c := by revert c; decide +kernel
@[sl_canon] theorem dev61_eq (c : Dev nD) : (⟨k0_dev61 c, k0_dev61_lt c⟩ : Dev nD) = zN c := by revert c; decide +kernel
@[sl_canon] theorem dev62_eq (c : Dev nD) : (⟨k0_dev62 c, k0_dev62_lt c⟩ : Dev nD) = xN c := by revert c; decide +kernel
@[sl_canon] theorem dev63_eq (c : Dev nD) : (⟨k0_dev63 c, k0_dev63_lt c⟩ : Dev nD) = zN c := by revert c; decide +kernel
@[sl_canon] theorem dev64_eq (c : Dev nD) : (⟨k0_dev64 c, k0_dev64_lt c⟩ : Dev nD) = xN c := by revert c; decide +kernel
@[sl_canon] theorem dev65_eq (c : Dev nD) : (⟨k0_dev65 c, k0_dev65_lt c⟩ : Dev nD) = zN c := by revert c; decide +kernel
@[sl_canon] theorem dev66_eq (c : Dev nD) : (⟨k0_dev66 c, k0_dev66_lt c⟩ : Dev nD) = xN c := by revert c; decide +kernel
@[sl_canon] theorem dev67_eq (c : Dev nD) : (⟨k0_dev67 c, k0_dev67_lt c⟩ : Dev nD) = zN c := by revert c; decide +kernel
@[sl_canon] theorem dev68_eq (c : Dev nD) : (⟨k0_dev68 c, k0_dev68_lt c⟩ : Dev nD) = xN c := by revert c; decide +kernel
@[sl_canon] theorem dev69_eq (c : Dev nD) : (⟨k0_dev69 c, k0_dev69_lt c⟩ : Dev nD) = zN c := by revert c; decide +kernel
@[sl_canon] theorem dev70_eq (c : Dev nD) : (⟨k0_dev70 c, k0_dev70_lt c⟩ : Dev nD) = xN c := by revert c; decide +kernel
@[sl_canon] theorem dev71_eq (c : Dev nD) : (⟨k0_dev71 c, k0_dev71_lt c⟩ : Dev nD) = zN c := by revert c; decide +kernel
@[sl_canon] theorem dev72_eq (c : Dev nD) : (⟨k0_dev72 c, k0_dev72_lt c⟩ : Dev nD) = xN c := by revert c; decide +kernel
@[sl_canon] theorem dev73_eq (c : Dev nD) : (⟨k0_dev73 c, k0_dev73_lt c⟩ : Dev nD) = zN c := by revert c; decide +kernel
@[sl_canon] theorem dev74_eq (c : Dev nD) : (⟨k0_dev74 c, k0_dev74_lt c⟩ : Dev nD) = xN c := by revert c; decide +kernel
@[sl_canon] theorem dev75_eq (c : Dev nD) : (⟨k0_dev75 c, k0_dev75_lt c⟩ : Dev nD) = zN c := by revert c; decide +kernel
@[sl_canon] theorem dev76_eq (c : Dev nD) : (⟨k0_dev76 c, k0_dev76_lt c⟩ : Dev nD) = xN c := by revert c; decide +kernel
@[sl_canon] theorem dev77_eq (c : Dev nD) : (⟨k0_dev77 c, k0_dev77_lt c⟩ : Dev nD) = zN c := by revert c; decide +kernel
@[sl_canon] theorem dev78_eq (c : Dev nD) : (⟨k0_dev78 c, k0_dev78_lt c⟩ : Dev nD) = xN c := by revert c; decide +kernel
@[sl_canon] theorem dev79_eq (c : Dev nD) : (⟨k0_dev79 c, k0_dev79_lt c⟩ : Dev nD) = zN c := by revert c; decide +kernel
@[sl_canon] theorem dev80_eq (c : Dev nD) : (⟨k0_dev80 c, k0_dev80_lt c⟩ : Dev nD) = xN c := by revert c; decide +kernel
@[sl_canon] theorem dev81_eq (c : Dev nD) : (⟨k0_dev81 c, k0_dev81_lt c⟩ : Dev nD) = zN c := by revert c; decide +kernel
@[sl_canon] theorem dev82_eq (c : Dev nD) : (⟨k0_dev82 c, k0_dev82_lt c⟩ : Dev nD) = xN c := by revert c; decide +kernel
@[sl_canon] theorem dev83_eq (c : Dev nD) : (⟨k0_dev83 c, k0_dev83_lt c⟩ : Dev nD) = zN c := by revert c; decide +kernel
@[sl_canon] theorem dev84_eq (c : Dev nD) : (⟨k0_dev84 c, k0_dev84_lt c⟩ : Dev nD) = xN c := by revert c; decide +kernel
@[sl_canon] theorem dev85_eq (c : Dev nD) : (⟨k0_dev85 c, k0_dev85_lt c⟩ : Dev nD) = zN c := by revert c; decide +kernel
@[sl_canon] theorem dev86_eq (c : Dev nD) : (⟨k0_dev86 c, k0_dev86_lt c⟩ : Dev nD) = xN c := by revert c; decide +kernel
@[sl_canon] theorem dev87_eq (c : Dev nD) : (⟨k0_dev87 c, k0_dev87_lt c⟩ : Dev nD) = zN c := by revert c; decide +kernel
@[sl_canon] theorem dev88_eq (c : Dev nD) : (⟨k0_dev88 c, k0_dev88_lt c⟩ : Dev nD) = xN c := by revert c; decide +kernel
@[sl_canon] theorem dev89_eq (c : Dev nD) : (⟨k0_dev89 c, k0_dev89_lt c⟩ : Dev nD) = zN c := by revert c; decide +kernel
@[sl_canon] theorem dev90_eq (c : Dev nD) : (⟨k0_dev90 c, k0_dev90_lt c⟩ : Dev nD) = xN c := by revert c; decide +kernel
@[sl_canon] theorem dev91_eq (c : Dev nD) : (⟨k0_dev91 c, k0_dev91_lt c⟩ : Dev nD) = zN c := by revert c; decide +kernel
@[sl_canon] theorem dev92_eq (c : Dev nD) : (⟨k0_dev92 c, k0_dev92_lt c⟩ : Dev nD) = xN c := by revert c; decide +kernel
@[sl_canon] theorem dev93_eq (c : Dev nD) : (⟨k0_dev93 c, k0_dev93_lt c⟩ : Dev nD) = zN c := by revert c; decide +kernel
@[sl_canon] theorem dev94_eq (c : Dev nD) : (⟨k0_dev94 c, k0_dev94_lt c⟩ : Dev nD) = xN c := by revert c; decide +kernel
@[sl_canon] theorem dev95_eq (c : Dev nD) : (⟨k0_dev95 c, k0_dev95_lt c⟩ : Dev nD) = zN c := by revert c; decide +kernel
@[sl_canon] theorem dev96_eq (c : Dev nD) : (⟨k0_dev96 c, k0_dev96_lt c⟩ : Dev nD) = xN c := by revert c; decide +kernel
@[sl_canon] theorem dev97_eq (c : Dev nD) : (⟨k0_dev97 c, k0_dev97_lt c⟩ : Dev nD) = zN c := by revert c; decide +kernel
@[sl_canon] theorem dev98_eq (c : Dev nD) : (⟨k0_dev98 c, k0_dev98_lt c⟩ : Dev nD) = xN c := by revert c; decide +kernel
@[sl_canon] theorem dev99_eq (c : Dev nD) : (⟨k0_dev99 c, k0_dev99_lt c⟩ : Dev nD) = zN c := by revert c; decide +kernel
@[sl_canon] theorem dev100_eq (c : Dev nD) : (⟨k0_dev100 c, k0_dev100_lt c⟩ : Dev nD) = xN c := by revert c; decide +kernel
@[sl_canon] theorem dev101_eq (c : Dev nD) : (⟨k0_dev101 c, k0_dev101_lt c⟩ : Dev nD) = xN c := by revert c; decide +kernel
@[sl_canon] theorem dev102_eq (c : Dev nD) : (⟨k0_dev102 c, k0_dev102_lt c⟩ : Dev nD) = xN c := by revert c; decide +kernel
@[sl_canon] theorem dev103_eq (c : Dev nD) : (⟨k0_dev103 c, k0_dev103_lt c⟩ : Dev nD) = xN c := by revert c; decide +kernel
@[sl_canon] theorem dev104_eq (c : Dev nD) : (⟨k0_dev104 c, k0_dev104_lt c⟩ : Dev nD) = xN c := by revert c; decide +kernel
@[sl_canon] theorem dev105_eq (c : Dev nD) : (⟨k0_dev105 c, k0_dev105_lt c⟩ : Dev nD) = xN c := by revert c; decide +kernel
@[sl_canon] theorem dev106_eq (c : Dev nD) : (⟨k0_dev106 c, k0_dev106_lt c⟩ : Dev nD) = xN c := by revert c; decide +kernel
@[sl_canon] theorem dev107_eq (c : Dev nD) : (⟨k0_dev107 c, k0_dev107_lt c⟩ : Dev nD) = xN c := by revert c; decide +kernel
@[sl_canon] theorem dev108_eq (c : Dev nD) : (⟨k0_dev108 c, k0_dev108_lt c⟩ : Dev nD) = xN c := by revert c; decide +kernel
@[sl_canon] theorem dev109_eq (c : Dev nD) : (⟨k0_dev109 c, k0_dev109_lt c⟩ : Dev nD) = xN c := by revert c; decide +kernel
@[sl_canon] theorem dev110_eq (c : Dev nD) : (⟨k0_dev110 c, k0_dev110_lt c⟩ : Dev nD) = xN c := by revert c; decide +kernel
@[sl_canon] theorem dev111_eq (c : Dev nD) : (⟨k0_dev111 c, k0_dev111_lt c⟩ : Dev nD) = xN c := by revert c; decide +kernel
@[sl_canon] theorem dev112_eq (c : Dev nD) : (⟨k0_dev112 c, k0_dev112_lt c⟩ : Dev nD) = xN c := by revert c; decide +kernel
@[sl_canon] theorem dev113_eq (c : Dev nD) : (⟨k0_dev113 c, k0_dev113_lt c⟩ : Dev nD) = xN c := by revert c; decide +kernel
@[sl_canon] theorem dev114_eq (c : Dev nD) : (⟨k0_dev114 c, k0_dev114_lt c⟩ : Dev nD) = xN c := by revert c; decide +kernel
@[sl_canon] theorem dev115_eq (c : Dev nD) : (⟨k0_dev115 c, k0_dev115_lt c⟩ : Dev nD) = xN c := by revert c; decide +kernel
@[sl_canon] theorem dev116_eq (c : Dev nD) : (⟨k0_dev116 c, k0_dev116_lt c⟩ : Dev nD) = zN c := by revert c; decide +kernel
@[sl_canon] theorem dev117_eq (c : Dev nD) : (⟨k0_dev117 c, k0_dev117_lt c⟩ : Dev nD) = zN c := by revert c; decide +kernel
@[sl_canon] theorem dev118_eq (c : Dev nD) : (⟨k0_dev118 c, k0_dev118_lt c⟩ : Dev nD) = zN c := by revert c; decide +kernel
@[sl_canon] theorem dev119_eq (c : Dev nD) : (⟨k0_dev119 c, k0_dev119_lt c⟩ : Dev nD) = zN c := by revert c; decide +kernel
@[sl_canon] theorem dev120_eq (c : Dev nD) : (⟨k0_dev120 c, k0_dev120_lt c⟩ : Dev nD) = zN c := by revert c; decide +kernel
@[sl_canon] theorem dev121_eq (c : Dev nD) : (⟨k0_dev121 c, k0_dev121_lt c⟩ : Dev nD) = zN c := by revert c; decide +kernel
@[sl_canon] theorem dev122_eq (c : Dev nD) : (⟨k0_dev122 c, k0_dev122_lt c⟩ : Dev nD) = zN c := by revert c; decide +kernel
@[sl_canon] theorem dev123_eq (c : Dev nD) : (⟨k0_dev123 c, k0_dev123_lt c⟩ : Dev nD) = zN c := by revert c; decide +kernel
@[sl_canon] theorem dev124_eq (c : Dev nD) : (⟨k0_dev124 c, k0_dev124_lt c⟩ : Dev nD) = zN c := by revert c; decide +kernel
@[sl_canon] theorem dev125_eq (c : Dev nD) : (⟨k0_dev125 c, k0_dev125_lt c⟩ : Dev nD) = zN c := by revert c; decide +kernel
@[sl_canon] theorem dev126_eq (c : Dev nD) : (⟨k0_dev126 c, k0_dev126_lt c⟩ : Dev nD) = zN c := by revert c; decide +kernel
@[sl_canon] theorem dev127_eq (c : Dev nD) : (⟨k0_dev127 c, k0_dev127_lt c⟩ : Dev nD) = zN c := by revert c; decide +kernel
@[sl_canon] theorem dev128_eq (c : Dev nD) : (⟨k0_dev128 c, k0_dev128_lt c⟩ : Dev nD) = zN c := by revert c; decide +kernel
@[sl_canon] theorem dev129_eq (c : Dev nD) : (⟨k0_dev129 c, k0_dev129_lt c⟩ : Dev nD) = zN c := by revert c; decide +kernel
@[sl_canon] theorem dev130_eq (c : Dev nD) : (⟨k0_dev130 c, k0_dev130_lt c⟩ : Dev nD) = zN c := by revert c; decide +kernel
@[sl_canon] theorem dev131_eq (c : Dev nD) : (⟨k0_dev131 c, k0_dev131_lt c⟩ : Dev nD) = zN c := by revert c; decide +kernel

def base1 (c : Dev nD) : Nat := 2048 * (c.val / 8) + 1024 * (c.val % 2)
def base3 (c : Dev nD) : Nat := 2048 * (c.val / 8) + 1024 * (1 - c.val % 2)
def base4 (c : Dev nD) : Nat := 2048 * (1 - c.val / 8) + 1024 * (c.val % 2)
def base5 (c : Dev nD) : Nat := 2048 * (1 - c.val / 8) + 1024 * (1 - c.val % 2)

-- A chain that at every device, block and coordinate gives a quarter's first row plus the block's 32·r is that row offset.
theorem off_ext (f : Dev nD → BitVec 32 → Fin 2 → Nat) (b : Dev nD → Nat)
    (h : ∀ (c : Dev nD) (r : Fin 32) (a : Fin 2), f c (BitVec.ofNat 32 (32 * r.val)) a = (![b c + 32 * r.val, 0] : Fin 2 → Nat) a)
    (c : Dev nD) (r : Fin 32) : f c (BitVec.ofNat 32 (32 * r.val)) = ![b c + 32 * r.val, 0] := funext (h c r)

theorem off1_eq (c : Dev nD) (r : Fin 32) : k0_off1 c (BitVec.ofNat 32 (32 * r.val)) = ![base1 c + 32 * r.val, 0] :=
  off_ext k0_off1 base1 (by decide +kernel) c r
theorem off2_eq (c : Dev nD) (r : Fin 32) : k0_off2 c (BitVec.ofNat 32 (32 * r.val)) = ![base1 c + 32 * r.val, 0] :=
  off_ext k0_off2 base1 (by decide +kernel) c r
theorem off3_eq (c : Dev nD) (r : Fin 32) : k0_off3 c (BitVec.ofNat 32 (32 * r.val)) = ![base3 c + 32 * r.val, 0] :=
  off_ext k0_off3 base3 (by decide +kernel) c r
theorem off4_eq (c : Dev nD) (r : Fin 32) : k0_off4 c (BitVec.ofNat 32 (32 * r.val)) = ![base4 c + 32 * r.val, 0] :=
  off_ext k0_off4 base4 (by decide +kernel) c r
theorem off5_eq (c : Dev nD) (r : Fin 32) : k0_off5 c (BitVec.ofNat 32 (32 * r.val)) = ![base5 c + 32 * r.val, 0] :=
  off_ext k0_off5 base5 (by decide +kernel) c r

theorem base1_yN (c : Dev nD) : base1 (yN c) = base1 c := by revert c; decide
theorem base1_zN (c : Dev nD) : base1 (zN c) = base3 c := by revert c; decide
theorem base1_xN (c : Dev nD) : base1 (xN c) = base4 c := by revert c; decide
theorem base1_xN_zN (c : Dev nD) : base1 (xN (zN c)) = base5 c := by revert c; decide

def quarter (c : Dev nD) : Fin 4 → Nat := ![base1 c, base3 c, base4 c, base5 c]

theorem quarter_surj (c : Dev nD) (q : Fin 4) : ∃ j : Fin 4, quarter c j = 1024 * q.val := by
  revert q; revert c; decide
theorem quarter_mul (c : Dev nD) (j : Fin 4) : ∃ q : Fin 4, quarter c j = 1024 * q.val := by
  revert j; revert c; decide
theorem quarter_inj (c : Dev nD) (i j : Fin 4) (h : quarter c i = quarter c j) : i = j := by
  revert h; revert j; revert i; revert c; decide

-- The four quarters are the four blocks of 1024 rows, so every row lies in exactly one of them.
theorem row_cover (c : Dev nD) (i : Nat) (hi : i < 4096) :
    ∃! j : Fin 4, quarter c j ≤ i ∧ i < quarter c j + 1024 := by
  obtain ⟨j, hj⟩ := quarter_surj c ⟨i / 1024, by omega⟩
  have hj' : quarter c j = 1024 * (i / 1024) := hj
  refine ⟨j, ⟨by omega, by omega⟩, ?_⟩
  rintro j' ⟨h1, h2⟩
  obtain ⟨q', hq'⟩ := quarter_mul c j'
  apply quarter_inj c
  have hq : q'.val = i / 1024 := by omega
  rw [hq', hj', hq]

/-- info: 'Cert.KernelIdeal.Hand.row_cover' depends on axioms: [propext, Classical.choice, Quot.sound] -/
#guard_msgs in #print axioms row_cover

end Cert.KernelIdeal.Hand

end
-- ==== Proof.HandKernelIdeal.Ghost.lean ====
import proofs.«900716_g7700000000000717_dist_ar_v7x_xyz2x2x4_y_m4096_n1024_f32_1_alg».proof.Proof.HandKernelIdeal.SchedTab
import proofs.«900716_g7700000000000717_dist_ar_v7x_xyz2x2x4_y_m4096_n1024_f32_1_alg».proof.Proof.HandKernelIdeal.Mesh
import proofs.«900716_g7700000000000717_dist_ar_v7x_xyz2x2x4_y_m4096_n1024_f32_1_alg».proof.Proof.Gen.KernelIdeal.Skeleton
import proofs.«900716_g7700000000000717_dist_ar_v7x_xyz2x2x4_y_m4096_n1024_f32_1_alg».proof.Proof.Gen.KernelIdeal.Points

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A device's cells, numbered: its barrier cell, then its 256 own DMA semaphores. -/
abbrev CK : Type := Option (Fin 256)
def csem : CK → SemLoc sig
  | none => .reg barS
  | some j => .dma (dsem (2 + j.val) (by omega))
abbrev kcell (ck : Dev nD × CK) : GSem nD τ sig := ((ck.1 : Thread nD τ), csem ck.2)
abbrev osem : Fin 256 → SemLoc sig := fun j => .dma (dsem (2 + j.val) (by omega))

/-- What every device knows: each cell's invariant under its name, and round 0 of each cell reached. -/
def records (K : Dev nD × CK → ℕ) : sProp 𝕄 :=
  iprop((bigSep Finset.univ fun ck : Dev nD × CK => cellInv ER (Rd m) (K ck) (kcell ck))
    ∗ bigSep Finset.univ fun ck : Dev nD × CK => reached ER (kcell ck) 0)

def ownPos (c : Dev nD) : sProp 𝕄 := bigSep Finset.univ fun k : CK => atPos ER (kcell (c, k)) 0 ∅ 0

/-- The tokens of the duties device c pays: a unit on each neighbour's barrier cell, and both ends of every transfer it sends. -/
def payToks (c : Dev nD) : sProp 𝕄 :=
  iprop(dutyTok ER (barCell (yN c)) 0 (0 : Fin 3) ∗ dutyTok ER (barCell (xN c)) 0 (1 : Fin 3) ∗ dutyTok ER (barCell (zN c)) 0 (2 : Fin 3)
    ∗ (bigSep Finset.univ fun i : Fin 32 => iprop(dutyTok ER (ysendC c i) 0 (0 : Fin 3) ∗ dutyTok ER (yrecvC (yN c) i) 0 (0 : Fin 3)))
    ∗ (bigSep Finset.univ fun j : Fin 48 => dutyTok ER (xsendC c j) 0 (0 : Fin 3))
    ∗ (bigSep Finset.univ fun i : Fin 32 => dutyTok ER (xrecvSC (xN c) i) 0 (0 : Fin 3))
    ∗ (bigSep Finset.univ fun i : Fin 16 => dutyTok ER (xrecvDC (xN c) i) 0 (0 : Fin 3))
    ∗ (bigSep Finset.univ fun j : Fin 48 => dutyTok ER (zsendC c j) 0 (0 : Fin 3))
    ∗ (bigSep Finset.univ fun i : Fin 32 => dutyTok ER (zrecvSC (zN c) i) 0 (0 : Fin 3))
    ∗ (bigSep Finset.univ fun i : Fin 16 => dutyTok ER (zrecvDC (zN c) i) 0 (0 : Fin 3)))

/-- What is owed to device c: three units on its barrier cell and one chunk on each of its 128 arrival cells. -/
def ownCred (c : Dev nD) : sProp 𝕄 :=
  iprop(cred (tallyAt (barCell c) () 3)
    ∗ (bigSep Finset.univ fun i : Fin 32 => cred (tallyAt (yrecvC c i) () N))
    ∗ (bigSep Finset.univ fun i : Fin 32 => cred (tallyAt (xrecvSC c i) () N))
    ∗ (bigSep Finset.univ fun i : Fin 16 => cred (tallyAt (xrecvDC c i) () N))
    ∗ (bigSep Finset.univ fun i : Fin 32 => cred (tallyAt (zrecvSC c i) () N))
    ∗ (bigSep Finset.univ fun i : Fin 16 => cred (tallyAt (zrecvDC c i) () N)))

def ghost (K : Dev nD × CK → ℕ) (c : Dev nD) : sProp 𝕄 := iprop(records m K ∗ ownPos c ∗ payToks c)

def start (c : Dev nD) : sProp 𝕄 := iprop((∃ K, ghost m K c) ∗ ownCred c ∗ levAts L lv)

/-- The five landing buffers of device c, each whole at some contents. -/
def landing (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f))

def Φ₀ (c : Dev nD) : sProp 𝕄 := iprop(start m c ∗ landing c)
def Φ₁ (c : Dev nD) : sProp 𝕄 := iprop(landing c ∗ bigSep Finset.univ fun j : Fin 256 => semVal ((c : Thread nD τ), osem j) 0)

/-- The quarter a row lies in (own, z partner's, x neighbour's, the device's across both) and the device it came through. -/
def qOf (c : Dev nD) (r : Nat) : Fin 4 :=
  if base1 c ≤ r ∧ r < base1 c + 1024 then 0
  else if base3 c ≤ r ∧ r < base3 c + 1024 then 1
  else if base4 c ≤ r ∧ r < base4 c + 1024 then 2
  else 3
def via (c : Dev nD) : Fin 4 → Dev nD := ![c, zN c, xN c, xN (zN c)]

/-- What device c receives of the other y half, and the result: its block plus that, entry by entry. -/
def other (c : Dev nD) : (cc0_stg0_0 : Ref sig .tc).ty.Contents (Elt F) :=
  fun idx => Xs m (yN (via c (qOf c (idx 0).val))) idx

def outAt (c : Dev nD) : (cc0_stg1_0 : Ref sig .tc).ty.Contents (Elt F) :=
  addf (F := F) (s := S4096x1024) (φ := .f32) (Xs m c) (other m c)

abbrev 𝒱₀ : Variants := Variants.none

def t₀ : Fin cfg0.N := ⟨0, by decide⟩
theorem fin_N (t : Fin cfg0.N) : t = t₀ := by
  obtain ⟨t, ht⟩ := t; have : cfg0.N = 1 := by decide
  exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => Xs m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

end Cert.KernelIdeal.Hand

end
-- ==== Proof.HandKernelIdeal.Unpack.lean ====
import proofs.«900716_g7700000000000717_dist_ar_v7x_xyz2x2x4_y_m4096_n1024_f32_1_alg».proof.Proof.HandKernelIdeal.Ghost

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section
omit [FloatOps F]

theorem sep_eq {A A' B B' : sProp 𝕄} (h₁ : A = A') (h₂ : B = B') : iprop(A ∗ B) = iprop(A' ∗ B') := by rw [h₁, h₂]

theorem bigSep_fin_add (a b : ℕ) (Φ : Fin (a + b) → sProp 𝕄) :
    bigSep Finset.univ Φ
      = iprop((bigSep Finset.univ fun i : Fin a => Φ (Fin.castAdd b i)) ∗ bigSep Finset.univ fun j : Fin b => Φ (Fin.natAdd a j)) := by
  rw [bigSep_univ_equiv finSumFinEquiv Φ, bigSep_univ_sum]; rfl

theorem bigSep_option {α : Type} [Fintype α] [DecidableEq α] (Φ : Option α → sProp 𝕄) :
    bigSep Finset.univ Φ = iprop(Φ none ∗ bigSep Finset.univ fun a => Φ (some a)) := by
  have h : (Finset.univ : Finset (Option α)).erase none = Finset.univ.map Function.Embedding.some := by
    ext x
    rw [Finset.mem_erase, Finset.mem_map]
    cases x with
    | none => simp
    | some a => simp
  rw [bigSep_univ_split none, h, bigSep_map]; rfl

theorem kcell_some (c : Dev nD) (j : Fin 256) (k : ℕ) (hk : k < 258) (e : 2 + j.val = k) : kcell (c, some j) = dcell c k hk := by
  subst e; rfl

theorem dma_fam (c : Dev nD) (P : GSem nD τ sig → sProp 𝕄) :
    (bigSep Finset.univ fun j : Fin 256 => P (kcell (c, some j)))
      = iprop((bigSep Finset.univ fun i : Fin 32 => P (ysendC c i)) ∗ (bigSep Finset.univ fun i : Fin 32 => P (yrecvC c i))
        ∗ (bigSep Finset.univ fun j : Fin 48 => P (xsendC c j)) ∗ (bigSep Finset.univ fun i : Fin 32 => P (xrecvSC c i))
        ∗ (bigSep Finset.univ fun i : Fin 16 => P (xrecvDC c i)) ∗ (bigSep Finset.univ fun j : Fin 48 => P (zsendC c j))
        ∗ (bigSep Finset.univ fun i : Fin 32 => P (zrecvSC c i)) ∗ (bigSep Finset.univ fun i : Fin 16 => P (zrecvDC c i))) := by
  let Φ₀ : Fin 256 → sProp 𝕄 := fun j => P (kcell (c, some j))
  let Φ₁ : Fin 224 → sProp 𝕄 := fun j => Φ₀ (Fin.natAdd 32 j)
  let Φ₂ : Fin 192 → sProp 𝕄 := fun j => Φ₁ (Fin.natAdd 32 j)
  let Φ₃ : Fin 144 → sProp 𝕄 := fun j => Φ₂ (Fin.natAdd 48 j)
  let Φ₄ : Fin 112 → sProp 𝕄 := fun j => Φ₃ (Fin.natAdd 32 j)
  let Φ₅ : Fin 96 → sProp 𝕄 := fun j => Φ₄ (Fin.natAdd 16 j)
  let Φ₆ : Fin 48 → sProp 𝕄 := fun j => Φ₅ (Fin.natAdd 48 j)
  have s₀ := bigSep_fin_add 32 224 Φ₀
  have s₁ := bigSep_fin_add 32 192 Φ₁
  have s₂ := bigSep_fin_add 48 144 Φ₂
  have s₃ := bigSep_fin_add 32 112 Φ₃
  have s₄ := bigSep_fin_add 16 96 Φ₄
  have s₅ := bigSep_fin_add 48 48 Φ₅
  have s₆ := bigSep_fin_add 32 16 Φ₆
  refine s₀.trans (sep_eq ?_ (s₁.trans (sep_eq ?_ (s₂.trans (sep_eq ?_ (s₃.trans (sep_eq ?_ (s₄.trans (sep_eq ?_
    (s₅.trans (sep_eq ?_ (s₆.trans (sep_eq ?_ ?_)))))))))))))
  · exact bigSep_congr fun i _ => congrArg P (kcell_some c _ (2 + i.val) _ rfl)
  · exact bigSep_congr fun i _ => congrArg P (kcell_some c _ (34 + i.val) _ (by show 2 + (32 + i.val) = 34 + i.val; omega))
  · exact bigSep_congr fun i _ => congrArg P (kcell_some c _ (66 + i.val) _ (by show 2 + (32 + (32 + i.val)) = 66 + i.val; omega))
  · exact bigSep_congr fun i _ => congrArg P (kcell_some c _ (114 + i.val) _ (by show 2 + (32 + (32 + (48 + i.val))) = 114 + i.val; omega))
  · exact bigSep_congr fun i _ => congrArg P (kcell_some c _ (146 + i.val) _ (by show 2 + (32 + (32 + (48 + (32 + i.val)))) = 146 + i.val; omega))
  · exact bigSep_congr fun i _ => congrArg P (kcell_some c _ (162 + i.val) _ (by show 2 + (32 + (32 + (48 + (32 + (16 + i.val))))) = 162 + i.val; omega))
  · exact bigSep_congr fun i _ => congrArg P (kcell_some c _ (210 + i.val) _ (by show 2 + (32 + (32 + (48 + (32 + (16 + (48 + i.val)))))) = 210 + i.val; omega))
  · exact bigSep_congr fun i _ => congrArg P (kcell_some c _ (242 + i.val) _ (by show 2 + (32 + (32 + (48 + (32 + (16 + (48 + (32 + i.val))))))) = 242 + i.val; omega))

theorem cells_fam (c : Dev nD) (P : GSem nD τ sig → sProp 𝕄) :
    (bigSep Finset.univ fun k : CK => P (kcell (c, k)))
      = iprop(P (barCell c) ∗ (bigSep Finset.univ fun i : Fin 32 => P (ysendC c i)) ∗ (bigSep Finset.univ fun i : Fin 32 => P (yrecvC c i))
        ∗ (bigSep Finset.univ fun j : Fin 48 => P (xsendC c j)) ∗ (bigSep Finset.univ fun i : Fin 32 => P (xrecvSC c i))
        ∗ (bigSep Finset.univ fun i : Fin 16 => P (xrecvDC c i)) ∗ (bigSep Finset.univ fun j : Fin 48 => P (zsendC c j))
        ∗ (bigSep Finset.univ fun i : Fin 32 => P (zrecvSC c i)) ∗ (bigSep Finset.univ fun i : Fin 16 => P (zrecvDC c i))) :=
  (bigSep_option (fun k : CK => P (kcell (c, k)))).trans (sep_eq rfl (dma_fam c P))

theorem ownPos_fam (c : Dev nD) (r : ℕ) :
    (bigSep Finset.univ fun k : CK => atPos ER (kcell (c, k)) r ∅ 0 : sProp 𝕄)
      ⊣⊢ iprop(atPos ER (barCell c) r ∅ 0 ∗ (bigSep Finset.univ fun i : Fin 32 => atPos ER (ysendC c i) r ∅ 0)
        ∗ (bigSep Finset.univ fun i : Fin 32 => atPos ER (yrecvC c i) r ∅ 0) ∗ (bigSep Finset.univ fun j : Fin 48 => atPos ER (xsendC c j) r ∅ 0)
        ∗ (bigSep Finset.univ fun i : Fin 32 => atPos ER (xrecvSC c i) r ∅ 0) ∗ (bigSep Finset.univ fun i : Fin 16 => atPos ER (xrecvDC c i) r ∅ 0)
        ∗ (bigSep Finset.univ fun j : Fin 48 => atPos ER (zsendC c j) r ∅ 0) ∗ (bigSep Finset.univ fun i : Fin 32 => atPos ER (zrecvSC c i) r ∅ 0)
        ∗ (bigSep Finset.univ fun i : Fin 16 => atPos ER (zrecvDC c i) r ∅ 0)) :=
  BIBase.BiEntails.of_eq (cells_fam c fun g => atPos ER g r ∅ 0)

theorem ownDma_fam (c : Dev nD) (r : ℕ) :
    (bigSep Finset.univ fun j : Fin 256 => atPos ER (kcell (c, some j)) r ∅ 0 : sProp 𝕄)
      ⊣⊢ iprop((bigSep Finset.univ fun i : Fin 32 => atPos ER (ysendC c i) r ∅ 0)
        ∗ (bigSep Finset.univ fun i : Fin 32 => atPos ER (yrecvC c i) r ∅ 0) ∗ (bigSep Finset.univ fun j : Fin 48 => atPos ER (xsendC c j) r ∅ 0)
        ∗ (bigSep Finset.univ fun i : Fin 32 => atPos ER (xrecvSC c i) r ∅ 0) ∗ (bigSep Finset.univ fun i : Fin 16 => atPos ER (xrecvDC c i) r ∅ 0)
        ∗ (bigSep Finset.univ fun j : Fin 48 => atPos ER (zsendC c j) r ∅ 0) ∗ (bigSep Finset.univ fun i : Fin 32 => atPos ER (zrecvSC c i) r ∅ 0)
        ∗ (bigSep Finset.univ fun i : Fin 16 => atPos ER (zrecvDC c i) r ∅ 0)) :=
  BIBase.BiEntails.of_eq (dma_fam c fun g => atPos ER g r ∅ 0)

theorem inv_at (K : Dev nD × CK → ℕ) (ck : Dev nD × CK) : records m K ⊢ cellInv ER (Rd m) (K ck) (kcell ck) := by
  unfold records
  exact (Idealize.SL.BI.sep_and.trans Idealize.SL.BI.and_elimL).trans (bigSep_elim (Finset.mem_univ ck))
theorem reached_at (K : Dev nD × CK → ℕ) (ck : Dev nD × CK) : records m K ⊢ reached ER (kcell ck) 0 := by
  unfold records
  exact (Idealize.SL.BI.sep_and.trans Idealize.SL.BI.and_elimR).trans (bigSep_elim (Finset.mem_univ ck))

theorem inv_dma (K : Dev nD × CK → ℕ) (c : Dev nD) (j : Fin 256) (k : ℕ) (hk : k < 258) (e : 2 + j.val = k) :
    records m K ⊢ cellInv ER (Rd m) (K (c, some j)) (dcell c k hk) := by
  rw [← kcell_some c j k hk e]; exact inv_at m K (c, some j)
theorem reached_dma (K : Dev nD × CK → ℕ) (c : Dev nD) (j : Fin 256) (k : ℕ) (hk : k < 258) (e : 2 + j.val = k) :
    records m K ⊢ reached ER (dcell c k hk) 0 := by
  rw [← kcell_some c j k hk e]; exact reached_at m K (c, some j)

theorem inv_bar (K : Dev nD × CK → ℕ) (c : Dev nD) : records m K ⊢ cellInv ER (Rd m) (K (c, none)) (barCell c) :=
  inv_at m K (c, none)
theorem inv_ysend (K : Dev nD × CK → ℕ) (c : Dev nD) (i : Fin 32) :
    records m K ⊢ cellInv ER (Rd m) (K (c, some ⟨0 + i.val, by omega⟩)) (ysendC c i) :=
  inv_dma m K c ⟨0 + i.val, by omega⟩ (2 + i.val) (by omega) (by show 2 + (0 + i.val) = 2 + i.val; omega)
theorem inv_yrecv (K : Dev nD × CK → ℕ) (c : Dev nD) (i : Fin 32) :
    records m K ⊢ cellInv ER (Rd m) (K (c, some ⟨32 + i.val, by omega⟩)) (yrecvC c i) :=
  inv_dma m K c ⟨32 + i.val, by omega⟩ (34 + i.val) (by omega) (by show 2 + (32 + i.val) = 34 + i.val; omega)
theorem inv_xsend (K : Dev nD × CK → ℕ) (c : Dev nD) (j : Fin 48) :
    records m K ⊢ cellInv ER (Rd m) (K (c, some ⟨64 + j.val, by omega⟩)) (xsendC c j) :=
  inv_dma m K c ⟨64 + j.val, by omega⟩ (66 + j.val) (by omega) (by show 2 + (64 + j.val) = 66 + j.val; omega)
theorem inv_xrecvS (K : Dev nD × CK → ℕ) (c : Dev nD) (i : Fin 32) :
    records m K ⊢ cellInv ER (Rd m) (K (c, some ⟨112 + i.val, by omega⟩)) (xrecvSC c i) :=
  inv_dma m K c ⟨112 + i.val, by omega⟩ (114 + i.val) (by omega) (by show 2 + (112 + i.val) = 114 + i.val; omega)
theorem inv_xrecvD (K : Dev nD × CK → ℕ) (c : Dev nD) (i : Fin 16) :
    records m K ⊢ cellInv ER (Rd m) (K (c, some ⟨144 + i.val, by omega⟩)) (xrecvDC c i) :=
  inv_dma m K c ⟨144 + i.val, by omega⟩ (146 + i.val) (by omega) (by show 2 + (144 + i.val) = 146 + i.val; omega)
theorem inv_zsend (K : Dev nD × CK → ℕ) (c : Dev nD) (j : Fin 48) :
    records m K ⊢ cellInv ER (Rd m) (K (c, some ⟨160 + j.val, by omega⟩)) (zsendC c j) :=
  inv_dma m K c ⟨160 + j.val, by omega⟩ (162 + j.val) (by omega) (by show 2 + (160 + j.val) = 162 + j.val; omega)
theorem inv_zrecvS (K : Dev nD × CK → ℕ) (c : Dev nD) (i : Fin 32) :
    records m K ⊢ cellInv ER (Rd m) (K (c, some ⟨208 + i.val, by omega⟩)) (zrecvSC c i) :=
  inv_dma m K c ⟨208 + i.val, by omega⟩ (210 + i.val) (by omega) (by show 2 + (208 + i.val) = 210 + i.val; omega)
theorem inv_zrecvD (K : Dev nD × CK → ℕ) (c : Dev nD) (i : Fin 16) :
    records m K ⊢ cellInv ER (Rd m) (K (c, some ⟨240 + i.val, by omega⟩)) (zrecvDC c i) :=
  inv_dma m K c ⟨240 + i.val, by omega⟩ (242 + i.val) (by omega) (by show 2 + (240 + i.val) = 242 + i.val; omega)

theorem reached_bar (K : Dev nD × CK → ℕ) (c : Dev nD) : records m K ⊢ reached ER (barCell c) 0 :=
  reached_at m K (c, none)

theorem bigSep_fin16 (Φ : Fin 16 → sProp 𝕄) :
    bigSep Finset.univ Φ
      = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

theorem bigSep_fin32 (Φ : Fin 32 → sProp 𝕄) :
    bigSep Finset.univ Φ
      = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15
        ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31) :=
  bigSep_univ_eq_bigSepL [0, 1, 2, 3, 4, 5, 6, 7, 8, 9, 10, 11, 12, 13, 14, 15, 16, 17, 18, 19, 20, 21, 22, 23, 24, 25, 26, 27, 28, 29, 30, 31]
    (by decide) (by decide) Φ

theorem bigSep_fin48 (Φ : Fin 48 → sProp 𝕄) :
    bigSep Finset.univ Φ
      = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15
        ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31
        ∗ Φ 32 ∗ Φ 33 ∗ Φ 34 ∗ Φ 35 ∗ Φ 36 ∗ Φ 37 ∗ Φ 38 ∗ Φ 39 ∗ Φ 40 ∗ Φ 41 ∗ Φ 42 ∗ Φ 43 ∗ Φ 44 ∗ Φ 45 ∗ Φ 46 ∗ Φ 47) :=
  bigSep_univ_eq_bigSepL [0, 1, 2, 3, 4, 5, 6, 7, 8, 9, 10, 11, 12, 13, 14, 15, 16, 17, 18, 19, 20, 21, 22, 23, 24, 25, 26, 27, 28, 29, 30, 31,
      32, 33, 34, 35, 36, 37, 38, 39, 40, 41, 42, 43, 44, 45, 46, 47]
    (by decide) (by decide) Φ

end

instance records_persistent (K : Dev nD × CK → ℕ) : BI.Persistent (records m K) := by unfold records; infer_instance

-- What follows from the records for every index follows for all indices at once: the records can be copied.
theorem rec_fam {n : ℕ} (K : Dev nD × CK → ℕ) (Φ : Fin n → sProp 𝕄) (h : ∀ i, records m K ⊢ Φ i) :
    records m K ⊢ bigSep Finset.univ Φ :=
  (bigSep_of_persistent Finset.univ (records m K)).trans (bigSep_mono fun i _ => h i)

/-- info: 'Cert.KernelIdeal.Hand.rec_fam' depends on axioms: [propext, Classical.choice, Quot.sound] -/
#guard_msgs in #print axioms rec_fam

end Cert.KernelIdeal.Hand

end
-- ==== Proof.HandKernelIdeal.Launch.lean ====
import proofs.«900716_g7700000000000717_dist_ar_v7x_xyz2x2x4_y_m4096_n1024_f32_1_alg».proof.Proof.HandKernelIdeal.Unpack

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem osem_injective : Function.Injective osem := fun k k' h => by
  have h2 : 2 + k.val = 2 + k'.val := congrArg Fin.val (SemLoc.dma.inj h)
  exact Fin.ext (by omega)

theorem csem_injective : Function.Injective csem := by
  rintro (_|k) (_|k') h <;> first | rfl | cases h | exact congrArg some (osem_injective h)

theorem kcell_injective : Function.Injective (kcell : Dev nD × CK → GSem nD τ sig) := by
  rintro ⟨c, k⟩ ⟨c', k'⟩ h
  obtain rfl : c = c' := congrArg (fun g : GSem nD τ sig => g.1.1) h
  rw [csem_injective (show csem k = csem k' from congrArg Prod.snd h)]

theorem ownSemFacts : Pipeline.OwnSemFacts cfg0.spec osem where
  isScoped := by decide
  inj := osem_injective
  disj := fun k w s h => by
    have h2 : 2 + k.val = ((cfg0.spec w).sem s).val := congrArg Fin.val (SemLoc.dma.inj h)
    have := (by decide : ∀ (w : Fin cfg0.W) (s : Fin (cfg0.spec w).nbuf), ((cfg0.spec w).sem s).val < 2) w s
    omega

omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [unscopedSems0_eq, bigSep_option]
  exact sep_comm.1

def ringCells : Finset (GSem nD τ sig) := Finset.univ.map ⟨kcell, kcell_injective⟩

/-- A device's duties as minted: the three on its barrier cell, then one on each of its 256 own cells. -/
def tokOf (cj : Dev nD × (Fin 3 ⊕ Fin 256)) : GSem nD τ sig × ℕ × Fin 3 :=
  (kcell (cj.1, cj.2.elim (fun _ => none) some), 0, cj.2.elim id fun _ => 0)

theorem tokOf_injective : Function.Injective tokOf := by
  rintro ⟨c, j⟩ ⟨c', j'⟩ h
  have hk := Prod.mk.inj (kcell_injective (congrArg Prod.fst h))
  have hd := congrArg (fun x : GSem nD τ sig × ℕ × Fin 3 => x.2.2) h
  obtain rfl : c = c' := hk.1
  rcases j with d|k <;> rcases j' with d'|k' <;> cases hk.2 <;> first | rfl | exact (show d = d' from hd) ▸ rfl

def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

/-- The duty tokens of a device's own cells. -/
def toks (c : Dev nD) : sProp 𝕄 :=
  iprop((bigSep Finset.univ fun d : Fin 3 => dutyTok ER (barCell c) 0 d)
    ∗ bigSep Finset.univ fun k : Fin 256 => dutyTok ER (kcell (c, some k)) 0 (0 : Fin 3))

/-- What a device holds of its own cells, with P at each cell: its positions, round 0 reached, its cells' tokens. -/
def Gq (P : GSem nD τ sig → sProp 𝕄) (c : Dev nD) : sProp 𝕄 :=
  iprop((bigSep Finset.univ fun k : CK => P (kcell (c, k))) ∗ ownPos c
    ∗ (bigSep Finset.univ fun k : CK => reached ER (kcell (c, k)) 0) ∗ toks c)

abbrev G : Dev nD → sProp 𝕄 := Gq fun g => roundState ER (Rd m) g 0
abbrev G₁ : Dev nD → sProp 𝕄 := Gq fun g => iprop(∃ κ : ℕ, cellInv ER (Rd m) κ g)

def G' (c : Dev nD) : sProp 𝕄 := iprop(∃ K, ghost m K c)

omit [FloatOps F] in
/-- The launch element deals every device the round state, position, reached round 0 and tokens of its own cells. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => bigSep_univ_sum _
  have h := Rounds.fund ER (Rd m) ringCells ringToks
  simp only [hX, hT] at h
  unfold G Gq ownPos; simp only [bigSep_sep']
  iintro HX
  imod h $$ HX with ⟨Hst, Hr, Hat, Htok⟩
  imodintro
  iframe

omit [FloatOps F] in
/-- A device's cells at zero with their round states become the cells' invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> G₁ m c := by
  unfold G G₁ Gq
  iintro ⟨Hos, Hus, Hst, Hrest⟩
  ihave Hv := (sems0_eq (F := F) c) $$ [Hos Hus]
  · iframe
  imod (show iprop((bigSep Finset.univ fun k : CK => semVal (kcell (c, k)) 0) ∗ bigSep Finset.univ fun k : CK => roundState ER (Rd m) (kcell (c, k)) 0)
      ⊢ (|={Set.univ}=> bigSep Finset.univ fun k : CK => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · iframe
  imodintro
  iframe

abbrev yE : Dev nD ≃ Dev nD := ⟨yN, yN, yN_yN, yN_yN⟩
abbrev xE : Dev nD ≃ Dev nD := ⟨xN, xN, xN_xN, xN_xN⟩
abbrev zE : Dev nD ≃ Dev nD := ⟨zN, zN, zN_zN, zN_zN⟩

omit [FloatOps F] in
/-- Each token goes to the device that pays its duty: along the involutions yN, xN, zN the conjunction over all devices is the same. -/
theorem toks_around : (bigSep Finset.univ fun c : Dev nD => (toks c : sProp 𝕄)) ⊢ bigSep Finset.univ fun c : Dev nD => payToks c := by
  unfold toks payToks
  simp only [fun c => dma_fam c fun g => (dutyTok ER g 0 (0 : Fin 3) : sProp 𝕄), bigSep_fin3, bigSep_sep']
  rw [bigSep_univ_equiv yE (fun c : Dev nD => (dutyTok ER (barCell c) 0 (0 : Fin 3) : sProp 𝕄)),
    bigSep_univ_equiv xE (fun c : Dev nD => (dutyTok ER (barCell c) 0 (1 : Fin 3) : sProp 𝕄)),
    bigSep_univ_equiv zE (fun c : Dev nD => (dutyTok ER (barCell c) 0 (2 : Fin 3) : sProp 𝕄)),
    bigSep_univ_equiv yE (fun c : Dev nD => (bigSep Finset.univ fun i : Fin 32 => dutyTok ER (yrecvC c i) 0 (0 : Fin 3) : sProp 𝕄)),
    bigSep_univ_equiv xE (fun c : Dev nD => (bigSep Finset.univ fun i : Fin 32 => dutyTok ER (xrecvSC c i) 0 (0 : Fin 3) : sProp 𝕄)),
    bigSep_univ_equiv xE (fun c : Dev nD => (bigSep Finset.univ fun i : Fin 16 => dutyTok ER (xrecvDC c i) 0 (0 : Fin 3) : sProp 𝕄)),
    bigSep_univ_equiv zE (fun c : Dev nD => (bigSep Finset.univ fun i : Fin 32 => dutyTok ER (zrecvSC c i) 0 (0 : Fin 3) : sProp 𝕄)),
    bigSep_univ_equiv zE (fun c : Dev nD => (bigSep Finset.univ fun i : Fin 16 => dutyTok ER (zrecvDC c i) 0 (0 : Fin 3) : sProp 𝕄))]
  iintro ⟨⟨H0, H1, H2⟩, HyS, HyR, HxS, HxRS, HxRD, HzS, HzRS, HzRD⟩
  iframe

omit [FloatOps F] in
/-- The invariants' names gathered into one function, every device holds the records, its positions and the tokens it pays. -/
theorem regroup : (bigSep Finset.univ (G₁ m) : sProp 𝕄) ⊢ bigSep Finset.univ (G' m) := by
  unfold G₁ Gq
  rw [bigSep_sep', bigSep_sep', bigSep_sep', ← bigSep_univ_prod (fun ck : Dev nD × CK => iprop(∃ κ : ℕ, cellInv ER (Rd m) κ (kcell ck))),
    ← bigSep_univ_prod (fun ck : Dev nD × CK => (reached ER (kcell ck) 0 : sProp 𝕄))]
  iintro ⟨HI, Hat, #HR, Htok⟩
  ihave HK := (BI.bigSep_exists_pi Finset.univ (fun (ck : Dev nD × CK) (κ : ℕ) => (cellInv ER (Rd m) κ (kcell ck) : sProp 𝕄))) $$ HI
  icases HK with ⟨%K, #HI⟩
  ihave Htk := (toks_around (F := F)) $$ Htok
  iapply (bigSep_with_persistent (R := records m K) fun c _ => exists_intro (Φ := fun K => ghost m K c) K)
  isplitr
  · unfold records; isplitl; · iexact HI
    iexact HR
  · iapply (Entails.of_eq (bigSep_sep' Finset.univ (fun c : Dev nD => (ownPos c : sProp 𝕄)) payToks).symm)
    iframe

omit [FloatOps F] in
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- The arrival cells of one device, family by family, in the order of ownCred. -/
abbrev FJ : Type := Fin 32 ⊕ (Fin 32 ⊕ (Fin 16 ⊕ (Fin 32 ⊕ Fin 16)))

/-- An arrival cell's place among the 128 transfers. -/
def fam : FJ → Fin 128
  | .inl i => ⟨i.val, by omega⟩
  | .inr (.inl i) => ⟨32 + 2 * i.val, by omega⟩
  | .inr (.inr (.inl i)) => ⟨96 + i.val, by omega⟩
  | .inr (.inr (.inr (.inl i))) => ⟨33 + 2 * i.val, by omega⟩
  | .inr (.inr (.inr (.inr i))) => ⟨112 + i.val, by omega⟩

theorem fam_injective : Function.Injective fam := by
  intro a b h
  have h' := congrArg Fin.val h
  rcases a with a|a|a|a|a <;> rcases b with b|b|b|b|b <;> simp only [fam] at h' <;>
    first
    | (exfalso; omega)
    | (have e : a = b := Fin.ext (by omega); subst e; rfl)

def famE : FJ ≃ Fin 128 :=
  Equiv.ofBijective fam ((Fintype.bijective_iff_injective_and_card fam).mpr ⟨fam_injective, by simp⟩)

def nbrOf : FJ → Dev nD → Dev nD
  | .inl _ => yN
  | .inr (.inl _) => xN
  | .inr (.inr (.inl _)) => xN
  | .inr (.inr (.inr (.inl _))) => zN
  | .inr (.inr (.inr (.inr _))) => zN
def semOfF : FJ → SemLoc sig
  | .inl i => .dma (dsem (34 + i.val) (by omega))
  | .inr (.inl i) => .dma (dsem (114 + i.val) (by omega))
  | .inr (.inr (.inl i)) => .dma (dsem (146 + i.val) (by omega))
  | .inr (.inr (.inr (.inl i))) => .dma (dsem (210 + i.val) (by omega))
  | .inr (.inr (.inr (.inr i))) => .dma (dsem (242 + i.val) (by omega))

theorem nbrOf_invol (a : FJ) (c : Dev nD) : nbrOf a (nbrOf a c) = c := by
  rcases a with a|a|a|a|a <;> first | exact yN_yN c | exact xN_xN c | exact zN_zN c

theorem arrive_fam (a : FJ) (d : Dev nD) : arrive d (fam a) = (((nbrOf a d).tc : Thread nD τ), semOfF a) := by
  rcases a with a|a|a|a|a
  · exact arrive_y d a
  · exact arrive_xs d a
  · exact arrive_xd d a
  · exact arrive_zs d a
  · exact arrive_zd d a

omit [FloatOps F] in
/-- Each arrival cell of a device is owed one chunk's credit by exactly one device, the neighbour the chunk comes from. -/
theorem creds_arrive (c : Dev nD) :
    (Pipeline.launchCred (fun d => Orem d 0) c : sProp 𝕄) ⊢ bigSep Finset.univ fun a : FJ => cred (tallyAt ((c.tc : Thread nD τ), semOfF a) () N) := by
  have h0 : (fun d : Dev nD => Orem d 0) = fun d => ∑ j ∈ (Finset.univ : Finset (Fin 128)), tallyAt (arrive d j) () N :=
    funext fun d => by unfold Orem; rw [Finset.filter_true_of_mem (fun j _ => Nat.zero_le _)]
  rw [h0, Pipeline.launchCred_sum, bigSep_univ_equiv famE]
  refine bigSep_mono fun a _ => ?_
  show (Pipeline.launchCred (fun d => tallyAt (arrive d (fam a)) () N) c : sProp 𝕄) ⊢ _
  rw [show (fun d : Dev nD => tallyAt (arrive d (fam a)) () N) = fun d => tallyAt (((nbrOf a d).tc : Thread nD τ), semOfF a) () N from
    funext fun d => by rw [arrive_fam]]
  exact Pipeline.launchCred_tallyAt (semOfF a) (nbrOf a) (nbrOf a) (nbrOf_invol a) (nbrOf_invol a) () N c

omit [FloatOps F] in
/-- The launch credit of a device: three units on its barrier cell and one chunk on each arrival cell. -/
theorem creds (c : Dev nD) : (Pipeline.launchCred O₀ c : sProp 𝕄) ⊢ ownCred c := by
  have hO : (O₀ : Dev nD → CellTallies nD τ sig Unit)
      = fun d => Orem d 0 + tallyAt (barCell (zN d)) () 1 + tallyAt (barCell (xN d)) () 1 + tallyAt (barCell (yN d)) () 1 := rfl
  have e3 : tallyAt (barCell c) () 1 + tallyAt (barCell c) () 1 + tallyAt (barCell c) () 1 = (tallyAt (barCell c) () 3 : CellTallies nD τ sig Unit) := by
    rw [tallyAt_add, tallyAt_add]
  rw [hO, Pipeline.launchCred_add, Pipeline.launchCred_add, Pipeline.launchCred_add]
  iintro ⟨⟨⟨Ho, Hz⟩, Hx⟩, Hy⟩
  ihave Hz' := (Pipeline.launchCred_tallyAt (.reg barS) zN zN zN_zN zN_zN () 1 c) $$ Hz
  ihave Hx' := (Pipeline.launchCred_tallyAt (.reg barS) xN xN xN_xN xN_xN () 1 c) $$ Hx
  ihave Hy' := (Pipeline.launchCred_tallyAt (.reg barS) yN yN yN_yN yN_yN () 1 c) $$ Hy
  have hA := creds_arrive (F := F) c
  simp only [bigSep_univ_sum] at hA
  change _ ⊢ iprop(_ ∗ _ ∗ _ ∗ _ ∗ _) at hA
  ihave Hoa := hA $$ Ho
  unfold ownCred
  isplitl [Hz' Hx' Hy']
  · rw [← e3]
    iapply (cred_add _ _).2
    isplitl [Hz' Hx']
    · iapply (cred_add _ _).2
      iframe
    · iexact Hy'
  · iexact Hoa

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem share_eq (c : Dev nD) (w : Fin cfg0.W) : (dats m ρ 0 c).share w = fullShare := by unfold Dat.share; split <;> rfl

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  iframe

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ landing
  iintro ⟨Hs, -, Hr⟩
  iframe

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq]
  unfold Φ₁ landing Pipeline.ownSems0
  iintro ⟨Hr, Hz⟩
  iframe

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
theorem run_main (hbody : ∀ c, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      iframe)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

theorem finalA_x (c : Dev nD) : finalA m ρ c (0 : Fin 2) = (s₀ m ρ).mem (win0_0.arr.view.loc (c : Thread nD τ)) :=
  (dats (F := F) m ρ 0 c).arrAt_in (0 : Fin 2) rfl _

theorem finalA_out (c : Dev nD) : finalA m ρ c (1 : Fin 2) = outAt m c := by
  unfold finalA
  show (dats m ρ 0 c).arrAt (1 : Fin 2) ((t₀ : Fin cfg0.N).val + 1) = _
  rw [Dat.arrAt_succ, if_pos (by decide)]
  exact Memref.write_access_unit_zero_univ (Elt F) main_v1 (funext fun a => Nat.zero_mul _) _ _ _

/-- info: 'Cert.KernelIdeal.Hand.run_main' depends on axioms: [propext, Classical.choice, Quot.sound] -/
#guard_msgs in #print axioms run_main

/-- info: 'Cert.KernelIdeal.Hand.finalA_out' depends on axioms: [propext, Classical.choice, Quot.sound] -/
#guard_msgs in #print axioms finalA_out

end Cert.KernelIdeal.Hand

end
-- ==== Proof.HandKernelIdeal.Pieces.lean ====
import proofs.«900716_g7700000000000717_dist_ar_v7x_xyz2x2x4_y_m4096_n1024_f32_1_alg».proof.Proof.HandKernelIdeal.Sched
import proofs.«900716_g7700000000000717_dist_ar_v7x_xyz2x2x4_y_m4096_n1024_f32_1_alg».proof.Proof.HandKernelIdeal.Mesh

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem read_landed (v : Memref sig .tc .vmem S32x1024 .f32) (c : Dev nD)
    (J : Buf (Elt F) (v.view.loc (c : Thread nD τ))) (V : S32x1024.Idx → Elt F .f32) :
    v.view.read (Elt F) (v.view.write (Elt F) J V Finset.univ) = V :=
  View.read_write_univ (v := v.view) J V

theorem chunk_landed (v : Memref sig .tc .vmem S32x1024 .f32) (c : Dev nD)
    (fd J : Buf (Elt F) (v.view.loc (c : Thread nD τ))) (V : S32x1024.Idx → Elt F .f32) :
    (chunkAt c v fullShare (v.view.write (Elt F) fd V Finset.univ) : sProp 𝕄)
      = chunkAt c v fullShare (v.view.write (Elt F) J V Finset.univ) := by
  refine pointsTo_congr fun i hi => ?_
  obtain ⟨x, -, rfl⟩ := Finset.mem_map.mp hi
  rw [View.write_emb_of_mem _ _ (Finset.mem_univ x), View.write_emb_of_mem _ _ (Finset.mem_univ x)]

abbrev R32 (i : Fin 32) : Rect S32x32x1024 := Rect.unit (s := S32x32x1024) ![i.val, 0, 0] S1x32x1024.size (inb32 i)
abbrev R16 (i : Fin 16) : Rect S16x32x1024 := Rect.unit (s := S16x32x1024) ![i.val, 0, 0] S1x32x1024.size (inb16 i)

theorem R32_disjoint {i j : Fin 32} (h : i ≠ j) : Disjoint (R32 i).set (R32 j).set := by
  have hv : i.val ≠ j.val := fun e => h (Fin.ext e)
  refine Rect.unit_disjoint (0 : Fin 3) ?_
  show i.val + 1 ≤ j.val ∨ j.val + 1 ≤ i.val
  omega
theorem R16_disjoint {i j : Fin 16} (h : i ≠ j) : Disjoint (R16 i).set (R16 j).set := by
  have hv : i.val ≠ j.val := fun e => h (Fin.ext e)
  refine Rect.unit_disjoint (0 : Fin 3) ?_
  show i.val + 1 ≤ j.val ∨ j.val + 1 ≤ i.val
  omega

theorem R32_cover (x : S32x32x1024.Idx) : x ∈ (R32 ⟨(x 0).val, (x 0).isLt⟩).set := by
  refine Rect.mem_set_unit.mpr fun a => ?_
  fin_cases a
  · show (x 0).val ≤ (x 0).val ∧ (x 0).val < (x 0).val + 1
    omega
  · have h : (x 1).val < 32 := (x 1).isLt
    show 0 ≤ (x 1).val ∧ (x 1).val < 0 + 32
    omega
  · have h : (x 2).val < 1024 := (x 2).isLt
    show 0 ≤ (x 2).val ∧ (x 2).val < 0 + 1024
    omega
theorem R16_cover (x : S16x32x1024.Idx) : x ∈ (R16 ⟨(x 0).val, (x 0).isLt⟩).set := by
  refine Rect.mem_set_unit.mpr fun a => ?_
  fin_cases a
  · show (x 0).val ≤ (x 0).val ∧ (x 0).val < (x 0).val + 1
    omega
  · have h : (x 1).val < 32 := (x 1).isLt
    show 0 ≤ (x 1).val ∧ (x 1).val < 0 + 32
    omega
  · have h : (x 2).val < 1024 := (x 2).isLt
    show 0 ≤ (x 2).val ∧ (x 2).val < 0 + 1024
    omega

-- Blocks that partition a buffer's index space, placed as the buffer is, partition the buffer's elements.
theorem cover_map {s : Shape} {n : ℕ} (R : Fin n → Rect s) (M : Memref sig .tc .vmem s .f32) (hc : ∀ x : s.Idx, ∃ i, x ∈ (R i).set) :
    (Finset.univ : Finset (Fin n)).biUnion (fun i => (R i).set.map M.view.emb) = M.view.set := by
  ext j
  rw [Finset.mem_biUnion]
  constructor
  · rintro ⟨i, -, hj⟩
    obtain ⟨x, -, rfl⟩ := Finset.mem_map.mp hj
    exact M.view.emb_mem_set x
  · intro hj
    obtain ⟨x, -, rfl⟩ := Finset.mem_map.mp hj
    obtain ⟨i, hi⟩ := hc x
    exact ⟨i, Finset.mem_univ _, Finset.mem_map_of_mem _ hi⟩

-- A whole buffer held at one contents and one share is its blocks so held.
theorem land_split {s : Shape} {n : ℕ} (R : Fin n → Rect s) (M : Memref sig .tc .vmem s .f32)
    (hd : ∀ {i j}, i ≠ j → Disjoint (R i).set (R j).set) (hc : ∀ x : s.Idx, ∃ i, x ∈ (R i).set)
    (c : Dev nD) (hM : M.IsWhole) (q : PosShare TreeShare) (f : Buf (Elt F) (M.view.loc (c : Thread nD τ))) :
    (M.view.loc (c : Thread nD τ) ↦{q} f : sProp 𝕄) = bigSep Finset.univ fun i : Fin n => (M.view.loc (c : Thread nD τ) ↦[(R i).set.map M.view.emb]{q} f) := by
  have hK := pointsTo_biUnion (U := UU) (Ix := Unit) (Name := ℕ) (Lvl := ℕ) (Val := Elt F)
    (ℓ := M.view.loc (c : Thread nD τ)) (q := q) (f := f) Finset.univ (fun i : Fin n => (R i).set.map M.view.emb)
    (fun i _ j _ h => (Finset.disjoint_map _).mpr (hd h))
  rw [cover_map R M hc, hM.set_eq_univ] at hK
  exact hK

-- The blocks, each at contents of its own, are the whole buffer at some contents (f₀ only says that there are contents).
theorem land_join {s : Shape} {n : ℕ} (R : Fin n → Rect s) (M : Memref sig .tc .vmem s .f32)
    (hd : ∀ {i j}, i ≠ j → Disjoint (R i).set (R j).set) (hc : ∀ x : s.Idx, ∃ i, x ∈ (R i).set)
    (c : Dev nD) (hM : M.IsWhole) (q : PosShare TreeShare) (f₀ : Buf (Elt F) (M.view.loc (c : Thread nD τ))) :
    (bigSep Finset.univ fun i : Fin n => iprop(∃ g, M.view.loc (c : Thread nD τ) ↦[(R i).set.map M.view.emb]{q} g) : sProp 𝕄)
      ⊢ iprop(∃ f, M.view.loc (c : Thread nD τ) ↦{q} f) := by
  haveI : ∀ _ : Fin n, Nonempty (Buf (Elt F) (M.view.loc (c : Thread nD τ))) := fun _ => ⟨f₀⟩
  have h1 := bigSep_exists_pi (M := 𝕄) (Y := fun _ : Fin n => Buf (Elt F) (M.view.loc (c : Thread nD τ))) Finset.univ
    (fun i g => (M.view.loc (c : Thread nD τ) ↦[(R i).set.map M.view.emb]{q} g : sProp 𝕄))
  have h2 := fun gs : Fin n → Buf (Elt F) (M.view.loc (c : Thread nD τ)) =>
    pointsTo_biUnion_join (U := UU) (Ix := Unit) (Name := ℕ) (Lvl := ℕ) (Val := Elt F)
      (ℓ := M.view.loc (c : Thread nD τ)) (q := q) Finset.univ (fun i : Fin n => (R i).set.map M.view.emb) gs f₀
      (fun i _ j _ h => (Finset.disjoint_map _).mpr (hd h))
  rw [cover_map R M hc, hM.set_eq_univ] at h2
  refine h1.trans ?_
  iintro ⟨%gs, H⟩
  ihave H2 := (h2 gs) $$ H
  icases H2 with ⟨%g, %hg, H2⟩
  iexists g
  iexact H2

theorem chunkAt_slot32 (c : Dev nD) (M : Memref sig .tc .vmem S32x32x1024 .f32) (i : Fin 32) (q : PosShare TreeShare)
    (f : Buf (Elt F) (M.view.loc (c : Thread nD τ))) :
    (chunkAt c (slot32 M i) q f : sProp 𝕄) = (M.view.loc (c : Thread nD τ) ↦[(R32 i).set.map M.view.emb]{q} f) :=
  congrArg (fun I : Finset (Idx (M.view.loc (c : Thread nD τ))) => (M.view.loc (c : Thread nD τ) ↦[I]{q} f : sProp 𝕄))
    ((View.set_reshape (M.view.slice (R32 i)) squeezes_S1x32x1024_S32x1024.numel_eq).trans (View.set_slice M.view (R32 i)))
theorem chunkAt_slot16 (c : Dev nD) (M : Memref sig .tc .vmem S16x32x1024 .f32) (i : Fin 16) (q : PosShare TreeShare)
    (f : Buf (Elt F) (M.view.loc (c : Thread nD τ))) :
    (chunkAt c (slot16 M i) q f : sProp 𝕄) = (M.view.loc (c : Thread nD τ) ↦[(R16 i).set.map M.view.emb]{q} f) :=
  congrArg (fun I : Finset (Idx (M.view.loc (c : Thread nD τ))) => (M.view.loc (c : Thread nD τ) ↦[I]{q} f : sProp 𝕄))
    ((View.set_reshape (M.view.slice (R16 i)) squeezes_S1x32x1024_S32x1024.numel_eq).trans (View.set_slice M.view (R16 i)))

theorem land32_split (c : Dev nD) (M : Memref sig .tc .vmem S32x32x1024 .f32) (hM : M.IsWhole) (q : PosShare TreeShare)
    (f : Buf (Elt F) (M.view.loc (c : Thread nD τ))) :
    (M.view.loc (c : Thread nD τ) ↦{q} f : sProp 𝕄) = bigSep Finset.univ fun i : Fin 32 => chunkAt c (slot32 M i) q f :=
  (land_split R32 M R32_disjoint (fun x => ⟨_, R32_cover x⟩) c hM q f).trans (bigSep_congr fun i _ => (chunkAt_slot32 c M i q f).symm)
theorem land16_split (c : Dev nD) (M : Memref sig .tc .vmem S16x32x1024 .f32) (hM : M.IsWhole) (q : PosShare TreeShare)
    (f : Buf (Elt F) (M.view.loc (c : Thread nD τ))) :
    (M.view.loc (c : Thread nD τ) ↦{q} f : sProp 𝕄) = bigSep Finset.univ fun i : Fin 16 => chunkAt c (slot16 M i) q f :=
  (land_split R16 M R16_disjoint (fun x => ⟨_, R16_cover x⟩) c hM q f).trans (bigSep_congr fun i _ => (chunkAt_slot16 c M i q f).symm)

theorem land32_join (c : Dev nD) (M : Memref sig .tc .vmem S32x32x1024 .f32) (hM : M.IsWhole) (q : PosShare TreeShare)
    (f₀ : Buf (Elt F) (M.view.loc (c : Thread nD τ))) :
    (bigSep Finset.univ fun i : Fin 32 => iprop(∃ g, chunkAt c (slot32 M i) q g) : sProp 𝕄)
      ⊢ iprop(∃ f, M.view.loc (c : Thread nD τ) ↦{q} f) :=
  (bigSep_mono fun i _ => Entails.of_eq (congrArg (fun P : Buf (Elt F) (M.view.loc (c : Thread nD τ)) → sProp 𝕄 => iprop(∃ g, P g))
    (funext fun g => chunkAt_slot32 c M i q g))).trans (land_join R32 M R32_disjoint (fun x => ⟨_, R32_cover x⟩) c hM q f₀)
theorem land16_join (c : Dev nD) (M : Memref sig .tc .vmem S16x32x1024 .f32) (hM : M.IsWhole) (q : PosShare TreeShare)
    (f₀ : Buf (Elt F) (M.view.loc (c : Thread nD τ))) :
    (bigSep Finset.univ fun i : Fin 16 => iprop(∃ g, chunkAt c (slot16 M i) q g) : sProp 𝕄)
      ⊢ iprop(∃ f, M.view.loc (c : Thread nD τ) ↦{q} f) :=
  (bigSep_mono fun i _ => Entails.of_eq (congrArg (fun P : Buf (Elt F) (M.view.loc (c : Thread nD τ)) → sProp 𝕄 => iprop(∃ g, P g))
    (funext fun g => chunkAt_slot16 c M i q g))).trans (land_join R16 M R16_disjoint (fun x => ⟨_, R16_cover x⟩) c hM q f₀)

theorem share2 (c : Dev nD) (v : Memref sig .tc .vmem S32x1024 .f32) (f : Buf (Elt F) (v.view.loc (c : Thread nD τ))) :
    (chunkAt c v fullShare f : sProp 𝕄) ⊣⊢ iprop(chunkAt c v qa f ∗ chunkAt c v fullShare.right f) :=
  pointsTo_share (PosShare.mem_left_op_right fullShare)

theorem share_right (c : Dev nD) (v : Memref sig .tc .vmem S32x1024 .f32) (f : Buf (Elt F) (v.view.loc (c : Thread nD τ))) :
    (chunkAt c v fullShare.right f : sProp 𝕄) ⊣⊢ iprop(chunkAt c v qb f ∗ chunkAt c v qc f) :=
  pointsTo_share (PosShare.mem_left_op_right fullShare.right)

theorem share3 (c : Dev nD) (v : Memref sig .tc .vmem S32x1024 .f32) (f : Buf (Elt F) (v.view.loc (c : Thread nD τ))) :
    (chunkAt c v fullShare f : sProp 𝕄) ⊣⊢ iprop(chunkAt c v qa f ∗ chunkAt c v qb f ∗ chunkAt c v qc f) :=
  ⟨(share2 c v f).1.trans (sep_mono_right (share_right c v f).1),
   (sep_mono_right (share_right c v f).2).trans (share2 c v f).2⟩

abbrev rowR (c : Dev nD) (i : Fin 32) : Rect S4096x1024 :=
  Rect.unit (s := S4096x1024) (k0_off1 c (BitVec.ofNat 32 (32 * i.val))) S32x1024.size (k0_off1_inb c i)

theorem rowR_disjoint (c : Dev nD) {i j : Fin 32} (h : i ≠ j) : Disjoint (rowR c i).set (rowR c j).set := by
  have hv : i.val ≠ j.val := fun e => h (Fin.ext e)
  have hi : k0_off1 c (BitVec.ofNat 32 (32 * i.val)) 0 = base1 c + 32 * i.val := congrFun (off1_eq c i) 0
  have hj : k0_off1 c (BitVec.ofNat 32 (32 * j.val)) 0 = base1 c + 32 * j.val := congrFun (off1_eq c j) 0
  refine Rect.unit_disjoint (0 : Fin 2) ?_
  show k0_off1 c (BitVec.ofNat 32 (32 * i.val)) 0 + 32 ≤ k0_off1 c (BitVec.ofNat 32 (32 * j.val)) 0
    ∨ k0_off1 c (BitVec.ofNat 32 (32 * j.val)) 0 + 32 ≤ k0_off1 c (BitVec.ofNat 32 (32 * i.val)) 0
  rw [hi, hj]
  omega

def rowSet (c : Dev nD) (i : Fin 32) : Finset (xM : Memref sig .tc .vmem S4096x1024 .f32).view.ty.Idx := (rowR c i).set

theorem xrow_set (c : Dev nD) (i : Fin 32) :
    ((xrow c i).view.set : Finset (xM : Memref sig .tc .vmem S4096x1024 .f32).view.ty.Idx) = rowSet c i :=
  View.set_slice_whole cc0_stg0_0 (rowR c i)

theorem rowSet_disjoint (c : Dev nD) {i j : Fin 32} (h : i ≠ j) : Disjoint (rowSet c i) (rowSet c j) := rowR_disjoint c h

def restSet (c : Dev nD) : Finset (Idx ((c : Thread nD τ).loc cc0_stg0_0)) :=
  Finset.univ \ (Finset.univ : Finset (Fin 32)).biUnion (rowSet c)

theorem chunkAt_xrow (c : Dev nD) (i : Fin 32) (q : PosShare TreeShare) (X : Buf (Elt F) ((c : Thread nD τ).loc cc0_stg0_0)) :
    (chunkAt c (xrow c i) q X : sProp 𝕄) = ((c : Thread nD τ).loc cc0_stg0_0 ↦[rowSet c i]{q} X) :=
  congrArg (fun I : Finset (Idx ((c : Thread nD τ).loc cc0_stg0_0)) => ((c : Thread nD τ).loc cc0_stg0_0 ↦[I]{q} X : sProp 𝕄))
    (xrow_set c i)

theorem xrows_split (c : Dev nD) (X : Buf (Elt F) ((c : Thread nD τ).loc cc0_stg0_0)) :
    ((c : Thread nD τ).loc cc0_stg0_0 ↦{fullShare} X : sProp 𝕄)
      = iprop(((c : Thread nD τ).loc cc0_stg0_0 ↦{fullShare.right} X)
          ∗ (bigSep Finset.univ fun i : Fin 32 => chunkAt c (xrow c i) qa X)
          ∗ ((c : Thread nD τ).loc cc0_stg0_0 ↦[restSet c]{qa} X)) := by
  have h1 := pointsTo_share (U := UU) (Ix := Unit) (Name := ℕ) (Lvl := ℕ) (Val := Elt F)
    (ℓ := (c : Thread nD τ).loc cc0_stg0_0) (I := Finset.univ) (f := X) (PosShare.mem_left_op_right fullShare)
  have h2 := pointsTo_split_subset (U := UU) (Ix := Unit) (Name := ℕ) (Lvl := ℕ) (Val := Elt F)
    (ℓ := (c : Thread nD τ).loc cc0_stg0_0) (q := qa) (f := X) (S := Finset.univ)
    (I := (Finset.univ : Finset (Fin 32)).biUnion (rowSet c)) (Finset.subset_univ _)
  have h3 := pointsTo_biUnion (U := UU) (Ix := Unit) (Name := ℕ) (Lvl := ℕ) (Val := Elt F)
    (ℓ := (c : Thread nD τ).loc cc0_stg0_0) (q := qa) (f := X) Finset.univ (rowSet c) (fun i _ j _ h => rowSet_disjoint c h)
  have e1 := BI.equiv_iff.mp ⟨h1.1, h1.2⟩
  have e2 := BI.equiv_iff.mp ⟨h2.1, h2.2⟩
  have e3 := h3.trans (bigSep_congr (Ψ := fun i : Fin 32 => (chunkAt c (xrow c i) qa X : sProp 𝕄))
    fun i _ => (chunkAt_xrow c i qa X).symm)
  rw [e1, e2, e3]
  unfold restSet
  exact BI.equiv_iff.mp ⟨Idealize.SL.BI.sep_comm, Idealize.SL.BI.sep_comm⟩

/-- info: 'Cert.KernelIdeal.Hand.xrows_split' depends on axioms: [propext, Classical.choice, Quot.sound] -/
#guard_msgs in #print axioms xrows_split

end Cert.KernelIdeal.Hand

end
-- ==== Proof.HandKernelIdeal.Steps.lean ====
import proofs.«900716_g7700000000000717_dist_ar_v7x_xyz2x2x4_y_m4096_n1024_f32_1_alg».proof.Proof.HandKernelIdeal.Unpack
import proofs.«900716_g7700000000000717_dist_ar_v7x_xyz2x2x4_y_m4096_n1024_f32_1_alg».proof.Proof.HandKernelIdeal.Pieces

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

-- A cell with one round only is closed at zero once that round is past.
theorem close_own (c : Dev nD) (K : Dev nD × CK → ℕ) :
    iprop(records m K ∗ bigSep Finset.univ fun j : Fin 256 => atPos ER (kcell (c, some j)) 1 ∅ 0)
      ⊢ |={Set.univ}=> bigSep Finset.univ fun j : Fin 256 => semVal ((c : Thread nD τ), osem j) 0 := by
  refine (sep_mono_left (bigSep_of_persistent (Finset.univ : Finset (Fin 256)) (records m K))).trans ?_
  rw [← bigSep_sep']
  refine (bigSep_mono fun j _ => ?_).trans (bigSep_fupd _ _)
  exact (sep_mono_left (inv_at m K (c, some j))).trans
    (Rounds.cell_close ER (Rd m) (Set.mem_univ (K (c, some j))) (fun h => h) (R := 1) (duties_later m (kcell (c, some j))))

-- Transfer number a of device c: a chunk written whole over any contents holds what travelled, so both cells' payloads are met.
theorem step_at (c c' : Dev nD) (K : Dev nD × CK → ℕ) {src dst : Memref sig .tc .vmem S32x1024 .f32}
    (n₁ n₂ : ℕ) (h₁ : n₁ < 258) (h₂ : n₂ < 258) (g₁ : 2 ≤ n₁) (g₂ : 2 ≤ n₂)
    {hsc : (dst : Memref sig (Dev.tc c' : Thread nD τ).2.kind .vmem S32x1024 .f32).view.ref.isScScratch = false}
    {hsrc : src.view.WordExact} {hdst : dst.view.WordExact}
    {hsem : DmaTarget.Typed .vmem (.dma (dsem n₂ h₂)) (.remote (Dev.tc c' : Thread nD τ) dst (.dma (dsem n₁ h₁)) hsc)}
    {α : Type} {Q : α → sProp 𝕄} {k : PUnit → Prog (TpuEff nD τ sig (Elt F) Λ₀ .tc) α}
    (a : Fin 128) (ha : arrive c a = dcell c' n₂ h₂) (hr : τ.routes (c : Thread nD τ) (c' : Thread nD τ) = true)
    (q : PosShare TreeShare) (fs : Buf (Elt F) (src.view.loc (c : Thread nD τ)))
    (fd J : Buf (Elt F) (dst.view.loc (c' : Thread nD τ))) (V : S32x1024.Idx → Elt F .f32) (W : Waits sig Unit)
    (hpay₁ : (Rd m).payload (dcell c n₁ h₁) 0 0 = chunkAt c src q fs)
    (hpay₂ : (Rd m).payload (dcell c' n₂ h₂) 0 0 = chunkAt c' dst fullShare (dst.view.write (Elt F) J V Finset.univ))
    (hV : V = src.view.read (Elt F) fs) :
    iprop(records m K ∗ chunkAt c src q fs ∗ chunkAt c' dst fullShare fd
        ∗ owes (c : Thread nD τ) (Orem c a.val) W
        ∗ dutyTok ER (dcell c n₁ h₁) 0 (0 : Fin 3) ∗ dutyTok ER (dcell c' n₂ h₂) 0 (0 : Fin 3))
      ⊢ iprop(((cred (tallyAt (dcell c n₁ h₁) () N) ∗ owes (c : Thread nD τ) (Orem c (a.val + 1)) W)
              -∗ wp frame (wpE (defs₀ (F := F)) Variants.none (c : Thread nD τ) none) Set.univ (k ⟨⟩) Q)
          -∗ wp frame (wpE (defs₀ (F := F)) Variants.none (c : Thread nD τ) none) Set.univ
              (.op (.enqueueDma src (.remote (Dev.tc c' : Thread nD τ) dst (.dma (dsem n₁ h₁)) hsc) (.dma (dsem n₂ h₂)) hsrc hdst hsem) k) Q) := by
  subst hV
  rw [Orem_peel c a, ha]
  iintro ⟨#Hrec, Hsrc, Hdst, HO, Ht₁, Ht₂⟩
  iapply (Rounds.wp_send_pointsTo Variants.none ER (Rd m) (c : Thread nD τ) none
    (κ₁ := K (c, some ⟨n₁ - 2, by omega⟩)) (κ₂ := K (c', some ⟨n₂ - 2, by omega⟩))
    (r₁ := 0) (r₂ := 0) (d₁ := (0 : Fin 3)) (d₂ := (0 : Fin 3)) (fd := fd)
    (duties_dma m c n₁ h₁ g₁ ▸ Finset.mem_singleton_self _) (duties_dma m c' n₂ h₂ g₂ ▸ Finset.mem_singleton_self _) () () N rfl rfl rfl (Orem c (a.val + 1)) rfl (W := W)
    (Entails.of_eq hpay₁.symm) (Entails.of_eq ((chunk_landed dst c' fd J _).trans hpay₂.symm)) hr)
  ihave #H₁ := (inv_dma m K c ⟨n₁ - 2, by omega⟩ n₁ h₁ (Nat.add_sub_cancel' g₁)) $$ Hrec
  ihave #H₂ := (inv_dma m K c' ⟨n₂ - 2, by omega⟩ n₂ h₂ (Nat.add_sub_cancel' g₂)) $$ Hrec
  ihave #H₃ := (reached_dma m K c ⟨n₁ - 2, by omega⟩ n₁ h₁ (Nat.add_sub_cancel' g₁)) $$ Hrec
  ihave #H₄ := (reached_dma m K c' ⟨n₂ - 2, by omega⟩ n₂ h₂ (Nat.add_sub_cancel' g₂)) $$ Hrec
  iframe # ∗

theorem ystepAt (c : Dev nD) (K : Dev nD × CK → ℕ) (i : Fin 32) (n : Dev nD) (hn : n = yN c)
    {hsc : (slot32 yrM i : Memref sig (Dev.tc n : Thread nD τ).2.kind .vmem S32x1024 .f32).view.ref.isScScratch = false}
    {hsrc : (xrow c i).view.WordExact} {hdst : (slot32 yrM i).view.WordExact}
    {hsem : DmaTarget.Typed .vmem (.dma (dsem (34 + i.val) (by omega))) (.remote (Dev.tc n : Thread nD τ) (slot32 yrM i) (.dma (dsem (2 + i.val) (by omega))) hsc)}
    {α : Type} {Q : α → sProp 𝕄} {k : PUnit → Prog (TpuEff nD τ sig (Elt F) Λ₀ .tc) α}
    (fd : Buf (Elt F) ((slot32 yrM i).view.loc (yN c : Thread nD τ))) (W : Waits sig Unit) :
    iprop(records m K ∗ chunkAt c (xrow c i) qa (Xs m c) ∗ chunkAt (yN c) (slot32 yrM i) fullShare fd
        ∗ owes (c : Thread nD τ) (Orem c i.val) W
        ∗ dutyTok ER (ysendC c i) 0 (0 : Fin 3) ∗ dutyTok ER (yrecvC (yN c) i) 0 (0 : Fin 3))
      ⊢ iprop(((cred (tallyAt (ysendC c i) () N) ∗ owes (c : Thread nD τ) (Orem c (i.val + 1)) W)
              -∗ wp frame (wpE (defs₀ (F := F)) Variants.none (c : Thread nD τ) none) Set.univ (k ⟨⟩) Q)
          -∗ wp frame (wpE (defs₀ (F := F)) Variants.none (c : Thread nD τ) none) Set.univ
              (.op (.enqueueDma (xrow c i) (.remote (Dev.tc n : Thread nD τ) (slot32 yrM i) (.dma (dsem (2 + i.val) (by omega))) hsc)
                (.dma (dsem (34 + i.val) (by omega))) hsrc hdst hsem) k) Q) := by
  subst hn
  exact step_at m c (yN c) K (src := xrow c i) (dst := slot32 yrM i) (2 + i.val) (34 + i.val) _ _ (by omega) (by omega) ⟨i.val, by omega⟩ (arrive_y c i) (by routes)
    qa (Xs m c) fd (Jy m (yN c)) (Vy m (yN c) i) W (payload_ysend m c i 0) (payload_yrecv m (yN c) i 0)
    (congrArg (fun d => (xrow d i).view.read (Elt F) (Xs m d)) (yN_yN c))

theorem xsstepAt (c : Dev nD) (K : Dev nD × CK → ℕ) (i : Fin 32) (n : Dev nD) (hn : n = xN c)
    {hsc : (slot32 xsM i : Memref sig (Dev.tc n : Thread nD τ).2.kind .vmem S32x1024 .f32).view.ref.isScScratch = false}
    {hsrc : (slot32 yrM i).view.WordExact} {hdst : (slot32 xsM i).view.WordExact}
    {hsem : DmaTarget.Typed .vmem (.dma (dsem (114 + i.val) (by omega))) (.remote (Dev.tc n : Thread nD τ) (slot32 xsM i) (.dma (dsem (66 + i.val) (by omega))) hsc)}
    {α : Type} {Q : α → sProp 𝕄} {k : PUnit → Prog (TpuEff nD τ sig (Elt F) Λ₀ .tc) α}
    (fd : Buf (Elt F) ((slot32 xsM i).view.loc (xN c : Thread nD τ))) (W : Waits sig Unit) :
    iprop(records m K ∗ chunkAt c (slot32 yrM i) qa (Yc m c i) ∗ chunkAt (xN c) (slot32 xsM i) fullShare fd
        ∗ owes (c : Thread nD τ) (Orem c (32 + 2 * i.val)) W
        ∗ dutyTok ER (xsendC c ⟨i.val, by omega⟩) 0 (0 : Fin 3) ∗ dutyTok ER (xrecvSC (xN c) i) 0 (0 : Fin 3))
      ⊢ iprop(((cred (tallyAt (xsendC c ⟨i.val, by omega⟩) () N) ∗ owes (c : Thread nD τ) (Orem c (32 + 2 * i.val + 1)) W)
              -∗ wp frame (wpE (defs₀ (F := F)) Variants.none (c : Thread nD τ) none) Set.univ (k ⟨⟩) Q)
          -∗ wp frame (wpE (defs₀ (F := F)) Variants.none (c : Thread nD τ) none) Set.univ
              (.op (.enqueueDma (slot32 yrM i) (.remote (Dev.tc n : Thread nD τ) (slot32 xsM i) (.dma (dsem (66 + i.val) (by omega))) hsc)
                (.dma (dsem (114 + i.val) (by omega))) hsrc hdst hsem) k) Q) := by
  subst hn
  exact step_at m c (xN c) K (src := slot32 yrM i) (dst := slot32 xsM i) (66 + i.val) (114 + i.val) _ _ (by omega) (by omega) ⟨32 + 2 * i.val, by omega⟩ (arrive_xs c i) (by routes)
    qa (Yc m c i) fd (Jxs m (xN c)) (Vxs m (xN c) i) W ((payload_xsend m c _ 0).trans (payload_xsend_lo m c i)) (payload_xrecvS m (xN c) i 0)
    ((congrArg (fun d => Vy m d i) (xN_xN c)).trans (read_landed _ c _ _).symm)

theorem zsstepAt (c : Dev nD) (K : Dev nD × CK → ℕ) (i : Fin 32) (n : Dev nD) (hn : n = zN c)
    {hsc : (slot32 zsM i : Memref sig (Dev.tc n : Thread nD τ).2.kind .vmem S32x1024 .f32).view.ref.isScScratch = false}
    {hsrc : (slot32 yrM i).view.WordExact} {hdst : (slot32 zsM i).view.WordExact}
    {hsem : DmaTarget.Typed .vmem (.dma (dsem (210 + i.val) (by omega))) (.remote (Dev.tc n : Thread nD τ) (slot32 zsM i) (.dma (dsem (162 + i.val) (by omega))) hsc)}
    {α : Type} {Q : α → sProp 𝕄} {k : PUnit → Prog (TpuEff nD τ sig (Elt F) Λ₀ .tc) α}
    (fd : Buf (Elt F) ((slot32 zsM i).view.loc (zN c : Thread nD τ))) (W : Waits sig Unit) :
    iprop(records m K ∗ chunkAt c (slot32 yrM i) qb (Yc m c i) ∗ chunkAt (zN c) (slot32 zsM i) fullShare fd
        ∗ owes (c : Thread nD τ) (Orem c (33 + 2 * i.val)) W
        ∗ dutyTok ER (zsendC c ⟨i.val, by omega⟩) 0 (0 : Fin 3) ∗ dutyTok ER (zrecvSC (zN c) i) 0 (0 : Fin 3))
      ⊢ iprop(((cred (tallyAt (zsendC c ⟨i.val, by omega⟩) () N) ∗ owes (c : Thread nD τ) (Orem c (33 + 2 * i.val + 1)) W)
              -∗ wp frame (wpE (defs₀ (F := F)) Variants.none (c : Thread nD τ) none) Set.univ (k ⟨⟩) Q)
          -∗ wp frame (wpE (defs₀ (F := F)) Variants.none (c : Thread nD τ) none) Set.univ
              (.op (.enqueueDma (slot32 yrM i) (.remote (Dev.tc n : Thread nD τ) (slot32 zsM i) (.dma (dsem (162 + i.val) (by omega))) hsc)
                (.dma (dsem (210 + i.val) (by omega))) hsrc hdst hsem) k) Q) := by
  subst hn
  exact step_at m c (zN c) K (src := slot32 yrM i) (dst := slot32 zsM i) (162 + i.val) (210 + i.val) _ _ (by omega) (by omega) ⟨33 + 2 * i.val, by omega⟩ (arrive_zs c i) (by routes)
    qb (Yc m c i) fd (Jzs m (zN c)) (Vzs m (zN c) i) W ((payload_zsend m c _ 0).trans (payload_zsend_lo m c i)) (payload_zrecvS m (zN c) i 0)
    ((congrArg (fun d => Vy m d i) (zN_zN c)).trans (read_landed _ c _ _).symm)

theorem xdstepAt (c : Dev nD) (K : Dev nD × CK → ℕ) (i : Fin 16) (n : Dev nD) (hn : n = xN c)
    {hsc : (slot16 xdM i : Memref sig (Dev.tc n : Thread nD τ).2.kind .vmem S32x1024 .f32).view.ref.isScScratch = false}
    {hsrc : (slot32 zsM (lo i)).view.WordExact} {hdst : (slot16 xdM i).view.WordExact}
    {hsem : DmaTarget.Typed .vmem (.dma (dsem (146 + i.val) (by omega))) (.remote (Dev.tc n : Thread nD τ) (slot16 xdM i) (.dma (dsem (66 + (32 + i.val)) (by omega))) hsc)}
    {α : Type} {Q : α → sProp 𝕄} {k : PUnit → Prog (TpuEff nD τ sig (Elt F) Λ₀ .tc) α}
    (fd : Buf (Elt F) ((slot16 xdM i).view.loc (xN c : Thread nD τ))) (W : Waits sig Unit) :
    iprop(records m K ∗ chunkAt c (slot32 zsM (lo i)) qa (ZSc m c (lo i)) ∗ chunkAt (xN c) (slot16 xdM i) fullShare fd
        ∗ owes (c : Thread nD τ) (Orem c (96 + i.val)) W
        ∗ dutyTok ER (xsendC c ⟨32 + i.val, by omega⟩) 0 (0 : Fin 3) ∗ dutyTok ER (xrecvDC (xN c) i) 0 (0 : Fin 3))
      ⊢ iprop(((cred (tallyAt (xsendC c ⟨32 + i.val, by omega⟩) () N) ∗ owes (c : Thread nD τ) (Orem c (96 + i.val + 1)) W)
              -∗ wp frame (wpE (defs₀ (F := F)) Variants.none (c : Thread nD τ) none) Set.univ (k ⟨⟩) Q)
          -∗ wp frame (wpE (defs₀ (F := F)) Variants.none (c : Thread nD τ) none) Set.univ
              (.op (.enqueueDma (slot32 zsM (lo i)) (.remote (Dev.tc n : Thread nD τ) (slot16 xdM i) (.dma (dsem (66 + (32 + i.val)) (by omega))) hsc)
                (.dma (dsem (146 + i.val) (by omega))) hsrc hdst hsem) k) Q) := by
  subst hn
  exact step_at m c (xN c) K (src := slot32 zsM (lo i)) (dst := slot16 xdM i) (66 + (32 + i.val)) (146 + i.val) _ _ (by omega) (by omega) ⟨96 + i.val, by omega⟩ (arrive_xd c i) (by routes)
    qa (ZSc m c (lo i)) fd (Jxd m (xN c)) (Vxd m (xN c) i) W ((payload_xsend m c _ 0).trans (payload_xsend_hi m c i)) (payload_xrecvD m (xN c) i 0)
    ((congrArg (fun d => Vzs m d (lo i)) (xN_xN c)).trans (read_landed _ c _ _).symm)

theorem zdstepAt (c : Dev nD) (K : Dev nD × CK → ℕ) (i : Fin 16) (n : Dev nD) (hn : n = zN c)
    {hsc : (slot16 zdM i : Memref sig (Dev.tc n : Thread nD τ).2.kind .vmem S32x1024 .f32).view.ref.isScScratch = false}
    {hsrc : (slot32 xsM (hi i)).view.WordExact} {hdst : (slot16 zdM i).view.WordExact}
    {hsem : DmaTarget.Typed .vmem (.dma (dsem (242 + i.val) (by omega))) (.remote (Dev.tc n : Thread nD τ) (slot16 zdM i) (.dma (dsem (162 + (32 + i.val)) (by omega))) hsc)}
    {α : Type} {Q : α → sProp 𝕄} {k : PUnit → Prog (TpuEff nD τ sig (Elt F) Λ₀ .tc) α}
    (fd : Buf (Elt F) ((slot16 zdM i).view.loc (zN c : Thread nD τ))) (W : Waits sig Unit) :
    iprop(records m K ∗ chunkAt c (slot32 xsM (hi i)) qa (XSc m c (hi i)) ∗ chunkAt (zN c) (slot16 zdM i) fullShare fd
        ∗ owes (c : Thread nD τ) (Orem c (112 + i.val)) W
        ∗ dutyTok ER (zsendC c ⟨32 + i.val, by omega⟩) 0 (0 : Fin 3) ∗ dutyTok ER (zrecvDC (zN c) i) 0 (0 : Fin 3))
      ⊢ iprop(((cred (tallyAt (zsendC c ⟨32 + i.val, by omega⟩) () N) ∗ owes (c : Thread nD τ) (Orem c (112 + i.val + 1)) W)
              -∗ wp frame (wpE (defs₀ (F := F)) Variants.none (c : Thread nD τ) none) Set.univ (k ⟨⟩) Q)
          -∗ wp frame (wpE (defs₀ (F := F)) Variants.none (c : Thread nD τ) none) Set.univ
              (.op (.enqueueDma (slot32 xsM (hi i)) (.remote (Dev.tc n : Thread nD τ) (slot16 zdM i) (.dma (dsem (162 + (32 + i.val)) (by omega))) hsc)
                (.dma (dsem (242 + i.val) (by omega))) hsrc hdst hsem) k) Q) := by
  subst hn
  exact step_at m c (zN c) K (src := slot32 xsM (hi i)) (dst := slot16 zdM i) (162 + (32 + i.val)) (242 + i.val) _ _ (by omega) (by omega) ⟨112 + i.val, by omega⟩ (arrive_zd c i) (by routes)
    qa (XSc m c (hi i)) fd (Jzd m (zN c)) (Vzd m (zN c) i) W ((payload_zsend m c _ 0).trans (payload_zsend_hi m c i)) (payload_zrecvD m (zN c) i 0)
    ((congrArg (fun d => Vxs m d (hi i)) (zN_zN c)).trans (read_landed _ c _ _).symm)

/-- info: 'Cert.KernelIdeal.Hand.zdstepAt' depends on axioms: [propext, Classical.choice, Quot.sound] -/
#guard_msgs in #print axioms zdstepAt

end Cert.KernelIdeal.Hand

end
-- ==== Proof.HandKernelIdeal.Back.lean ====
import proofs.«900716_g7700000000000717_dist_ar_v7x_xyz2x2x4_y_m4096_n1024_f32_1_alg».proof.Proof.HandKernelIdeal.Pieces
import proofs.«900716_g7700000000000717_dist_ar_v7x_xyz2x2x4_y_m4096_n1024_f32_1_alg».proof.Proof.HandKernelIdeal.Unpack

noncomputable section

namespace Cert.KernelIdeal.Hand

open Cert.KernelIdeal Cert.KernelIdeal.Gen Idealize.ShloMosaic Idealize.ShloMosaic.TcCoe Idealize.SL Idealize.SL.RA Idealize.SL.BI
open Idealize.SL.BI.BIBase Idealize.SL.BI.Laws
open scoped Idealize.SL.BI

variable {F : FTy → Type} [FloatOps F]

local notation "𝕄" => MT nD τ sig Unit (Elt F) ℕ UU ℕ

/-- A chunk held at given contents is held at some contents. -/
theorem chunk_some (c : Dev nD) (v : Memref sig .tc .vmem S32x1024 .f32) (q : PosShare TreeShare)
    (f : Buf (Elt F) (v.view.loc (c : Thread nD τ))) :
    (chunkAt c v q f : sProp 𝕄) ⊢ iprop(∃ g, chunkAt c v q g) :=
  exists_intro (Φ := fun g => chunkAt c v q g) f

/-- Sixteen whole chunks are their buffer, whole at some contents. -/
theorem back16 (c : Dev nD) (M : Memref sig .tc .vmem S16x32x1024 .f32) (hM : M.IsWhole) (J : Buf (Elt F) (M.view.loc (c : Thread nD τ)))
    (f : (i : Fin 16) → Buf (Elt F) ((slot16 M i).view.loc (c : Thread nD τ))) :
    (bigSep Finset.univ fun i : Fin 16 => chunkAt c (slot16 M i) fullShare (f i) : sProp 𝕄)
      ⊢ iprop(∃ g, M.view.loc (c : Thread nD τ) ↦{fullShare} g) :=
  (bigSep_mono fun i _ => chunk_some c _ fullShare (f i)).trans (land16_join c M hM fullShare J)

/-- Thirty-two chunks, the first and the last sixteen each given whole in their own way, are their buffer, whole at some contents. -/
theorem back32 (c : Dev nD) (M : Memref sig .tc .vmem S32x32x1024 .f32) (hM : M.IsWhole) (J : Buf (Elt F) (M.view.loc (c : Thread nD τ)))
    {Φ Ψ : Fin 16 → sProp 𝕄} (hΦ : ∀ i, Φ i ⊢ freeChunk c (slot32 M (i.castAdd 16))) (hΨ : ∀ i, Ψ i ⊢ freeChunk c (slot32 M (i.natAdd 16))) :
    iprop(bigSep Finset.univ Φ ∗ bigSep Finset.univ Ψ) ⊢ iprop(∃ g, M.view.loc (c : Thread nD τ) ↦{fullShare} g) :=
  ((sep_mono (bigSep_mono fun i _ => hΦ i) (bigSep_mono fun i _ => hΨ i)).trans
    (Entails.of_eq (bigSep_fin_add 16 16 fun i : Fin 32 => freeChunk c (slot32 M i)).symm)).trans (land32_join c M hM fullShare J)

/-- The staged block: its right half, the 32 row chunks at the left half and the other rows at the left half are the block whole. -/
theorem x_back (m : (ℓ : Loc nD τ sig) → Buf (Elt F) ℓ) (c : Dev nD) :
    (iprop(((c : Thread nD τ).loc cc0_stg0_0 ↦{fullShare.right} Xs m c)
        ∗ (bigSep Finset.univ fun i : Fin 32 => chunkAt c (xrow c i) qa (Xs m c))
        ∗ ((c : Thread nD τ).loc cc0_stg0_0 ↦[restSet c]{qa} Xs m c)) : sProp 𝕄)
      ⊢ ((c : Thread nD τ).loc cc0_stg0_0 ↦{fullShare} Xs m c) :=
  Entails.of_eq (xrows_split c (Xs m c)).symm

/-- info: 'Cert.KernelIdeal.Hand.back32' depends on axioms: [propext, Classical.choice, Quot.sound] -/
#guard_msgs in #print axioms back32

/-- info: 'Cert.KernelIdeal.Hand.x_back' depends on axioms: [propext, Classical.choice, Quot.sound] -/
#guard_msgs in #print axioms x_back

end Cert.KernelIdeal.Hand

end
-- ==== Proof.HandKernelIdeal.Close.lean ====
import proofs.«900716_g7700000000000717_dist_ar_v7x_xyz2x2x4_y_m4096_n1024_f32_1_alg».proof.Proof.HandKernelIdeal.Ghost
import proofs.«900716_g7700000000000717_dist_ar_v7x_xyz2x2x4_y_m4096_n1024_f32_1_alg».proof.Proof.HandKernelIdeal.Pieces

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem writes_closed (g1 G : (cc0_stg1_0 : Ref sig .tc).ty.Contents (Elt F))
    (L : List (View.Piece (Elt F) S4096x1024 .f32))
    (hval : ∀ p ∈ L, ∀ x : p.1.shape.Idx, p.2 x = G (p.1.emb x))
    (hcov : ∀ y : S4096x1024.Idx, ∃ p ∈ L, y ∈ p.1.set) :
    (Memref.whole cc0_stg1_0 : Memref sig .tc .vmem S4096x1024 .f32).view.writes (Elt F) g1 L = G := by
  funext y
  exact View.read_writes_apply_of_pieces (Memref.whole cc0_stg1_0 : Memref sig .tc .vmem S4096x1024 .f32).view g1 G L hval y (hcov y)

theorem readAt_rows (b : Ref sig .tc) (R : Rect b.ty.shape) (f : b.ty.Contents (Elt F)) (x : R.shape.Idx) :
    View.readAt (Elt F) (Memref.whole b : Memref sig .tc b.space b.ty.shape b.ty.elt).view R.toLoadRect f x = f (R.emb x) := rfl

theorem readAt_slot32 (c : Dev nD) (M : Memref sig .tc .vmem S32x32x1024 .f32) (i : Fin 32) (f : Buf (Elt F) (M.view.loc (c : Thread nD τ))) :
    shapeCast S32x1024 (View.readAt (Elt F) M.view (R32 i).toLoadRect f) shapeCasts_S1x32x1024_S32x1024
      = (slot32 M i).view.read (Elt F) f := rfl
theorem readAt_slot16 (c : Dev nD) (M : Memref sig .tc .vmem S16x32x1024 .f32) (i : Fin 16) (f : Buf (Elt F) (M.view.loc (c : Thread nD τ))) :
    shapeCast S32x1024 (View.readAt (Elt F) M.view (R16 i).toLoadRect f) shapeCasts_S1x32x1024_S32x1024
      = (slot16 M i).view.read (Elt F) f := rfl

theorem shapeCast_same (a : Vec F S32x1024 .f32) (x : S32x1024.Idx) :
    shapeCast S32x1024 a shapeCasts_S32x1024_S32x1024 x = a x :=
  congrArg a (Shape.reshapeEquiv_self _ x)

omit [FloatOps F] in
theorem qOf_0 (c : Dev nD) (r : Nat) (h1 : base1 c ≤ r) (h2 : r < base1 c + 1024) : qOf c r = 0 := if_pos ⟨h1, h2⟩
omit [FloatOps F] in
theorem qOf_1 (c : Dev nD) (r : Nat) (h1 : base3 c ≤ r) (h2 : r < base3 c + 1024) : qOf c r = 1 := by
  have hc : c.val < 16 := c.isLt
  unfold qOf
  rw [if_neg (by unfold base1 base3 at *; omega), if_pos ⟨h1, h2⟩]
omit [FloatOps F] in
theorem qOf_2 (c : Dev nD) (r : Nat) (h1 : base4 c ≤ r) (h2 : r < base4 c + 1024) : qOf c r = 2 := by
  have hc : c.val < 16 := c.isLt
  unfold qOf
  rw [if_neg (by unfold base1 base4 at *; omega), if_neg (by unfold base3 base4 at *; omega), if_pos ⟨h1, h2⟩]
omit [FloatOps F] in
theorem qOf_3 (c : Dev nD) (r : Nat) (h1 : base5 c ≤ r) (h2 : r < base5 c + 1024) : qOf c r = 3 := by
  have hc : c.val < 16 := c.isLt
  unfold qOf
  rw [if_neg (by unfold base1 base5 at *; omega), if_neg (by unfold base3 base5 at *; omega), if_neg (by unfold base4 base5 at *; omega)]

omit [FloatOps F] in
theorem qOf_quarter (c : Dev nD) (j : Fin 4) (r : Nat) (h1 : quarter c j ≤ r) (h2 : r < quarter c j + 1024) : qOf c r = j := by
  match j with
  | ⟨0, _⟩ => exact qOf_0 c r h1 h2
  | ⟨1, _⟩ => exact qOf_1 c r h1 h2
  | ⟨2, _⟩ => exact qOf_2 c r h1 h2
  | ⟨3, _⟩ => exact qOf_3 c r h1 h2

omit [FloatOps F] in
theorem emb_unit_eq (off off' : Fin 2 → Nat) (h : ∀ a, off a + S32x1024.size a ≤ S4096x1024.size a)
    (h' : ∀ a, off' a + S32x1024.size a ≤ S4096x1024.size a) (e : off = off') (x : S32x1024.Idx) :
    (Rect.unit (s := S4096x1024) off S32x1024.size h).emb x = (Rect.unit (s := S4096x1024) off' S32x1024.size h').emb x := by
  subst e; rfl

theorem Vy_apply (d : Dev nD) (i : Fin 32) (x : S32x1024.Idx) :
    Vy m d i x = Xs m (yN d) ((Rect.unit (s := S4096x1024) (k0_off1 (yN d) (BitVec.ofNat 32 (32 * i.val))) S32x1024.size (k0_off1_inb (yN d) i)).emb x) := rfl

theorem piece_val (c d : Dev nD) (j : Fin 4) (hd : via c j = d) (hb : base1 d = quarter c j) (i : Fin 32)
    (off : Fin 2 → Nat) (h : ∀ a, off a + S32x1024.size a ≤ S4096x1024.size a)
    (hoff : off = ![quarter c j + 32 * i.val, 0]) (x : S32x1024.Idx) :
    addf (shapeCast S32x1024 (View.readAt (Elt F) (xM : Memref sig .tc .vmem S4096x1024 .f32).view
            (Rect.unit (s := S4096x1024) off S32x1024.size h).toLoadRect (Xs m c)) shapeCasts_S32x1024_S32x1024)
         (Vy m d i) x
      = outAt m c ((Rect.unit (s := S4096x1024) off S32x1024.size h).emb x) := by
  have hrow : (((Rect.unit (s := S4096x1024) off S32x1024.size h).emb x) 0).val = quarter c j + 32 * i.val + (x 0).val := by
    rw [Rect.emb_apply]; subst hoff; show quarter c j + 32 * i.val + 1 * (x 0).val = _; omega
  have hx0 : (x 0).val < 32 := (x 0).isLt
  have hq : qOf c (((Rect.unit (s := S4096x1024) off S32x1024.size h).emb x) 0).val = j :=
    qOf_quarter c j _ (by rw [hrow]; omega) (by rw [hrow]; have := i.isLt; omega)
  have he : (Rect.unit (s := S4096x1024) (k0_off1 (yN d) (BitVec.ofNat 32 (32 * i.val))) S32x1024.size (k0_off1_inb (yN d) i)).emb x
      = (Rect.unit (s := S4096x1024) off S32x1024.size h).emb x :=
    emb_unit_eq _ _ _ _ (by rw [off1_eq, base1_yN, hb, hoff]) x
  show FloatOps.addf (shapeCast S32x1024 _ shapeCasts_S32x1024_S32x1024 x) (Vy m d i x) = FloatOps.addf (Xs m c _) (other m c _)
  rw [shapeCast_same, readAt_rows, Vy_apply, he]
  unfold other
  rw [hq, hd]

def PieceOK (c : Dev nD) (k : Fin 4 × Fin 32) (p : View.Piece (Elt F) S4096x1024 .f32) : Prop :=
  p.1.off = ![quarter c k.1 + 32 * k.2.val, 0] ∧ p.1.size = S32x1024.size ∧ (∀ a, p.1.stride a = 1)
    ∧ ∀ x : p.1.shape.Idx, p.2 x = outAt m c (p.1.emb x)

-- A store of 32 rows of quarter j whose second summand is chunk i of the device the quarter came through writes the result's rows.
theorem ok_of (c d : Dev nD) (j : Fin 4) (hd : via c j = d) (hb : base1 d = quarter c j) (i : Fin 32)
    (off : Fin 2 → Nat) (h : ∀ a, off a + S32x1024.size a ≤ S4096x1024.size a) (e : off = ![quarter c j + 32 * i.val, 0])
    (l : Vec F S32x1024 .f32) (hl : l = Vy m d i) :
    PieceOK m c (j, i) ⟨Rect.unit (s := S4096x1024) off S32x1024.size h,
      addf (shapeCast S32x1024 (View.readAt (Elt F) (xM : Memref sig .tc .vmem S4096x1024 .f32).view
              (Rect.unit (s := S4096x1024) off S32x1024.size h).toLoadRect (Xs m c)) shapeCasts_S32x1024_S32x1024) l⟩ :=
  ⟨e, rfl, fun _ => rfl, fun x => by subst hl; exact piece_val m c d j hd hb i _ h e x⟩

theorem ok_y (c : Dev nD) (i : Fin 32) (w : BitVec 32) (hw : w = BitVec.ofNat 32 (32 * (i).val))
    (h : ∀ a, k0_off2 c w a + S32x1024.size a ≤ S4096x1024.size a)
    (h' : ∀ a, (![i.val, 0, 0] : Fin 3 → Nat) a + S1x32x1024.size a ≤ S32x32x1024.size a) :
    PieceOK m c (0, i) ⟨Rect.unit (s := S4096x1024) (k0_off2 c w) S32x1024.size h,
      addf (shapeCast S32x1024 (View.readAt (Elt F) (xM : Memref sig .tc .vmem S4096x1024 .f32).view
              (Rect.unit (s := S4096x1024) (k0_off2 c w) S32x1024.size h).toLoadRect (Xs m c)) shapeCasts_S32x1024_S32x1024)
           (shapeCast S32x1024 (View.readAt (Elt F) (yrM : Memref sig .tc .vmem S32x32x1024 .f32).view
              (Rect.unit (s := S32x32x1024) ![i.val, 0, 0] S1x32x1024.size h').toLoadRect (Yc m c i)) shapeCasts_S1x32x1024_S32x1024)⟩ := by
  subst hw
  exact ok_of m c c 0 rfl rfl i _ h (off2_eq c i) _ ((readAt_slot32 c yrM i (Yc m c i)).trans (read_landed (slot32 yrM i) c _ _))

theorem ok_zs (c : Dev nD) (i : Fin 32) (w : BitVec 32) (hw : w = BitVec.ofNat 32 (32 * (i).val))
    (h : ∀ a, k0_off3 c w a + S32x1024.size a ≤ S4096x1024.size a)
    (h' : ∀ a, (![i.val, 0, 0] : Fin 3 → Nat) a + S1x32x1024.size a ≤ S32x32x1024.size a) :
    PieceOK m c (1, i) ⟨Rect.unit (s := S4096x1024) (k0_off3 c w) S32x1024.size h,
      addf (shapeCast S32x1024 (View.readAt (Elt F) (xM : Memref sig .tc .vmem S4096x1024 .f32).view
              (Rect.unit (s := S4096x1024) (k0_off3 c w) S32x1024.size h).toLoadRect (Xs m c)) shapeCasts_S32x1024_S32x1024)
           (shapeCast S32x1024 (View.readAt (Elt F) (zsM : Memref sig .tc .vmem S32x32x1024 .f32).view
              (Rect.unit (s := S32x32x1024) ![i.val, 0, 0] S1x32x1024.size h').toLoadRect (ZSc m c i)) shapeCasts_S1x32x1024_S32x1024)⟩ := by
  subst hw
  exact ok_of m c (zN c) 1 rfl (base1_zN c) i _ h (off3_eq c i) _ ((readAt_slot32 c zsM i (ZSc m c i)).trans (read_landed (slot32 zsM i) c _ _))

theorem ok_xs (c : Dev nD) (i : Fin 32) (w : BitVec 32) (hw : w = BitVec.ofNat 32 (32 * (i).val))
    (h : ∀ a, k0_off4 c w a + S32x1024.size a ≤ S4096x1024.size a)
    (h' : ∀ a, (![i.val, 0, 0] : Fin 3 → Nat) a + S1x32x1024.size a ≤ S32x32x1024.size a) :
    PieceOK m c (2, i) ⟨Rect.unit (s := S4096x1024) (k0_off4 c w) S32x1024.size h,
      addf (shapeCast S32x1024 (View.readAt (Elt F) (xM : Memref sig .tc .vmem S4096x1024 .f32).view
              (Rect.unit (s := S4096x1024) (k0_off4 c w) S32x1024.size h).toLoadRect (Xs m c)) shapeCasts_S32x1024_S32x1024)
           (shapeCast S32x1024 (View.readAt (Elt F) (xsM : Memref sig .tc .vmem S32x32x1024 .f32).view
              (Rect.unit (s := S32x32x1024) ![i.val, 0, 0] S1x32x1024.size h').toLoadRect (XSc m c i)) shapeCasts_S1x32x1024_S32x1024)⟩ := by
  subst hw
  exact ok_of m c (xN c) 2 rfl (base1_xN c) i _ h (off4_eq c i) _ ((readAt_slot32 c xsM i (XSc m c i)).trans (read_landed (slot32 xsM i) c _ _))

theorem ok_xd (c : Dev nD) (i : Fin 16) (w : BitVec 32) (hw : w = BitVec.ofNat 32 (32 * (lo i).val))
    (h : ∀ a, k0_off5 c w a + S32x1024.size a ≤ S4096x1024.size a)
    (h' : ∀ a, (![i.val, 0, 0] : Fin 3 → Nat) a + S1x32x1024.size a ≤ S16x32x1024.size a) :
    PieceOK m c (3, lo i) ⟨Rect.unit (s := S4096x1024) (k0_off5 c w) S32x1024.size h,
      addf (shapeCast S32x1024 (View.readAt (Elt F) (xM : Memref sig .tc .vmem S4096x1024 .f32).view
              (Rect.unit (s := S4096x1024) (k0_off5 c w) S32x1024.size h).toLoadRect (Xs m c)) shapeCasts_S32x1024_S32x1024)
           (shapeCast S32x1024 (View.readAt (Elt F) (xdM : Memref sig .tc .vmem S16x32x1024 .f32).view
              (Rect.unit (s := S16x32x1024) ![i.val, 0, 0] S1x32x1024.size h').toLoadRect (XDc m c i)) shapeCasts_S1x32x1024_S32x1024)⟩ := by
  subst hw
  exact ok_of m c (xN (zN c)) 3 rfl (base1_xN_zN c) (lo i) _ h (off5_eq c (lo i)) _
    (((readAt_slot16 c xdM i (XDc m c i)).trans (read_landed (slot16 xdM i) c _ _)).trans (congrArg (fun d => Vy m d (lo i)) (zN_xN c)))

theorem ok_zd (c : Dev nD) (i : Fin 16) (w : BitVec 32) (hw : w = BitVec.ofNat 32 (32 * (hi i).val))
    (h : ∀ a, k0_off5 c w a + S32x1024.size a ≤ S4096x1024.size a)
    (h' : ∀ a, (![i.val, 0, 0] : Fin 3 → Nat) a + S1x32x1024.size a ≤ S16x32x1024.size a) :
    PieceOK m c (3, hi i) ⟨Rect.unit (s := S4096x1024) (k0_off5 c w) S32x1024.size h,
      addf (shapeCast S32x1024 (View.readAt (Elt F) (xM : Memref sig .tc .vmem S4096x1024 .f32).view
              (Rect.unit (s := S4096x1024) (k0_off5 c w) S32x1024.size h).toLoadRect (Xs m c)) shapeCasts_S32x1024_S32x1024)
           (shapeCast S32x1024 (View.readAt (Elt F) (zdM : Memref sig .tc .vmem S16x32x1024 .f32).view
              (Rect.unit (s := S16x32x1024) ![i.val, 0, 0] S1x32x1024.size h').toLoadRect (ZDc m c i)) shapeCasts_S1x32x1024_S32x1024)⟩ := by
  subst hw
  exact ok_of m c (xN (zN c)) 3 rfl (base1_xN_zN c) (hi i) _ h (off5_eq c (hi i)) _ ((readAt_slot16 c zdM i (ZDc m c i)).trans (read_landed (slot16 zdM i) c _ _))

omit [FloatOps F] in
theorem cover_of_quarters (c : Dev nD) (L : List (View.Piece (Elt F) S4096x1024 .f32))
    (h : ∀ (j : Fin 4) (i : Fin 32), ∃ p ∈ L, p.1.off = ![quarter c j + 32 * i.val, 0] ∧ p.1.size = S32x1024.size ∧ ∀ a, p.1.stride a = 1) :
    ∀ y : S4096x1024.Idx, ∃ p ∈ L, y ∈ p.1.set := by
  intro y
  have hr : (y 0).val < 4096 := (y 0).isLt
  have hcol : (y 1).val < 1024 := (y 1).isLt
  obtain ⟨j, ⟨hj1, hj2⟩, -⟩ := row_cover c (y 0).val hr
  obtain ⟨p, hp, hoff, hsize, hstride⟩ := h j ⟨((y 0).val - quarter c j) / 32, by omega⟩
  refine ⟨p, hp, p.1.mem_set.mpr ?_⟩
  show ∀ a : Fin 2, _
  rw [Fin.forall_fin_two]
  constructor
  · refine ⟨((y 0).val - quarter c j) % 32, ?_, ?_⟩
    · rw [hsize]; show _ < 32; omega
    · rw [hoff, hstride]
      show (y 0).val = quarter c j + 32 * (((y 0).val - quarter c j) / 32) + 1 * (((y 0).val - quarter c j) % 32)
      omega
  · refine ⟨(y 1).val, ?_, ?_⟩
    · rw [hsize]; exact hcol
    · rw [hoff, hstride]; show (y 1).val = 0 + 1 * (y 1).val; omega

theorem out_closed (c : Dev nD) (g1 : (cc0_stg1_0 : Ref sig .tc).ty.Contents (Elt F))
    (L : List (View.Piece (Elt F) S4096x1024 .f32)) (K : List (Fin 4 × Fin 32))
    (hK : ∀ (j : Fin 4) (i : Fin 32), (j, i) ∈ K)
    (hLK : List.Forall₂ (fun p k => PieceOK m c k p) L K) :
    (Memref.whole cc0_stg1_0 : Memref sig .tc .vmem S4096x1024 .f32).view.writes (Elt F) g1 L = outAt m c := by
  refine writes_closed g1 (outAt m c) L (fun p hp => ?_) (cover_of_quarters c L fun j i => ?_)
  · obtain ⟨n, rfl⟩ := List.mem_iff_get.mp hp
    exact (hLK.get n.2 (n.2.trans_eq hLK.length_eq)).2.2.2
  · obtain ⟨n, hn⟩ := List.mem_iff_get.mp (hK j i)
    have h := hLK.get (n.2.trans_eq hLK.length_eq.symm) n.2
    rw [hn] at h
    exact ⟨_, List.get_mem _ _, h.1, h.2.1, h.2.2.1⟩

def storeKeys : List (Fin 4 × Fin 32) :=
  [(3, 31), (3, 30), (3, 29), (3, 28), (3, 27), (3, 26), (3, 25), (3, 24), (3, 23), (3, 22), (3, 21), (3, 20), (3, 19), (3, 18), (3, 17), (3, 16), (3, 15), (3, 14), (3, 13), (3, 12), (3, 11), (3, 10), (3, 9), (3, 8), (3, 7), (3, 6), (3, 5), (3, 4), (3, 3), (3, 2), (3, 1), (3, 0), (2, 31), (2, 30), (2, 29), (2, 28), (2, 27), (2, 26), (2, 25), (2, 24), (2, 23), (2, 22), (2, 21), (2, 20), (2, 19), (2, 18), (2, 17), (2, 16), (2, 15), (2, 14), (2, 13), (2, 12), (2, 11), (2, 10), (2, 9), (2, 8), (2, 7), (2, 6), (2, 5), (2, 4), (2, 3), (2, 2), (2, 1), (2, 0), (1, 31), (1, 30), (1, 29), (1, 28), (1, 27), (1, 26), (1, 25), (1, 24), (1, 23), (1, 22), (1, 21), (1, 20), (1, 19), (1, 18), (1, 17), (1, 16), (1, 15), (1, 14), (1, 13), (1, 12), (1, 11), (1, 10), (1, 9), (1, 8), (1, 7), (1, 6), (1, 5), (1, 4), (1, 3), (1, 2), (1, 1), (1, 0), (0, 31), (0, 30), (0, 29), (0, 28), (0, 27), (0, 26), (0, 25), (0, 24), (0, 23), (0, 22), (0, 21), (0, 20), (0, 19), (0, 18), (0, 17), (0, 16), (0, 15), (0, 14), (0, 13), (0, 12), (0, 11), (0, 10), (0, 9), (0, 8), (0, 7), (0, 6), (0, 5), (0, 4), (0, 3), (0, 2), (0, 1), (0, 0)]

theorem storeKeys_all : ∀ (j : Fin 4) (i : Fin 32), (j, i) ∈ storeKeys := by decide

/-- info: 'Cert.KernelIdeal.Hand.out_closed' depends on axioms: [propext, Classical.choice, Quot.sound] -/
#guard_msgs in #print axioms out_closed

end Cert.KernelIdeal.Hand

end
-- ==== Proof.HandKernelIdeal.EpiCells.lean ====
import proofs.«900716_g7700000000000717_dist_ar_v7x_xyz2x2x4_y_m4096_n1024_f32_1_alg».proof.Proof.HandKernelIdeal.Steps
import proofs.«900716_g7700000000000717_dist_ar_v7x_xyz2x2x4_y_m4096_n1024_f32_1_alg».proof.Proof.HandKernelIdeal.Unpack

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

-- The eight families, in the order of the cells' numbers, are the device's 256 own cells; past its one round each closes at zero.
theorem epi_cells (c : Dev nD) (K : Dev nD × CK → ℕ) :
    iprop(records m K
        ∗ (bigSep Finset.univ fun i : Fin 32 => atPos ER (ysendC c i) 1 ∅ 0)
        ∗ (bigSep Finset.univ fun i : Fin 32 => atPos ER (yrecvC c i) 1 ∅ 0)
        ∗ (bigSep Finset.univ fun j : Fin 48 => atPos ER (xsendC c j) 1 ∅ 0)
        ∗ (bigSep Finset.univ fun i : Fin 32 => atPos ER (xrecvSC c i) 1 ∅ 0)
        ∗ (bigSep Finset.univ fun i : Fin 16 => atPos ER (xrecvDC c i) 1 ∅ 0)
        ∗ (bigSep Finset.univ fun j : Fin 48 => atPos ER (zsendC c j) 1 ∅ 0)
        ∗ (bigSep Finset.univ fun i : Fin 32 => atPos ER (zrecvSC c i) 1 ∅ 0)
        ∗ (bigSep Finset.univ fun i : Fin 16 => atPos ER (zrecvDC c i) 1 ∅ 0))
      ⊢ |={Set.univ}=> bigSep Finset.univ fun j : Fin 256 => semVal ((c : Thread nD τ), osem j) 0 :=
  (sep_mono_right (ownDma_fam (F := F) c 1).2).trans (close_own m c K)

/-- info: 'Cert.KernelIdeal.Hand.epi_cells' depends on axioms: [propext, Classical.choice, Quot.sound] -/
#guard_msgs in #print axioms epi_cells

end Cert.KernelIdeal.Hand

end
-- ==== Proof.HandKernelIdeal.EpiLanding.lean ====
import proofs.«900716_g7700000000000717_dist_ar_v7x_xyz2x2x4_y_m4096_n1024_f32_1_alg».proof.Proof.HandKernelIdeal.Back

noncomputable section

namespace Cert.KernelIdeal.Hand

open Cert.KernelIdeal Cert.KernelIdeal.Gen Idealize.ShloMosaic Idealize.ShloMosaic.TcCoe Idealize.SL Idealize.SL.RA Idealize.SL.BI
open Idealize.SL.BI.BIBase Idealize.SL.BI.Laws
open scoped Idealize.SL.BI

variable {F : FTy → Type} [FloatOps F]

local notation "𝕄" => MT nD τ sig Unit (Elt F) ℕ UU ℕ

/-- The shares handed back rejoin the shares that stayed, so every chunk and hence each landing buffer is whole. -/
theorem epi_landing (m : (ℓ : Loc nD τ sig) → Buf (Elt F) ℓ) (c : Dev nD) :
    (iprop((bigSep Finset.univ fun i : Fin 32 => iprop(xsendPay m c (i.castAdd 16) ∗ zsendPay m c (i.castAdd 16)
          ∗ chunkAt c (slot32 yrM i) qc (Yc m c i)))
        ∗ ((bigSep Finset.univ fun i : Fin 16 => chunkAt c (slot32 xsM (i.castAdd 16)) fullShare (XSc m c (i.castAdd 16)))
          ∗ bigSep Finset.univ fun i : Fin 16 => iprop(zsendPay m c (i.natAdd 32)
            ∗ chunkAt c (slot32 xsM (i.natAdd 16)) fullShare.right (XSc m c (i.natAdd 16))))
        ∗ (bigSep Finset.univ fun i : Fin 16 => chunkAt c (slot16 xdM i) fullShare (XDc m c i))
        ∗ ((bigSep Finset.univ fun i : Fin 16 => iprop(xsendPay m c (i.natAdd 32)
            ∗ chunkAt c (slot32 zsM (i.castAdd 16)) fullShare.right (ZSc m c (i.castAdd 16))))
          ∗ bigSep Finset.univ fun i : Fin 16 => chunkAt c (slot32 zsM (i.natAdd 16)) fullShare (ZSc m c (i.natAdd 16)))
        ∗ bigSep Finset.univ fun i : Fin 16 => chunkAt c (slot16 zdM i) fullShare (ZDc m c i)) : sProp 𝕄)
      ⊢ landing (F := F) c := by
  have e1 : ∀ i : Fin 32, xsendPay m c (i.castAdd 16) = chunkAt c (slot32 yrM i) qa (Yc m c i) := payload_xsend_lo m c
  have e2 : ∀ i : Fin 32, zsendPay m c (i.castAdd 16) = chunkAt c (slot32 yrM i) qb (Yc m c i) := payload_zsend_lo m c
  have e3 : ∀ i : Fin 16, xsendPay m c (i.natAdd 32) = chunkAt c (slot32 zsM (i.castAdd 16)) qa (ZSc m c (i.castAdd 16)) := payload_xsend_hi m c
  have e4 : ∀ i : Fin 16, zsendPay m c (i.natAdd 32) = chunkAt c (slot32 xsM (i.natAdd 16)) qa (XSc m c (i.natAdd 16)) := payload_zsend_hi m c
  simp only [e1, e2, e3, e4]
  exact Laws.sep_mono ((bigSep_mono fun i _ => (share3 c _ _).2.trans (chunk_some c _ _ _)).trans (land32_join c yrM (Memref.isWhole_whole _) fullShare (Jy m c)))
    (Laws.sep_mono (back32 c xsM (Memref.isWhole_whole _) (Jxs m c) (fun i => chunk_some c _ _ _) fun i => (share2 c _ _).2.trans (chunk_some c _ _ _))
    (Laws.sep_mono (back16 c xdM (Memref.isWhole_whole _) (Jxd m c) (XDc m c))
    (Laws.sep_mono (back32 c zsM (Memref.isWhole_whole _) (Jzs m c) (fun i => (share2 c _ _).2.trans (chunk_some c _ _ _)) fun i => chunk_some c _ _ _)
      (back16 c zdM (Memref.isWhole_whole _) (Jzd m c) (ZDc m c)))))

/-- info: 'Cert.KernelIdeal.Hand.epi_landing' depends on axioms: [propext, Classical.choice, Quot.sound] -/
#guard_msgs in #print axioms epi_landing

end Cert.KernelIdeal.Hand

end
-- ==== Proof.HandKernelIdeal.Body.lean ====
import proofs.«900716_g7700000000000717_dist_ar_v7x_xyz2x2x4_y_m4096_n1024_f32_1_alg».proof.Proof.HandKernelIdeal.Steps
import proofs.«900716_g7700000000000717_dist_ar_v7x_xyz2x2x4_y_m4096_n1024_f32_1_alg».proof.Proof.HandKernelIdeal.Unpack
import proofs.«900716_g7700000000000717_dist_ar_v7x_xyz2x2x4_y_m4096_n1024_f32_1_alg».proof.Proof.HandKernelIdeal.Back
import proofs.«900716_g7700000000000717_dist_ar_v7x_xyz2x2x4_y_m4096_n1024_f32_1_alg».proof.Proof.HandKernelIdeal.Close
import proofs.«900716_g7700000000000717_dist_ar_v7x_xyz2x2x4_y_m4096_n1024_f32_1_alg».proof.Proof.HandKernelIdeal.EpiCells
import proofs.«900716_g7700000000000717_dist_ar_v7x_xyz2x2x4_y_m4096_n1024_f32_1_alg».proof.Proof.HandKernelIdeal.EpiLanding

noncomputable section

namespace Cert.KernelIdeal.Hand

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

attribute [-sl_rounds] payload_bar payload_bar0 payload_bar1 payload_bar2
attribute [local sl_rounds] ysendPay yrecvPay xrecvSPay xrecvDPay zrecvSPay zrecvDPay payload_xsend_lo payload_xsend_hi payload_zsend_lo payload_zsend_hi

omit [FloatOps F] in
theorem bigSep_fin3' (Φ : Fin 3 → sProp 𝕄) : bigSep Finset.univ Φ = iprop(Φ 0 ∗ Φ 1 ∗ Φ 2) := bigSep_univ_eq_bigSepL [0, 1, 2] (by decide) (by decide) Φ

omit [FloatOps F] in

theorem stg_view (c : Dev nD) (b : Ref sig .tc) (q : PosShare TreeShare) (f : Buf (Elt F) ((c : Thread nD τ).loc b)) :
    (((c : Thread nD τ).loc b) ↦{q} f : sProp 𝕄) = ((Memref.whole b : Memref sig .tc b.space b.ty.shape b.ty.elt).view.loc (c : Thread nD τ) ↦{q} f) := rfl

theorem free32 (c : Dev nD) (M : Memref sig .tc .vmem S32x32x1024 .f32) (hM : M.IsWhole) (f : Buf (Elt F) (M.view.loc (c : Thread nD τ))) :
    (M.view.loc (c : Thread nD τ) ↦{fullShare} f : sProp 𝕄) ⊢ bigSep Finset.univ fun i : Fin 32 => freeChunk c (slot32 M i) := by
  rw [land32_split c M hM fullShare f]
  exact bigSep_mono fun i _ => chunk_some c (slot32 M i) fullShare f
theorem free16 (c : Dev nD) (M : Memref sig .tc .vmem S16x32x1024 .f32) (hM : M.IsWhole) (f : Buf (Elt F) (M.view.loc (c : Thread nD τ))) :
    (M.view.loc (c : Thread nD τ) ↦{fullShare} f : sProp 𝕄) ⊢ bigSep Finset.univ fun i : Fin 16 => freeChunk c (slot16 M i) := by
  rw [land16_split c M hM fullShare f]
  exact bigSep_mono fun i _ => chunk_some c (slot16 M i) fullShare f

omit [FloatOps F] in
@[local sl_rounds] theorem payload_bar0p (c : Dev nD) : (Rd (F := F) m).payload (barCell (yN c)) 0 0 = (bigSep Finset.univ fun i : Fin 32 => freeChunk c (slot32 yrM i) : sProp 𝕄) := by
  rw [payload_bar0, yN_yN]
omit [FloatOps F] in
@[local sl_rounds] theorem payload_bar1p (c : Dev nD) : (Rd (F := F) m).payload (barCell (xN c)) 0 1 = (iprop((bigSep Finset.univ fun i : Fin 32 => freeChunk c (slot32 xsM i)) ∗ bigSep Finset.univ fun i : Fin 16 => freeChunk c (slot16 xdM i)) : sProp 𝕄) := by
  rw [payload_bar1, xN_xN]
omit [FloatOps F] in
@[local sl_rounds] theorem payload_bar2p (c : Dev nD) : (Rd (F := F) m).payload (barCell (zN c)) 0 2 = (iprop((bigSep Finset.univ fun i : Fin 32 => freeChunk c (slot32 zsM i)) ∗ bigSep Finset.univ fun i : Fin 16 => freeChunk c (slot16 zdM i)) : sProp 𝕄) := by
  rw [payload_bar2, zN_zN]

set_option maxHeartbeats 8000000 in
set_option maxRecDepth 100000 in
theorem sound_body (c : Dev nD) (K : Dev nD × CK → ℕ) (Kt : PUnit → sProp 𝕄) (W : Waits sig Unit)
    (g1 : (cc0_stg1_0 : Ref sig .tc).ty.Contents (Elt F))
    (f0 : Buf (Elt F) ((c : Thread nD τ).loc cc0_scratch0)) (f1 : Buf (Elt F) ((c : Thread nD τ).loc cc0_scratch1))
    (f2 : Buf (Elt F) ((c : Thread nD τ).loc cc0_scratch2)) (f3 : Buf (Elt F) ((c : Thread nD τ).loc cc0_scratch3))
    (f4 : Buf (Elt F) ((c : Thread nD τ).loc cc0_scratch4)) :
    iprop(records m K ∗ ownPos c ∗ payToks c ∗ ownCred c ∗ levAts L lv
        ∗ (((c : Thread nD τ).loc cc0_scratch0) ↦{fullShare} f0) ∗ (((c : Thread nD τ).loc cc0_scratch1) ↦{fullShare} f1)
        ∗ (((c : Thread nD τ).loc cc0_scratch2) ↦{fullShare} f2) ∗ (((c : Thread nD τ).loc cc0_scratch3) ↦{fullShare} f3)
        ∗ (((c : Thread nD τ).loc cc0_scratch4) ↦{fullShare} f4)
        ∗ owes (c : Thread nD τ) (O₀ c) W
        ∗ (((c : Thread nD τ).loc cc0_stg0_0) ↦{fullShare} Xs m c)
        ∗ (((c : Thread nD τ).loc cc0_stg1_0) ↦{fullShare} g1)
        ∗ (iprop(landing c ∗ (bigSep Finset.univ fun j : Fin 256 => semVal ((c : Thread nD τ), osem j) 0)
              ∗ (∃ W', owes (c : Thread nD τ) 0 W')
              ∗ (((c : Thread nD τ).loc cc0_stg0_0) ↦{fullShare} Xs m c)
              ∗ (((c : Thread nD τ).loc cc0_stg1_0) ↦{fullShare} outAt m c)) -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12) Kt := by
  iintro ⟨#Hrec, Hpos, Htok, Hcred, #Hlev, Hs0, Hs1, Hs2, Hs3, Hs4, HO, Hx, Hout, Hk⟩
  have hmw : ∀ (k : Nat) (sm : SemLoc sig), lv ((c : Thread nD τ), sm) () < (if k < 32 then 2 else if k < 96 then 3 else if k < 128 then 4 else 5) →
      ((levAts L lv : sProp 𝕄) ⊢ MayWait (c : Thread nD τ) sm () (Orem c k)) := fun k sm h => mayWait_rem (F := F) c k sm h
  unfold ownPos

  ihave Hch0 := (free32 (F := F) c yrM (Memref.isWhole_whole _) f0) $$ Hs0
  ihave Hch1 := (free32 (F := F) c xsM (Memref.isWhole_whole _) f1) $$ Hs1
  ihave Hch2 := (free16 (F := F) c xdM (Memref.isWhole_whole _) f2) $$ Hs2
  ihave Hch3 := (free32 (F := F) c zsM (Memref.isWhole_whole _) f3) $$ Hs3
  ihave Hch4 := (free16 (F := F) c zdM (Memref.isWhole_whole _) f4) $$ Hs4

  ihave Hx' := (Entails.of_eq (xrows_split (F := F) c (Xs m c))) $$ Hx
  icases Hx' with ⟨Hx, HxRows, HxRest⟩
  ihave Hxv := (Entails.of_eq (stg_view (F := F) c cc0_stg0_0 fullShare.right (Xs m c))) $$ Hx
  ihave Houtv := (Entails.of_eq (stg_view (F := F) c cc0_stg1_0 fullShare g1)) $$ Hout
  ihave HxRows' := (Entails.of_eq (bigSep_fin32 (F := F) fun i : Fin 32 => chunkAt c (xrow c i) qa (Xs m c))) $$ HxRows
  icases HxRows' with ⟨HxR0, HxR1, HxR2, HxR3, HxR4, HxR5, HxR6, HxR7, HxR8, HxR9, HxR10, HxR11, HxR12, HxR13, HxR14, HxR15, HxR16, HxR17, HxR18, HxR19, HxR20, HxR21, HxR22, HxR23, HxR24, HxR25, HxR26, HxR27, HxR28, HxR29, HxR30, HxR31⟩

  unfold payToks
  icases Htok with ⟨Htby, Htbx, Htbz, HtY, HtXS, HtXR, HtXD, HtZS, HtZR, HtZD⟩
  ihave HtY' := (Entails.of_eq (bigSep_fin32 (F := F) fun i : Fin 32 => iprop(dutyTok ER (ysendC c i) 0 (0 : Fin 3) ∗ dutyTok ER (yrecvC (yN c) i) 0 (0 : Fin 3)))) $$ HtY
  icases HtY' with ⟨⟨HtYS0, HtYR0⟩, ⟨HtYS1, HtYR1⟩, ⟨HtYS2, HtYR2⟩, ⟨HtYS3, HtYR3⟩, ⟨HtYS4, HtYR4⟩, ⟨HtYS5, HtYR5⟩, ⟨HtYS6, HtYR6⟩, ⟨HtYS7, HtYR7⟩, ⟨HtYS8, HtYR8⟩, ⟨HtYS9, HtYR9⟩, ⟨HtYS10, HtYR10⟩, ⟨HtYS11, HtYR11⟩, ⟨HtYS12, HtYR12⟩, ⟨HtYS13, HtYR13⟩, ⟨HtYS14, HtYR14⟩, ⟨HtYS15, HtYR15⟩, ⟨HtYS16, HtYR16⟩, ⟨HtYS17, HtYR17⟩, ⟨HtYS18, HtYR18⟩, ⟨HtYS19, HtYR19⟩, ⟨HtYS20, HtYR20⟩, ⟨HtYS21, HtYR21⟩, ⟨HtYS22, HtYR22⟩, ⟨HtYS23, HtYR23⟩, ⟨HtYS24, HtYR24⟩, ⟨HtYS25, HtYR25⟩, ⟨HtYS26, HtYR26⟩, ⟨HtYS27, HtYR27⟩, ⟨HtYS28, HtYR28⟩, ⟨HtYS29, HtYR29⟩, ⟨HtYS30, HtYR30⟩, ⟨HtYS31, HtYR31⟩⟩
  unfold ownCred
  icases Hcred with ⟨HcB, HcY, HcXS, HcXD, HcZS, HcZD⟩
  ihave Hpos' := (ownPos_fam (F := F) c 0).1 $$ Hpos
  icases Hpos' with ⟨HatB, HpYS, HpYR, HpXS, HpXR, HpXD, HpZS, HpZR, HpZD⟩
  ihave #HIb := (inv_bar (F := F) m K c) $$ Hrec
  ihave #HIby := (inv_bar (F := F) m K (yN c)) $$ Hrec
  ihave #HIbx := (inv_bar (F := F) m K (xN c)) $$ Hrec
  ihave #HIbz := (inv_bar (F := F) m K (zN c)) $$ Hrec
  ihave #Hrby := (reached_bar (F := F) m K (yN c)) $$ Hrec
  ihave #Hrbx := (reached_bar (F := F) m K (xN c)) $$ Hrec
  ihave #Hrbz := (reached_bar (F := F) m K (zN c)) $$ Hrec
  unfold O₀
  sl_unfold [cc0_body]
  sl_exec

  have hbar : (bigSep Finset.univ fun d : Fin 3 => (Rd (F := F) m).payload (barCell c) 0 d)
      = iprop((bigSep Finset.univ fun i : Fin 32 => freeChunk (yN c) (slot32 yrM i))
          ∗ ((bigSep Finset.univ fun i : Fin 32 => freeChunk (xN c) (slot32 xsM i)) ∗ bigSep Finset.univ fun i : Fin 16 => freeChunk (xN c) (slot16 xdM i))
          ∗ ((bigSep Finset.univ fun i : Fin 32 => freeChunk (zN c) (slot32 zsM i)) ∗ bigSep Finset.univ fun i : Fin 16 => freeChunk (zN c) (slot16 zdM i))) := by
    rw [bigSep_fin3', payload_bar0, payload_bar1, payload_bar2]
  ihave Hp := (Entails.of_eq hbar) $$ HatB_pay1
  icases Hp with ⟨HdY, ⟨HdXS, HdXD⟩, ⟨HdZS, HdZD⟩⟩
  ihave HdY' := (Entails.of_eq (bigSep_fin32 (F := F) fun i : Fin 32 => freeChunk (yN c) (slot32 yrM i))) $$ HdY
  icases HdY' with ⟨⟨%fdy0, HdY0⟩, ⟨%fdy1, HdY1⟩, ⟨%fdy2, HdY2⟩, ⟨%fdy3, HdY3⟩, ⟨%fdy4, HdY4⟩, ⟨%fdy5, HdY5⟩, ⟨%fdy6, HdY6⟩, ⟨%fdy7, HdY7⟩, ⟨%fdy8, HdY8⟩, ⟨%fdy9, HdY9⟩, ⟨%fdy10, HdY10⟩, ⟨%fdy11, HdY11⟩, ⟨%fdy12, HdY12⟩, ⟨%fdy13, HdY13⟩, ⟨%fdy14, HdY14⟩, ⟨%fdy15, HdY15⟩, ⟨%fdy16, HdY16⟩, ⟨%fdy17, HdY17⟩, ⟨%fdy18, HdY18⟩, ⟨%fdy19, HdY19⟩, ⟨%fdy20, HdY20⟩, ⟨%fdy21, HdY21⟩, ⟨%fdy22, HdY22⟩, ⟨%fdy23, HdY23⟩, ⟨%fdy24, HdY24⟩, ⟨%fdy25, HdY25⟩, ⟨%fdy26, HdY26⟩, ⟨%fdy27, HdY27⟩, ⟨%fdy28, HdY28⟩, ⟨%fdy29, HdY29⟩, ⟨%fdy30, HdY30⟩, ⟨%fdy31, HdY31⟩⟩

  iapply (ystepAt m c K 0 _ (dev4_eq c) fdy0 _) $$ [$Hrec $HxR0 $HdY0 HO $HtYS0 $HtYR0]
  · iexact HO
  iintro ⟨HcrYS0, HO⟩
  sl_exec

  iapply (ystepAt m c K 1 _ (dev5_eq c) fdy1 _) $$ [$Hrec $HxR1 $HdY1 HO $HtYS1 $HtYR1]
  · iexact HO
  iintro ⟨HcrYS1, HO⟩
  sl_exec

  iapply (ystepAt m c K 2 _ (dev6_eq c) fdy2 _) $$ [$Hrec $HxR2 $HdY2 HO $HtYS2 $HtYR2]
  · iexact HO
  iintro ⟨HcrYS2, HO⟩
  sl_exec

  iapply (ystepAt m c K 3 _ (dev7_eq c) fdy3 _) $$ [$Hrec $HxR3 $HdY3 HO $HtYS3 $HtYR3]
  · iexact HO
  iintro ⟨HcrYS3, HO⟩
  sl_exec

  iapply (ystepAt m c K 4 _ (dev8_eq c) fdy4 _) $$ [$Hrec $HxR4 $HdY4 HO $HtYS4 $HtYR4]
  · iexact HO
  iintro ⟨HcrYS4, HO⟩
  sl_exec

  iapply (ystepAt m c K 5 _ (dev9_eq c) fdy5 _) $$ [$Hrec $HxR5 $HdY5 HO $HtYS5 $HtYR5]
  · iexact HO
  iintro ⟨HcrYS5, HO⟩
  sl_exec

  iapply (ystepAt m c K 6 _ (dev10_eq c) fdy6 _) $$ [$Hrec $HxR6 $HdY6 HO $HtYS6 $HtYR6]
  · iexact HO
  iintro ⟨HcrYS6, HO⟩
  sl_exec

  iapply (ystepAt m c K 7 _ (dev11_eq c) fdy7 _) $$ [$Hrec $HxR7 $HdY7 HO $HtYS7 $HtYR7]
  · iexact HO
  iintro ⟨HcrYS7, HO⟩
  sl_exec

  iapply (ystepAt m c K 8 _ (dev12_eq c) fdy8 _) $$ [$Hrec $HxR8 $HdY8 HO $HtYS8 $HtYR8]
  · iexact HO
  iintro ⟨HcrYS8, HO⟩
  sl_exec

  iapply (ystepAt m c K 9 _ (dev13_eq c) fdy9 _) $$ [$Hrec $HxR9 $HdY9 HO $HtYS9 $HtYR9]
  · iexact HO
  iintro ⟨HcrYS9, HO⟩
  sl_exec

  iapply (ystepAt m c K 10 _ (dev14_eq c) fdy10 _) $$ [$Hrec $HxR10 $HdY10 HO $HtYS10 $HtYR10]
  · iexact HO
  iintro ⟨HcrYS10, HO⟩
  sl_exec

  iapply (ystepAt m c K 11 _ (dev15_eq c) fdy11 _) $$ [$Hrec $HxR11 $HdY11 HO $HtYS11 $HtYR11]
  · iexact HO
  iintro ⟨HcrYS11, HO⟩
  sl_exec

  iapply (ystepAt m c K 12 _ (dev16_eq c) fdy12 _) $$ [$Hrec $HxR12 $HdY12 HO $HtYS12 $HtYR12]
  · iexact HO
  iintro ⟨HcrYS12, HO⟩
  sl_exec

  iapply (ystepAt m c K 13 _ (dev17_eq c) fdy13 _) $$ [$Hrec $HxR13 $HdY13 HO $HtYS13 $HtYR13]
  · iexact HO
  iintro ⟨HcrYS13, HO⟩
  sl_exec

  iapply (ystepAt m c K 14 _ (dev18_eq c) fdy14 _) $$ [$Hrec $HxR14 $HdY14 HO $HtYS14 $HtYR14]
  · iexact HO
  iintro ⟨HcrYS14, HO⟩
  sl_exec

  iapply (ystepAt m c K 15 _ (dev19_eq c) fdy15 _) $$ [$Hrec $HxR15 $HdY15 HO $HtYS15 $HtYR15]
  · iexact HO
  iintro ⟨HcrYS15, HO⟩
  sl_exec

  iapply (ystepAt m c K 16 _ (dev20_eq c) fdy16 _) $$ [$Hrec $HxR16 $HdY16 HO $HtYS16 $HtYR16]
  · iexact HO
  iintro ⟨HcrYS16, HO⟩
  sl_exec

  iapply (ystepAt m c K 17 _ (dev21_eq c) fdy17 _) $$ [$Hrec $HxR17 $HdY17 HO $HtYS17 $HtYR17]
  · iexact HO
  iintro ⟨HcrYS17, HO⟩
  sl_exec

  iapply (ystepAt m c K 18 _ (dev22_eq c) fdy18 _) $$ [$Hrec $HxR18 $HdY18 HO $HtYS18 $HtYR18]
  · iexact HO
  iintro ⟨HcrYS18, HO⟩
  sl_exec

  iapply (ystepAt m c K 19 _ (dev23_eq c) fdy19 _) $$ [$Hrec $HxR19 $HdY19 HO $HtYS19 $HtYR19]
  · iexact HO
  iintro ⟨HcrYS19, HO⟩
  sl_exec

  iapply (ystepAt m c K 20 _ (dev24_eq c) fdy20 _) $$ [$Hrec $HxR20 $HdY20 HO $HtYS20 $HtYR20]
  · iexact HO
  iintro ⟨HcrYS20, HO⟩
  sl_exec

  iapply (ystepAt m c K 21 _ (dev25_eq c) fdy21 _) $$ [$Hrec $HxR21 $HdY21 HO $HtYS21 $HtYR21]
  · iexact HO
  iintro ⟨HcrYS21, HO⟩
  sl_exec

  iapply (ystepAt m c K 22 _ (dev26_eq c) fdy22 _) $$ [$Hrec $HxR22 $HdY22 HO $HtYS22 $HtYR22]
  · iexact HO
  iintro ⟨HcrYS22, HO⟩
  sl_exec

  iapply (ystepAt m c K 23 _ (dev27_eq c) fdy23 _) $$ [$Hrec $HxR23 $HdY23 HO $HtYS23 $HtYR23]
  · iexact HO
  iintro ⟨HcrYS23, HO⟩
  sl_exec

  iapply (ystepAt m c K 24 _ (dev28_eq c) fdy24 _) $$ [$Hrec $HxR24 $HdY24 HO $HtYS24 $HtYR24]
  · iexact HO
  iintro ⟨HcrYS24, HO⟩
  sl_exec

  iapply (ystepAt m c K 25 _ (dev29_eq c) fdy25 _) $$ [$Hrec $HxR25 $HdY25 HO $HtYS25 $HtYR25]
  · iexact HO
  iintro ⟨HcrYS25, HO⟩
  sl_exec

  iapply (ystepAt m c K 26 _ (dev30_eq c) fdy26 _) $$ [$Hrec $HxR26 $HdY26 HO $HtYS26 $HtYR26]
  · iexact HO
  iintro ⟨HcrYS26, HO⟩
  sl_exec

  iapply (ystepAt m c K 27 _ (dev31_eq c) fdy27 _) $$ [$Hrec $HxR27 $HdY27 HO $HtYS27 $HtYR27]
  · iexact HO
  iintro ⟨HcrYS27, HO⟩
  sl_exec

  iapply (ystepAt m c K 28 _ (dev32_eq c) fdy28 _) $$ [$Hrec $HxR28 $HdY28 HO $HtYS28 $HtYR28]
  · iexact HO
  iintro ⟨HcrYS28, HO⟩
  sl_exec

  iapply (ystepAt m c K 29 _ (dev33_eq c) fdy29 _) $$ [$Hrec $HxR29 $HdY29 HO $HtYS29 $HtYR29]
  · iexact HO
  iintro ⟨HcrYS29, HO⟩
  sl_exec

  iapply (ystepAt m c K 30 _ (dev34_eq c) fdy30 _) $$ [$Hrec $HxR30 $HdY30 HO $HtYS30 $HtYR30]
  · iexact HO
  iintro ⟨HcrYS30, HO⟩
  sl_exec

  iapply (ystepAt m c K 31 _ (dev35_eq c) fdy31 _) $$ [$Hrec $HxR31 $HdY31 HO $HtYS31 $HtYR31]
  · iexact HO
  iintro ⟨HcrYS31, HO⟩

  ihave HpYR' := (Entails.of_eq (bigSep_fin32 (F := F) fun i : Fin 32 => atPos ER (yrecvC c i) 0 ∅ 0)) $$ HpYR
  icases HpYR' with ⟨HaYR0, HaYR1, HaYR2, HaYR3, HaYR4, HaYR5, HaYR6, HaYR7, HaYR8, HaYR9, HaYR10, HaYR11, HaYR12, HaYR13, HaYR14, HaYR15, HaYR16, HaYR17, HaYR18, HaYR19, HaYR20, HaYR21, HaYR22, HaYR23, HaYR24, HaYR25, HaYR26, HaYR27, HaYR28, HaYR29, HaYR30, HaYR31⟩
  ihave HcY' := (Entails.of_eq (bigSep_fin32 (F := F) fun i : Fin 32 => cred (tallyAt (yrecvC c i) () N))) $$ HcY
  icases HcY' with ⟨HcY0, HcY1, HcY2, HcY3, HcY4, HcY5, HcY6, HcY7, HcY8, HcY9, HcY10, HcY11, HcY12, HcY13, HcY14, HcY15, HcY16, HcY17, HcY18, HcY19, HcY20, HcY21, HcY22, HcY23, HcY24, HcY25, HcY26, HcY27, HcY28, HcY29, HcY30, HcY31⟩
  ihave #H := ((rec_fam (F := F) m K _ (inv_yrecv (F := F) m K c)).trans (Entails.of_eq (bigSep_fin32 (F := F) _))) $$ Hrec
  icases H with ⟨#HI_yrecv0, #HI_yrecv1, #HI_yrecv2, #HI_yrecv3, #HI_yrecv4, #HI_yrecv5, #HI_yrecv6, #HI_yrecv7, #HI_yrecv8, #HI_yrecv9, #HI_yrecv10, #HI_yrecv11, #HI_yrecv12, #HI_yrecv13, #HI_yrecv14, #HI_yrecv15, #HI_yrecv16, #HI_yrecv17, #HI_yrecv18, #HI_yrecv19, #HI_yrecv20, #HI_yrecv21, #HI_yrecv22, #HI_yrecv23, #HI_yrecv24, #HI_yrecv25, #HI_yrecv26, #HI_yrecv27, #HI_yrecv28, #HI_yrecv29, #HI_yrecv30, #HI_yrecv31⟩
  ihave HtXS' := (Entails.of_eq (bigSep_fin48 (F := F) fun j : Fin 48 => dutyTok ER (xsendC c j) 0 (0 : Fin 3))) $$ HtXS
  icases HtXS' with ⟨HtXS0, HtXS1, HtXS2, HtXS3, HtXS4, HtXS5, HtXS6, HtXS7, HtXS8, HtXS9, HtXS10, HtXS11, HtXS12, HtXS13, HtXS14, HtXS15, HtXS16, HtXS17, HtXS18, HtXS19, HtXS20, HtXS21, HtXS22, HtXS23, HtXS24, HtXS25, HtXS26, HtXS27, HtXS28, HtXS29, HtXS30, HtXS31, HtXS32, HtXS33, HtXS34, HtXS35, HtXS36, HtXS37, HtXS38, HtXS39, HtXS40, HtXS41, HtXS42, HtXS43, HtXS44, HtXS45, HtXS46, HtXS47⟩
  ihave HtXR' := (Entails.of_eq (bigSep_fin32 (F := F) fun i : Fin 32 => dutyTok ER (xrecvSC (xN c) i) 0 (0 : Fin 3))) $$ HtXR
  icases HtXR' with ⟨HtXR0, HtXR1, HtXR2, HtXR3, HtXR4, HtXR5, HtXR6, HtXR7, HtXR8, HtXR9, HtXR10, HtXR11, HtXR12, HtXR13, HtXR14, HtXR15, HtXR16, HtXR17, HtXR18, HtXR19, HtXR20, HtXR21, HtXR22, HtXR23, HtXR24, HtXR25, HtXR26, HtXR27, HtXR28, HtXR29, HtXR30, HtXR31⟩
  ihave HtZS' := (Entails.of_eq (bigSep_fin48 (F := F) fun j : Fin 48 => dutyTok ER (zsendC c j) 0 (0 : Fin 3))) $$ HtZS
  icases HtZS' with ⟨HtZS0, HtZS1, HtZS2, HtZS3, HtZS4, HtZS5, HtZS6, HtZS7, HtZS8, HtZS9, HtZS10, HtZS11, HtZS12, HtZS13, HtZS14, HtZS15, HtZS16, HtZS17, HtZS18, HtZS19, HtZS20, HtZS21, HtZS22, HtZS23, HtZS24, HtZS25, HtZS26, HtZS27, HtZS28, HtZS29, HtZS30, HtZS31, HtZS32, HtZS33, HtZS34, HtZS35, HtZS36, HtZS37, HtZS38, HtZS39, HtZS40, HtZS41, HtZS42, HtZS43, HtZS44, HtZS45, HtZS46, HtZS47⟩
  ihave HtZR' := (Entails.of_eq (bigSep_fin32 (F := F) fun i : Fin 32 => dutyTok ER (zrecvSC (zN c) i) 0 (0 : Fin 3))) $$ HtZR
  icases HtZR' with ⟨HtZR0, HtZR1, HtZR2, HtZR3, HtZR4, HtZR5, HtZR6, HtZR7, HtZR8, HtZR9, HtZR10, HtZR11, HtZR12, HtZR13, HtZR14, HtZR15, HtZR16, HtZR17, HtZR18, HtZR19, HtZR20, HtZR21, HtZR22, HtZR23, HtZR24, HtZR25, HtZR26, HtZR27, HtZR28, HtZR29, HtZR30, HtZR31⟩
  ihave HdXS' := (Entails.of_eq (bigSep_fin32 (F := F) fun i : Fin 32 => freeChunk (xN c) (slot32 xsM i))) $$ HdXS
  icases HdXS' with ⟨⟨%fdxs0, HdXS0⟩, ⟨%fdxs1, HdXS1⟩, ⟨%fdxs2, HdXS2⟩, ⟨%fdxs3, HdXS3⟩, ⟨%fdxs4, HdXS4⟩, ⟨%fdxs5, HdXS5⟩, ⟨%fdxs6, HdXS6⟩, ⟨%fdxs7, HdXS7⟩, ⟨%fdxs8, HdXS8⟩, ⟨%fdxs9, HdXS9⟩, ⟨%fdxs10, HdXS10⟩, ⟨%fdxs11, HdXS11⟩, ⟨%fdxs12, HdXS12⟩, ⟨%fdxs13, HdXS13⟩, ⟨%fdxs14, HdXS14⟩, ⟨%fdxs15, HdXS15⟩, ⟨%fdxs16, HdXS16⟩, ⟨%fdxs17, HdXS17⟩, ⟨%fdxs18, HdXS18⟩, ⟨%fdxs19, HdXS19⟩, ⟨%fdxs20, HdXS20⟩, ⟨%fdxs21, HdXS21⟩, ⟨%fdxs22, HdXS22⟩, ⟨%fdxs23, HdXS23⟩, ⟨%fdxs24, HdXS24⟩, ⟨%fdxs25, HdXS25⟩, ⟨%fdxs26, HdXS26⟩, ⟨%fdxs27, HdXS27⟩, ⟨%fdxs28, HdXS28⟩, ⟨%fdxs29, HdXS29⟩, ⟨%fdxs30, HdXS30⟩, ⟨%fdxs31, HdXS31⟩⟩
  ihave HdZS' := (Entails.of_eq (bigSep_fin32 (F := F) fun i : Fin 32 => freeChunk (zN c) (slot32 zsM i))) $$ HdZS
  icases HdZS' with ⟨⟨%fdzs0, HdZS0⟩, ⟨%fdzs1, HdZS1⟩, ⟨%fdzs2, HdZS2⟩, ⟨%fdzs3, HdZS3⟩, ⟨%fdzs4, HdZS4⟩, ⟨%fdzs5, HdZS5⟩, ⟨%fdzs6, HdZS6⟩, ⟨%fdzs7, HdZS7⟩, ⟨%fdzs8, HdZS8⟩, ⟨%fdzs9, HdZS9⟩, ⟨%fdzs10, HdZS10⟩, ⟨%fdzs11, HdZS11⟩, ⟨%fdzs12, HdZS12⟩, ⟨%fdzs13, HdZS13⟩, ⟨%fdzs14, HdZS14⟩, ⟨%fdzs15, HdZS15⟩, ⟨%fdzs16, HdZS16⟩, ⟨%fdzs17, HdZS17⟩, ⟨%fdzs18, HdZS18⟩, ⟨%fdzs19, HdZS19⟩, ⟨%fdzs20, HdZS20⟩, ⟨%fdzs21, HdZS21⟩, ⟨%fdzs22, HdZS22⟩, ⟨%fdzs23, HdZS23⟩, ⟨%fdzs24, HdZS24⟩, ⟨%fdzs25, HdZS25⟩, ⟨%fdzs26, HdZS26⟩, ⟨%fdzs27, HdZS27⟩, ⟨%fdzs28, HdZS28⟩, ⟨%fdzs29, HdZS29⟩, ⟨%fdzs30, HdZS30⟩, ⟨%fdzs31, HdZS31⟩⟩
  sl_exec

  ihave Hy0' := (share3 (F := F) c (slot32 yrM 0) (Yc m c 0)).1 $$ HaYR0_pay1
  icases Hy0' with ⟨HyA0, HyB0, HyC0⟩
  iapply (xsstepAt m c K 0 _ (dev36_eq c) fdxs0 _) $$ [$Hrec $HyA0 $HdXS0 HO HtXS0 $HtXR0]
  · isplitl [HO]; · iexact HO
    iexact HtXS0
  iintro ⟨HcrXS0, HO⟩
  sl_exec
  iapply (zsstepAt m c K 0 _ (dev37_eq c) fdzs0 _) $$ [$Hrec $HyB0 $HdZS0 HO HtZS0 $HtZR0]
  · isplitl [HO]; · iexact HO
    iexact HtZS0
  iintro ⟨HcrZS0, HO⟩
  sl_exec

  ihave Hy1' := (share3 (F := F) c (slot32 yrM 1) (Yc m c 1)).1 $$ HaYR1_pay1
  icases Hy1' with ⟨HyA1, HyB1, HyC1⟩
  iapply (xsstepAt m c K 1 _ (dev38_eq c) fdxs1 _) $$ [$Hrec $HyA1 $HdXS1 HO HtXS1 $HtXR1]
  · isplitl [HO]; · iexact HO
    iexact HtXS1
  iintro ⟨HcrXS1, HO⟩
  sl_exec
  iapply (zsstepAt m c K 1 _ (dev39_eq c) fdzs1 _) $$ [$Hrec $HyB1 $HdZS1 HO HtZS1 $HtZR1]
  · isplitl [HO]; · iexact HO
    iexact HtZS1
  iintro ⟨HcrZS1, HO⟩
  sl_exec

  ihave Hy2' := (share3 (F := F) c (slot32 yrM 2) (Yc m c 2)).1 $$ HaYR2_pay1
  icases Hy2' with ⟨HyA2, HyB2, HyC2⟩
  iapply (xsstepAt m c K 2 _ (dev40_eq c) fdxs2 _) $$ [$Hrec $HyA2 $HdXS2 HO HtXS2 $HtXR2]
  · isplitl [HO]; · iexact HO
    iexact HtXS2
  iintro ⟨HcrXS2, HO⟩
  sl_exec
  iapply (zsstepAt m c K 2 _ (dev41_eq c) fdzs2 _) $$ [$Hrec $HyB2 $HdZS2 HO HtZS2 $HtZR2]
  · isplitl [HO]; · iexact HO
    iexact HtZS2
  iintro ⟨HcrZS2, HO⟩
  sl_exec

  ihave Hy3' := (share3 (F := F) c (slot32 yrM 3) (Yc m c 3)).1 $$ HaYR3_pay1
  icases Hy3' with ⟨HyA3, HyB3, HyC3⟩
  iapply (xsstepAt m c K 3 _ (dev42_eq c) fdxs3 _) $$ [$Hrec $HyA3 $HdXS3 HO HtXS3 $HtXR3]
  · isplitl [HO]; · iexact HO
    iexact HtXS3
  iintro ⟨HcrXS3, HO⟩
  sl_exec
  iapply (zsstepAt m c K 3 _ (dev43_eq c) fdzs3 _) $$ [$Hrec $HyB3 $HdZS3 HO HtZS3 $HtZR3]
  · isplitl [HO]; · iexact HO
    iexact HtZS3
  iintro ⟨HcrZS3, HO⟩
  sl_exec

  ihave Hy4' := (share3 (F := F) c (slot32 yrM 4) (Yc m c 4)).1 $$ HaYR4_pay1
  icases Hy4' with ⟨HyA4, HyB4, HyC4⟩
  iapply (xsstepAt m c K 4 _ (dev44_eq c) fdxs4 _) $$ [$Hrec $HyA4 $HdXS4 HO HtXS4 $HtXR4]
  · isplitl [HO]; · iexact HO
    iexact HtXS4
  iintro ⟨HcrXS4, HO⟩
  sl_exec
  iapply (zsstepAt m c K 4 _ (dev45_eq c) fdzs4 _) $$ [$Hrec $HyB4 $HdZS4 HO HtZS4 $HtZR4]
  · isplitl [HO]; · iexact HO
    iexact HtZS4
  iintro ⟨HcrZS4, HO⟩
  sl_exec

  ihave Hy5' := (share3 (F := F) c (slot32 yrM 5) (Yc m c 5)).1 $$ HaYR5_pay1
  icases Hy5' with ⟨HyA5, HyB5, HyC5⟩
  iapply (xsstepAt m c K 5 _ (dev46_eq c) fdxs5 _) $$ [$Hrec $HyA5 $HdXS5 HO HtXS5 $HtXR5]
  · isplitl [HO]; · iexact HO
    iexact HtXS5
  iintro ⟨HcrXS5, HO⟩
  sl_exec
  iapply (zsstepAt m c K 5 _ (dev47_eq c) fdzs5 _) $$ [$Hrec $HyB5 $HdZS5 HO HtZS5 $HtZR5]
  · isplitl [HO]; · iexact HO
    iexact HtZS5
  iintro ⟨HcrZS5, HO⟩
  sl_exec

  ihave Hy6' := (share3 (F := F) c (slot32 yrM 6) (Yc m c 6)).1 $$ HaYR6_pay1
  icases Hy6' with ⟨HyA6, HyB6, HyC6⟩
  iapply (xsstepAt m c K 6 _ (dev48_eq c) fdxs6 _) $$ [$Hrec $HyA6 $HdXS6 HO HtXS6 $HtXR6]
  · isplitl [HO]; · iexact HO
    iexact HtXS6
  iintro ⟨HcrXS6, HO⟩
  sl_exec
  iapply (zsstepAt m c K 6 _ (dev49_eq c) fdzs6 _) $$ [$Hrec $HyB6 $HdZS6 HO HtZS6 $HtZR6]
  · isplitl [HO]; · iexact HO
    iexact HtZS6
  iintro ⟨HcrZS6, HO⟩
  sl_exec

  ihave Hy7' := (share3 (F := F) c (slot32 yrM 7) (Yc m c 7)).1 $$ HaYR7_pay1
  icases Hy7' with ⟨HyA7, HyB7, HyC7⟩
  iapply (xsstepAt m c K 7 _ (dev50_eq c) fdxs7 _) $$ [$Hrec $HyA7 $HdXS7 HO HtXS7 $HtXR7]
  · isplitl [HO]; · iexact HO
    iexact HtXS7
  iintro ⟨HcrXS7, HO⟩
  sl_exec
  iapply (zsstepAt m c K 7 _ (dev51_eq c) fdzs7 _) $$ [$Hrec $HyB7 $HdZS7 HO HtZS7 $HtZR7]
  · isplitl [HO]; · iexact HO
    iexact HtZS7
  iintro ⟨HcrZS7, HO⟩
  sl_exec

  ihave Hy8' := (share3 (F := F) c (slot32 yrM 8) (Yc m c 8)).1 $$ HaYR8_pay1
  icases Hy8' with ⟨HyA8, HyB8, HyC8⟩
  iapply (xsstepAt m c K 8 _ (dev52_eq c) fdxs8 _) $$ [$Hrec $HyA8 $HdXS8 HO HtXS8 $HtXR8]
  · isplitl [HO]; · iexact HO
    iexact HtXS8
  iintro ⟨HcrXS8, HO⟩
  sl_exec
  iapply (zsstepAt m c K 8 _ (dev53_eq c) fdzs8 _) $$ [$Hrec $HyB8 $HdZS8 HO HtZS8 $HtZR8]
  · isplitl [HO]; · iexact HO
    iexact HtZS8
  iintro ⟨HcrZS8, HO⟩
  sl_exec

  ihave Hy9' := (share3 (F := F) c (slot32 yrM 9) (Yc m c 9)).1 $$ HaYR9_pay1
  icases Hy9' with ⟨HyA9, HyB9, HyC9⟩
  iapply (xsstepAt m c K 9 _ (dev54_eq c) fdxs9 _) $$ [$Hrec $HyA9 $HdXS9 HO HtXS9 $HtXR9]
  · isplitl [HO]; · iexact HO
    iexact HtXS9
  iintro ⟨HcrXS9, HO⟩
  sl_exec
  iapply (zsstepAt m c K 9 _ (dev55_eq c) fdzs9 _) $$ [$Hrec $HyB9 $HdZS9 HO HtZS9 $HtZR9]
  · isplitl [HO]; · iexact HO
    iexact HtZS9
  iintro ⟨HcrZS9, HO⟩
  sl_exec

  ihave Hy10' := (share3 (F := F) c (slot32 yrM 10) (Yc m c 10)).1 $$ HaYR10_pay1
  icases Hy10' with ⟨HyA10, HyB10, HyC10⟩
  iapply (xsstepAt m c K 10 _ (dev56_eq c) fdxs10 _) $$ [$Hrec $HyA10 $HdXS10 HO HtXS10 $HtXR10]
  · isplitl [HO]; · iexact HO
    iexact HtXS10
  iintro ⟨HcrXS10, HO⟩
  sl_exec
  iapply (zsstepAt m c K 10 _ (dev57_eq c) fdzs10 _) $$ [$Hrec $HyB10 $HdZS10 HO HtZS10 $HtZR10]
  · isplitl [HO]; · iexact HO
    iexact HtZS10
  iintro ⟨HcrZS10, HO⟩
  sl_exec

  ihave Hy11' := (share3 (F := F) c (slot32 yrM 11) (Yc m c 11)).1 $$ HaYR11_pay1
  icases Hy11' with ⟨HyA11, HyB11, HyC11⟩
  iapply (xsstepAt m c K 11 _ (dev58_eq c) fdxs11 _) $$ [$Hrec $HyA11 $HdXS11 HO HtXS11 $HtXR11]
  · isplitl [HO]; · iexact HO
    iexact HtXS11
  iintro ⟨HcrXS11, HO⟩
  sl_exec
  iapply (zsstepAt m c K 11 _ (dev59_eq c) fdzs11 _) $$ [$Hrec $HyB11 $HdZS11 HO HtZS11 $HtZR11]
  · isplitl [HO]; · iexact HO
    iexact HtZS11
  iintro ⟨HcrZS11, HO⟩
  sl_exec

  ihave Hy12' := (share3 (F := F) c (slot32 yrM 12) (Yc m c 12)).1 $$ HaYR12_pay1
  icases Hy12' with ⟨HyA12, HyB12, HyC12⟩
  iapply (xsstepAt m c K 12 _ (dev60_eq c) fdxs12 _) $$ [$Hrec $HyA12 $HdXS12 HO HtXS12 $HtXR12]
  · isplitl [HO]; · iexact HO
    iexact HtXS12
  iintro ⟨HcrXS12, HO⟩
  sl_exec
  iapply (zsstepAt m c K 12 _ (dev61_eq c) fdzs12 _) $$ [$Hrec $HyB12 $HdZS12 HO HtZS12 $HtZR12]
  · isplitl [HO]; · iexact HO
    iexact HtZS12
  iintro ⟨HcrZS12, HO⟩
  sl_exec

  ihave Hy13' := (share3 (F := F) c (slot32 yrM 13) (Yc m c 13)).1 $$ HaYR13_pay1
  icases Hy13' with ⟨HyA13, HyB13, HyC13⟩
  iapply (xsstepAt m c K 13 _ (dev62_eq c) fdxs13 _) $$ [$Hrec $HyA13 $HdXS13 HO HtXS13 $HtXR13]
  · isplitl [HO]; · iexact HO
    iexact HtXS13
  iintro ⟨HcrXS13, HO⟩
  sl_exec
  iapply (zsstepAt m c K 13 _ (dev63_eq c) fdzs13 _) $$ [$Hrec $HyB13 $HdZS13 HO HtZS13 $HtZR13]
  · isplitl [HO]; · iexact HO
    iexact HtZS13
  iintro ⟨HcrZS13, HO⟩
  sl_exec

  ihave Hy14' := (share3 (F := F) c (slot32 yrM 14) (Yc m c 14)).1 $$ HaYR14_pay1
  icases Hy14' with ⟨HyA14, HyB14, HyC14⟩
  iapply (xsstepAt m c K 14 _ (dev64_eq c) fdxs14 _) $$ [$Hrec $HyA14 $HdXS14 HO HtXS14 $HtXR14]
  · isplitl [HO]; · iexact HO
    iexact HtXS14
  iintro ⟨HcrXS14, HO⟩
  sl_exec
  iapply (zsstepAt m c K 14 _ (dev65_eq c) fdzs14 _) $$ [$Hrec $HyB14 $HdZS14 HO HtZS14 $HtZR14]
  · isplitl [HO]; · iexact HO
    iexact HtZS14
  iintro ⟨HcrZS14, HO⟩
  sl_exec

  ihave Hy15' := (share3 (F := F) c (slot32 yrM 15) (Yc m c 15)).1 $$ HaYR15_pay1
  icases Hy15' with ⟨HyA15, HyB15, HyC15⟩
  iapply (xsstepAt m c K 15 _ (dev66_eq c) fdxs15 _) $$ [$Hrec $HyA15 $HdXS15 HO HtXS15 $HtXR15]
  · isplitl [HO]; · iexact HO
    iexact HtXS15
  iintro ⟨HcrXS15, HO⟩
  sl_exec
  iapply (zsstepAt m c K 15 _ (dev67_eq c) fdzs15 _) $$ [$Hrec $HyB15 $HdZS15 HO HtZS15 $HtZR15]
  · isplitl [HO]; · iexact HO
    iexact HtZS15
  iintro ⟨HcrZS15, HO⟩
  sl_exec

  ihave Hy16' := (share3 (F := F) c (slot32 yrM 16) (Yc m c 16)).1 $$ HaYR16_pay1
  icases Hy16' with ⟨HyA16, HyB16, HyC16⟩
  iapply (xsstepAt m c K 16 _ (dev68_eq c) fdxs16 _) $$ [$Hrec $HyA16 $HdXS16 HO HtXS16 $HtXR16]
  · isplitl [HO]; · iexact HO
    iexact HtXS16
  iintro ⟨HcrXS16, HO⟩
  sl_exec
  iapply (zsstepAt m c K 16 _ (dev69_eq c) fdzs16 _) $$ [$Hrec $HyB16 $HdZS16 HO HtZS16 $HtZR16]
  · isplitl [HO]; · iexact HO
    iexact HtZS16
  iintro ⟨HcrZS16, HO⟩
  sl_exec

  ihave Hy17' := (share3 (F := F) c (slot32 yrM 17) (Yc m c 17)).1 $$ HaYR17_pay1
  icases Hy17' with ⟨HyA17, HyB17, HyC17⟩
  iapply (xsstepAt m c K 17 _ (dev70_eq c) fdxs17 _) $$ [$Hrec $HyA17 $HdXS17 HO HtXS17 $HtXR17]
  · isplitl [HO]; · iexact HO
    iexact HtXS17
  iintro ⟨HcrXS17, HO⟩
  sl_exec
  iapply (zsstepAt m c K 17 _ (dev71_eq c) fdzs17 _) $$ [$Hrec $HyB17 $HdZS17 HO HtZS17 $HtZR17]
  · isplitl [HO]; · iexact HO
    iexact HtZS17
  iintro ⟨HcrZS17, HO⟩
  sl_exec

  ihave Hy18' := (share3 (F := F) c (slot32 yrM 18) (Yc m c 18)).1 $$ HaYR18_pay1
  icases Hy18' with ⟨HyA18, HyB18, HyC18⟩
  iapply (xsstepAt m c K 18 _ (dev72_eq c) fdxs18 _) $$ [$Hrec $HyA18 $HdXS18 HO HtXS18 $HtXR18]
  · isplitl [HO]; · iexact HO
    iexact HtXS18
  iintro ⟨HcrXS18, HO⟩
  sl_exec
  iapply (zsstepAt m c K 18 _ (dev73_eq c) fdzs18 _) $$ [$Hrec $HyB18 $HdZS18 HO HtZS18 $HtZR18]
  · isplitl [HO]; · iexact HO
    iexact HtZS18
  iintro ⟨HcrZS18, HO⟩
  sl_exec

  ihave Hy19' := (share3 (F := F) c (slot32 yrM 19) (Yc m c 19)).1 $$ HaYR19_pay1
  icases Hy19' with ⟨HyA19, HyB19, HyC19⟩
  iapply (xsstepAt m c K 19 _ (dev74_eq c) fdxs19 _) $$ [$Hrec $HyA19 $HdXS19 HO HtXS19 $HtXR19]
  · isplitl [HO]; · iexact HO
    iexact HtXS19
  iintro ⟨HcrXS19, HO⟩
  sl_exec
  iapply (zsstepAt m c K 19 _ (dev75_eq c) fdzs19 _) $$ [$Hrec $HyB19 $HdZS19 HO HtZS19 $HtZR19]
  · isplitl [HO]; · iexact HO
    iexact HtZS19
  iintro ⟨HcrZS19, HO⟩
  sl_exec

  ihave Hy20' := (share3 (F := F) c (slot32 yrM 20) (Yc m c 20)).1 $$ HaYR20_pay1
  icases Hy20' with ⟨HyA20, HyB20, HyC20⟩
  iapply (xsstepAt m c K 20 _ (dev76_eq c) fdxs20 _) $$ [$Hrec $HyA20 $HdXS20 HO HtXS20 $HtXR20]
  · isplitl [HO]; · iexact HO
    iexact HtXS20
  iintro ⟨HcrXS20, HO⟩
  sl_exec
  iapply (zsstepAt m c K 20 _ (dev77_eq c) fdzs20 _) $$ [$Hrec $HyB20 $HdZS20 HO HtZS20 $HtZR20]
  · isplitl [HO]; · iexact HO
    iexact HtZS20
  iintro ⟨HcrZS20, HO⟩
  sl_exec

  ihave Hy21' := (share3 (F := F) c (slot32 yrM 21) (Yc m c 21)).1 $$ HaYR21_pay1
  icases Hy21' with ⟨HyA21, HyB21, HyC21⟩
  iapply (xsstepAt m c K 21 _ (dev78_eq c) fdxs21 _) $$ [$Hrec $HyA21 $HdXS21 HO HtXS21 $HtXR21]
  · isplitl [HO]; · iexact HO
    iexact HtXS21
  iintro ⟨HcrXS21, HO⟩
  sl_exec
  iapply (zsstepAt m c K 21 _ (dev79_eq c) fdzs21 _) $$ [$Hrec $HyB21 $HdZS21 HO HtZS21 $HtZR21]
  · isplitl [HO]; · iexact HO
    iexact HtZS21
  iintro ⟨HcrZS21, HO⟩
  sl_exec

  ihave Hy22' := (share3 (F := F) c (slot32 yrM 22) (Yc m c 22)).1 $$ HaYR22_pay1
  icases Hy22' with ⟨HyA22, HyB22, HyC22⟩
  iapply (xsstepAt m c K 22 _ (dev80_eq c) fdxs22 _) $$ [$Hrec $HyA22 $HdXS22 HO HtXS22 $HtXR22]
  · isplitl [HO]; · iexact HO
    iexact HtXS22
  iintro ⟨HcrXS22, HO⟩
  sl_exec
  iapply (zsstepAt m c K 22 _ (dev81_eq c) fdzs22 _) $$ [$Hrec $HyB22 $HdZS22 HO HtZS22 $HtZR22]
  · isplitl [HO]; · iexact HO
    iexact HtZS22
  iintro ⟨HcrZS22, HO⟩
  sl_exec

  ihave Hy23' := (share3 (F := F) c (slot32 yrM 23) (Yc m c 23)).1 $$ HaYR23_pay1
  icases Hy23' with ⟨HyA23, HyB23, HyC23⟩
  iapply (xsstepAt m c K 23 _ (dev82_eq c) fdxs23 _) $$ [$Hrec $HyA23 $HdXS23 HO HtXS23 $HtXR23]
  · isplitl [HO]; · iexact HO
    iexact HtXS23
  iintro ⟨HcrXS23, HO⟩
  sl_exec
  iapply (zsstepAt m c K 23 _ (dev83_eq c) fdzs23 _) $$ [$Hrec $HyB23 $HdZS23 HO HtZS23 $HtZR23]
  · isplitl [HO]; · iexact HO
    iexact HtZS23
  iintro ⟨HcrZS23, HO⟩
  sl_exec

  ihave Hy24' := (share3 (F := F) c (slot32 yrM 24) (Yc m c 24)).1 $$ HaYR24_pay1
  icases Hy24' with ⟨HyA24, HyB24, HyC24⟩
  iapply (xsstepAt m c K 24 _ (dev84_eq c) fdxs24 _) $$ [$Hrec $HyA24 $HdXS24 HO HtXS24 $HtXR24]
  · isplitl [HO]; · iexact HO
    iexact HtXS24
  iintro ⟨HcrXS24, HO⟩
  sl_exec
  iapply (zsstepAt m c K 24 _ (dev85_eq c) fdzs24 _) $$ [$Hrec $HyB24 $HdZS24 HO HtZS24 $HtZR24]
  · isplitl [HO]; · iexact HO
    iexact HtZS24
  iintro ⟨HcrZS24, HO⟩
  sl_exec

  ihave Hy25' := (share3 (F := F) c (slot32 yrM 25) (Yc m c 25)).1 $$ HaYR25_pay1
  icases Hy25' with ⟨HyA25, HyB25, HyC25⟩
  iapply (xsstepAt m c K 25 _ (dev86_eq c) fdxs25 _) $$ [$Hrec $HyA25 $HdXS25 HO HtXS25 $HtXR25]
  · isplitl [HO]; · iexact HO
    iexact HtXS25
  iintro ⟨HcrXS25, HO⟩
  sl_exec
  iapply (zsstepAt m c K 25 _ (dev87_eq c) fdzs25 _) $$ [$Hrec $HyB25 $HdZS25 HO HtZS25 $HtZR25]
  · isplitl [HO]; · iexact HO
    iexact HtZS25
  iintro ⟨HcrZS25, HO⟩
  sl_exec

  ihave Hy26' := (share3 (F := F) c (slot32 yrM 26) (Yc m c 26)).1 $$ HaYR26_pay1
  icases Hy26' with ⟨HyA26, HyB26, HyC26⟩
  iapply (xsstepAt m c K 26 _ (dev88_eq c) fdxs26 _) $$ [$Hrec $HyA26 $HdXS26 HO HtXS26 $HtXR26]
  · isplitl [HO]; · iexact HO
    iexact HtXS26
  iintro ⟨HcrXS26, HO⟩
  sl_exec
  iapply (zsstepAt m c K 26 _ (dev89_eq c) fdzs26 _) $$ [$Hrec $HyB26 $HdZS26 HO HtZS26 $HtZR26]
  · isplitl [HO]; · iexact HO
    iexact HtZS26
  iintro ⟨HcrZS26, HO⟩
  sl_exec

  ihave Hy27' := (share3 (F := F) c (slot32 yrM 27) (Yc m c 27)).1 $$ HaYR27_pay1
  icases Hy27' with ⟨HyA27, HyB27, HyC27⟩
  iapply (xsstepAt m c K 27 _ (dev90_eq c) fdxs27 _) $$ [$Hrec $HyA27 $HdXS27 HO HtXS27 $HtXR27]
  · isplitl [HO]; · iexact HO
    iexact HtXS27
  iintro ⟨HcrXS27, HO⟩
  sl_exec
  iapply (zsstepAt m c K 27 _ (dev91_eq c) fdzs27 _) $$ [$Hrec $HyB27 $HdZS27 HO HtZS27 $HtZR27]
  · isplitl [HO]; · iexact HO
    iexact HtZS27
  iintro ⟨HcrZS27, HO⟩
  sl_exec

  ihave Hy28' := (share3 (F := F) c (slot32 yrM 28) (Yc m c 28)).1 $$ HaYR28_pay1
  icases Hy28' with ⟨HyA28, HyB28, HyC28⟩
  iapply (xsstepAt m c K 28 _ (dev92_eq c) fdxs28 _) $$ [$Hrec $HyA28 $HdXS28 HO HtXS28 $HtXR28]
  · isplitl [HO]; · iexact HO
    iexact HtXS28
  iintro ⟨HcrXS28, HO⟩
  sl_exec
  iapply (zsstepAt m c K 28 _ (dev93_eq c) fdzs28 _) $$ [$Hrec $HyB28 $HdZS28 HO HtZS28 $HtZR28]
  · isplitl [HO]; · iexact HO
    iexact HtZS28
  iintro ⟨HcrZS28, HO⟩
  sl_exec

  ihave Hy29' := (share3 (F := F) c (slot32 yrM 29) (Yc m c 29)).1 $$ HaYR29_pay1
  icases Hy29' with ⟨HyA29, HyB29, HyC29⟩
  iapply (xsstepAt m c K 29 _ (dev94_eq c) fdxs29 _) $$ [$Hrec $HyA29 $HdXS29 HO HtXS29 $HtXR29]
  · isplitl [HO]; · iexact HO
    iexact HtXS29
  iintro ⟨HcrXS29, HO⟩
  sl_exec
  iapply (zsstepAt m c K 29 _ (dev95_eq c) fdzs29 _) $$ [$Hrec $HyB29 $HdZS29 HO HtZS29 $HtZR29]
  · isplitl [HO]; · iexact HO
    iexact HtZS29
  iintro ⟨HcrZS29, HO⟩
  sl_exec

  ihave Hy30' := (share3 (F := F) c (slot32 yrM 30) (Yc m c 30)).1 $$ HaYR30_pay1
  icases Hy30' with ⟨HyA30, HyB30, HyC30⟩
  iapply (xsstepAt m c K 30 _ (dev96_eq c) fdxs30 _) $$ [$Hrec $HyA30 $HdXS30 HO HtXS30 $HtXR30]
  · isplitl [HO]; · iexact HO
    iexact HtXS30
  iintro ⟨HcrXS30, HO⟩
  sl_exec
  iapply (zsstepAt m c K 30 _ (dev97_eq c) fdzs30 _) $$ [$Hrec $HyB30 $HdZS30 HO HtZS30 $HtZR30]
  · isplitl [HO]; · iexact HO
    iexact HtZS30
  iintro ⟨HcrZS30, HO⟩
  sl_exec

  ihave Hy31' := (share3 (F := F) c (slot32 yrM 31) (Yc m c 31)).1 $$ HaYR31_pay1
  icases Hy31' with ⟨HyA31, HyB31, HyC31⟩
  iapply (xsstepAt m c K 31 _ (dev98_eq c) fdxs31 _) $$ [$Hrec $HyA31 $HdXS31 HO HtXS31 $HtXR31]
  · isplitl [HO]; · iexact HO
    iexact HtXS31
  iintro ⟨HcrXS31, HO⟩
  sl_exec
  iapply (zsstepAt m c K 31 _ (dev99_eq c) fdzs31 _) $$ [$Hrec $HyB31 $HdZS31 HO HtZS31 $HtZR31]
  · isplitl [HO]; · iexact HO
    iexact HtZS31
  iintro ⟨HcrZS31, HO⟩

  ihave HpZR' := (Entails.of_eq (bigSep_fin32 (F := F) fun i : Fin 32 => atPos ER (zrecvSC c i) 0 ∅ 0)) $$ HpZR
  icases HpZR' with ⟨HaZR0, HaZR1, HaZR2, HaZR3, HaZR4, HaZR5, HaZR6, HaZR7, HaZR8, HaZR9, HaZR10, HaZR11, HaZR12, HaZR13, HaZR14, HaZR15, HaZR16, HaZR17, HaZR18, HaZR19, HaZR20, HaZR21, HaZR22, HaZR23, HaZR24, HaZR25, HaZR26, HaZR27, HaZR28, HaZR29, HaZR30, HaZR31⟩
  ihave HcZS' := (Entails.of_eq (bigSep_fin32 (F := F) fun i : Fin 32 => cred (tallyAt (zrecvSC c i) () N))) $$ HcZS
  icases HcZS' with ⟨HcZS0, HcZS1, HcZS2, HcZS3, HcZS4, HcZS5, HcZS6, HcZS7, HcZS8, HcZS9, HcZS10, HcZS11, HcZS12, HcZS13, HcZS14, HcZS15, HcZS16, HcZS17, HcZS18, HcZS19, HcZS20, HcZS21, HcZS22, HcZS23, HcZS24, HcZS25, HcZS26, HcZS27, HcZS28, HcZS29, HcZS30, HcZS31⟩
  ihave #H := ((rec_fam (F := F) m K _ (inv_zrecvS (F := F) m K c)).trans (Entails.of_eq (bigSep_fin32 (F := F) _))) $$ Hrec
  icases H with ⟨#HI_zrecvS0, #HI_zrecvS1, #HI_zrecvS2, #HI_zrecvS3, #HI_zrecvS4, #HI_zrecvS5, #HI_zrecvS6, #HI_zrecvS7, #HI_zrecvS8, #HI_zrecvS9, #HI_zrecvS10, #HI_zrecvS11, #HI_zrecvS12, #HI_zrecvS13, #HI_zrecvS14, #HI_zrecvS15, #HI_zrecvS16, #HI_zrecvS17, #HI_zrecvS18, #HI_zrecvS19, #HI_zrecvS20, #HI_zrecvS21, #HI_zrecvS22, #HI_zrecvS23, #HI_zrecvS24, #HI_zrecvS25, #HI_zrecvS26, #HI_zrecvS27, #HI_zrecvS28, #HI_zrecvS29, #HI_zrecvS30, #HI_zrecvS31⟩
  ihave HtXD' := (Entails.of_eq (bigSep_fin16 (F := F) fun i : Fin 16 => dutyTok ER (xrecvDC (xN c) i) 0 (0 : Fin 3))) $$ HtXD
  icases HtXD' with ⟨HtXD0, HtXD1, HtXD2, HtXD3, HtXD4, HtXD5, HtXD6, HtXD7, HtXD8, HtXD9, HtXD10, HtXD11, HtXD12, HtXD13, HtXD14, HtXD15⟩
  ihave HdXD' := (Entails.of_eq (bigSep_fin16 (F := F) fun i : Fin 16 => freeChunk (xN c) (slot16 xdM i))) $$ HdXD
  icases HdXD' with ⟨⟨%fdxd0, HdXD0⟩, ⟨%fdxd1, HdXD1⟩, ⟨%fdxd2, HdXD2⟩, ⟨%fdxd3, HdXD3⟩, ⟨%fdxd4, HdXD4⟩, ⟨%fdxd5, HdXD5⟩, ⟨%fdxd6, HdXD6⟩, ⟨%fdxd7, HdXD7⟩, ⟨%fdxd8, HdXD8⟩, ⟨%fdxd9, HdXD9⟩, ⟨%fdxd10, HdXD10⟩, ⟨%fdxd11, HdXD11⟩, ⟨%fdxd12, HdXD12⟩, ⟨%fdxd13, HdXD13⟩, ⟨%fdxd14, HdXD14⟩, ⟨%fdxd15, HdXD15⟩⟩
  sl_exec

  ihave Hzs0' := (share2 (F := F) c (slot32 zsM 0) (ZSc m c 0)).1 $$ HaZR0_pay1
  icases Hzs0' with ⟨HzsA0, HzsR0⟩
  iapply (xdstepAt m c K 0 _ (dev100_eq c) fdxd0 _) $$ [$Hrec HzsA0 $HdXD0 HO HtXS32 $HtXD0]
  · isplitl [HzsA0]; · iexact HzsA0
    isplitl [HO]; · iexact HO
    iexact HtXS32
  iintro ⟨HcrXS32, HO⟩
  sl_exec

  ihave Hzs1' := (share2 (F := F) c (slot32 zsM 1) (ZSc m c 1)).1 $$ HaZR1_pay1
  icases Hzs1' with ⟨HzsA1, HzsR1⟩
  iapply (xdstepAt m c K 1 _ (dev101_eq c) fdxd1 _) $$ [$Hrec HzsA1 $HdXD1 HO HtXS33 $HtXD1]
  · isplitl [HzsA1]; · iexact HzsA1
    isplitl [HO]; · iexact HO
    iexact HtXS33
  iintro ⟨HcrXS33, HO⟩
  sl_exec

  ihave Hzs2' := (share2 (F := F) c (slot32 zsM 2) (ZSc m c 2)).1 $$ HaZR2_pay1
  icases Hzs2' with ⟨HzsA2, HzsR2⟩
  iapply (xdstepAt m c K 2 _ (dev102_eq c) fdxd2 _) $$ [$Hrec HzsA2 $HdXD2 HO HtXS34 $HtXD2]
  · isplitl [HzsA2]; · iexact HzsA2
    isplitl [HO]; · iexact HO
    iexact HtXS34
  iintro ⟨HcrXS34, HO⟩
  sl_exec

  ihave Hzs3' := (share2 (F := F) c (slot32 zsM 3) (ZSc m c 3)).1 $$ HaZR3_pay1
  icases Hzs3' with ⟨HzsA3, HzsR3⟩
  iapply (xdstepAt m c K 3 _ (dev103_eq c) fdxd3 _) $$ [$Hrec HzsA3 $HdXD3 HO HtXS35 $HtXD3]
  · isplitl [HzsA3]; · iexact HzsA3
    isplitl [HO]; · iexact HO
    iexact HtXS35
  iintro ⟨HcrXS35, HO⟩
  sl_exec

  ihave Hzs4' := (share2 (F := F) c (slot32 zsM 4) (ZSc m c 4)).1 $$ HaZR4_pay1
  icases Hzs4' with ⟨HzsA4, HzsR4⟩
  iapply (xdstepAt m c K 4 _ (dev104_eq c) fdxd4 _) $$ [$Hrec HzsA4 $HdXD4 HO HtXS36 $HtXD4]
  · isplitl [HzsA4]; · iexact HzsA4
    isplitl [HO]; · iexact HO
    iexact HtXS36
  iintro ⟨HcrXS36, HO⟩
  sl_exec

  ihave Hzs5' := (share2 (F := F) c (slot32 zsM 5) (ZSc m c 5)).1 $$ HaZR5_pay1
  icases Hzs5' with ⟨HzsA5, HzsR5⟩
  iapply (xdstepAt m c K 5 _ (dev105_eq c) fdxd5 _) $$ [$Hrec HzsA5 $HdXD5 HO HtXS37 $HtXD5]
  · isplitl [HzsA5]; · iexact HzsA5
    isplitl [HO]; · iexact HO
    iexact HtXS37
  iintro ⟨HcrXS37, HO⟩
  sl_exec

  ihave Hzs6' := (share2 (F := F) c (slot32 zsM 6) (ZSc m c 6)).1 $$ HaZR6_pay1
  icases Hzs6' with ⟨HzsA6, HzsR6⟩
  iapply (xdstepAt m c K 6 _ (dev106_eq c) fdxd6 _) $$ [$Hrec HzsA6 $HdXD6 HO HtXS38 $HtXD6]
  · isplitl [HzsA6]; · iexact HzsA6
    isplitl [HO]; · iexact HO
    iexact HtXS38
  iintro ⟨HcrXS38, HO⟩
  sl_exec

  ihave Hzs7' := (share2 (F := F) c (slot32 zsM 7) (ZSc m c 7)).1 $$ HaZR7_pay1
  icases Hzs7' with ⟨HzsA7, HzsR7⟩
  iapply (xdstepAt m c K 7 _ (dev107_eq c) fdxd7 _) $$ [$Hrec HzsA7 $HdXD7 HO HtXS39 $HtXD7]
  · isplitl [HzsA7]; · iexact HzsA7
    isplitl [HO]; · iexact HO
    iexact HtXS39
  iintro ⟨HcrXS39, HO⟩
  sl_exec

  ihave Hzs8' := (share2 (F := F) c (slot32 zsM 8) (ZSc m c 8)).1 $$ HaZR8_pay1
  icases Hzs8' with ⟨HzsA8, HzsR8⟩
  iapply (xdstepAt m c K 8 _ (dev108_eq c) fdxd8 _) $$ [$Hrec HzsA8 $HdXD8 HO HtXS40 $HtXD8]
  · isplitl [HzsA8]; · iexact HzsA8
    isplitl [HO]; · iexact HO
    iexact HtXS40
  iintro ⟨HcrXS40, HO⟩
  sl_exec

  ihave Hzs9' := (share2 (F := F) c (slot32 zsM 9) (ZSc m c 9)).1 $$ HaZR9_pay1
  icases Hzs9' with ⟨HzsA9, HzsR9⟩
  iapply (xdstepAt m c K 9 _ (dev109_eq c) fdxd9 _) $$ [$Hrec HzsA9 $HdXD9 HO HtXS41 $HtXD9]
  · isplitl [HzsA9]; · iexact HzsA9
    isplitl [HO]; · iexact HO
    iexact HtXS41
  iintro ⟨HcrXS41, HO⟩
  sl_exec

  ihave Hzs10' := (share2 (F := F) c (slot32 zsM 10) (ZSc m c 10)).1 $$ HaZR10_pay1
  icases Hzs10' with ⟨HzsA10, HzsR10⟩
  iapply (xdstepAt m c K 10 _ (dev110_eq c) fdxd10 _) $$ [$Hrec HzsA10 $HdXD10 HO HtXS42 $HtXD10]
  · isplitl [HzsA10]; · iexact HzsA10
    isplitl [HO]; · iexact HO
    iexact HtXS42
  iintro ⟨HcrXS42, HO⟩
  sl_exec

  ihave Hzs11' := (share2 (F := F) c (slot32 zsM 11) (ZSc m c 11)).1 $$ HaZR11_pay1
  icases Hzs11' with ⟨HzsA11, HzsR11⟩
  iapply (xdstepAt m c K 11 _ (dev111_eq c) fdxd11 _) $$ [$Hrec HzsA11 $HdXD11 HO HtXS43 $HtXD11]
  · isplitl [HzsA11]; · iexact HzsA11
    isplitl [HO]; · iexact HO
    iexact HtXS43
  iintro ⟨HcrXS43, HO⟩
  sl_exec

  ihave Hzs12' := (share2 (F := F) c (slot32 zsM 12) (ZSc m c 12)).1 $$ HaZR12_pay1
  icases Hzs12' with ⟨HzsA12, HzsR12⟩
  iapply (xdstepAt m c K 12 _ (dev112_eq c) fdxd12 _) $$ [$Hrec HzsA12 $HdXD12 HO HtXS44 $HtXD12]
  · isplitl [HzsA12]; · iexact HzsA12
    isplitl [HO]; · iexact HO
    iexact HtXS44
  iintro ⟨HcrXS44, HO⟩
  sl_exec

  ihave Hzs13' := (share2 (F := F) c (slot32 zsM 13) (ZSc m c 13)).1 $$ HaZR13_pay1
  icases Hzs13' with ⟨HzsA13, HzsR13⟩
  iapply (xdstepAt m c K 13 _ (dev113_eq c) fdxd13 _) $$ [$Hrec HzsA13 $HdXD13 HO HtXS45 $HtXD13]
  · isplitl [HzsA13]; · iexact HzsA13
    isplitl [HO]; · iexact HO
    iexact HtXS45
  iintro ⟨HcrXS45, HO⟩
  sl_exec

  ihave Hzs14' := (share2 (F := F) c (slot32 zsM 14) (ZSc m c 14)).1 $$ HaZR14_pay1
  icases Hzs14' with ⟨HzsA14, HzsR14⟩
  iapply (xdstepAt m c K 14 _ (dev114_eq c) fdxd14 _) $$ [$Hrec HzsA14 $HdXD14 HO HtXS46 $HtXD14]
  · isplitl [HzsA14]; · iexact HzsA14
    isplitl [HO]; · iexact HO
    iexact HtXS46
  iintro ⟨HcrXS46, HO⟩
  sl_exec

  ihave Hzs15' := (share2 (F := F) c (slot32 zsM 15) (ZSc m c 15)).1 $$ HaZR15_pay1
  icases Hzs15' with ⟨HzsA15, HzsR15⟩
  iapply (xdstepAt m c K 15 _ (dev115_eq c) fdxd15 _) $$ [$Hrec HzsA15 $HdXD15 HO HtXS47 $HtXD15]
  · isplitl [HzsA15]; · iexact HzsA15
    isplitl [HO]; · iexact HO
    iexact HtXS47
  iintro ⟨HcrXS47, HO⟩

  ihave HpXR' := (Entails.of_eq (bigSep_fin32 (F := F) fun i : Fin 32 => atPos ER (xrecvSC c i) 0 ∅ 0)) $$ HpXR
  icases HpXR' with ⟨HaXR0, HaXR1, HaXR2, HaXR3, HaXR4, HaXR5, HaXR6, HaXR7, HaXR8, HaXR9, HaXR10, HaXR11, HaXR12, HaXR13, HaXR14, HaXR15, HaXR16, HaXR17, HaXR18, HaXR19, HaXR20, HaXR21, HaXR22, HaXR23, HaXR24, HaXR25, HaXR26, HaXR27, HaXR28, HaXR29, HaXR30, HaXR31⟩
  ihave HcXS' := (Entails.of_eq (bigSep_fin32 (F := F) fun i : Fin 32 => cred (tallyAt (xrecvSC c i) () N))) $$ HcXS
  icases HcXS' with ⟨HcXS0, HcXS1, HcXS2, HcXS3, HcXS4, HcXS5, HcXS6, HcXS7, HcXS8, HcXS9, HcXS10, HcXS11, HcXS12, HcXS13, HcXS14, HcXS15, HcXS16, HcXS17, HcXS18, HcXS19, HcXS20, HcXS21, HcXS22, HcXS23, HcXS24, HcXS25, HcXS26, HcXS27, HcXS28, HcXS29, HcXS30, HcXS31⟩
  ihave #H := ((rec_fam (F := F) m K _ (inv_xrecvS (F := F) m K c)).trans (Entails.of_eq (bigSep_fin32 (F := F) _))) $$ Hrec
  icases H with ⟨#HI_xrecvS0, #HI_xrecvS1, #HI_xrecvS2, #HI_xrecvS3, #HI_xrecvS4, #HI_xrecvS5, #HI_xrecvS6, #HI_xrecvS7, #HI_xrecvS8, #HI_xrecvS9, #HI_xrecvS10, #HI_xrecvS11, #HI_xrecvS12, #HI_xrecvS13, #HI_xrecvS14, #HI_xrecvS15, #HI_xrecvS16, #HI_xrecvS17, #HI_xrecvS18, #HI_xrecvS19, #HI_xrecvS20, #HI_xrecvS21, #HI_xrecvS22, #HI_xrecvS23, #HI_xrecvS24, #HI_xrecvS25, #HI_xrecvS26, #HI_xrecvS27, #HI_xrecvS28, #HI_xrecvS29, #HI_xrecvS30, #HI_xrecvS31⟩
  ihave HtZD' := (Entails.of_eq (bigSep_fin16 (F := F) fun i : Fin 16 => dutyTok ER (zrecvDC (zN c) i) 0 (0 : Fin 3))) $$ HtZD
  icases HtZD' with ⟨HtZD0, HtZD1, HtZD2, HtZD3, HtZD4, HtZD5, HtZD6, HtZD7, HtZD8, HtZD9, HtZD10, HtZD11, HtZD12, HtZD13, HtZD14, HtZD15⟩
  ihave HdZD' := (Entails.of_eq (bigSep_fin16 (F := F) fun i : Fin 16 => freeChunk (zN c) (slot16 zdM i))) $$ HdZD
  icases HdZD' with ⟨⟨%fdzd0, HdZD0⟩, ⟨%fdzd1, HdZD1⟩, ⟨%fdzd2, HdZD2⟩, ⟨%fdzd3, HdZD3⟩, ⟨%fdzd4, HdZD4⟩, ⟨%fdzd5, HdZD5⟩, ⟨%fdzd6, HdZD6⟩, ⟨%fdzd7, HdZD7⟩, ⟨%fdzd8, HdZD8⟩, ⟨%fdzd9, HdZD9⟩, ⟨%fdzd10, HdZD10⟩, ⟨%fdzd11, HdZD11⟩, ⟨%fdzd12, HdZD12⟩, ⟨%fdzd13, HdZD13⟩, ⟨%fdzd14, HdZD14⟩, ⟨%fdzd15, HdZD15⟩⟩
  sl_exec

  ihave Hxs16' := (share2 (F := F) c (slot32 xsM 16) (XSc m c 16)).1 $$ HaXR16_pay1
  icases Hxs16' with ⟨HxsA16, HxsR16⟩
  iapply (zdstepAt m c K 0 _ (dev116_eq c) fdzd0 _) $$ [$Hrec HxsA16 $HdZD0 HO HtZS32 $HtZD0]
  · isplitl [HxsA16]; · iexact HxsA16
    isplitl [HO]; · iexact HO
    iexact HtZS32
  iintro ⟨HcrZS32, HO⟩
  sl_exec

  ihave Hxs17' := (share2 (F := F) c (slot32 xsM 17) (XSc m c 17)).1 $$ HaXR17_pay1
  icases Hxs17' with ⟨HxsA17, HxsR17⟩
  iapply (zdstepAt m c K 1 _ (dev117_eq c) fdzd1 _) $$ [$Hrec HxsA17 $HdZD1 HO HtZS33 $HtZD1]
  · isplitl [HxsA17]; · iexact HxsA17
    isplitl [HO]; · iexact HO
    iexact HtZS33
  iintro ⟨HcrZS33, HO⟩
  sl_exec

  ihave Hxs18' := (share2 (F := F) c (slot32 xsM 18) (XSc m c 18)).1 $$ HaXR18_pay1
  icases Hxs18' with ⟨HxsA18, HxsR18⟩
  iapply (zdstepAt m c K 2 _ (dev118_eq c) fdzd2 _) $$ [$Hrec HxsA18 $HdZD2 HO HtZS34 $HtZD2]
  · isplitl [HxsA18]; · iexact HxsA18
    isplitl [HO]; · iexact HO
    iexact HtZS34
  iintro ⟨HcrZS34, HO⟩
  sl_exec

  ihave Hxs19' := (share2 (F := F) c (slot32 xsM 19) (XSc m c 19)).1 $$ HaXR19_pay1
  icases Hxs19' with ⟨HxsA19, HxsR19⟩
  iapply (zdstepAt m c K 3 _ (dev119_eq c) fdzd3 _) $$ [$Hrec HxsA19 $HdZD3 HO HtZS35 $HtZD3]
  · isplitl [HxsA19]; · iexact HxsA19
    isplitl [HO]; · iexact HO
    iexact HtZS35
  iintro ⟨HcrZS35, HO⟩
  sl_exec

  ihave Hxs20' := (share2 (F := F) c (slot32 xsM 20) (XSc m c 20)).1 $$ HaXR20_pay1
  icases Hxs20' with ⟨HxsA20, HxsR20⟩
  iapply (zdstepAt m c K 4 _ (dev120_eq c) fdzd4 _) $$ [$Hrec HxsA20 $HdZD4 HO HtZS36 $HtZD4]
  · isplitl [HxsA20]; · iexact HxsA20
    isplitl [HO]; · iexact HO
    iexact HtZS36
  iintro ⟨HcrZS36, HO⟩
  sl_exec

  ihave Hxs21' := (share2 (F := F) c (slot32 xsM 21) (XSc m c 21)).1 $$ HaXR21_pay1
  icases Hxs21' with ⟨HxsA21, HxsR21⟩
  iapply (zdstepAt m c K 5 _ (dev121_eq c) fdzd5 _) $$ [$Hrec HxsA21 $HdZD5 HO HtZS37 $HtZD5]
  · isplitl [HxsA21]; · iexact HxsA21
    isplitl [HO]; · iexact HO
    iexact HtZS37
  iintro ⟨HcrZS37, HO⟩
  sl_exec

  ihave Hxs22' := (share2 (F := F) c (slot32 xsM 22) (XSc m c 22)).1 $$ HaXR22_pay1
  icases Hxs22' with ⟨HxsA22, HxsR22⟩
  iapply (zdstepAt m c K 6 _ (dev122_eq c) fdzd6 _) $$ [$Hrec HxsA22 $HdZD6 HO HtZS38 $HtZD6]
  · isplitl [HxsA22]; · iexact HxsA22
    isplitl [HO]; · iexact HO
    iexact HtZS38
  iintro ⟨HcrZS38, HO⟩
  sl_exec

  ihave Hxs23' := (share2 (F := F) c (slot32 xsM 23) (XSc m c 23)).1 $$ HaXR23_pay1
  icases Hxs23' with ⟨HxsA23, HxsR23⟩
  iapply (zdstepAt m c K 7 _ (dev123_eq c) fdzd7 _) $$ [$Hrec HxsA23 $HdZD7 HO HtZS39 $HtZD7]
  · isplitl [HxsA23]; · iexact HxsA23
    isplitl [HO]; · iexact HO
    iexact HtZS39
  iintro ⟨HcrZS39, HO⟩
  sl_exec

  ihave Hxs24' := (share2 (F := F) c (slot32 xsM 24) (XSc m c 24)).1 $$ HaXR24_pay1
  icases Hxs24' with ⟨HxsA24, HxsR24⟩
  iapply (zdstepAt m c K 8 _ (dev124_eq c) fdzd8 _) $$ [$Hrec HxsA24 $HdZD8 HO HtZS40 $HtZD8]
  · isplitl [HxsA24]; · iexact HxsA24
    isplitl [HO]; · iexact HO
    iexact HtZS40
  iintro ⟨HcrZS40, HO⟩
  sl_exec

  ihave Hxs25' := (share2 (F := F) c (slot32 xsM 25) (XSc m c 25)).1 $$ HaXR25_pay1
  icases Hxs25' with ⟨HxsA25, HxsR25⟩
  iapply (zdstepAt m c K 9 _ (dev125_eq c) fdzd9 _) $$ [$Hrec HxsA25 $HdZD9 HO HtZS41 $HtZD9]
  · isplitl [HxsA25]; · iexact HxsA25
    isplitl [HO]; · iexact HO
    iexact HtZS41
  iintro ⟨HcrZS41, HO⟩
  sl_exec

  ihave Hxs26' := (share2 (F := F) c (slot32 xsM 26) (XSc m c 26)).1 $$ HaXR26_pay1
  icases Hxs26' with ⟨HxsA26, HxsR26⟩
  iapply (zdstepAt m c K 10 _ (dev126_eq c) fdzd10 _) $$ [$Hrec HxsA26 $HdZD10 HO HtZS42 $HtZD10]
  · isplitl [HxsA26]; · iexact HxsA26
    isplitl [HO]; · iexact HO
    iexact HtZS42
  iintro ⟨HcrZS42, HO⟩
  sl_exec

  ihave Hxs27' := (share2 (F := F) c (slot32 xsM 27) (XSc m c 27)).1 $$ HaXR27_pay1
  icases Hxs27' with ⟨HxsA27, HxsR27⟩
  iapply (zdstepAt m c K 11 _ (dev127_eq c) fdzd11 _) $$ [$Hrec HxsA27 $HdZD11 HO HtZS43 $HtZD11]
  · isplitl [HxsA27]; · iexact HxsA27
    isplitl [HO]; · iexact HO
    iexact HtZS43
  iintro ⟨HcrZS43, HO⟩
  sl_exec

  ihave Hxs28' := (share2 (F := F) c (slot32 xsM 28) (XSc m c 28)).1 $$ HaXR28_pay1
  icases Hxs28' with ⟨HxsA28, HxsR28⟩
  iapply (zdstepAt m c K 12 _ (dev128_eq c) fdzd12 _) $$ [$Hrec HxsA28 $HdZD12 HO HtZS44 $HtZD12]
  · isplitl [HxsA28]; · iexact HxsA28
    isplitl [HO]; · iexact HO
    iexact HtZS44
  iintro ⟨HcrZS44, HO⟩
  sl_exec

  ihave Hxs29' := (share2 (F := F) c (slot32 xsM 29) (XSc m c 29)).1 $$ HaXR29_pay1
  icases Hxs29' with ⟨HxsA29, HxsR29⟩
  iapply (zdstepAt m c K 13 _ (dev129_eq c) fdzd13 _) $$ [$Hrec HxsA29 $HdZD13 HO HtZS45 $HtZD13]
  · isplitl [HxsA29]; · iexact HxsA29
    isplitl [HO]; · iexact HO
    iexact HtZS45
  iintro ⟨HcrZS45, HO⟩
  sl_exec

  ihave Hxs30' := (share2 (F := F) c (slot32 xsM 30) (XSc m c 30)).1 $$ HaXR30_pay1
  icases Hxs30' with ⟨HxsA30, HxsR30⟩
  iapply (zdstepAt m c K 14 _ (dev130_eq c) fdzd14 _) $$ [$Hrec HxsA30 $HdZD14 HO HtZS46 $HtZD14]
  · isplitl [HxsA30]; · iexact HxsA30
    isplitl [HO]; · iexact HO
    iexact HtZS46
  iintro ⟨HcrZS46, HO⟩
  sl_exec

  ihave Hxs31' := (share2 (F := F) c (slot32 xsM 31) (XSc m c 31)).1 $$ HaXR31_pay1
  icases Hxs31' with ⟨HxsA31, HxsR31⟩
  iapply (zdstepAt m c K 15 _ (dev131_eq c) fdzd15 _) $$ [$Hrec HxsA31 $HdZD15 HO HtZS47 $HtZD15]
  · isplitl [HxsA31]; · iexact HxsA31
    isplitl [HO]; · iexact HO
    iexact HtZS47
  iintro ⟨HcrZS47, HO⟩

  ihave HpXD' := (Entails.of_eq (bigSep_fin16 (F := F) fun i : Fin 16 => atPos ER (xrecvDC c i) 0 ∅ 0)) $$ HpXD
  icases HpXD' with ⟨HaXD0, HaXD1, HaXD2, HaXD3, HaXD4, HaXD5, HaXD6, HaXD7, HaXD8, HaXD9, HaXD10, HaXD11, HaXD12, HaXD13, HaXD14, HaXD15⟩
  ihave HcXD' := (Entails.of_eq (bigSep_fin16 (F := F) fun i : Fin 16 => cred (tallyAt (xrecvDC c i) () N))) $$ HcXD
  icases HcXD' with ⟨HcXD0, HcXD1, HcXD2, HcXD3, HcXD4, HcXD5, HcXD6, HcXD7, HcXD8, HcXD9, HcXD10, HcXD11, HcXD12, HcXD13, HcXD14, HcXD15⟩
  ihave #H := ((rec_fam (F := F) m K _ (inv_xrecvD (F := F) m K c)).trans (Entails.of_eq (bigSep_fin16 (F := F) _))) $$ Hrec
  icases H with ⟨#HI_xrecvD0, #HI_xrecvD1, #HI_xrecvD2, #HI_xrecvD3, #HI_xrecvD4, #HI_xrecvD5, #HI_xrecvD6, #HI_xrecvD7, #HI_xrecvD8, #HI_xrecvD9, #HI_xrecvD10, #HI_xrecvD11, #HI_xrecvD12, #HI_xrecvD13, #HI_xrecvD14, #HI_xrecvD15⟩
  ihave HpZD' := (Entails.of_eq (bigSep_fin16 (F := F) fun i : Fin 16 => atPos ER (zrecvDC c i) 0 ∅ 0)) $$ HpZD
  icases HpZD' with ⟨HaZD0, HaZD1, HaZD2, HaZD3, HaZD4, HaZD5, HaZD6, HaZD7, HaZD8, HaZD9, HaZD10, HaZD11, HaZD12, HaZD13, HaZD14, HaZD15⟩
  ihave HcZD' := (Entails.of_eq (bigSep_fin16 (F := F) fun i : Fin 16 => cred (tallyAt (zrecvDC c i) () N))) $$ HcZD
  icases HcZD' with ⟨HcZD0, HcZD1, HcZD2, HcZD3, HcZD4, HcZD5, HcZD6, HcZD7, HcZD8, HcZD9, HcZD10, HcZD11, HcZD12, HcZD13, HcZD14, HcZD15⟩
  ihave #H := ((rec_fam (F := F) m K _ (inv_zrecvD (F := F) m K c)).trans (Entails.of_eq (bigSep_fin16 (F := F) _))) $$ Hrec
  icases H with ⟨#HI_zrecvD0, #HI_zrecvD1, #HI_zrecvD2, #HI_zrecvD3, #HI_zrecvD4, #HI_zrecvD5, #HI_zrecvD6, #HI_zrecvD7, #HI_zrecvD8, #HI_zrecvD9, #HI_zrecvD10, #HI_zrecvD11, #HI_zrecvD12, #HI_zrecvD13, #HI_zrecvD14, #HI_zrecvD15⟩
  ihave HpYS' := (Entails.of_eq (bigSep_fin32 (F := F) fun i : Fin 32 => atPos ER (ysendC c i) 0 ∅ 0)) $$ HpYS
  icases HpYS' with ⟨HaYS0, HaYS1, HaYS2, HaYS3, HaYS4, HaYS5, HaYS6, HaYS7, HaYS8, HaYS9, HaYS10, HaYS11, HaYS12, HaYS13, HaYS14, HaYS15, HaYS16, HaYS17, HaYS18, HaYS19, HaYS20, HaYS21, HaYS22, HaYS23, HaYS24, HaYS25, HaYS26, HaYS27, HaYS28, HaYS29, HaYS30, HaYS31⟩
  ihave #H := ((rec_fam (F := F) m K _ (inv_ysend (F := F) m K c)).trans (Entails.of_eq (bigSep_fin32 (F := F) _))) $$ Hrec
  icases H with ⟨#HI_ysend0, #HI_ysend1, #HI_ysend2, #HI_ysend3, #HI_ysend4, #HI_ysend5, #HI_ysend6, #HI_ysend7, #HI_ysend8, #HI_ysend9, #HI_ysend10, #HI_ysend11, #HI_ysend12, #HI_ysend13, #HI_ysend14, #HI_ysend15, #HI_ysend16, #HI_ysend17, #HI_ysend18, #HI_ysend19, #HI_ysend20, #HI_ysend21, #HI_ysend22, #HI_ysend23, #HI_ysend24, #HI_ysend25, #HI_ysend26, #HI_ysend27, #HI_ysend28, #HI_ysend29, #HI_ysend30, #HI_ysend31⟩
  ihave HpXS' := (Entails.of_eq (bigSep_fin48 (F := F) fun j : Fin 48 => atPos ER (xsendC c j) 0 ∅ 0)) $$ HpXS
  icases HpXS' with ⟨HaXS0, HaXS1, HaXS2, HaXS3, HaXS4, HaXS5, HaXS6, HaXS7, HaXS8, HaXS9, HaXS10, HaXS11, HaXS12, HaXS13, HaXS14, HaXS15, HaXS16, HaXS17, HaXS18, HaXS19, HaXS20, HaXS21, HaXS22, HaXS23, HaXS24, HaXS25, HaXS26, HaXS27, HaXS28, HaXS29, HaXS30, HaXS31, HaXS32, HaXS33, HaXS34, HaXS35, HaXS36, HaXS37, HaXS38, HaXS39, HaXS40, HaXS41, HaXS42, HaXS43, HaXS44, HaXS45, HaXS46, HaXS47⟩
  ihave #H := ((rec_fam (F := F) m K _ (inv_xsend (F := F) m K c)).trans (Entails.of_eq (bigSep_fin48 (F := F) _))) $$ Hrec
  icases H with ⟨#HI_xsend0, #HI_xsend1, #HI_xsend2, #HI_xsend3, #HI_xsend4, #HI_xsend5, #HI_xsend6, #HI_xsend7, #HI_xsend8, #HI_xsend9, #HI_xsend10, #HI_xsend11, #HI_xsend12, #HI_xsend13, #HI_xsend14, #HI_xsend15, #HI_xsend16, #HI_xsend17, #HI_xsend18, #HI_xsend19, #HI_xsend20, #HI_xsend21, #HI_xsend22, #HI_xsend23, #HI_xsend24, #HI_xsend25, #HI_xsend26, #HI_xsend27, #HI_xsend28, #HI_xsend29, #HI_xsend30, #HI_xsend31, #HI_xsend32, #HI_xsend33, #HI_xsend34, #HI_xsend35, #HI_xsend36, #HI_xsend37, #HI_xsend38, #HI_xsend39, #HI_xsend40, #HI_xsend41, #HI_xsend42, #HI_xsend43, #HI_xsend44, #HI_xsend45, #HI_xsend46, #HI_xsend47⟩
  ihave HpZS' := (Entails.of_eq (bigSep_fin48 (F := F) fun j : Fin 48 => atPos ER (zsendC c j) 0 ∅ 0)) $$ HpZS
  icases HpZS' with ⟨HaZS0, HaZS1, HaZS2, HaZS3, HaZS4, HaZS5, HaZS6, HaZS7, HaZS8, HaZS9, HaZS10, HaZS11, HaZS12, HaZS13, HaZS14, HaZS15, HaZS16, HaZS17, HaZS18, HaZS19, HaZS20, HaZS21, HaZS22, HaZS23, HaZS24, HaZS25, HaZS26, HaZS27, HaZS28, HaZS29, HaZS30, HaZS31, HaZS32, HaZS33, HaZS34, HaZS35, HaZS36, HaZS37, HaZS38, HaZS39, HaZS40, HaZS41, HaZS42, HaZS43, HaZS44, HaZS45, HaZS46, HaZS47⟩
  ihave #H := ((rec_fam (F := F) m K _ (inv_zsend (F := F) m K c)).trans (Entails.of_eq (bigSep_fin48 (F := F) _))) $$ Hrec
  icases H with ⟨#HI_zsend0, #HI_zsend1, #HI_zsend2, #HI_zsend3, #HI_zsend4, #HI_zsend5, #HI_zsend6, #HI_zsend7, #HI_zsend8, #HI_zsend9, #HI_zsend10, #HI_zsend11, #HI_zsend12, #HI_zsend13, #HI_zsend14, #HI_zsend15, #HI_zsend16, #HI_zsend17, #HI_zsend18, #HI_zsend19, #HI_zsend20, #HI_zsend21, #HI_zsend22, #HI_zsend23, #HI_zsend24, #HI_zsend25, #HI_zsend26, #HI_zsend27, #HI_zsend28, #HI_zsend29, #HI_zsend30, #HI_zsend31, #HI_zsend32, #HI_zsend33, #HI_zsend34, #HI_zsend35, #HI_zsend36, #HI_zsend37, #HI_zsend38, #HI_zsend39, #HI_zsend40, #HI_zsend41, #HI_zsend42, #HI_zsend43, #HI_zsend44, #HI_zsend45, #HI_zsend46, #HI_zsend47⟩

  rw [show Orem c (112 + (15 : Fin 16).val + 1) = 0 from Orem_end c]
  sl_exec

  imod (epi_cells (F := F) m c K) $$ [HaYS0 HaYS1 HaYS2 HaYS3 HaYS4 HaYS5 HaYS6 HaYS7 HaYS8 HaYS9 HaYS10 HaYS11 HaYS12 HaYS13 HaYS14 HaYS15 HaYS16 HaYS17 HaYS18 HaYS19 HaYS20 HaYS21 HaYS22 HaYS23 HaYS24 HaYS25 HaYS26 HaYS27 HaYS28 HaYS29 HaYS30 HaYS31 HaYR0 HaYR1 HaYR2 HaYR3 HaYR4 HaYR5 HaYR6 HaYR7 HaYR8 HaYR9 HaYR10 HaYR11 HaYR12 HaYR13 HaYR14 HaYR15 HaYR16 HaYR17 HaYR18 HaYR19 HaYR20 HaYR21 HaYR22 HaYR23 HaYR24 HaYR25 HaYR26 HaYR27 HaYR28 HaYR29 HaYR30 HaYR31 HaXS0 HaXS1 HaXS2 HaXS3 HaXS4 HaXS5 HaXS6 HaXS7 HaXS8 HaXS9 HaXS10 HaXS11 HaXS12 HaXS13 HaXS14 HaXS15 HaXS16 HaXS17 HaXS18 HaXS19 HaXS20 HaXS21 HaXS22 HaXS23 HaXS24 HaXS25 HaXS26 HaXS27 HaXS28 HaXS29 HaXS30 HaXS31 HaXS32 HaXS33 HaXS34 HaXS35 HaXS36 HaXS37 HaXS38 HaXS39 HaXS40 HaXS41 HaXS42 HaXS43 HaXS44 HaXS45 HaXS46 HaXS47 HaXR0 HaXR1 HaXR2 HaXR3 HaXR4 HaXR5 HaXR6 HaXR7 HaXR8 HaXR9 HaXR10 HaXR11 HaXR12 HaXR13 HaXR14 HaXR15 HaXR16 HaXR17 HaXR18 HaXR19 HaXR20 HaXR21 HaXR22 HaXR23 HaXR24 HaXR25 HaXR26 HaXR27 HaXR28 HaXR29 HaXR30 HaXR31 HaXD0 HaXD1 HaXD2 HaXD3 HaXD4 HaXD5 HaXD6 HaXD7 HaXD8 HaXD9 HaXD10 HaXD11 HaXD12 HaXD13 HaXD14 HaXD15 HaZS0 HaZS1 HaZS2 HaZS3 HaZS4 HaZS5 HaZS6 HaZS7 HaZS8 HaZS9 HaZS10 HaZS11 HaZS12 HaZS13 HaZS14 HaZS15 HaZS16 HaZS17 HaZS18 HaZS19 HaZS20 HaZS21 HaZS22 HaZS23 HaZS24 HaZS25 HaZS26 HaZS27 HaZS28 HaZS29 HaZS30 HaZS31 HaZS32 HaZS33 HaZS34 HaZS35 HaZS36 HaZS37 HaZS38 HaZS39 HaZS40 HaZS41 HaZS42 HaZS43 HaZS44 HaZS45 HaZS46 HaZS47 HaZR0 HaZR1 HaZR2 HaZR3 HaZR4 HaZR5 HaZR6 HaZR7 HaZR8 HaZR9 HaZR10 HaZR11 HaZR12 HaZR13 HaZR14 HaZR15 HaZR16 HaZR17 HaZR18 HaZR19 HaZR20 HaZR21 HaZR22 HaZR23 HaZR24 HaZR25 HaZR26 HaZR27 HaZR28 HaZR29 HaZR30 HaZR31 HaZD0 HaZD1 HaZD2 HaZD3 HaZD4 HaZD5 HaZD6 HaZD7 HaZD8 HaZD9 HaZD10 HaZD11 HaZD12 HaZD13 HaZD14 HaZD15] with Hsem
  · simp only [bigSep_fin32, bigSep_fin48, bigSep_fin16]
    iframe Hrec ∗
  sl_step
  iapply Hk

  isplitl [HaXS0_pay1 HaZS0_pay1 HyC0 HaXS1_pay1 HaZS1_pay1 HyC1 HaXS2_pay1 HaZS2_pay1 HyC2 HaXS3_pay1 HaZS3_pay1 HyC3 HaXS4_pay1 HaZS4_pay1 HyC4 HaXS5_pay1 HaZS5_pay1 HyC5 HaXS6_pay1 HaZS6_pay1 HyC6 HaXS7_pay1 HaZS7_pay1 HyC7 HaXS8_pay1 HaZS8_pay1 HyC8 HaXS9_pay1 HaZS9_pay1 HyC9 HaXS10_pay1 HaZS10_pay1 HyC10 HaXS11_pay1 HaZS11_pay1 HyC11 HaXS12_pay1 HaZS12_pay1 HyC12 HaXS13_pay1 HaZS13_pay1 HyC13 HaXS14_pay1 HaZS14_pay1 HyC14 HaXS15_pay1 HaZS15_pay1 HyC15 HaXS16_pay1 HaZS16_pay1 HyC16 HaXS17_pay1 HaZS17_pay1 HyC17 HaXS18_pay1 HaZS18_pay1 HyC18 HaXS19_pay1 HaZS19_pay1 HyC19 HaXS20_pay1 HaZS20_pay1 HyC20 HaXS21_pay1 HaZS21_pay1 HyC21 HaXS22_pay1 HaZS22_pay1 HyC22 HaXS23_pay1 HaZS23_pay1 HyC23 HaXS24_pay1 HaZS24_pay1 HyC24 HaXS25_pay1 HaZS25_pay1 HyC25 HaXS26_pay1 HaZS26_pay1 HyC26 HaXS27_pay1 HaZS27_pay1 HyC27 HaXS28_pay1 HaZS28_pay1 HyC28 HaXS29_pay1 HaZS29_pay1 HyC29 HaXS30_pay1 HaZS30_pay1 HyC30 HaXS31_pay1 HaZS31_pay1 HyC31 HaXR0_pay1 HaXR1_pay1 HaXR2_pay1 HaXR3_pay1 HaXR4_pay1 HaXR5_pay1 HaXR6_pay1 HaXR7_pay1 HaXR8_pay1 HaXR9_pay1 HaXR10_pay1 HaXR11_pay1 HaXR12_pay1 HaXR13_pay1 HaXR14_pay1 HaXR15_pay1 HaZS32_pay1 HxsR16 HaZS33_pay1 HxsR17 HaZS34_pay1 HxsR18 HaZS35_pay1 HxsR19 HaZS36_pay1 HxsR20 HaZS37_pay1 HxsR21 HaZS38_pay1 HxsR22 HaZS39_pay1 HxsR23 HaZS40_pay1 HxsR24 HaZS41_pay1 HxsR25 HaZS42_pay1 HxsR26 HaZS43_pay1 HxsR27 HaZS44_pay1 HxsR28 HaZS45_pay1 HxsR29 HaZS46_pay1 HxsR30 HaZS47_pay1 HxsR31 HaXD0_pay1 HaXD1_pay1 HaXD2_pay1 HaXD3_pay1 HaXD4_pay1 HaXD5_pay1 HaXD6_pay1 HaXD7_pay1 HaXD8_pay1 HaXD9_pay1 HaXD10_pay1 HaXD11_pay1 HaXD12_pay1 HaXD13_pay1 HaXD14_pay1 HaXD15_pay1 HaXS32_pay1 HzsR0 HaXS33_pay1 HzsR1 HaXS34_pay1 HzsR2 HaXS35_pay1 HzsR3 HaXS36_pay1 HzsR4 HaXS37_pay1 HzsR5 HaXS38_pay1 HzsR6 HaXS39_pay1 HzsR7 HaXS40_pay1 HzsR8 HaXS41_pay1 HzsR9 HaXS42_pay1 HzsR10 HaXS43_pay1 HzsR11 HaXS44_pay1 HzsR12 HaXS45_pay1 HzsR13 HaXS46_pay1 HzsR14 HaXS47_pay1 HzsR15 HaZR16_pay1 HaZR17_pay1 HaZR18_pay1 HaZR19_pay1 HaZR20_pay1 HaZR21_pay1 HaZR22_pay1 HaZR23_pay1 HaZR24_pay1 HaZR25_pay1 HaZR26_pay1 HaZR27_pay1 HaZR28_pay1 HaZR29_pay1 HaZR30_pay1 HaZR31_pay1 HaZD0_pay1 HaZD1_pay1 HaZD2_pay1 HaZD3_pay1 HaZD4_pay1 HaZD5_pay1 HaZD6_pay1 HaZD7_pay1 HaZD8_pay1 HaZD9_pay1 HaZD10_pay1 HaZD11_pay1 HaZD12_pay1 HaZD13_pay1 HaZD14_pay1 HaZD15_pay1]
  · iapply (epi_landing (F := F) m c)
    simp only [bigSep_fin32, bigSep_fin16, Fin.reduceCastAdd, Fin.reduceNatAdd]
    iframe
  isplitl [Hsem]; · iexact Hsem
  isplitl [HO]; · iexists _; iexact HO

  isplitl [Hxv HxRest HaYS0_pay1 HaYS1_pay1 HaYS2_pay1 HaYS3_pay1 HaYS4_pay1 HaYS5_pay1 HaYS6_pay1 HaYS7_pay1 HaYS8_pay1 HaYS9_pay1 HaYS10_pay1 HaYS11_pay1 HaYS12_pay1 HaYS13_pay1 HaYS14_pay1 HaYS15_pay1 HaYS16_pay1 HaYS17_pay1 HaYS18_pay1 HaYS19_pay1 HaYS20_pay1 HaYS21_pay1 HaYS22_pay1 HaYS23_pay1 HaYS24_pay1 HaYS25_pay1 HaYS26_pay1 HaYS27_pay1 HaYS28_pay1 HaYS29_pay1 HaYS30_pay1 HaYS31_pay1]
  · iapply (x_back (F := F) m c)
    rw [bigSep_fin32]
    iframe

  rw [out_closed m c g1 _ storeKeys storeKeys_all]
  swap
  · unfold storeKeys
    refine List.Forall₂.cons (ok_zd m c 15 _ rfl _ _) ?_
    refine List.Forall₂.cons (ok_zd m c 14 _ rfl _ _) ?_
    refine List.Forall₂.cons (ok_zd m c 13 _ rfl _ _) ?_
    refine List.Forall₂.cons (ok_zd m c 12 _ rfl _ _) ?_
    refine List.Forall₂.cons (ok_zd m c 11 _ rfl _ _) ?_
    refine List.Forall₂.cons (ok_zd m c 10 _ rfl _ _) ?_
    refine List.Forall₂.cons (ok_zd m c 9 _ rfl _ _) ?_
    refine List.Forall₂.cons (ok_zd m c 8 _ rfl _ _) ?_
    refine List.Forall₂.cons (ok_zd m c 7 _ rfl _ _) ?_
    refine List.Forall₂.cons (ok_zd m c 6 _ rfl _ _) ?_
    refine List.Forall₂.cons (ok_zd m c 5 _ rfl _ _) ?_
    refine List.Forall₂.cons (ok_zd m c 4 _ rfl _ _) ?_
    refine List.Forall₂.cons (ok_zd m c 3 _ rfl _ _) ?_
    refine List.Forall₂.cons (ok_zd m c 2 _ rfl _ _) ?_
    refine List.Forall₂.cons (ok_zd m c 1 _ rfl _ _) ?_
    refine List.Forall₂.cons (ok_zd m c 0 _ rfl _ _) ?_
    refine List.Forall₂.cons (ok_xd m c 15 _ rfl _ _) ?_
    refine List.Forall₂.cons (ok_xd m c 14 _ rfl _ _) ?_
    refine List.Forall₂.cons (ok_xd m c 13 _ rfl _ _) ?_
    refine List.Forall₂.cons (ok_xd m c 12 _ rfl _ _) ?_
    refine List.Forall₂.cons (ok_xd m c 11 _ rfl _ _) ?_
    refine List.Forall₂.cons (ok_xd m c 10 _ rfl _ _) ?_
    refine List.Forall₂.cons (ok_xd m c 9 _ rfl _ _) ?_
    refine List.Forall₂.cons (ok_xd m c 8 _ rfl _ _) ?_
    refine List.Forall₂.cons (ok_xd m c 7 _ rfl _ _) ?_
    refine List.Forall₂.cons (ok_xd m c 6 _ rfl _ _) ?_
    refine List.Forall₂.cons (ok_xd m c 5 _ rfl _ _) ?_
    refine List.Forall₂.cons (ok_xd m c 4 _ rfl _ _) ?_
    refine List.Forall₂.cons (ok_xd m c 3 _ rfl _ _) ?_
    refine List.Forall₂.cons (ok_xd m c 2 _ rfl _ _) ?_
    refine List.Forall₂.cons (ok_xd m c 1 _ rfl _ _) ?_
    refine List.Forall₂.cons (ok_xd m c 0 _ rfl _ _) ?_
    refine List.Forall₂.cons (ok_xs m c 31 _ rfl _ _) ?_
    refine List.Forall₂.cons (ok_xs m c 30 _ rfl _ _) ?_
    refine List.Forall₂.cons (ok_xs m c 29 _ rfl _ _) ?_
    refine List.Forall₂.cons (ok_xs m c 28 _ rfl _ _) ?_
    refine List.Forall₂.cons (ok_xs m c 27 _ rfl _ _) ?_
    refine List.Forall₂.cons (ok_xs m c 26 _ rfl _ _) ?_
    refine List.Forall₂.cons (ok_xs m c 25 _ rfl _ _) ?_
    refine List.Forall₂.cons (ok_xs m c 24 _ rfl _ _) ?_
    refine List.Forall₂.cons (ok_xs m c 23 _ rfl _ _) ?_
    refine List.Forall₂.cons (ok_xs m c 22 _ rfl _ _) ?_
    refine List.Forall₂.cons (ok_xs m c 21 _ rfl _ _) ?_
    refine List.Forall₂.cons (ok_xs m c 20 _ rfl _ _) ?_
    refine List.Forall₂.cons (ok_xs m c 19 _ rfl _ _) ?_
    refine List.Forall₂.cons (ok_xs m c 18 _ rfl _ _) ?_
    refine List.Forall₂.cons (ok_xs m c 17 _ rfl _ _) ?_
    refine List.Forall₂.cons (ok_xs m c 16 _ rfl _ _) ?_
    refine List.Forall₂.cons (ok_xs m c 15 _ rfl _ _) ?_
    refine List.Forall₂.cons (ok_xs m c 14 _ rfl _ _) ?_
    refine List.Forall₂.cons (ok_xs m c 13 _ rfl _ _) ?_
    refine List.Forall₂.cons (ok_xs m c 12 _ rfl _ _) ?_
    refine List.Forall₂.cons (ok_xs m c 11 _ rfl _ _) ?_
    refine List.Forall₂.cons (ok_xs m c 10 _ rfl _ _) ?_
    refine List.Forall₂.cons (ok_xs m c 9 _ rfl _ _) ?_
    refine List.Forall₂.cons (ok_xs m c 8 _ rfl _ _) ?_
    refine List.Forall₂.cons (ok_xs m c 7 _ rfl _ _) ?_
    refine List.Forall₂.cons (ok_xs m c 6 _ rfl _ _) ?_
    refine List.Forall₂.cons (ok_xs m c 5 _ rfl _ _) ?_
    refine List.Forall₂.cons (ok_xs m c 4 _ rfl _ _) ?_
    refine List.Forall₂.cons (ok_xs m c 3 _ rfl _ _) ?_
    refine List.Forall₂.cons (ok_xs m c 2 _ rfl _ _) ?_
    refine List.Forall₂.cons (ok_xs m c 1 _ rfl _ _) ?_
    refine List.Forall₂.cons (ok_xs m c 0 _ rfl _ _) ?_
    refine List.Forall₂.cons (ok_zs m c 31 _ rfl _ _) ?_
    refine List.Forall₂.cons (ok_zs m c 30 _ rfl _ _) ?_
    refine List.Forall₂.cons (ok_zs m c 29 _ rfl _ _) ?_
    refine List.Forall₂.cons (ok_zs m c 28 _ rfl _ _) ?_
    refine List.Forall₂.cons (ok_zs m c 27 _ rfl _ _) ?_
    refine List.Forall₂.cons (ok_zs m c 26 _ rfl _ _) ?_
    refine List.Forall₂.cons (ok_zs m c 25 _ rfl _ _) ?_
    refine List.Forall₂.cons (ok_zs m c 24 _ rfl _ _) ?_
    refine List.Forall₂.cons (ok_zs m c 23 _ rfl _ _) ?_
    refine List.Forall₂.cons (ok_zs m c 22 _ rfl _ _) ?_
    refine List.Forall₂.cons (ok_zs m c 21 _ rfl _ _) ?_
    refine List.Forall₂.cons (ok_zs m c 20 _ rfl _ _) ?_
    refine List.Forall₂.cons (ok_zs m c 19 _ rfl _ _) ?_
    refine List.Forall₂.cons (ok_zs m c 18 _ rfl _ _) ?_
    refine List.Forall₂.cons (ok_zs m c 17 _ rfl _ _) ?_
    refine List.Forall₂.cons (ok_zs m c 16 _ rfl _ _) ?_
    refine List.Forall₂.cons (ok_zs m c 15 _ rfl _ _) ?_
    refine List.Forall₂.cons (ok_zs m c 14 _ rfl _ _) ?_
    refine List.Forall₂.cons (ok_zs m c 13 _ rfl _ _) ?_
    refine List.Forall₂.cons (ok_zs m c 12 _ rfl _ _) ?_
    refine List.Forall₂.cons (ok_zs m c 11 _ rfl _ _) ?_
    refine List.Forall₂.cons (ok_zs m c 10 _ rfl _ _) ?_
    refine List.Forall₂.cons (ok_zs m c 9 _ rfl _ _) ?_
    refine List.Forall₂.cons (ok_zs m c 8 _ rfl _ _) ?_
    refine List.Forall₂.cons (ok_zs m c 7 _ rfl _ _) ?_
    refine List.Forall₂.cons (ok_zs m c 6 _ rfl _ _) ?_
    refine List.Forall₂.cons (ok_zs m c 5 _ rfl _ _) ?_
    refine List.Forall₂.cons (ok_zs m c 4 _ rfl _ _) ?_
    refine List.Forall₂.cons (ok_zs m c 3 _ rfl _ _) ?_
    refine List.Forall₂.cons (ok_zs m c 2 _ rfl _ _) ?_
    refine List.Forall₂.cons (ok_zs m c 1 _ rfl _ _) ?_
    refine List.Forall₂.cons (ok_zs m c 0 _ rfl _ _) ?_
    refine List.Forall₂.cons (ok_y m c 31 _ rfl _ _) ?_
    refine List.Forall₂.cons (ok_y m c 30 _ rfl _ _) ?_
    refine List.Forall₂.cons (ok_y m c 29 _ rfl _ _) ?_
    refine List.Forall₂.cons (ok_y m c 28 _ rfl _ _) ?_
    refine List.Forall₂.cons (ok_y m c 27 _ rfl _ _) ?_
    refine List.Forall₂.cons (ok_y m c 26 _ rfl _ _) ?_
    refine List.Forall₂.cons (ok_y m c 25 _ rfl _ _) ?_
    refine List.Forall₂.cons (ok_y m c 24 _ rfl _ _) ?_
    refine List.Forall₂.cons (ok_y m c 23 _ rfl _ _) ?_
    refine List.Forall₂.cons (ok_y m c 22 _ rfl _ _) ?_
    refine List.Forall₂.cons (ok_y m c 21 _ rfl _ _) ?_
    refine List.Forall₂.cons (ok_y m c 20 _ rfl _ _) ?_
    refine List.Forall₂.cons (ok_y m c 19 _ rfl _ _) ?_
    refine List.Forall₂.cons (ok_y m c 18 _ rfl _ _) ?_
    refine List.Forall₂.cons (ok_y m c 17 _ rfl _ _) ?_
    refine List.Forall₂.cons (ok_y m c 16 _ rfl _ _) ?_
    refine List.Forall₂.cons (ok_y m c 15 _ rfl _ _) ?_
    refine List.Forall₂.cons (ok_y m c 14 _ rfl _ _) ?_
    refine List.Forall₂.cons (ok_y m c 13 _ rfl _ _) ?_
    refine List.Forall₂.cons (ok_y m c 12 _ rfl _ _) ?_
    refine List.Forall₂.cons (ok_y m c 11 _ rfl _ _) ?_
    refine List.Forall₂.cons (ok_y m c 10 _ rfl _ _) ?_
    refine List.Forall₂.cons (ok_y m c 9 _ rfl _ _) ?_
    refine List.Forall₂.cons (ok_y m c 8 _ rfl _ _) ?_
    refine List.Forall₂.cons (ok_y m c 7 _ rfl _ _) ?_
    refine List.Forall₂.cons (ok_y m c 6 _ rfl _ _) ?_
    refine List.Forall₂.cons (ok_y m c 5 _ rfl _ _) ?_
    refine List.Forall₂.cons (ok_y m c 4 _ rfl _ _) ?_
    refine List.Forall₂.cons (ok_y m c 3 _ rfl _ _) ?_
    refine List.Forall₂.cons (ok_y m c 2 _ rfl _ _) ?_
    refine List.Forall₂.cons (ok_y m c 1 _ rfl _ _) ?_
    refine List.Forall₂.cons (ok_y m c 0 _ rfl _ _) ?_
    exact List.Forall₂.nil
  iexact Houtv

omit [FloatOps F] in

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in

def bodyPre' (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ (F := F) c ∗ (dats m ρ 0 c).owesAt () t₀.succ ∗ stg c cc0_stg0_0 (Xs m c) ∗ stg c cc0_stg1_0 (outAt m c))

set_option maxRecDepth 65536 in

theorem body_obligation (c : Dev nD) : BodyObligation (dats (F := F) m ρ 0 c) (defs₀ (F := F)) 𝒱₀ () Set.univ := fun t => by
  rw [fin_N t]
  rw [Gen.bigSep_W0, Gen.bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12) (fun _ => bodyPost m ρ c)
  unfold bodyPre' Φ₀ start ghost landing
  iintro ⟨⟨⟨⟨%K, Hrec, Hpos, Htok⟩, Hcred, Hlev⟩, ⟨%f0, H0⟩, ⟨%f1, H1⟩, ⟨%f2, H2⟩, ⟨%f3, H3⟩, ⟨%f4, H4⟩⟩,
    Ho, ⟨%d0, %g0, %hg0, Hx⟩, ⟨%d1, %g1, %hg1, Hout⟩⟩
  have hx : g0 = Xs m c := by rw [hg0]; unfold Dat.before; rw [if_pos (Gen.fetch0_0 t₀)]; rfl
  subst hx
  unfold Dat.owesAt Pipeline.owesWithin
  icases Ho with ⟨%W, %hW, HO⟩
  rw [show (dats m ρ 0 c).owed t₀.castSucc = O₀ c from rfl]
  iapply (sound_body m c K (fun _ => bodyPost m ρ c) W g1 f0 f1 f2 f3 f4)
  isplitl [Hrec]; · iexact Hrec
  isplitl [Hpos]; · iexact Hpos
  isplitl [Htok]; · iexact Htok
  isplitl [Hcred]; · iexact Hcred
  isplitl [Hlev]; · iexact Hlev
  isplitl [H0]; · iexact H0
  isplitl [H1]; · iexact H1
  isplitl [H2]; · iexact H2
  isplitl [H3]; · iexact H3
  isplitl [H4]; · iexact H4
  isplitl [HO]; · iexact HO
  isplitl [Hx]; · iexact Hx
  isplitl [Hout]; · iexact Hout
  iintro ⟨Hland, Hz, ⟨%W', HO⟩, Hx, Hout⟩
  unfold bodyPost Φ₁ Dat.owesAt Pipeline.owesWithin
  rw [show (dats m ρ 0 c).owed t₀.succ = 0 from rfl]
  isplitl [Hland Hz]
  · isplitl [Hland]; · iexact Hland
    iexact Hz
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

end Cert.KernelIdeal.Hand

end
-- ==== Proof.HandKernel.Nbr.lean ====
import proofs.«900716_g7700000000000717_dist_ar_v7x_xyz2x2x4_y_m4096_n1024_f32_1_alg».proof.Proof.Gen.Kernel

noncomputable section

namespace Cert.Kernel.Hand

open Idealize.ShloMosaic Idealize.SL.Sem Cert.Kernel

/-- The devices across the y axis, across the x axis and inside the z pair: bits 2, 3 and 0 of the linear id flipped. -/
def yN (c : Dev nD) : Dev nD := ⟨(c.val ^^^ 4) % 16, Nat.mod_lt _ (by decide)⟩
def xN (c : Dev nD) : Dev nD := ⟨(c.val ^^^ 8) % 16, Nat.mod_lt _ (by decide)⟩
def zN (c : Dev nD) : Dev nD := ⟨(c.val ^^^ 1) % 16, Nat.mod_lt _ (by decide)⟩

theorem yN_yN (c : Dev nD) : yN (yN c) = c := by revert c; decide
theorem xN_xN (c : Dev nD) : xN (xN c) = c := by revert c; decide
theorem zN_zN (c : Dev nD) : zN (zN c) = c := by revert c; decide
theorem zN_xN (c : Dev nD) : zN (xN c) = xN (zN c) := by revert c; decide

end Cert.Kernel.Hand

end
-- ==== Proof.HandKernel.Cells.lean ====
import proofs.«900716_g7700000000000717_dist_ar_v7x_xyz2x2x4_y_m4096_n1024_f32_1_alg».proof.Proof.HandKernel.Nbr
import proofs.«900716_g7700000000000717_dist_ar_v7x_xyz2x2x4_y_m4096_n1024_f32_1_alg».proof.Proof.Gen.Kernel.Launch
import Idealize.ShloMosaic.Lib.Pipeline.Launch
import Idealize.ShloMosaic.Lib.Pipeline.Kit
import Idealize.ShloMosaic.Lib.Tactic

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the pipeline's part, and rounds on cells with at most three duties each. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

abbrev xM : Memref sig .tc .vmem S4096x1024 .f32 := Memref.whole cc0_stg0_0
/-- The landing buffers: across y; across x, first and second hop; inside the z pair, first and second hop. -/
abbrev yrM : Memref sig .tc .vmem S32x32x1024 .f32 := Memref.whole cc0_scratch0
abbrev xsM : Memref sig .tc .vmem S32x32x1024 .f32 := Memref.whole cc0_scratch1
abbrev xdM : Memref sig .tc .vmem S16x32x1024 .f32 := Memref.whole cc0_scratch2
abbrev zsM : Memref sig .tc .vmem S32x32x1024 .f32 := Memref.whole cc0_scratch3
abbrev zdM : Memref sig .tc .vmem S16x32x1024 .f32 := Memref.whole cc0_scratch4

theorem inb32 (i : Fin 32) : ∀ a, (![i.val, 0, 0] : Fin 3 → Nat) a + S1x32x1024.size a ≤ S32x32x1024.size a := by
  intro a; fin_cases a
  · show i.val + 1 ≤ 32; omega
  · show 0 + 32 ≤ 32; omega
  · show 0 + 1024 ≤ 1024; omega
theorem inb16 (i : Fin 16) : ∀ a, (![i.val, 0, 0] : Fin 3 → Nat) a + S1x32x1024.size a ≤ S16x32x1024.size a := by
  intro a; fin_cases a
  · show i.val + 1 ≤ 16; omega
  · show 0 + 32 ≤ 32; omega
  · show 0 + 1024 ≤ 1024; omega

/-- Chunk i of a landing buffer of 32 chunks, and of one of 16 chunks. -/
def slot32 (M : Memref sig .tc .vmem S32x32x1024 .f32) (i : Fin 32) : Memref sig .tc .vmem S32x1024 .f32 :=
  (M.slice (Rect.unit (s := S32x32x1024) ![i.val, 0, 0] S1x32x1024.size (inb32 i)) (fun _ => rfl)).squeeze S32x1024 squeezes_S1x32x1024_S32x1024
def slot16 (M : Memref sig .tc .vmem S16x32x1024 .f32) (i : Fin 16) : Memref sig .tc .vmem S32x1024 .f32 :=
  (M.slice (Rect.unit (s := S16x32x1024) ![i.val, 0, 0] S1x32x1024.size (inb16 i)) (fun _ => rfl)).squeeze S32x1024 squeezes_S1x32x1024_S32x1024

/-- Rows 32·i to 32·i + 31 of the device's own quarter of its block. -/
def xrow (c : Dev nD) (i : Fin 32) : Memref sig .tc .vmem S32x1024 .f32 :=
  xM.slice (Rect.unit (s := S4096x1024) (k0_off1 c (BitVec.ofNat 32 (32 * i.val))) S32x1024.size (k0_off1_inb c i)) (fun _ => rfl)

abbrev barS : Sem sig := (SemArray.scalar (sig.barrier 0 rfl) : Sems sig S_).sem

abbrev dsem (k : Nat) (h : k < 258) : DmaSem sig := ⟨k, h⟩

abbrev barCell (c : Dev nD) : GSem nD τ sig := ((c : Thread nD τ), .reg barS)
abbrev dcell (c : Dev nD) (k : Nat) (h : k < 258) : GSem nD τ sig := ((c : Thread nD τ), .dma (dsem k h))

/-- The eight families of a device's own cells: departures and arrivals across y, then for x and for z departures, first-hop and second-hop arrivals. -/
abbrev ysendC (c : Dev nD) (i : Fin 32) := dcell c (2 + i.val) (by omega)
abbrev yrecvC (c : Dev nD) (i : Fin 32) := dcell c (34 + i.val) (by omega)
abbrev xsendC (c : Dev nD) (j : Fin 48) := dcell c (66 + j.val) (by omega)
abbrev xrecvSC (c : Dev nD) (i : Fin 32) := dcell c (114 + i.val) (by omega)
abbrev xrecvDC (c : Dev nD) (i : Fin 16) := dcell c (146 + i.val) (by omega)
abbrev zsendC (c : Dev nD) (j : Fin 48) := dcell c (162 + j.val) (by omega)
abbrev zrecvSC (c : Dev nD) (i : Fin 32) := dcell c (210 + i.val) (by omega)
abbrev zrecvDC (c : Dev nD) (i : Fin 16) := dcell c (242 + i.val) (by omega)

/-- The credit of one chunk's transfer. -/
abbrev N : ℕ := (slot32 yrM 0 : Memref sig .tc .vmem S32x1024 .f32).view.dmaCredit

end Cert.Kernel.Hand

end
-- ==== Proof.HandKernel.Sched.lean ====
import proofs.«900716_g7700000000000717_dist_ar_v7x_xyz2x2x4_y_m4096_n1024_f32_1_alg».proof.Proof.HandKernel.Cells

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

def Xs (c : Dev nD) : (cc0_stg0_0 : Ref sig .tc).ty.Contents (Elt F) :=
  (win0_0.blk t0_0).view.read (Elt F) (m ((c : Thread nD τ).loc main_arg0))

def Jy (c : Dev nD) : Buf (Elt F) ((yrM : Memref sig .tc .vmem S32x32x1024 .f32).view.loc (c : Thread nD τ)) := m _
def Jxs (c : Dev nD) : Buf (Elt F) ((xsM : Memref sig .tc .vmem S32x32x1024 .f32).view.loc (c : Thread nD τ)) := m _
def Jxd (c : Dev nD) : Buf (Elt F) ((xdM : Memref sig .tc .vmem S16x32x1024 .f32).view.loc (c : Thread nD τ)) := m _
def Jzs (c : Dev nD) : Buf (Elt F) ((zsM : Memref sig .tc .vmem S32x32x1024 .f32).view.loc (c : Thread nD τ)) := m _
def Jzd (c : Dev nD) : Buf (Elt F) ((zdM : Memref sig .tc .vmem S16x32x1024 .f32).view.loc (c : Thread nD τ)) := m _

def Vy (c : Dev nD) (i : Fin 32) : S32x1024.Idx → Elt F .f32 := (xrow (yN c) i).view.read (Elt F) (Xs m (yN c))
def Yc (c : Dev nD) (i : Fin 32) := (slot32 yrM i).view.write (Elt F) (Jy m c) (Vy m c i) Finset.univ
def Vxs (c : Dev nD) (i : Fin 32) : S32x1024.Idx → Elt F .f32 := Vy m (xN c) i
def XSc (c : Dev nD) (i : Fin 32) := (slot32 xsM i).view.write (Elt F) (Jxs m c) (Vxs m c i) Finset.univ
def Vzs (c : Dev nD) (i : Fin 32) : S32x1024.Idx → Elt F .f32 := Vy m (zN c) i
def ZSc (c : Dev nD) (i : Fin 32) := (slot32 zsM i).view.write (Elt F) (Jzs m c) (Vzs m c i) Finset.univ
def lo (i : Fin 16) : Fin 32 := ⟨i.val, by omega⟩
def hi (i : Fin 16) : Fin 32 := ⟨16 + i.val, by omega⟩
def Vxd (c : Dev nD) (i : Fin 16) : S32x1024.Idx → Elt F .f32 := Vzs m (xN c) (lo i)
def XDc (c : Dev nD) (i : Fin 16) := (slot16 xdM i).view.write (Elt F) (Jxd m c) (Vxd m c i) Finset.univ
def Vzd (c : Dev nD) (i : Fin 16) : S32x1024.Idx → Elt F .f32 := Vxs m (zN c) (hi i)
def ZDc (c : Dev nD) (i : Fin 16) := (slot16 zdM i).view.write (Elt F) (Jzd m c) (Vzd m c i) Finset.univ

abbrev qa : PosShare TreeShare := fullShare.left
abbrev qb : PosShare TreeShare := fullShare.right.left
abbrev qc : PosShare TreeShare := fullShare.right.right

abbrev chunkAt (c : Dev nD) (v : Memref sig .tc .vmem S32x1024 .f32) (q : PosShare TreeShare) (f : Buf (Elt F) (v.view.loc (c : Thread nD τ))) : sProp 𝕄 :=
  v.view.loc (c : Thread nD τ) ↦[v.view.set]{q} f

def ysendPay (c : Dev nD) (i : Fin 32) : sProp 𝕄 := chunkAt c (xrow c i) qa (Xs m c)
def yrecvPay (c : Dev nD) (i : Fin 32) : sProp 𝕄 := chunkAt c (slot32 yrM i) fullShare (Yc m c i)
def xsendPay (c : Dev nD) (j : Fin 48) : sProp 𝕄 :=
  if h : j.val < 32 then chunkAt c (slot32 yrM ⟨j.val, h⟩) qa (Yc m c ⟨j.val, h⟩)
  else chunkAt c (slot32 zsM ⟨j.val - 32, by omega⟩) qa (ZSc m c ⟨j.val - 32, by omega⟩)
def zsendPay (c : Dev nD) (j : Fin 48) : sProp 𝕄 :=
  if h : j.val < 32 then chunkAt c (slot32 yrM ⟨j.val, h⟩) qb (Yc m c ⟨j.val, h⟩)
  else chunkAt c (slot32 xsM ⟨j.val - 16, by omega⟩) qa (XSc m c ⟨j.val - 16, by omega⟩)
def xrecvSPay (c : Dev nD) (i : Fin 32) : sProp 𝕄 := chunkAt c (slot32 xsM i) fullShare (XSc m c i)
def xrecvDPay (c : Dev nD) (i : Fin 16) : sProp 𝕄 := chunkAt c (slot16 xdM i) fullShare (XDc m c i)
def zrecvSPay (c : Dev nD) (i : Fin 32) : sProp 𝕄 := chunkAt c (slot32 zsM i) fullShare (ZSc m c i)
def zrecvDPay (c : Dev nD) (i : Fin 16) : sProp 𝕄 := chunkAt c (slot16 zdM i) fullShare (ZDc m c i)

abbrev freeChunk (d : Dev nD) (v : Memref sig .tc .vmem S32x1024 .f32) : sProp 𝕄 := iprop(∃ f, chunkAt d v fullShare f)

def barPay (c : Dev nD) (d : Fin 3) : sProp 𝕄 :=
  if d = 0 then bigSep Finset.univ fun i : Fin 32 => freeChunk (yN c) (slot32 yrM i)
  else if d = 1 then iprop((bigSep Finset.univ fun i : Fin 32 => freeChunk (xN c) (slot32 xsM i)) ∗ bigSep Finset.univ fun i : Fin 16 => freeChunk (xN c) (slot16 xdM i))
  else iprop((bigSep Finset.univ fun i : Fin 32 => freeChunk (zN c) (slot32 zsM i)) ∗ bigSep Finset.univ fun i : Fin 16 => freeChunk (zN c) (slot16 zdM i))

def dmaPay (c : Dev nD) (k : Nat) : sProp 𝕄 :=
  if k < 2 then iprop(emp)
  else if h : k < 34 then ysendPay m c ⟨k - 2, by omega⟩
  else if h : k < 66 then yrecvPay m c ⟨k - 34, by omega⟩
  else if h : k < 114 then xsendPay m c ⟨k - 66, by omega⟩
  else if h : k < 146 then xrecvSPay m c ⟨k - 114, by omega⟩
  else if h : k < 162 then xrecvDPay m c ⟨k - 146, by omega⟩
  else if h : k < 210 then zsendPay m c ⟨k - 162, by omega⟩
  else if h : k < 242 then zrecvSPay m c ⟨k - 210, by omega⟩
  else if h : k < 258 then zrecvDPay m c ⟨k - 242, by omega⟩
  else iprop(emp)

def Rd : Rounds.Schedule (GSem nD τ sig) (Fin 3) 𝕄 where
  duties g r :=
    if r = 0 ∧ g.1.2 = .tc then
      (match g.2 with
        | .reg s => if s = barS then Finset.univ else ∅
        | .dma q => if 2 ≤ q.val then {0} else ∅)
    else ∅
  unitless _ := False
  amount g _ _ := match g.2 with | .reg _ => 1 | .dma _ => N
  payload g _ d := match g.2 with | .reg _ => barPay g.1.1 d | .dma q => dmaPay m g.1.1 q.val
  amount_pos g _ _ _ := by
    cases g.2 with
    | reg _ => exact Nat.one_pos
    | dma _ => exact View.dmaCredit_pos _ (by decide)

end Cert.Kernel.Hand

end
-- ==== Proof.HandKernel.SchedTab.lean ====
import proofs.«900716_g7700000000000717_dist_ar_v7x_xyz2x2x4_y_m4096_n1024_f32_1_alg».proof.Proof.HandKernel.Sched

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
theorem chunkAt_storable (c : Dev nD) (v : Memref sig .tc .vmem S32x1024 .f32) (q : PosShare TreeShare)
    (f : Buf (Elt F) (v.view.loc (c : Thread nD τ))) : BI.Storable (upEmb : UEmb _ 𝕄) (chunkAt (F := F) c v q f) := inferInstance

instance Rd_payload_storable (g : GSem nD τ sig) (r : ℕ) (d : Fin 3) :
    BI.Storable (upEmb : UEmb _ 𝕄) ((Rd (F := F) m).payload g r d) := by
  obtain ⟨t, s⟩ := g
  cases s with
  | reg s =>
    show BI.Storable upEmb (barPay t.1 d)
    unfold barPay
    (repeat' split) <;> infer_instance
  | dma q =>
    show BI.Storable upEmb (dmaPay m t.1 q.val)
    unfold dmaPay ysendPay yrecvPay xsendPay xrecvSPay xrecvDPay zsendPay zrecvSPay zrecvDPay
    (repeat' split) <;> first | infer_instance | exact chunkAt_storable _ _ _ _

section
omit [FloatOps F]

@[sl_rounds] theorem duties_bar (c : Dev nD) : (Rd (F := F) m).duties (barCell c) 0 = Finset.univ := by
  dsimp only [Rd]; rw [if_pos ⟨rfl, rfl⟩]; exact if_pos rfl
@[sl_rounds] theorem amount_bar (c : Dev nD) (d : Fin 3) : (Rd (F := F) m).amount (barCell c) 0 d = 1 := rfl
@[sl_rounds] theorem expect_bar (c : Dev nD) : (Rd (F := F) m).expect (barCell c) 0 = 3 := by
  unfold Schedule.expect Schedule.amountOf
  rw [duties_bar, Finset.sum_congr rfl fun d _ => amount_bar m c d, Finset.sum_const, Finset.card_univ, Fintype.card_fin,
    smul_eq_mul, Nat.mul_one]
@[sl_rounds] theorem payload_bar (c : Dev nD) (d : Fin 3) : (Rd (F := F) m).payload (barCell c) 0 d = barPay c d := rfl
@[sl_rounds high] theorem payload_bar0 (c : Dev nD) :
    (Rd (F := F) m).payload (barCell c) 0 0 = bigSep Finset.univ fun i : Fin 32 => freeChunk (yN c) (slot32 yrM i) := by
  rw [payload_bar]; unfold barPay; rw [if_pos rfl]
@[sl_rounds high] theorem payload_bar1 (c : Dev nD) :
    (Rd (F := F) m).payload (barCell c) 0 1
      = iprop((bigSep Finset.univ fun i : Fin 32 => freeChunk (xN c) (slot32 xsM i)) ∗ bigSep Finset.univ fun i : Fin 16 => freeChunk (xN c) (slot16 xdM i)) := by
  rw [payload_bar]; unfold barPay; rw [if_neg (show ¬ (1 : Fin 3) = 0 by decide), if_pos rfl]
@[sl_rounds high] theorem payload_bar2 (c : Dev nD) :
    (Rd (F := F) m).payload (barCell c) 0 2
      = iprop((bigSep Finset.univ fun i : Fin 32 => freeChunk (zN c) (slot32 zsM i)) ∗ bigSep Finset.univ fun i : Fin 16 => freeChunk (zN c) (slot16 zdM i)) := by
  rw [payload_bar]; unfold barPay; rw [if_neg (show ¬ (2 : Fin 3) = 0 by decide), if_neg (show ¬ (2 : Fin 3) = 1 by decide)]
@[sl_rounds] theorem rest_bar (c : Dev nD) :
    bigSep ((Rd (F := F) m).duties (barCell c) 0 \ ∅) (fun d => (Rd (F := F) m).payload (barCell c) 0 d)
      = iprop(barPay c 0 ∗ barPay c 1 ∗ barPay c 2) := by
  rw [Finset.sdiff_empty, duties_bar, bigSep_univ_eq_bigSepL [0, 1, 2] (by decide) (by decide), bigSepL_cons_cons, bigSepL_cons_cons,
    bigSepL_singleton, payload_bar, payload_bar, payload_bar]
  all_goals rfl

theorem duties_later (g : GSem nD τ sig) : ∀ r, 1 ≤ r → (Rd (F := F) m).duties g r = ∅ :=
  fun r hr => by dsimp only [Rd]; rw [if_neg fun h => absurd h.1 (by omega)]

-- DMA cell number n ≥ 2 of a device has one duty, of one chunk's credit, and hands over what dmaPay names for n.
theorem duties_dma (c : Dev nD) (n : ℕ) (h : n < 258) (g : 2 ≤ n) : (Rd (F := F) m).duties (dcell c n h) 0 = {0} := by
  dsimp only [Rd]; rw [if_pos ⟨rfl, rfl⟩]; exact if_pos g
theorem expect_dma (c : Dev nD) (n : ℕ) (h : n < 258) (g : 2 ≤ n) : (Rd (F := F) m).expect (dcell c n h) 0 = N := by
  unfold Schedule.expect Schedule.amountOf; rw [duties_dma m c n h g, Finset.sum_singleton]; rfl
theorem rest_dma (c : Dev nD) (n : ℕ) (h : n < 258) (g : 2 ≤ n) :
    bigSep ((Rd (F := F) m).duties (dcell c n h) 0 \ ∅) (fun d => (Rd (F := F) m).payload (dcell c n h) 0 d)
      = (Rd (F := F) m).payload (dcell c n h) 0 0 := by
  rw [Finset.sdiff_empty, duties_dma m c n h g, bigSep_singleton]

@[sl_rounds] theorem duties_ysend (c : Dev nD) (i : Fin 32) : (Rd (F := F) m).duties (ysendC c i) 0 = {0} := duties_dma m c _ _ (by omega)
@[sl_rounds] theorem amount_ysend (c : Dev nD) (i : Fin 32) (d : Fin 3) : (Rd (F := F) m).amount (ysendC c i) 0 d = N := rfl
@[sl_rounds] theorem expect_ysend (c : Dev nD) (i : Fin 32) : (Rd (F := F) m).expect (ysendC c i) 0 = N := expect_dma m c _ _ (by omega)
@[sl_rounds] theorem payload_ysend (c : Dev nD) (i : Fin 32) (d : Fin 3) : (Rd (F := F) m).payload (ysendC c i) 0 d = ysendPay m c i := by
  show dmaPay m c (2 + i.val) = _; unfold dmaPay; split_ifs <;> first | omega | exact congrArg _ (Fin.ext (Nat.add_sub_cancel_left _ _))
@[sl_rounds] theorem rest_ysend (c : Dev nD) (i : Fin 32) :
    bigSep ((Rd (F := F) m).duties (ysendC c i) 0 \ ∅) (fun d => (Rd (F := F) m).payload (ysendC c i) 0 d) = ysendPay m c i :=
  (rest_dma m c _ _ (by omega)).trans (payload_ysend m c i 0)

@[sl_rounds] theorem duties_yrecv (c : Dev nD) (i : Fin 32) : (Rd (F := F) m).duties (yrecvC c i) 0 = {0} := duties_dma m c _ _ (by omega)
@[sl_rounds] theorem amount_yrecv (c : Dev nD) (i : Fin 32) (d : Fin 3) : (Rd (F := F) m).amount (yrecvC c i) 0 d = N := rfl
@[sl_rounds] theorem expect_yrecv (c : Dev nD) (i : Fin 32) : (Rd (F := F) m).expect (yrecvC c i) 0 = N := expect_dma m c _ _ (by omega)
@[sl_rounds] theorem payload_yrecv (c : Dev nD) (i : Fin 32) (d : Fin 3) : (Rd (F := F) m).payload (yrecvC c i) 0 d = yrecvPay m c i := by
  show dmaPay m c (34 + i.val) = _; unfold dmaPay; split_ifs <;> first | omega | exact congrArg _ (Fin.ext (Nat.add_sub_cancel_left _ _))
@[sl_rounds] theorem rest_yrecv (c : Dev nD) (i : Fin 32) :
    bigSep ((Rd (F := F) m).duties (yrecvC c i) 0 \ ∅) (fun d => (Rd (F := F) m).payload (yrecvC c i) 0 d) = yrecvPay m c i :=
  (rest_dma m c _ _ (by omega)).trans (payload_yrecv m c i 0)

@[sl_rounds] theorem duties_xsend (c : Dev nD) (j : Fin 48) : (Rd (F := F) m).duties (xsendC c j) 0 = {0} := duties_dma m c _ _ (by omega)
@[sl_rounds] theorem amount_xsend (c : Dev nD) (j : Fin 48) (d : Fin 3) : (Rd (F := F) m).amount (xsendC c j) 0 d = N := rfl
@[sl_rounds] theorem expect_xsend (c : Dev nD) (j : Fin 48) : (Rd (F := F) m).expect (xsendC c j) 0 = N := expect_dma m c _ _ (by omega)
@[sl_rounds] theorem payload_xsend (c : Dev nD) (j : Fin 48) (d : Fin 3) : (Rd (F := F) m).payload (xsendC c j) 0 d = xsendPay m c j := by
  show dmaPay m c (66 + j.val) = _; unfold dmaPay; split_ifs <;> first | omega | exact congrArg _ (Fin.ext (Nat.add_sub_cancel_left _ _))
@[sl_rounds] theorem rest_xsend (c : Dev nD) (j : Fin 48) :
    bigSep ((Rd (F := F) m).duties (xsendC c j) 0 \ ∅) (fun d => (Rd (F := F) m).payload (xsendC c j) 0 d) = xsendPay m c j :=
  (rest_dma m c _ _ (by omega)).trans (payload_xsend m c j 0)

@[sl_rounds] theorem duties_xrecvS (c : Dev nD) (i : Fin 32) : (Rd (F := F) m).duties (xrecvSC c i) 0 = {0} := duties_dma m c _ _ (by omega)
@[sl_rounds] theorem amount_xrecvS (c : Dev nD) (i : Fin 32) (d : Fin 3) : (Rd (F := F) m).amount (xrecvSC c i) 0 d = N := rfl
@[sl_rounds] theorem expect_xrecvS (c : Dev nD) (i : Fin 32) : (Rd (F := F) m).expect (xrecvSC c i) 0 = N := expect_dma m c _ _ (by omega)
@[sl_rounds] theorem payload_xrecvS (c : Dev nD) (i : Fin 32) (d : Fin 3) : (Rd (F := F) m).payload (xrecvSC c i) 0 d = xrecvSPay m c i := by
  show dmaPay m c (114 + i.val) = _; unfold dmaPay; split_ifs <;> first | omega | exact congrArg _ (Fin.ext (Nat.add_sub_cancel_left _ _))
@[sl_rounds] theorem rest_xrecvS (c : Dev nD) (i : Fin 32) :
    bigSep ((Rd (F := F) m).duties (xrecvSC c i) 0 \ ∅) (fun d => (Rd (F := F) m).payload (xrecvSC c i) 0 d) = xrecvSPay m c i :=
  (rest_dma m c _ _ (by omega)).trans (payload_xrecvS m c i 0)

@[sl_rounds] theorem duties_xrecvD (c : Dev nD) (i : Fin 16) : (Rd (F := F) m).duties (xrecvDC c i) 0 = {0} := duties_dma m c _ _ (by omega)
@[sl_rounds] theorem amount_xrecvD (c : Dev nD) (i : Fin 16) (d : Fin 3) : (Rd (F := F) m).amount (xrecvDC c i) 0 d = N := rfl
@[sl_rounds] theorem expect_xrecvD (c : Dev nD) (i : Fin 16) : (Rd (F := F) m).expect (xrecvDC c i) 0 = N := expect_dma m c _ _ (by omega)
@[sl_rounds] theorem payload_xrecvD (c : Dev nD) (i : Fin 16) (d : Fin 3) : (Rd (F := F) m).payload (xrecvDC c i) 0 d = xrecvDPay m c i := by
  show dmaPay m c (146 + i.val) = _; unfold dmaPay; split_ifs <;> first | omega | exact congrArg _ (Fin.ext (Nat.add_sub_cancel_left _ _))
@[sl_rounds] theorem rest_xrecvD (c : Dev nD) (i : Fin 16) :
    bigSep ((Rd (F := F) m).duties (xrecvDC c i) 0 \ ∅) (fun d => (Rd (F := F) m).payload (xrecvDC c i) 0 d) = xrecvDPay m c i :=
  (rest_dma m c _ _ (by omega)).trans (payload_xrecvD m c i 0)

@[sl_rounds] theorem duties_zsend (c : Dev nD) (j : Fin 48) : (Rd (F := F) m).duties (zsendC c j) 0 = {0} := duties_dma m c _ _ (by omega)
@[sl_rounds] theorem amount_zsend (c : Dev nD) (j : Fin 48) (d : Fin 3) : (Rd (F := F) m).amount (zsendC c j) 0 d = N := rfl
@[sl_rounds] theorem expect_zsend (c : Dev nD) (j : Fin 48) : (Rd (F := F) m).expect (zsendC c j) 0 = N := expect_dma m c _ _ (by omega)
@[sl_rounds] theorem payload_zsend (c : Dev nD) (j : Fin 48) (d : Fin 3) : (Rd (F := F) m).payload (zsendC c j) 0 d = zsendPay m c j := by
  show dmaPay m c (162 + j.val) = _; unfold dmaPay; split_ifs <;> first | omega | exact congrArg _ (Fin.ext (Nat.add_sub_cancel_left _ _))
@[sl_rounds] theorem rest_zsend (c : Dev nD) (j : Fin 48) :
    bigSep ((Rd (F := F) m).duties (zsendC c j) 0 \ ∅) (fun d => (Rd (F := F) m).payload (zsendC c j) 0 d) = zsendPay m c j :=
  (rest_dma m c _ _ (by omega)).trans (payload_zsend m c j 0)

@[sl_rounds] theorem duties_zrecvS (c : Dev nD) (i : Fin 32) : (Rd (F := F) m).duties (zrecvSC c i) 0 = {0} := duties_dma m c _ _ (by omega)
@[sl_rounds] theorem amount_zrecvS (c : Dev nD) (i : Fin 32) (d : Fin 3) : (Rd (F := F) m).amount (zrecvSC c i) 0 d = N := rfl
@[sl_rounds] theorem expect_zrecvS (c : Dev nD) (i : Fin 32) : (Rd (F := F) m).expect (zrecvSC c i) 0 = N := expect_dma m c _ _ (by omega)
@[sl_rounds] theorem payload_zrecvS (c : Dev nD) (i : Fin 32) (d : Fin 3) : (Rd (F := F) m).payload (zrecvSC c i) 0 d = zrecvSPay m c i := by
  show dmaPay m c (210 + i.val) = _; unfold dmaPay; split_ifs <;> first | omega | exact congrArg _ (Fin.ext (Nat.add_sub_cancel_left _ _))
@[sl_rounds] theorem rest_zrecvS (c : Dev nD) (i : Fin 32) :
    bigSep ((Rd (F := F) m).duties (zrecvSC c i) 0 \ ∅) (fun d => (Rd (F := F) m).payload (zrecvSC c i) 0 d) = zrecvSPay m c i :=
  (rest_dma m c _ _ (by omega)).trans (payload_zrecvS m c i 0)

@[sl_rounds] theorem duties_zrecvD (c : Dev nD) (i : Fin 16) : (Rd (F := F) m).duties (zrecvDC c i) 0 = {0} := duties_dma m c _ _ (by omega)
@[sl_rounds] theorem amount_zrecvD (c : Dev nD) (i : Fin 16) (d : Fin 3) : (Rd (F := F) m).amount (zrecvDC c i) 0 d = N := rfl
@[sl_rounds] theorem expect_zrecvD (c : Dev nD) (i : Fin 16) : (Rd (F := F) m).expect (zrecvDC c i) 0 = N := expect_dma m c _ _ (by omega)
@[sl_rounds] theorem payload_zrecvD (c : Dev nD) (i : Fin 16) (d : Fin 3) : (Rd (F := F) m).payload (zrecvDC c i) 0 d = zrecvDPay m c i := by
  show dmaPay m c (242 + i.val) = _; unfold dmaPay; split_ifs <;> first | omega | exact congrArg _ (Fin.ext (Nat.add_sub_cancel_left _ _))
@[sl_rounds] theorem rest_zrecvD (c : Dev nD) (i : Fin 16) :
    bigSep ((Rd (F := F) m).duties (zrecvDC c i) 0 \ ∅) (fun d => (Rd (F := F) m).payload (zrecvDC c i) 0 d) = zrecvDPay m c i :=
  (rest_dma m c _ _ (by omega)).trans (payload_zrecvD m c i 0)

theorem payload_xsend_lo (c : Dev nD) (i : Fin 32) :
    xsendPay m c ⟨i.val, by omega⟩ = chunkAt c (slot32 yrM i) qa (Yc m c i) := by
  unfold xsendPay; exact dif_pos i.isLt
theorem payload_xsend_hi (c : Dev nD) (i : Fin 16) :
    xsendPay m c ⟨32 + i.val, by omega⟩ = chunkAt c (slot32 zsM (lo i)) qa (ZSc m c (lo i)) := by
  unfold xsendPay; rw [dif_neg (show ¬ (32 + i.val < 32) by omega)]
  exact congrArg (fun j => chunkAt c (slot32 zsM j) qa (ZSc m c j)) (Fin.ext (by show 32 + i.val - 32 = i.val; omega))
theorem payload_zsend_lo (c : Dev nD) (i : Fin 32) :
    zsendPay m c ⟨i.val, by omega⟩ = chunkAt c (slot32 yrM i) qb (Yc m c i) := by
  unfold zsendPay; exact dif_pos i.isLt
theorem payload_zsend_hi (c : Dev nD) (i : Fin 16) :
    zsendPay m c ⟨32 + i.val, by omega⟩ = chunkAt c (slot32 xsM (hi i)) qa (XSc m c (hi i)) := by
  unfold zsendPay; rw [dif_neg (show ¬ (32 + i.val < 32) by omega)]
  exact congrArg (fun j => chunkAt c (slot32 xsM j) qa (XSc m c j)) (Fin.ext (by show 32 + i.val - 16 = 16 + i.val; omega))

end

def L (g : GSem nD τ sig) : Finset Unit := if g.1.2 = .tc then {()} else ∅

theorem L_of_ne (g : GSem nD τ sig) (h : g.1.2 ≠ .tc) : L g = ∅ := if_neg h
theorem L_tc (c : Dev nD) (sm : SemLoc sig) : L ((c : Thread nD τ), sm) = {()} := if_pos rfl

def lv (g : GSem nD τ sig) (_ : Unit) : ℕ :=
  match g.2 with
  | .reg s => if s = barS then 1 else 0
  | .dma q =>
    if q.val < 34 then 0 else if q.val < 66 then 2 else if q.val < 114 then 0 else if q.val < 146 then 3
    else if q.val < 162 then 4 else if q.val < 210 then 0 else if q.val < 242 then 3 else if q.val < 258 then 4 else 0

theorem lv_bar (c : Dev nD) : lv (barCell c) () = 1 := by dsimp only [lv]; exact if_pos rfl
theorem lv_stage (t : Thread nD τ) (q : DmaSem sig) (hq : q.val < 2) : lv (t, .dma q) () = 0 := by
  dsimp only [lv]; exact if_pos (by omega)

def arrive (c : Dev nD) (k : Fin 128) : GSem nD τ sig :=
  if h : k.val < 32 then yrecvC (yN c) ⟨k.val, h⟩
  else if h₁ : k.val < 96 then
    (if (k.val - 32) % 2 = 0 then xrecvSC (xN c) ⟨(k.val - 32) / 2, by omega⟩ else zrecvSC (zN c) ⟨(k.val - 32) / 2, by omega⟩)
  else if h₂ : k.val < 112 then xrecvDC (xN c) ⟨k.val - 96, by omega⟩
  else zrecvDC (zN c) ⟨k.val - 112, by omega⟩

theorem arrive_y (c : Dev nD) (i : Fin 32) : arrive c ⟨i.val, by omega⟩ = yrecvC (yN c) i := by
  unfold arrive; exact dif_pos i.isLt
theorem arrive_xs (c : Dev nD) (i : Fin 32) : arrive c ⟨32 + 2 * i.val, by omega⟩ = xrecvSC (xN c) i := by
  unfold arrive; dsimp only; split_ifs <;> first | omega | exact congrArg _ (Fin.ext (by show (32 + 2 * i.val - 32) / 2 = i.val; omega))
theorem arrive_zs (c : Dev nD) (i : Fin 32) : arrive c ⟨33 + 2 * i.val, by omega⟩ = zrecvSC (zN c) i := by
  unfold arrive; dsimp only; split_ifs <;> first | omega | exact congrArg _ (Fin.ext (by show (33 + 2 * i.val - 32) / 2 = i.val; omega))
theorem arrive_xd (c : Dev nD) (i : Fin 16) : arrive c ⟨96 + i.val, by omega⟩ = xrecvDC (xN c) i := by
  unfold arrive; dsimp only; split_ifs <;> first | omega | exact congrArg _ (Fin.ext (Nat.add_sub_cancel_left _ _))
theorem arrive_zd (c : Dev nD) (i : Fin 16) : arrive c ⟨112 + i.val, by omega⟩ = zrecvDC (zN c) i := by
  unfold arrive; dsimp only; split_ifs <;> first | omega | exact congrArg _ (Fin.ext (Nat.add_sub_cancel_left _ _))

theorem L_arrive (c : Dev nD) (k : Fin 128) : L (arrive c k) = {()} := by
  unfold arrive; split_ifs <;> exact L_tc _ _

theorem lv_arrive (c : Dev nD) (k : Fin 128) :
    lv (arrive c k) () = if k.val < 32 then 2 else if k.val < 96 then 3 else 4 := by
  unfold arrive; split_ifs <;> (dsimp only [lv]; split_ifs <;> omega)

def Orem (c : Dev nD) (k : Nat) : CellTallies nD τ sig Unit :=
  ∑ j ∈ Finset.univ.filter (fun j : Fin 128 => k ≤ j.val), tallyAt (arrive c j) () N

theorem Orem_peel (c : Dev nD) (k : Fin 128) : Orem c k.val = Orem c (k.val + 1) + tallyAt (arrive c k) () N := by
  have hs : Finset.univ.filter (fun j : Fin 128 => k.val ≤ j.val)
      = insert k (Finset.univ.filter (fun j : Fin 128 => k.val + 1 ≤ j.val)) := by
    ext j; simp only [Finset.mem_filter, Finset.mem_univ, true_and, Finset.mem_insert, Fin.ext_iff]; omega
  unfold Orem
  rw [hs, Finset.sum_insert (fun h => by have := (Finset.mem_filter.mp h).2; omega), add_comm]

theorem Orem_end (c : Dev nD) : Orem c 128 = 0 :=
  Finset.sum_eq_zero fun j hj => absurd (Finset.mem_filter.mp hj).2 (by have := j.isLt; omega)

theorem Orem_pos {c : Dev nD} {k : Nat} {g : GSem nD τ sig} {u : Unit} (h : 0 < Orem c k g u) :
    ∃ j : Fin 128, k ≤ j.val ∧ g = arrive c j := by
  by_contra hn
  rw [not_exists] at hn
  unfold Orem at h
  rw [Finset.sum_apply, Finsupp.finset_sum_apply, Finset.sum_eq_zero] at h
  · exact Nat.lt_irrefl 0 h
  · intro j hj
    rw [tallyAt_apply]
    exact if_neg fun h' => hn j ⟨(Finset.mem_filter.mp hj).2, h'.1⟩

def O₀ (c : Dev nD) : CellTallies nD τ sig Unit :=
  Orem c 0 + tallyAt (barCell (zN c)) () 1 + tallyAt (barCell (xN c)) () 1 + tallyAt (barCell (yN c)) () 1

theorem O₀_pos {c : Dev nD} {g : GSem nD τ sig} {u : Unit} (h : 0 < O₀ c g u) :
    (∃ j : Fin 128, g = arrive c j) ∨ g = barCell (zN c) ∨ g = barCell (xN c) ∨ g = barCell (yN c) := by
  by_contra hn
  rw [not_or, not_or, not_or] at hn
  unfold O₀ at h
  rw [Pi.add_apply, Finsupp.add_apply, Pi.add_apply, Finsupp.add_apply, Pi.add_apply, Finsupp.add_apply,
    tallyAt_apply, tallyAt_apply, tallyAt_apply,
    if_neg (fun h' => hn.2.1 h'.1), if_neg (fun h' => hn.2.2.1 h'.1), if_neg (fun h' => hn.2.2.2 h'.1)] at h
  have h0 : 0 < Orem c 0 g u := by omega
  obtain ⟨j, -, hj⟩ := Orem_pos h0
  exact hn.1 ⟨j, hj⟩

omit [FloatOps F] in
theorem mayWait_rem (c : Dev nD) (k : Nat) (sm : SemLoc sig)
    (h : lv ((c : Thread nD τ), sm) () < (if k < 32 then 2 else if k < 96 then 3 else if k < 128 then 4 else 5)) :
    (levAts L lv : sProp 𝕄) ⊢ MayWait (c : Thread nD τ) sm () (Orem c k) :=
  MayOwe.of_cut (L := L) (lev := lv) (lv ((c : Thread nD τ), sm) ())
    (fun p hp => by rw [Finset.mem_singleton.mp hp, L_tc]; exact Finset.mem_singleton_self _)
    (fun g u hg => by
      obtain ⟨j, -, rfl⟩ := Orem_pos hg
      rw [L_arrive]; exact Finset.mem_singleton_self _)
    (fun p hp => by rw [Finset.mem_singleton.mp hp])
    (fun g u hg => by
      obtain ⟨j, hj, rfl⟩ := Orem_pos hg
      have hl : lv (arrive c j) u = if j.val < 32 then 2 else if j.val < 96 then 3 else 4 := lv_arrive c j
      have := j.isLt
      split_ifs at h hl <;> omega)

omit [FloatOps F] in
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0
      (fun p hp => by rw [Finset.mem_singleton.mp hp, L_tc]; exact Finset.mem_singleton_self _)
      (fun g u hg => by
        rcases O₀_pos hg with ⟨j, rfl⟩ | rfl | rfl | rfl
        · rw [L_arrive]; exact Finset.mem_singleton_self _
        all_goals exact Finset.mem_singleton_self _)
      (fun p hp => by rw [Finset.mem_singleton.mp hp, lv_stage _ _ hq])
      (fun g u hg => by
        cases u
        rcases O₀_pos hg with ⟨j, rfl⟩ | rfl | rfl | rfl
        · rw [lv_arrive]; split_ifs <;> omega
        all_goals (rw [lv_bar]; exact Nat.one_pos))
  · rw [MayWait_zero]; iintro -; iempintro

/-- info: 'Cert.Kernel.Hand.mayWait_stage' depends on axioms: [propext, Classical.choice, Quot.sound] -/
#guard_msgs in #print axioms mayWait_stage

end Cert.Kernel.Hand

end
-- ==== Proof.HandKernel.Mesh.lean ====
import proofs.«900716_g7700000000000717_dist_ar_v7x_xyz2x2x4_y_m4096_n1024_f32_1_alg».proof.Proof.Gen.Kernel
import proofs.«900716_g7700000000000717_dist_ar_v7x_xyz2x2x4_y_m4096_n1024_f32_1_alg».proof.Proof.HandKernel.Nbr

set_option Elab.async false

noncomputable section

namespace Cert.Kernel.Hand

open Idealize.ShloMosaic Idealize.SL.Sem Cert.Kernel Cert.Kernel.Gen

@[sl_canon] theorem dev1_eq (c : Dev nD) : (⟨k0_dev1 c, k0_dev1_lt c⟩ : Dev nD) = yN c := by revert c; decide +kernel
@[sl_canon] theorem dev2_eq (c : Dev nD) : (⟨k0_dev2 c, k0_dev2_lt c⟩ : Dev nD) = xN c := by revert c; decide +kernel
@[sl_canon] theorem dev3_eq (c : Dev nD) : (⟨k0_dev3 c, k0_dev3_lt c⟩ : Dev nD) = zN c := by revert c; decide +kernel
@[sl_canon] theorem dev4_eq (c : Dev nD) : (⟨k0_dev4 c, k0_dev4_lt c⟩ : Dev nD) = yN c := by revert c; decide +kernel
@[sl_canon] theorem dev5_eq (c : Dev nD) : (⟨k0_dev5 c, k0_dev5_lt c⟩ : Dev nD) = yN c := by revert c; decide +kernel
@[sl_canon] theorem dev6_eq (c : Dev nD) : (⟨k0_dev6 c, k0_dev6_lt c⟩ : Dev nD) = yN c := by revert c; decide +kernel
@[sl_canon] theorem dev7_eq (c : Dev nD) : (⟨k0_dev7 c, k0_dev7_lt c⟩ : Dev nD) = yN c := by revert c; decide +kernel
@[sl_canon] theorem dev8_eq (c : Dev nD) : (⟨k0_dev8 c, k0_dev8_lt c⟩ : Dev nD) = yN c := by revert c; decide +kernel
@[sl_canon] theorem dev9_eq (c : Dev nD) : (⟨k0_dev9 c, k0_dev9_lt c⟩ : Dev nD) = yN c := by revert c; decide +kernel
@[sl_canon] theorem dev10_eq (c : Dev nD) : (⟨k0_dev10 c, k0_dev10_lt c⟩ : Dev nD) = yN c := by revert c; decide +kernel
@[sl_canon] theorem dev11_eq (c : Dev nD) : (⟨k0_dev11 c, k0_dev11_lt c⟩ : Dev nD) = yN c := by revert c; decide +kernel
@[sl_canon] theorem dev12_eq (c : Dev nD) : (⟨k0_dev12 c, k0_dev12_lt c⟩ : Dev nD) = yN c := by revert c; decide +kernel
@[sl_canon] theorem dev13_eq (c : Dev nD) : (⟨k0_dev13 c, k0_dev13_lt c⟩ : Dev nD) = yN c := by revert c; decide +kernel
@[sl_canon] theorem dev14_eq (c : Dev nD) : (⟨k0_dev14 c, k0_dev14_lt c⟩ : Dev nD) = yN c := by revert c; decide +kernel
@[sl_canon] theorem dev15_eq (c : Dev nD) : (⟨k0_dev15 c, k0_dev15_lt c⟩ : Dev nD) = yN c := by revert c; decide +kernel
@[sl_canon] theorem dev16_eq (c : Dev nD) : (⟨k0_dev16 c, k0_dev16_lt c⟩ : Dev nD) = yN c := by revert c; decide +kernel
@[sl_canon] theorem dev17_eq (c : Dev nD) : (⟨k0_dev17 c, k0_dev17_lt c⟩ : Dev nD) = yN c := by revert c; decide +kernel
@[sl_canon] theorem dev18_eq (c : Dev nD) : (⟨k0_dev18 c, k0_dev18_lt c⟩ : Dev nD) = yN c := by revert c; decide +kernel
@[sl_canon] theorem dev19_eq (c : Dev nD) : (⟨k0_dev19 c, k0_dev19_lt c⟩ : Dev nD) = yN c := by revert c; decide +kernel
@[sl_canon] theorem dev20_eq (c : Dev nD) : (⟨k0_dev20 c, k0_dev20_lt c⟩ : Dev nD) = yN c := by revert c; decide +kernel
@[sl_canon] theorem dev21_eq (c : Dev nD) : (⟨k0_dev21 c, k0_dev21_lt c⟩ : Dev nD) = yN c := by revert c; decide +kernel
@[sl_canon] theorem dev22_eq (c : Dev nD) : (⟨k0_dev22 c, k0_dev22_lt c⟩ : Dev nD) = yN c := by revert c; decide +kernel
@[sl_canon] theorem dev23_eq (c : Dev nD) : (⟨k0_dev23 c, k0_dev23_lt c⟩ : Dev nD) = yN c := by revert c; decide +kernel
@[sl_canon] theorem dev24_eq (c : Dev nD) : (⟨k0_dev24 c, k0_dev24_lt c⟩ : Dev nD) = yN c := by revert c; decide +kernel
@[sl_canon] theorem dev25_eq (c : Dev nD) : (⟨k0_dev25 c, k0_dev25_lt c⟩ : Dev nD) = yN c := by revert c; decide +kernel
@[sl_canon] theorem dev26_eq (c : Dev nD) : (⟨k0_dev26 c, k0_dev26_lt c⟩ : Dev nD) = yN c := by revert c; decide +kernel
@[sl_canon] theorem dev27_eq (c : Dev nD) : (⟨k0_dev27 c, k0_dev27_lt c⟩ : Dev nD) = yN c := by revert c; decide +kernel
@[sl_canon] theorem dev28_eq (c : Dev nD) : (⟨k0_dev28 c, k0_dev28_lt c⟩ : Dev nD) = yN c := by revert c; decide +kernel
@[sl_canon] theorem dev29_eq (c : Dev nD) : (⟨k0_dev29 c, k0_dev29_lt c⟩ : Dev nD) = yN c := by revert c; decide +kernel
@[sl_canon] theorem dev30_eq (c : Dev nD) : (⟨k0_dev30 c, k0_dev30_lt c⟩ : Dev nD) = yN c := by revert c; decide +kernel
@[sl_canon] theorem dev31_eq (c : Dev nD) : (⟨k0_dev31 c, k0_dev31_lt c⟩ : Dev nD) = yN c := by revert c; decide +kernel
@[sl_canon] theorem dev32_eq (c : Dev nD) : (⟨k0_dev32 c, k0_dev32_lt c⟩ : Dev nD) = yN c := by revert c; decide +kernel
@[sl_canon] theorem dev33_eq (c : Dev nD) : (⟨k0_dev33 c, k0_dev33_lt c⟩ : Dev nD) = yN c := by revert c; decide +kernel
@[sl_canon] theorem dev34_eq (c : Dev nD) : (⟨k0_dev34 c, k0_dev34_lt c⟩ : Dev nD) = yN c := by revert c; decide +kernel
@[sl_canon] theorem dev35_eq (c : Dev nD) : (⟨k0_dev35 c, k0_dev35_lt c⟩ : Dev nD) = yN c := by revert c; decide +kernel
@[sl_canon] theorem dev36_eq (c : Dev nD) : (⟨k0_dev36 c, k0_dev36_lt c⟩ : Dev nD) = xN c := by revert c; decide +kernel
@[sl_canon] theorem dev37_eq (c : Dev nD) : (⟨k0_dev37 c, k0_dev37_lt c⟩ : Dev nD) = zN c := by revert c; decide +kernel
@[sl_canon] theorem dev38_eq (c : Dev nD) : (⟨k0_dev38 c, k0_dev38_lt c⟩ : Dev nD) = xN c := by revert c; decide +kernel
@[sl_canon] theorem dev39_eq (c : Dev nD) : (⟨k0_dev39 c, k0_dev39_lt c⟩ : Dev nD) = zN c := by revert c; decide +kernel
@[sl_canon] theorem dev40_eq (c : Dev nD) : (⟨k0_dev40 c, k0_dev40_lt c⟩ : Dev nD) = xN c := by revert c; decide +kernel
@[sl_canon] theorem dev41_eq (c : Dev nD) : (⟨k0_dev41 c, k0_dev41_lt c⟩ : Dev nD) = zN c := by revert c; decide +kernel
@[sl_canon] theorem dev42_eq (c : Dev nD) : (⟨k0_dev42 c, k0_dev42_lt c⟩ : Dev nD) = xN c := by revert c; decide +kernel
@[sl_canon] theorem dev43_eq (c : Dev nD) : (⟨k0_dev43 c, k0_dev43_lt c⟩ : Dev nD) = zN c := by revert c; decide +kernel
@[sl_canon] theorem dev44_eq (c : Dev nD) : (⟨k0_dev44 c, k0_dev44_lt c⟩ : Dev nD) = xN c := by revert c; decide +kernel
@[sl_canon] theorem dev45_eq (c : Dev nD) : (⟨k0_dev45 c, k0_dev45_lt c⟩ : Dev nD) = zN c := by revert c; decide +kernel
@[sl_canon] theorem dev46_eq (c : Dev nD) : (⟨k0_dev46 c, k0_dev46_lt c⟩ : Dev nD) = xN c := by revert c; decide +kernel
@[sl_canon] theorem dev47_eq (c : Dev nD) : (⟨k0_dev47 c, k0_dev47_lt c⟩ : Dev nD) = zN c := by revert c; decide +kernel
@[sl_canon] theorem dev48_eq (c : Dev nD) : (⟨k0_dev48 c, k0_dev48_lt c⟩ : Dev nD) = xN c := by revert c; decide +kernel
@[sl_canon] theorem dev49_eq (c : Dev nD) : (⟨k0_dev49 c, k0_dev49_lt c⟩ : Dev nD) = zN c := by revert c; decide +kernel
@[sl_canon] theorem dev50_eq (c : Dev nD) : (⟨k0_dev50 c, k0_dev50_lt c⟩ : Dev nD) = xN c := by revert c; decide +kernel
@[sl_canon] theorem dev51_eq (c : Dev nD) : (⟨k0_dev51 c, k0_dev51_lt c⟩ : Dev nD) = zN c := by revert c; decide +kernel
@[sl_canon] theorem dev52_eq (c : Dev nD) : (⟨k0_dev52 c, k0_dev52_lt c⟩ : Dev nD) = xN c := by revert c; decide +kernel
@[sl_canon] theorem dev53_eq (c : Dev nD) : (⟨k0_dev53 c, k0_dev53_lt c⟩ : Dev nD) = zN c := by revert c; decide +kernel
@[sl_canon] theorem dev54_eq (c : Dev nD) : (⟨k0_dev54 c, k0_dev54_lt c⟩ : Dev nD) = xN c := by revert c; decide +kernel
@[sl_canon] theorem dev55_eq (c : Dev nD) : (⟨k0_dev55 c, k0_dev55_lt c⟩ : Dev nD) = zN c := by revert c; decide +kernel
@[sl_canon] theorem dev56_eq (c : Dev nD) : (⟨k0_dev56 c, k0_dev56_lt c⟩ : Dev nD) = xN c := by revert c; decide +kernel
@[sl_canon] theorem dev57_eq (c : Dev nD) : (⟨k0_dev57 c, k0_dev57_lt c⟩ : Dev nD) = zN c := by revert c; decide +kernel
@[sl_canon] theorem dev58_eq (c : Dev nD) : (⟨k0_dev58 c, k0_dev58_lt c⟩ : Dev nD) = xN c := by revert c; decide +kernel
@[sl_canon] theorem dev59_eq (c : Dev nD) : (⟨k0_dev59 c, k0_dev59_lt c⟩ : Dev nD) = zN c := by revert c; decide +kernel
@[sl_canon] theorem dev60_eq (c : Dev nD) : (⟨k0_dev60 c, k0_dev60_lt c⟩ : Dev nD) = xN c := by revert c; decide +kernel
@[sl_canon] theorem dev61_eq (c : Dev nD) : (⟨k0_dev61 c, k0_dev61_lt c⟩ : Dev nD) = zN c := by revert c; decide +kernel
@[sl_canon] theorem dev62_eq (c : Dev nD) : (⟨k0_dev62 c, k0_dev62_lt c⟩ : Dev nD) = xN c := by revert c; decide +kernel
@[sl_canon] theorem dev63_eq (c : Dev nD) : (⟨k0_dev63 c, k0_dev63_lt c⟩ : Dev nD) = zN c := by revert c; decide +kernel
@[sl_canon] theorem dev64_eq (c : Dev nD) : (⟨k0_dev64 c, k0_dev64_lt c⟩ : Dev nD) = xN c := by revert c; decide +kernel
@[sl_canon] theorem dev65_eq (c : Dev nD) : (⟨k0_dev65 c, k0_dev65_lt c⟩ : Dev nD) = zN c := by revert c; decide +kernel
@[sl_canon] theorem dev66_eq (c : Dev nD) : (⟨k0_dev66 c, k0_dev66_lt c⟩ : Dev nD) = xN c := by revert c; decide +kernel
@[sl_canon] theorem dev67_eq (c : Dev nD) : (⟨k0_dev67 c, k0_dev67_lt c⟩ : Dev nD) = zN c := by revert c; decide +kernel
@[sl_canon] theorem dev68_eq (c : Dev nD) : (⟨k0_dev68 c, k0_dev68_lt c⟩ : Dev nD) = xN c := by revert c; decide +kernel
@[sl_canon] theorem dev69_eq (c : Dev nD) : (⟨k0_dev69 c, k0_dev69_lt c⟩ : Dev nD) = zN c := by revert c; decide +kernel
@[sl_canon] theorem dev70_eq (c : Dev nD) : (⟨k0_dev70 c, k0_dev70_lt c⟩ : Dev nD) = xN c := by revert c; decide +kernel
@[sl_canon] theorem dev71_eq (c : Dev nD) : (⟨k0_dev71 c, k0_dev71_lt c⟩ : Dev nD) = zN c := by revert c; decide +kernel
@[sl_canon] theorem dev72_eq (c : Dev nD) : (⟨k0_dev72 c, k0_dev72_lt c⟩ : Dev nD) = xN c := by revert c; decide +kernel
@[sl_canon] theorem dev73_eq (c : Dev nD) : (⟨k0_dev73 c, k0_dev73_lt c⟩ : Dev nD) = zN c := by revert c; decide +kernel
@[sl_canon] theorem dev74_eq (c : Dev nD) : (⟨k0_dev74 c, k0_dev74_lt c⟩ : Dev nD) = xN c := by revert c; decide +kernel
@[sl_canon] theorem dev75_eq (c : Dev nD) : (⟨k0_dev75 c, k0_dev75_lt c⟩ : Dev nD) = zN c := by revert c; decide +kernel
@[sl_canon] theorem dev76_eq (c : Dev nD) : (⟨k0_dev76 c, k0_dev76_lt c⟩ : Dev nD) = xN c := by revert c; decide +kernel
@[sl_canon] theorem dev77_eq (c : Dev nD) : (⟨k0_dev77 c, k0_dev77_lt c⟩ : Dev nD) = zN c := by revert c; decide +kernel
@[sl_canon] theorem dev78_eq (c : Dev nD) : (⟨k0_dev78 c, k0_dev78_lt c⟩ : Dev nD) = xN c := by revert c; decide +kernel
@[sl_canon] theorem dev79_eq (c : Dev nD) : (⟨k0_dev79 c, k0_dev79_lt c⟩ : Dev nD) = zN c := by revert c; decide +kernel
@[sl_canon] theorem dev80_eq (c : Dev nD) : (⟨k0_dev80 c, k0_dev80_lt c⟩ : Dev nD) = xN c := by revert c; decide +kernel
@[sl_canon] theorem dev81_eq (c : Dev nD) : (⟨k0_dev81 c, k0_dev81_lt c⟩ : Dev nD) = zN c := by revert c; decide +kernel
@[sl_canon] theorem dev82_eq (c : Dev nD) : (⟨k0_dev82 c, k0_dev82_lt c⟩ : Dev nD) = xN c := by revert c; decide +kernel
@[sl_canon] theorem dev83_eq (c : Dev nD) : (⟨k0_dev83 c, k0_dev83_lt c⟩ : Dev nD) = zN c := by revert c; decide +kernel
@[sl_canon] theorem dev84_eq (c : Dev nD) : (⟨k0_dev84 c, k0_dev84_lt c⟩ : Dev nD) = xN c := by revert c; decide +kernel
@[sl_canon] theorem dev85_eq (c : Dev nD) : (⟨k0_dev85 c, k0_dev85_lt c⟩ : Dev nD) = zN c := by revert c; decide +kernel
@[sl_canon] theorem dev86_eq (c : Dev nD) : (⟨k0_dev86 c, k0_dev86_lt c⟩ : Dev nD) = xN c := by revert c; decide +kernel
@[sl_canon] theorem dev87_eq (c : Dev nD) : (⟨k0_dev87 c, k0_dev87_lt c⟩ : Dev nD) = zN c := by revert c; decide +kernel
@[sl_canon] theorem dev88_eq (c : Dev nD) : (⟨k0_dev88 c, k0_dev88_lt c⟩ : Dev nD) = xN c := by revert c; decide +kernel
@[sl_canon] theorem dev89_eq (c : Dev nD) : (⟨k0_dev89 c, k0_dev89_lt c⟩ : Dev nD) = zN c := by revert c; decide +kernel
@[sl_canon] theorem dev90_eq (c : Dev nD) : (⟨k0_dev90 c, k0_dev90_lt c⟩ : Dev nD) = xN c := by revert c; decide +kernel
@[sl_canon] theorem dev91_eq (c : Dev nD) : (⟨k0_dev91 c, k0_dev91_lt c⟩ : Dev nD) = zN c := by revert c; decide +kernel
@[sl_canon] theorem dev92_eq (c : Dev nD) : (⟨k0_dev92 c, k0_dev92_lt c⟩ : Dev nD) = xN c := by revert c; decide +kernel
@[sl_canon] theorem dev93_eq (c : Dev nD) : (⟨k0_dev93 c, k0_dev93_lt c⟩ : Dev nD) = zN c := by revert c; decide +kernel
@[sl_canon] theorem dev94_eq (c : Dev nD) : (⟨k0_dev94 c, k0_dev94_lt c⟩ : Dev nD) = xN c := by revert c; decide +kernel
@[sl_canon] theorem dev95_eq (c : Dev nD) : (⟨k0_dev95 c, k0_dev95_lt c⟩ : Dev nD) = zN c := by revert c; decide +kernel
@[sl_canon] theorem dev96_eq (c : Dev nD) : (⟨k0_dev96 c, k0_dev96_lt c⟩ : Dev nD) = xN c := by revert c; decide +kernel
@[sl_canon] theorem dev97_eq (c : Dev nD) : (⟨k0_dev97 c, k0_dev97_lt c⟩ : Dev nD) = zN c := by revert c; decide +kernel
@[sl_canon] theorem dev98_eq (c : Dev nD) : (⟨k0_dev98 c, k0_dev98_lt c⟩ : Dev nD) = xN c := by revert c; decide +kernel
@[sl_canon] theorem dev99_eq (c : Dev nD) : (⟨k0_dev99 c, k0_dev99_lt c⟩ : Dev nD) = zN c := by revert c; decide +kernel
@[sl_canon] theorem dev100_eq (c : Dev nD) : (⟨k0_dev100 c, k0_dev100_lt c⟩ : Dev nD) = xN c := by revert c; decide +kernel
@[sl_canon] theorem dev101_eq (c : Dev nD) : (⟨k0_dev101 c, k0_dev101_lt c⟩ : Dev nD) = xN c := by revert c; decide +kernel
@[sl_canon] theorem dev102_eq (c : Dev nD) : (⟨k0_dev102 c, k0_dev102_lt c⟩ : Dev nD) = xN c := by revert c; decide +kernel
@[sl_canon] theorem dev103_eq (c : Dev nD) : (⟨k0_dev103 c, k0_dev103_lt c⟩ : Dev nD) = xN c := by revert c; decide +kernel
@[sl_canon] theorem dev104_eq (c : Dev nD) : (⟨k0_dev104 c, k0_dev104_lt c⟩ : Dev nD) = xN c := by revert c; decide +kernel
@[sl_canon] theorem dev105_eq (c : Dev nD) : (⟨k0_dev105 c, k0_dev105_lt c⟩ : Dev nD) = xN c := by revert c; decide +kernel
@[sl_canon] theorem dev106_eq (c : Dev nD) : (⟨k0_dev106 c, k0_dev106_lt c⟩ : Dev nD) = xN c := by revert c; decide +kernel
@[sl_canon] theorem dev107_eq (c : Dev nD) : (⟨k0_dev107 c, k0_dev107_lt c⟩ : Dev nD) = xN c := by revert c; decide +kernel
@[sl_canon] theorem dev108_eq (c : Dev nD) : (⟨k0_dev108 c, k0_dev108_lt c⟩ : Dev nD) = xN c := by revert c; decide +kernel
@[sl_canon] theorem dev109_eq (c : Dev nD) : (⟨k0_dev109 c, k0_dev109_lt c⟩ : Dev nD) = xN c := by revert c; decide +kernel
@[sl_canon] theorem dev110_eq (c : Dev nD) : (⟨k0_dev110 c, k0_dev110_lt c⟩ : Dev nD) = xN c := by revert c; decide +kernel
@[sl_canon] theorem dev111_eq (c : Dev nD) : (⟨k0_dev111 c, k0_dev111_lt c⟩ : Dev nD) = xN c := by revert c; decide +kernel
@[sl_canon] theorem dev112_eq (c : Dev nD) : (⟨k0_dev112 c, k0_dev112_lt c⟩ : Dev nD) = xN c := by revert c; decide +kernel
@[sl_canon] theorem dev113_eq (c : Dev nD) : (⟨k0_dev113 c, k0_dev113_lt c⟩ : Dev nD) = xN c := by revert c; decide +kernel
@[sl_canon] theorem dev114_eq (c : Dev nD) : (⟨k0_dev114 c, k0_dev114_lt c⟩ : Dev nD) = xN c := by revert c; decide +kernel
@[sl_canon] theorem dev115_eq (c : Dev nD) : (⟨k0_dev115 c, k0_dev115_lt c⟩ : Dev nD) = xN c := by revert c; decide +kernel
@[sl_canon] theorem dev116_eq (c : Dev nD) : (⟨k0_dev116 c, k0_dev116_lt c⟩ : Dev nD) = zN c := by revert c; decide +kernel
@[sl_canon] theorem dev117_eq (c : Dev nD) : (⟨k0_dev117 c, k0_dev117_lt c⟩ : Dev nD) = zN c := by revert c; decide +kernel
@[sl_canon] theorem dev118_eq (c : Dev nD) : (⟨k0_dev118 c, k0_dev118_lt c⟩ : Dev nD) = zN c := by revert c; decide +kernel
@[sl_canon] theorem dev119_eq (c : Dev nD) : (⟨k0_dev119 c, k0_dev119_lt c⟩ : Dev nD) = zN c := by revert c; decide +kernel
@[sl_canon] theorem dev120_eq (c : Dev nD) : (⟨k0_dev120 c, k0_dev120_lt c⟩ : Dev nD) = zN c := by revert c; decide +kernel
@[sl_canon] theorem dev121_eq (c : Dev nD) : (⟨k0_dev121 c, k0_dev121_lt c⟩ : Dev nD) = zN c := by revert c; decide +kernel
@[sl_canon] theorem dev122_eq (c : Dev nD) : (⟨k0_dev122 c, k0_dev122_lt c⟩ : Dev nD) = zN c := by revert c; decide +kernel
@[sl_canon] theorem dev123_eq (c : Dev nD) : (⟨k0_dev123 c, k0_dev123_lt c⟩ : Dev nD) = zN c := by revert c; decide +kernel
@[sl_canon] theorem dev124_eq (c : Dev nD) : (⟨k0_dev124 c, k0_dev124_lt c⟩ : Dev nD) = zN c := by revert c; decide +kernel
@[sl_canon] theorem dev125_eq (c : Dev nD) : (⟨k0_dev125 c, k0_dev125_lt c⟩ : Dev nD) = zN c := by revert c; decide +kernel
@[sl_canon] theorem dev126_eq (c : Dev nD) : (⟨k0_dev126 c, k0_dev126_lt c⟩ : Dev nD) = zN c := by revert c; decide +kernel
@[sl_canon] theorem dev127_eq (c : Dev nD) : (⟨k0_dev127 c, k0_dev127_lt c⟩ : Dev nD) = zN c := by revert c; decide +kernel
@[sl_canon] theorem dev128_eq (c : Dev nD) : (⟨k0_dev128 c, k0_dev128_lt c⟩ : Dev nD) = zN c := by revert c; decide +kernel
@[sl_canon] theorem dev129_eq (c : Dev nD) : (⟨k0_dev129 c, k0_dev129_lt c⟩ : Dev nD) = zN c := by revert c; decide +kernel
@[sl_canon] theorem dev130_eq (c : Dev nD) : (⟨k0_dev130 c, k0_dev130_lt c⟩ : Dev nD) = zN c := by revert c; decide +kernel
@[sl_canon] theorem dev131_eq (c : Dev nD) : (⟨k0_dev131 c, k0_dev131_lt c⟩ : Dev nD) = zN c := by revert c; decide +kernel

def base1 (c : Dev nD) : Nat := 2048 * (c.val / 8) + 1024 * (c.val % 2)
def base3 (c : Dev nD) : Nat := 2048 * (c.val / 8) + 1024 * (1 - c.val % 2)
def base4 (c : Dev nD) : Nat := 2048 * (1 - c.val / 8) + 1024 * (c.val % 2)
def base5 (c : Dev nD) : Nat := 2048 * (1 - c.val / 8) + 1024 * (1 - c.val % 2)

-- A chain that at every device, block and coordinate gives a quarter's first row plus the block's 32·r is that row offset.
theorem off_ext (f : Dev nD → BitVec 32 → Fin 2 → Nat) (b : Dev nD → Nat)
    (h : ∀ (c : Dev nD) (r : Fin 32) (a : Fin 2), f c (BitVec.ofNat 32 (32 * r.val)) a = (![b c + 32 * r.val, 0] : Fin 2 → Nat) a)
    (c : Dev nD) (r : Fin 32) : f c (BitVec.ofNat 32 (32 * r.val)) = ![b c + 32 * r.val, 0] := funext (h c r)

theorem off1_eq (c : Dev nD) (r : Fin 32) : k0_off1 c (BitVec.ofNat 32 (32 * r.val)) = ![base1 c + 32 * r.val, 0] :=
  off_ext k0_off1 base1 (by decide +kernel) c r
theorem off2_eq (c : Dev nD) (r : Fin 32) : k0_off2 c (BitVec.ofNat 32 (32 * r.val)) = ![base1 c + 32 * r.val, 0] :=
  off_ext k0_off2 base1 (by decide +kernel) c r
theorem off3_eq (c : Dev nD) (r : Fin 32) : k0_off3 c (BitVec.ofNat 32 (32 * r.val)) = ![base3 c + 32 * r.val, 0] :=
  off_ext k0_off3 base3 (by decide +kernel) c r
theorem off4_eq (c : Dev nD) (r : Fin 32) : k0_off4 c (BitVec.ofNat 32 (32 * r.val)) = ![base4 c + 32 * r.val, 0] :=
  off_ext k0_off4 base4 (by decide +kernel) c r
theorem off5_eq (c : Dev nD) (r : Fin 32) : k0_off5 c (BitVec.ofNat 32 (32 * r.val)) = ![base5 c + 32 * r.val, 0] :=
  off_ext k0_off5 base5 (by decide +kernel) c r

theorem base1_yN (c : Dev nD) : base1 (yN c) = base1 c := by revert c; decide
theorem base1_zN (c : Dev nD) : base1 (zN c) = base3 c := by revert c; decide
theorem base1_xN (c : Dev nD) : base1 (xN c) = base4 c := by revert c; decide
theorem base1_xN_zN (c : Dev nD) : base1 (xN (zN c)) = base5 c := by revert c; decide

def quarter (c : Dev nD) : Fin 4 → Nat := ![base1 c, base3 c, base4 c, base5 c]

theorem quarter_surj (c : Dev nD) (q : Fin 4) : ∃ j : Fin 4, quarter c j = 1024 * q.val := by
  revert q; revert c; decide
theorem quarter_mul (c : Dev nD) (j : Fin 4) : ∃ q : Fin 4, quarter c j = 1024 * q.val := by
  revert j; revert c; decide
theorem quarter_inj (c : Dev nD) (i j : Fin 4) (h : quarter c i = quarter c j) : i = j := by
  revert h; revert j; revert i; revert c; decide

-- The four quarters are the four blocks of 1024 rows, so every row lies in exactly one of them.
theorem row_cover (c : Dev nD) (i : Nat) (hi : i < 4096) :
    ∃! j : Fin 4, quarter c j ≤ i ∧ i < quarter c j + 1024 := by
  obtain ⟨j, hj⟩ := quarter_surj c ⟨i / 1024, by omega⟩
  have hj' : quarter c j = 1024 * (i / 1024) := hj
  refine ⟨j, ⟨by omega, by omega⟩, ?_⟩
  rintro j' ⟨h1, h2⟩
  obtain ⟨q', hq'⟩ := quarter_mul c j'
  apply quarter_inj c
  have hq : q'.val = i / 1024 := by omega
  rw [hq', hj', hq]

/-- info: 'Cert.Kernel.Hand.row_cover' depends on axioms: [propext, Classical.choice, Quot.sound] -/
#guard_msgs in #print axioms row_cover

end Cert.Kernel.Hand

end
-- ==== Proof.HandKernel.Ghost.lean ====
import proofs.«900716_g7700000000000717_dist_ar_v7x_xyz2x2x4_y_m4096_n1024_f32_1_alg».proof.Proof.HandKernel.SchedTab
import proofs.«900716_g7700000000000717_dist_ar_v7x_xyz2x2x4_y_m4096_n1024_f32_1_alg».proof.Proof.HandKernel.Mesh
import proofs.«900716_g7700000000000717_dist_ar_v7x_xyz2x2x4_y_m4096_n1024_f32_1_alg».proof.Proof.Gen.Kernel.Skeleton
import proofs.«900716_g7700000000000717_dist_ar_v7x_xyz2x2x4_y_m4096_n1024_f32_1_alg».proof.Proof.Gen.Kernel.Points

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A device's cells, numbered: its barrier cell, then its 256 own DMA semaphores. -/
abbrev CK : Type := Option (Fin 256)
def csem : CK → SemLoc sig
  | none => .reg barS
  | some j => .dma (dsem (2 + j.val) (by omega))
abbrev kcell (ck : Dev nD × CK) : GSem nD τ sig := ((ck.1 : Thread nD τ), csem ck.2)
abbrev osem : Fin 256 → SemLoc sig := fun j => .dma (dsem (2 + j.val) (by omega))

/-- What every device knows: each cell's invariant under its name, and round 0 of each cell reached. -/
def records (K : Dev nD × CK → ℕ) : sProp 𝕄 :=
  iprop((bigSep Finset.univ fun ck : Dev nD × CK => cellInv ER (Rd m) (K ck) (kcell ck))
    ∗ bigSep Finset.univ fun ck : Dev nD × CK => reached ER (kcell ck) 0)

def ownPos (c : Dev nD) : sProp 𝕄 := bigSep Finset.univ fun k : CK => atPos ER (kcell (c, k)) 0 ∅ 0

/-- The tokens of the duties device c pays: a unit on each neighbour's barrier cell, and both ends of every transfer it sends. -/
def payToks (c : Dev nD) : sProp 𝕄 :=
  iprop(dutyTok ER (barCell (yN c)) 0 (0 : Fin 3) ∗ dutyTok ER (barCell (xN c)) 0 (1 : Fin 3) ∗ dutyTok ER (barCell (zN c)) 0 (2 : Fin 3)
    ∗ (bigSep Finset.univ fun i : Fin 32 => iprop(dutyTok ER (ysendC c i) 0 (0 : Fin 3) ∗ dutyTok ER (yrecvC (yN c) i) 0 (0 : Fin 3)))
    ∗ (bigSep Finset.univ fun j : Fin 48 => dutyTok ER (xsendC c j) 0 (0 : Fin 3))
    ∗ (bigSep Finset.univ fun i : Fin 32 => dutyTok ER (xrecvSC (xN c) i) 0 (0 : Fin 3))
    ∗ (bigSep Finset.univ fun i : Fin 16 => dutyTok ER (xrecvDC (xN c) i) 0 (0 : Fin 3))
    ∗ (bigSep Finset.univ fun j : Fin 48 => dutyTok ER (zsendC c j) 0 (0 : Fin 3))
    ∗ (bigSep Finset.univ fun i : Fin 32 => dutyTok ER (zrecvSC (zN c) i) 0 (0 : Fin 3))
    ∗ (bigSep Finset.univ fun i : Fin 16 => dutyTok ER (zrecvDC (zN c) i) 0 (0 : Fin 3)))

/-- What is owed to device c: three units on its barrier cell and one chunk on each of its 128 arrival cells. -/
def ownCred (c : Dev nD) : sProp 𝕄 :=
  iprop(cred (tallyAt (barCell c) () 3)
    ∗ (bigSep Finset.univ fun i : Fin 32 => cred (tallyAt (yrecvC c i) () N))
    ∗ (bigSep Finset.univ fun i : Fin 32 => cred (tallyAt (xrecvSC c i) () N))
    ∗ (bigSep Finset.univ fun i : Fin 16 => cred (tallyAt (xrecvDC c i) () N))
    ∗ (bigSep Finset.univ fun i : Fin 32 => cred (tallyAt (zrecvSC c i) () N))
    ∗ (bigSep Finset.univ fun i : Fin 16 => cred (tallyAt (zrecvDC c i) () N)))

def ghost (K : Dev nD × CK → ℕ) (c : Dev nD) : sProp 𝕄 := iprop(records m K ∗ ownPos c ∗ payToks c)

def start (c : Dev nD) : sProp 𝕄 := iprop((∃ K, ghost m K c) ∗ ownCred c ∗ levAts L lv)

/-- The five landing buffers of device c, each whole at some contents. -/
def landing (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f))

def Φ₀ (c : Dev nD) : sProp 𝕄 := iprop(start m c ∗ landing c)
def Φ₁ (c : Dev nD) : sProp 𝕄 := iprop(landing c ∗ bigSep Finset.univ fun j : Fin 256 => semVal ((c : Thread nD τ), osem j) 0)

/-- The quarter a row lies in (own, z partner's, x neighbour's, the device's across both) and the device it came through. -/
def qOf (c : Dev nD) (r : Nat) : Fin 4 :=
  if base1 c ≤ r ∧ r < base1 c + 1024 then 0
  else if base3 c ≤ r ∧ r < base3 c + 1024 then 1
  else if base4 c ≤ r ∧ r < base4 c + 1024 then 2
  else 3
def via (c : Dev nD) : Fin 4 → Dev nD := ![c, zN c, xN c, xN (zN c)]

/-- What device c receives of the other y half, and the result: its block plus that, entry by entry. -/
def other (c : Dev nD) : (cc0_stg0_0 : Ref sig .tc).ty.Contents (Elt F) :=
  fun idx => Xs m (yN (via c (qOf c (idx 0).val))) idx

def outAt (c : Dev nD) : (cc0_stg1_0 : Ref sig .tc).ty.Contents (Elt F) :=
  addf (F := F) (s := S4096x1024) (φ := .f32) (Xs m c) (other m c)

abbrev 𝒱₀ : Variants := Variants.none

def t₀ : Fin cfg0.N := ⟨0, by decide⟩
theorem fin_N (t : Fin cfg0.N) : t = t₀ := by
  obtain ⟨t, ht⟩ := t; have : cfg0.N = 1 := by decide
  exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => Xs m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

end Cert.Kernel.Hand

end
-- ==== Proof.HandKernel.Unpack.lean ====
import proofs.«900716_g7700000000000717_dist_ar_v7x_xyz2x2x4_y_m4096_n1024_f32_1_alg».proof.Proof.HandKernel.Ghost

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section
omit [FloatOps F]

theorem sep_eq {A A' B B' : sProp 𝕄} (h₁ : A = A') (h₂ : B = B') : iprop(A ∗ B) = iprop(A' ∗ B') := by rw [h₁, h₂]

theorem bigSep_fin_add (a b : ℕ) (Φ : Fin (a + b) → sProp 𝕄) :
    bigSep Finset.univ Φ
      = iprop((bigSep Finset.univ fun i : Fin a => Φ (Fin.castAdd b i)) ∗ bigSep Finset.univ fun j : Fin b => Φ (Fin.natAdd a j)) := by
  rw [bigSep_univ_equiv finSumFinEquiv Φ, bigSep_univ_sum]; rfl

theorem bigSep_option {α : Type} [Fintype α] [DecidableEq α] (Φ : Option α → sProp 𝕄) :
    bigSep Finset.univ Φ = iprop(Φ none ∗ bigSep Finset.univ fun a => Φ (some a)) := by
  have h : (Finset.univ : Finset (Option α)).erase none = Finset.univ.map Function.Embedding.some := by
    ext x
    rw [Finset.mem_erase, Finset.mem_map]
    cases x with
    | none => simp
    | some a => simp
  rw [bigSep_univ_split none, h, bigSep_map]; rfl

theorem kcell_some (c : Dev nD) (j : Fin 256) (k : ℕ) (hk : k < 258) (e : 2 + j.val = k) : kcell (c, some j) = dcell c k hk := by
  subst e; rfl

theorem dma_fam (c : Dev nD) (P : GSem nD τ sig → sProp 𝕄) :
    (bigSep Finset.univ fun j : Fin 256 => P (kcell (c, some j)))
      = iprop((bigSep Finset.univ fun i : Fin 32 => P (ysendC c i)) ∗ (bigSep Finset.univ fun i : Fin 32 => P (yrecvC c i))
        ∗ (bigSep Finset.univ fun j : Fin 48 => P (xsendC c j)) ∗ (bigSep Finset.univ fun i : Fin 32 => P (xrecvSC c i))
        ∗ (bigSep Finset.univ fun i : Fin 16 => P (xrecvDC c i)) ∗ (bigSep Finset.univ fun j : Fin 48 => P (zsendC c j))
        ∗ (bigSep Finset.univ fun i : Fin 32 => P (zrecvSC c i)) ∗ (bigSep Finset.univ fun i : Fin 16 => P (zrecvDC c i))) := by
  let Φ₀ : Fin 256 → sProp 𝕄 := fun j => P (kcell (c, some j))
  let Φ₁ : Fin 224 → sProp 𝕄 := fun j => Φ₀ (Fin.natAdd 32 j)
  let Φ₂ : Fin 192 → sProp 𝕄 := fun j => Φ₁ (Fin.natAdd 32 j)
  let Φ₃ : Fin 144 → sProp 𝕄 := fun j => Φ₂ (Fin.natAdd 48 j)
  let Φ₄ : Fin 112 → sProp 𝕄 := fun j => Φ₃ (Fin.natAdd 32 j)
  let Φ₅ : Fin 96 → sProp 𝕄 := fun j => Φ₄ (Fin.natAdd 16 j)
  let Φ₆ : Fin 48 → sProp 𝕄 := fun j => Φ₅ (Fin.natAdd 48 j)
  have s₀ := bigSep_fin_add 32 224 Φ₀
  have s₁ := bigSep_fin_add 32 192 Φ₁
  have s₂ := bigSep_fin_add 48 144 Φ₂
  have s₃ := bigSep_fin_add 32 112 Φ₃
  have s₄ := bigSep_fin_add 16 96 Φ₄
  have s₅ := bigSep_fin_add 48 48 Φ₅
  have s₆ := bigSep_fin_add 32 16 Φ₆
  refine s₀.trans (sep_eq ?_ (s₁.trans (sep_eq ?_ (s₂.trans (sep_eq ?_ (s₃.trans (sep_eq ?_ (s₄.trans (sep_eq ?_
    (s₅.trans (sep_eq ?_ (s₆.trans (sep_eq ?_ ?_)))))))))))))
  · exact bigSep_congr fun i _ => congrArg P (kcell_some c _ (2 + i.val) _ rfl)
  · exact bigSep_congr fun i _ => congrArg P (kcell_some c _ (34 + i.val) _ (by show 2 + (32 + i.val) = 34 + i.val; omega))
  · exact bigSep_congr fun i _ => congrArg P (kcell_some c _ (66 + i.val) _ (by show 2 + (32 + (32 + i.val)) = 66 + i.val; omega))
  · exact bigSep_congr fun i _ => congrArg P (kcell_some c _ (114 + i.val) _ (by show 2 + (32 + (32 + (48 + i.val))) = 114 + i.val; omega))
  · exact bigSep_congr fun i _ => congrArg P (kcell_some c _ (146 + i.val) _ (by show 2 + (32 + (32 + (48 + (32 + i.val)))) = 146 + i.val; omega))
  · exact bigSep_congr fun i _ => congrArg P (kcell_some c _ (162 + i.val) _ (by show 2 + (32 + (32 + (48 + (32 + (16 + i.val))))) = 162 + i.val; omega))
  · exact bigSep_congr fun i _ => congrArg P (kcell_some c _ (210 + i.val) _ (by show 2 + (32 + (32 + (48 + (32 + (16 + (48 + i.val)))))) = 210 + i.val; omega))
  · exact bigSep_congr fun i _ => congrArg P (kcell_some c _ (242 + i.val) _ (by show 2 + (32 + (32 + (48 + (32 + (16 + (48 + (32 + i.val))))))) = 242 + i.val; omega))

theorem cells_fam (c : Dev nD) (P : GSem nD τ sig → sProp 𝕄) :
    (bigSep Finset.univ fun k : CK => P (kcell (c, k)))
      = iprop(P (barCell c) ∗ (bigSep Finset.univ fun i : Fin 32 => P (ysendC c i)) ∗ (bigSep Finset.univ fun i : Fin 32 => P (yrecvC c i))
        ∗ (bigSep Finset.univ fun j : Fin 48 => P (xsendC c j)) ∗ (bigSep Finset.univ fun i : Fin 32 => P (xrecvSC c i))
        ∗ (bigSep Finset.univ fun i : Fin 16 => P (xrecvDC c i)) ∗ (bigSep Finset.univ fun j : Fin 48 => P (zsendC c j))
        ∗ (bigSep Finset.univ fun i : Fin 32 => P (zrecvSC c i)) ∗ (bigSep Finset.univ fun i : Fin 16 => P (zrecvDC c i))) :=
  (bigSep_option (fun k : CK => P (kcell (c, k)))).trans (sep_eq rfl (dma_fam c P))

theorem ownPos_fam (c : Dev nD) (r : ℕ) :
    (bigSep Finset.univ fun k : CK => atPos ER (kcell (c, k)) r ∅ 0 : sProp 𝕄)
      ⊣⊢ iprop(atPos ER (barCell c) r ∅ 0 ∗ (bigSep Finset.univ fun i : Fin 32 => atPos ER (ysendC c i) r ∅ 0)
        ∗ (bigSep Finset.univ fun i : Fin 32 => atPos ER (yrecvC c i) r ∅ 0) ∗ (bigSep Finset.univ fun j : Fin 48 => atPos ER (xsendC c j) r ∅ 0)
        ∗ (bigSep Finset.univ fun i : Fin 32 => atPos ER (xrecvSC c i) r ∅ 0) ∗ (bigSep Finset.univ fun i : Fin 16 => atPos ER (xrecvDC c i) r ∅ 0)
        ∗ (bigSep Finset.univ fun j : Fin 48 => atPos ER (zsendC c j) r ∅ 0) ∗ (bigSep Finset.univ fun i : Fin 32 => atPos ER (zrecvSC c i) r ∅ 0)
        ∗ (bigSep Finset.univ fun i : Fin 16 => atPos ER (zrecvDC c i) r ∅ 0)) :=
  BIBase.BiEntails.of_eq (cells_fam c fun g => atPos ER g r ∅ 0)

theorem ownDma_fam (c : Dev nD) (r : ℕ) :
    (bigSep Finset.univ fun j : Fin 256 => atPos ER (kcell (c, some j)) r ∅ 0 : sProp 𝕄)
      ⊣⊢ iprop((bigSep Finset.univ fun i : Fin 32 => atPos ER (ysendC c i) r ∅ 0)
        ∗ (bigSep Finset.univ fun i : Fin 32 => atPos ER (yrecvC c i) r ∅ 0) ∗ (bigSep Finset.univ fun j : Fin 48 => atPos ER (xsendC c j) r ∅ 0)
        ∗ (bigSep Finset.univ fun i : Fin 32 => atPos ER (xrecvSC c i) r ∅ 0) ∗ (bigSep Finset.univ fun i : Fin 16 => atPos ER (xrecvDC c i) r ∅ 0)
        ∗ (bigSep Finset.univ fun j : Fin 48 => atPos ER (zsendC c j) r ∅ 0) ∗ (bigSep Finset.univ fun i : Fin 32 => atPos ER (zrecvSC c i) r ∅ 0)
        ∗ (bigSep Finset.univ fun i : Fin 16 => atPos ER (zrecvDC c i) r ∅ 0)) :=
  BIBase.BiEntails.of_eq (dma_fam c fun g => atPos ER g r ∅ 0)

theorem inv_at (K : Dev nD × CK → ℕ) (ck : Dev nD × CK) : records m K ⊢ cellInv ER (Rd m) (K ck) (kcell ck) := by
  unfold records
  exact (Idealize.SL.BI.sep_and.trans Idealize.SL.BI.and_elimL).trans (bigSep_elim (Finset.mem_univ ck))
theorem reached_at (K : Dev nD × CK → ℕ) (ck : Dev nD × CK) : records m K ⊢ reached ER (kcell ck) 0 := by
  unfold records
  exact (Idealize.SL.BI.sep_and.trans Idealize.SL.BI.and_elimR).trans (bigSep_elim (Finset.mem_univ ck))

theorem inv_dma (K : Dev nD × CK → ℕ) (c : Dev nD) (j : Fin 256) (k : ℕ) (hk : k < 258) (e : 2 + j.val = k) :
    records m K ⊢ cellInv ER (Rd m) (K (c, some j)) (dcell c k hk) := by
  rw [← kcell_some c j k hk e]; exact inv_at m K (c, some j)
theorem reached_dma (K : Dev nD × CK → ℕ) (c : Dev nD) (j : Fin 256) (k : ℕ) (hk : k < 258) (e : 2 + j.val = k) :
    records m K ⊢ reached ER (dcell c k hk) 0 := by
  rw [← kcell_some c j k hk e]; exact reached_at m K (c, some j)

theorem inv_bar (K : Dev nD × CK → ℕ) (c : Dev nD) : records m K ⊢ cellInv ER (Rd m) (K (c, none)) (barCell c) :=
  inv_at m K (c, none)
theorem inv_ysend (K : Dev nD × CK → ℕ) (c : Dev nD) (i : Fin 32) :
    records m K ⊢ cellInv ER (Rd m) (K (c, some ⟨0 + i.val, by omega⟩)) (ysendC c i) :=
  inv_dma m K c ⟨0 + i.val, by omega⟩ (2 + i.val) (by omega) (by show 2 + (0 + i.val) = 2 + i.val; omega)
theorem inv_yrecv (K : Dev nD × CK → ℕ) (c : Dev nD) (i : Fin 32) :
    records m K ⊢ cellInv ER (Rd m) (K (c, some ⟨32 + i.val, by omega⟩)) (yrecvC c i) :=
  inv_dma m K c ⟨32 + i.val, by omega⟩ (34 + i.val) (by omega) (by show 2 + (32 + i.val) = 34 + i.val; omega)
theorem inv_xsend (K : Dev nD × CK → ℕ) (c : Dev nD) (j : Fin 48) :
    records m K ⊢ cellInv ER (Rd m) (K (c, some ⟨64 + j.val, by omega⟩)) (xsendC c j) :=
  inv_dma m K c ⟨64 + j.val, by omega⟩ (66 + j.val) (by omega) (by show 2 + (64 + j.val) = 66 + j.val; omega)
theorem inv_xrecvS (K : Dev nD × CK → ℕ) (c : Dev nD) (i : Fin 32) :
    records m K ⊢ cellInv ER (Rd m) (K (c, some ⟨112 + i.val, by omega⟩)) (xrecvSC c i) :=
  inv_dma m K c ⟨112 + i.val, by omega⟩ (114 + i.val) (by omega) (by show 2 + (112 + i.val) = 114 + i.val; omega)
theorem inv_xrecvD (K : Dev nD × CK → ℕ) (c : Dev nD) (i : Fin 16) :
    records m K ⊢ cellInv ER (Rd m) (K (c, some ⟨144 + i.val, by omega⟩)) (xrecvDC c i) :=
  inv_dma m K c ⟨144 + i.val, by omega⟩ (146 + i.val) (by omega) (by show 2 + (144 + i.val) = 146 + i.val; omega)
theorem inv_zsend (K : Dev nD × CK → ℕ) (c : Dev nD) (j : Fin 48) :
    records m K ⊢ cellInv ER (Rd m) (K (c, some ⟨160 + j.val, by omega⟩)) (zsendC c j) :=
  inv_dma m K c ⟨160 + j.val, by omega⟩ (162 + j.val) (by omega) (by show 2 + (160 + j.val) = 162 + j.val; omega)
theorem inv_zrecvS (K : Dev nD × CK → ℕ) (c : Dev nD) (i : Fin 32) :
    records m K ⊢ cellInv ER (Rd m) (K (c, some ⟨208 + i.val, by omega⟩)) (zrecvSC c i) :=
  inv_dma m K c ⟨208 + i.val, by omega⟩ (210 + i.val) (by omega) (by show 2 + (208 + i.val) = 210 + i.val; omega)
theorem inv_zrecvD (K : Dev nD × CK → ℕ) (c : Dev nD) (i : Fin 16) :
    records m K ⊢ cellInv ER (Rd m) (K (c, some ⟨240 + i.val, by omega⟩)) (zrecvDC c i) :=
  inv_dma m K c ⟨240 + i.val, by omega⟩ (242 + i.val) (by omega) (by show 2 + (240 + i.val) = 242 + i.val; omega)

theorem reached_bar (K : Dev nD × CK → ℕ) (c : Dev nD) : records m K ⊢ reached ER (barCell c) 0 :=
  reached_at m K (c, none)

theorem bigSep_fin16 (Φ : Fin 16 → sProp 𝕄) :
    bigSep Finset.univ Φ
      = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

theorem bigSep_fin32 (Φ : Fin 32 → sProp 𝕄) :
    bigSep Finset.univ Φ
      = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15
        ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31) :=
  bigSep_univ_eq_bigSepL [0, 1, 2, 3, 4, 5, 6, 7, 8, 9, 10, 11, 12, 13, 14, 15, 16, 17, 18, 19, 20, 21, 22, 23, 24, 25, 26, 27, 28, 29, 30, 31]
    (by decide) (by decide) Φ

theorem bigSep_fin48 (Φ : Fin 48 → sProp 𝕄) :
    bigSep Finset.univ Φ
      = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15
        ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31
        ∗ Φ 32 ∗ Φ 33 ∗ Φ 34 ∗ Φ 35 ∗ Φ 36 ∗ Φ 37 ∗ Φ 38 ∗ Φ 39 ∗ Φ 40 ∗ Φ 41 ∗ Φ 42 ∗ Φ 43 ∗ Φ 44 ∗ Φ 45 ∗ Φ 46 ∗ Φ 47) :=
  bigSep_univ_eq_bigSepL [0, 1, 2, 3, 4, 5, 6, 7, 8, 9, 10, 11, 12, 13, 14, 15, 16, 17, 18, 19, 20, 21, 22, 23, 24, 25, 26, 27, 28, 29, 30, 31,
      32, 33, 34, 35, 36, 37, 38, 39, 40, 41, 42, 43, 44, 45, 46, 47]
    (by decide) (by decide) Φ

end

instance records_persistent (K : Dev nD × CK → ℕ) : BI.Persistent (records m K) := by unfold records; infer_instance

-- What follows from the records for every index follows for all indices at once: the records can be copied.
theorem rec_fam {n : ℕ} (K : Dev nD × CK → ℕ) (Φ : Fin n → sProp 𝕄) (h : ∀ i, records m K ⊢ Φ i) :
    records m K ⊢ bigSep Finset.univ Φ :=
  (bigSep_of_persistent Finset.univ (records m K)).trans (bigSep_mono fun i _ => h i)

/-- info: 'Cert.Kernel.Hand.rec_fam' depends on axioms: [propext, Classical.choice, Quot.sound] -/
#guard_msgs in #print axioms rec_fam

end Cert.Kernel.Hand

end
-- ==== Proof.HandKernel.Launch.lean ====
import proofs.«900716_g7700000000000717_dist_ar_v7x_xyz2x2x4_y_m4096_n1024_f32_1_alg».proof.Proof.HandKernel.Unpack

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem osem_injective : Function.Injective osem := fun k k' h => by
  have h2 : 2 + k.val = 2 + k'.val := congrArg Fin.val (SemLoc.dma.inj h)
  exact Fin.ext (by omega)

theorem csem_injective : Function.Injective csem := by
  rintro (_|k) (_|k') h <;> first | rfl | cases h | exact congrArg some (osem_injective h)

theorem kcell_injective : Function.Injective (kcell : Dev nD × CK → GSem nD τ sig) := by
  rintro ⟨c, k⟩ ⟨c', k'⟩ h
  obtain rfl : c = c' := congrArg (fun g : GSem nD τ sig => g.1.1) h
  rw [csem_injective (show csem k = csem k' from congrArg Prod.snd h)]

theorem ownSemFacts : Pipeline.OwnSemFacts cfg0.spec osem where
  isScoped := by decide
  inj := osem_injective
  disj := fun k w s h => by
    have h2 : 2 + k.val = ((cfg0.spec w).sem s).val := congrArg Fin.val (SemLoc.dma.inj h)
    have := (by decide : ∀ (w : Fin cfg0.W) (s : Fin (cfg0.spec w).nbuf), ((cfg0.spec w).sem s).val < 2) w s
    omega

omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [unscopedSems0_eq, bigSep_option]
  exact sep_comm.1

def ringCells : Finset (GSem nD τ sig) := Finset.univ.map ⟨kcell, kcell_injective⟩

/-- A device's duties as minted: the three on its barrier cell, then one on each of its 256 own cells. -/
def tokOf (cj : Dev nD × (Fin 3 ⊕ Fin 256)) : GSem nD τ sig × ℕ × Fin 3 :=
  (kcell (cj.1, cj.2.elim (fun _ => none) some), 0, cj.2.elim id fun _ => 0)

theorem tokOf_injective : Function.Injective tokOf := by
  rintro ⟨c, j⟩ ⟨c', j'⟩ h
  have hk := Prod.mk.inj (kcell_injective (congrArg Prod.fst h))
  have hd := congrArg (fun x : GSem nD τ sig × ℕ × Fin 3 => x.2.2) h
  obtain rfl : c = c' := hk.1
  rcases j with d|k <;> rcases j' with d'|k' <;> cases hk.2 <;> first | rfl | exact (show d = d' from hd) ▸ rfl

def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

/-- The duty tokens of a device's own cells. -/
def toks (c : Dev nD) : sProp 𝕄 :=
  iprop((bigSep Finset.univ fun d : Fin 3 => dutyTok ER (barCell c) 0 d)
    ∗ bigSep Finset.univ fun k : Fin 256 => dutyTok ER (kcell (c, some k)) 0 (0 : Fin 3))

/-- What a device holds of its own cells, with P at each cell: its positions, round 0 reached, its cells' tokens. -/
def Gq (P : GSem nD τ sig → sProp 𝕄) (c : Dev nD) : sProp 𝕄 :=
  iprop((bigSep Finset.univ fun k : CK => P (kcell (c, k))) ∗ ownPos c
    ∗ (bigSep Finset.univ fun k : CK => reached ER (kcell (c, k)) 0) ∗ toks c)

abbrev G : Dev nD → sProp 𝕄 := Gq fun g => roundState ER (Rd m) g 0
abbrev G₁ : Dev nD → sProp 𝕄 := Gq fun g => iprop(∃ κ : ℕ, cellInv ER (Rd m) κ g)

def G' (c : Dev nD) : sProp 𝕄 := iprop(∃ K, ghost m K c)

omit [FloatOps F] in
/-- The launch element deals every device the round state, position, reached round 0 and tokens of its own cells. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => bigSep_univ_sum _
  have h := Rounds.fund ER (Rd m) ringCells ringToks
  simp only [hX, hT] at h
  unfold G Gq ownPos; simp only [bigSep_sep']
  iintro HX
  imod h $$ HX with ⟨Hst, Hr, Hat, Htok⟩
  imodintro
  iframe

omit [FloatOps F] in
/-- A device's cells at zero with their round states become the cells' invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> G₁ m c := by
  unfold G G₁ Gq
  iintro ⟨Hos, Hus, Hst, Hrest⟩
  ihave Hv := (sems0_eq (F := F) c) $$ [Hos Hus]
  · iframe
  imod (show iprop((bigSep Finset.univ fun k : CK => semVal (kcell (c, k)) 0) ∗ bigSep Finset.univ fun k : CK => roundState ER (Rd m) (kcell (c, k)) 0)
      ⊢ (|={Set.univ}=> bigSep Finset.univ fun k : CK => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · iframe
  imodintro
  iframe

abbrev yE : Dev nD ≃ Dev nD := ⟨yN, yN, yN_yN, yN_yN⟩
abbrev xE : Dev nD ≃ Dev nD := ⟨xN, xN, xN_xN, xN_xN⟩
abbrev zE : Dev nD ≃ Dev nD := ⟨zN, zN, zN_zN, zN_zN⟩

omit [FloatOps F] in
/-- Each token goes to the device that pays its duty: along the involutions yN, xN, zN the conjunction over all devices is the same. -/
theorem toks_around : (bigSep Finset.univ fun c : Dev nD => (toks c : sProp 𝕄)) ⊢ bigSep Finset.univ fun c : Dev nD => payToks c := by
  unfold toks payToks
  simp only [fun c => dma_fam c fun g => (dutyTok ER g 0 (0 : Fin 3) : sProp 𝕄), bigSep_fin3, bigSep_sep']
  rw [bigSep_univ_equiv yE (fun c : Dev nD => (dutyTok ER (barCell c) 0 (0 : Fin 3) : sProp 𝕄)),
    bigSep_univ_equiv xE (fun c : Dev nD => (dutyTok ER (barCell c) 0 (1 : Fin 3) : sProp 𝕄)),
    bigSep_univ_equiv zE (fun c : Dev nD => (dutyTok ER (barCell c) 0 (2 : Fin 3) : sProp 𝕄)),
    bigSep_univ_equiv yE (fun c : Dev nD => (bigSep Finset.univ fun i : Fin 32 => dutyTok ER (yrecvC c i) 0 (0 : Fin 3) : sProp 𝕄)),
    bigSep_univ_equiv xE (fun c : Dev nD => (bigSep Finset.univ fun i : Fin 32 => dutyTok ER (xrecvSC c i) 0 (0 : Fin 3) : sProp 𝕄)),
    bigSep_univ_equiv xE (fun c : Dev nD => (bigSep Finset.univ fun i : Fin 16 => dutyTok ER (xrecvDC c i) 0 (0 : Fin 3) : sProp 𝕄)),
    bigSep_univ_equiv zE (fun c : Dev nD => (bigSep Finset.univ fun i : Fin 32 => dutyTok ER (zrecvSC c i) 0 (0 : Fin 3) : sProp 𝕄)),
    bigSep_univ_equiv zE (fun c : Dev nD => (bigSep Finset.univ fun i : Fin 16 => dutyTok ER (zrecvDC c i) 0 (0 : Fin 3) : sProp 𝕄))]
  iintro ⟨⟨H0, H1, H2⟩, HyS, HyR, HxS, HxRS, HxRD, HzS, HzRS, HzRD⟩
  iframe

omit [FloatOps F] in
/-- The invariants' names gathered into one function, every device holds the records, its positions and the tokens it pays. -/
theorem regroup : (bigSep Finset.univ (G₁ m) : sProp 𝕄) ⊢ bigSep Finset.univ (G' m) := by
  unfold G₁ Gq
  rw [bigSep_sep', bigSep_sep', bigSep_sep', ← bigSep_univ_prod (fun ck : Dev nD × CK => iprop(∃ κ : ℕ, cellInv ER (Rd m) κ (kcell ck))),
    ← bigSep_univ_prod (fun ck : Dev nD × CK => (reached ER (kcell ck) 0 : sProp 𝕄))]
  iintro ⟨HI, Hat, #HR, Htok⟩
  ihave HK := (BI.bigSep_exists_pi Finset.univ (fun (ck : Dev nD × CK) (κ : ℕ) => (cellInv ER (Rd m) κ (kcell ck) : sProp 𝕄))) $$ HI
  icases HK with ⟨%K, #HI⟩
  ihave Htk := (toks_around (F := F)) $$ Htok
  iapply (bigSep_with_persistent (R := records m K) fun c _ => exists_intro (Φ := fun K => ghost m K c) K)
  isplitr
  · unfold records; isplitl; · iexact HI
    iexact HR
  · iapply (Entails.of_eq (bigSep_sep' Finset.univ (fun c : Dev nD => (ownPos c : sProp 𝕄)) payToks).symm)
    iframe

omit [FloatOps F] in
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- The arrival cells of one device, family by family, in the order of ownCred. -/
abbrev FJ : Type := Fin 32 ⊕ (Fin 32 ⊕ (Fin 16 ⊕ (Fin 32 ⊕ Fin 16)))

/-- An arrival cell's place among the 128 transfers. -/
def fam : FJ → Fin 128
  | .inl i => ⟨i.val, by omega⟩
  | .inr (.inl i) => ⟨32 + 2 * i.val, by omega⟩
  | .inr (.inr (.inl i)) => ⟨96 + i.val, by omega⟩
  | .inr (.inr (.inr (.inl i))) => ⟨33 + 2 * i.val, by omega⟩
  | .inr (.inr (.inr (.inr i))) => ⟨112 + i.val, by omega⟩

theorem fam_injective : Function.Injective fam := by
  intro a b h
  have h' := congrArg Fin.val h
  rcases a with a|a|a|a|a <;> rcases b with b|b|b|b|b <;> simp only [fam] at h' <;>
    first
    | (exfalso; omega)
    | (have e : a = b := Fin.ext (by omega); subst e; rfl)

def famE : FJ ≃ Fin 128 :=
  Equiv.ofBijective fam ((Fintype.bijective_iff_injective_and_card fam).mpr ⟨fam_injective, by simp⟩)

def nbrOf : FJ → Dev nD → Dev nD
  | .inl _ => yN
  | .inr (.inl _) => xN
  | .inr (.inr (.inl _)) => xN
  | .inr (.inr (.inr (.inl _))) => zN
  | .inr (.inr (.inr (.inr _))) => zN
def semOfF : FJ → SemLoc sig
  | .inl i => .dma (dsem (34 + i.val) (by omega))
  | .inr (.inl i) => .dma (dsem (114 + i.val) (by omega))
  | .inr (.inr (.inl i)) => .dma (dsem (146 + i.val) (by omega))
  | .inr (.inr (.inr (.inl i))) => .dma (dsem (210 + i.val) (by omega))
  | .inr (.inr (.inr (.inr i))) => .dma (dsem (242 + i.val) (by omega))

theorem nbrOf_invol (a : FJ) (c : Dev nD) : nbrOf a (nbrOf a c) = c := by
  rcases a with a|a|a|a|a <;> first | exact yN_yN c | exact xN_xN c | exact zN_zN c

theorem arrive_fam (a : FJ) (d : Dev nD) : arrive d (fam a) = (((nbrOf a d).tc : Thread nD τ), semOfF a) := by
  rcases a with a|a|a|a|a
  · exact arrive_y d a
  · exact arrive_xs d a
  · exact arrive_xd d a
  · exact arrive_zs d a
  · exact arrive_zd d a

omit [FloatOps F] in
/-- Each arrival cell of a device is owed one chunk's credit by exactly one device, the neighbour the chunk comes from. -/
theorem creds_arrive (c : Dev nD) :
    (Pipeline.launchCred (fun d => Orem d 0) c : sProp 𝕄) ⊢ bigSep Finset.univ fun a : FJ => cred (tallyAt ((c.tc : Thread nD τ), semOfF a) () N) := by
  have h0 : (fun d : Dev nD => Orem d 0) = fun d => ∑ j ∈ (Finset.univ : Finset (Fin 128)), tallyAt (arrive d j) () N :=
    funext fun d => by unfold Orem; rw [Finset.filter_true_of_mem (fun j _ => Nat.zero_le _)]
  rw [h0, Pipeline.launchCred_sum, bigSep_univ_equiv famE]
  refine bigSep_mono fun a _ => ?_
  show (Pipeline.launchCred (fun d => tallyAt (arrive d (fam a)) () N) c : sProp 𝕄) ⊢ _
  rw [show (fun d : Dev nD => tallyAt (arrive d (fam a)) () N) = fun d => tallyAt (((nbrOf a d).tc : Thread nD τ), semOfF a) () N from
    funext fun d => by rw [arrive_fam]]
  exact Pipeline.launchCred_tallyAt (semOfF a) (nbrOf a) (nbrOf a) (nbrOf_invol a) (nbrOf_invol a) () N c

omit [FloatOps F] in
/-- The launch credit of a device: three units on its barrier cell and one chunk on each arrival cell. -/
theorem creds (c : Dev nD) : (Pipeline.launchCred O₀ c : sProp 𝕄) ⊢ ownCred c := by
  have hO : (O₀ : Dev nD → CellTallies nD τ sig Unit)
      = fun d => Orem d 0 + tallyAt (barCell (zN d)) () 1 + tallyAt (barCell (xN d)) () 1 + tallyAt (barCell (yN d)) () 1 := rfl
  have e3 : tallyAt (barCell c) () 1 + tallyAt (barCell c) () 1 + tallyAt (barCell c) () 1 = (tallyAt (barCell c) () 3 : CellTallies nD τ sig Unit) := by
    rw [tallyAt_add, tallyAt_add]
  rw [hO, Pipeline.launchCred_add, Pipeline.launchCred_add, Pipeline.launchCred_add]
  iintro ⟨⟨⟨Ho, Hz⟩, Hx⟩, Hy⟩
  ihave Hz' := (Pipeline.launchCred_tallyAt (.reg barS) zN zN zN_zN zN_zN () 1 c) $$ Hz
  ihave Hx' := (Pipeline.launchCred_tallyAt (.reg barS) xN xN xN_xN xN_xN () 1 c) $$ Hx
  ihave Hy' := (Pipeline.launchCred_tallyAt (.reg barS) yN yN yN_yN yN_yN () 1 c) $$ Hy
  have hA := creds_arrive (F := F) c
  simp only [bigSep_univ_sum] at hA
  change _ ⊢ iprop(_ ∗ _ ∗ _ ∗ _ ∗ _) at hA
  ihave Hoa := hA $$ Ho
  unfold ownCred
  isplitl [Hz' Hx' Hy']
  · rw [← e3]
    iapply (cred_add _ _).2
    isplitl [Hz' Hx']
    · iapply (cred_add _ _).2
      iframe
    · iexact Hy'
  · iexact Hoa

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem share_eq (c : Dev nD) (w : Fin cfg0.W) : (dats m ρ 0 c).share w = fullShare := by unfold Dat.share; split <;> rfl

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  iframe

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ landing
  iintro ⟨Hs, -, Hr⟩
  iframe

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq]
  unfold Φ₁ landing Pipeline.ownSems0
  iintro ⟨Hr, Hz⟩
  iframe

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
theorem run_main (hbody : ∀ c, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      iframe)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

theorem finalA_x (c : Dev nD) : finalA m ρ c (0 : Fin 2) = (s₀ m ρ).mem (win0_0.arr.view.loc (c : Thread nD τ)) :=
  (dats (F := F) m ρ 0 c).arrAt_in (0 : Fin 2) rfl _

theorem finalA_out (c : Dev nD) : finalA m ρ c (1 : Fin 2) = outAt m c := by
  unfold finalA
  show (dats m ρ 0 c).arrAt (1 : Fin 2) ((t₀ : Fin cfg0.N).val + 1) = _
  rw [Dat.arrAt_succ, if_pos (by decide)]
  exact Memref.write_access_unit_zero_univ (Elt F) main_v1 (funext fun a => Nat.zero_mul _) _ _ _

/-- info: 'Cert.Kernel.Hand.run_main' depends on axioms: [propext, Classical.choice, Quot.sound] -/
#guard_msgs in #print axioms run_main

/-- info: 'Cert.Kernel.Hand.finalA_out' depends on axioms: [propext, Classical.choice, Quot.sound] -/
#guard_msgs in #print axioms finalA_out

end Cert.Kernel.Hand

end
-- ==== Proof.HandKernel.Pieces.lean ====
import proofs.«900716_g7700000000000717_dist_ar_v7x_xyz2x2x4_y_m4096_n1024_f32_1_alg».proof.Proof.HandKernel.Sched
import proofs.«900716_g7700000000000717_dist_ar_v7x_xyz2x2x4_y_m4096_n1024_f32_1_alg».proof.Proof.HandKernel.Mesh

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem read_landed (v : Memref sig .tc .vmem S32x1024 .f32) (c : Dev nD)
    (J : Buf (Elt F) (v.view.loc (c : Thread nD τ))) (V : S32x1024.Idx → Elt F .f32) :
    v.view.read (Elt F) (v.view.write (Elt F) J V Finset.univ) = V :=
  View.read_write_univ (v := v.view) J V

theorem chunk_landed (v : Memref sig .tc .vmem S32x1024 .f32) (c : Dev nD)
    (fd J : Buf (Elt F) (v.view.loc (c : Thread nD τ))) (V : S32x1024.Idx → Elt F .f32) :
    (chunkAt c v fullShare (v.view.write (Elt F) fd V Finset.univ) : sProp 𝕄)
      = chunkAt c v fullShare (v.view.write (Elt F) J V Finset.univ) := by
  refine pointsTo_congr fun i hi => ?_
  obtain ⟨x, -, rfl⟩ := Finset.mem_map.mp hi
  rw [View.write_emb_of_mem _ _ (Finset.mem_univ x), View.write_emb_of_mem _ _ (Finset.mem_univ x)]

abbrev R32 (i : Fin 32) : Rect S32x32x1024 := Rect.unit (s := S32x32x1024) ![i.val, 0, 0] S1x32x1024.size (inb32 i)
abbrev R16 (i : Fin 16) : Rect S16x32x1024 := Rect.unit (s := S16x32x1024) ![i.val, 0, 0] S1x32x1024.size (inb16 i)

theorem R32_disjoint {i j : Fin 32} (h : i ≠ j) : Disjoint (R32 i).set (R32 j).set := by
  have hv : i.val ≠ j.val := fun e => h (Fin.ext e)
  refine Rect.unit_disjoint (0 : Fin 3) ?_
  show i.val + 1 ≤ j.val ∨ j.val + 1 ≤ i.val
  omega
theorem R16_disjoint {i j : Fin 16} (h : i ≠ j) : Disjoint (R16 i).set (R16 j).set := by
  have hv : i.val ≠ j.val := fun e => h (Fin.ext e)
  refine Rect.unit_disjoint (0 : Fin 3) ?_
  show i.val + 1 ≤ j.val ∨ j.val + 1 ≤ i.val
  omega

theorem R32_cover (x : S32x32x1024.Idx) : x ∈ (R32 ⟨(x 0).val, (x 0).isLt⟩).set := by
  refine Rect.mem_set_unit.mpr fun a => ?_
  fin_cases a
  · show (x 0).val ≤ (x 0).val ∧ (x 0).val < (x 0).val + 1
    omega
  · have h : (x 1).val < 32 := (x 1).isLt
    show 0 ≤ (x 1).val ∧ (x 1).val < 0 + 32
    omega
  · have h : (x 2).val < 1024 := (x 2).isLt
    show 0 ≤ (x 2).val ∧ (x 2).val < 0 + 1024
    omega
theorem R16_cover (x : S16x32x1024.Idx) : x ∈ (R16 ⟨(x 0).val, (x 0).isLt⟩).set := by
  refine Rect.mem_set_unit.mpr fun a => ?_
  fin_cases a
  · show (x 0).val ≤ (x 0).val ∧ (x 0).val < (x 0).val + 1
    omega
  · have h : (x 1).val < 32 := (x 1).isLt
    show 0 ≤ (x 1).val ∧ (x 1).val < 0 + 32
    omega
  · have h : (x 2).val < 1024 := (x 2).isLt
    show 0 ≤ (x 2).val ∧ (x 2).val < 0 + 1024
    omega

-- Blocks that partition a buffer's index space, placed as the buffer is, partition the buffer's elements.
theorem cover_map {s : Shape} {n : ℕ} (R : Fin n → Rect s) (M : Memref sig .tc .vmem s .f32) (hc : ∀ x : s.Idx, ∃ i, x ∈ (R i).set) :
    (Finset.univ : Finset (Fin n)).biUnion (fun i => (R i).set.map M.view.emb) = M.view.set := by
  ext j
  rw [Finset.mem_biUnion]
  constructor
  · rintro ⟨i, -, hj⟩
    obtain ⟨x, -, rfl⟩ := Finset.mem_map.mp hj
    exact M.view.emb_mem_set x
  · intro hj
    obtain ⟨x, -, rfl⟩ := Finset.mem_map.mp hj
    obtain ⟨i, hi⟩ := hc x
    exact ⟨i, Finset.mem_univ _, Finset.mem_map_of_mem _ hi⟩

-- A whole buffer held at one contents and one share is its blocks so held.
theorem land_split {s : Shape} {n : ℕ} (R : Fin n → Rect s) (M : Memref sig .tc .vmem s .f32)
    (hd : ∀ {i j}, i ≠ j → Disjoint (R i).set (R j).set) (hc : ∀ x : s.Idx, ∃ i, x ∈ (R i).set)
    (c : Dev nD) (hM : M.IsWhole) (q : PosShare TreeShare) (f : Buf (Elt F) (M.view.loc (c : Thread nD τ))) :
    (M.view.loc (c : Thread nD τ) ↦{q} f : sProp 𝕄) = bigSep Finset.univ fun i : Fin n => (M.view.loc (c : Thread nD τ) ↦[(R i).set.map M.view.emb]{q} f) := by
  have hK := pointsTo_biUnion (U := UU) (Ix := Unit) (Name := ℕ) (Lvl := ℕ) (Val := Elt F)
    (ℓ := M.view.loc (c : Thread nD τ)) (q := q) (f := f) Finset.univ (fun i : Fin n => (R i).set.map M.view.emb)
    (fun i _ j _ h => (Finset.disjoint_map _).mpr (hd h))
  rw [cover_map R M hc, hM.set_eq_univ] at hK
  exact hK

-- The blocks, each at contents of its own, are the whole buffer at some contents (f₀ only says that there are contents).
theorem land_join {s : Shape} {n : ℕ} (R : Fin n → Rect s) (M : Memref sig .tc .vmem s .f32)
    (hd : ∀ {i j}, i ≠ j → Disjoint (R i).set (R j).set) (hc : ∀ x : s.Idx, ∃ i, x ∈ (R i).set)
    (c : Dev nD) (hM : M.IsWhole) (q : PosShare TreeShare) (f₀ : Buf (Elt F) (M.view.loc (c : Thread nD τ))) :
    (bigSep Finset.univ fun i : Fin n => iprop(∃ g, M.view.loc (c : Thread nD τ) ↦[(R i).set.map M.view.emb]{q} g) : sProp 𝕄)
      ⊢ iprop(∃ f, M.view.loc (c : Thread nD τ) ↦{q} f) := by
  haveI : ∀ _ : Fin n, Nonempty (Buf (Elt F) (M.view.loc (c : Thread nD τ))) := fun _ => ⟨f₀⟩
  have h1 := bigSep_exists_pi (M := 𝕄) (Y := fun _ : Fin n => Buf (Elt F) (M.view.loc (c : Thread nD τ))) Finset.univ
    (fun i g => (M.view.loc (c : Thread nD τ) ↦[(R i).set.map M.view.emb]{q} g : sProp 𝕄))
  have h2 := fun gs : Fin n → Buf (Elt F) (M.view.loc (c : Thread nD τ)) =>
    pointsTo_biUnion_join (U := UU) (Ix := Unit) (Name := ℕ) (Lvl := ℕ) (Val := Elt F)
      (ℓ := M.view.loc (c : Thread nD τ)) (q := q) Finset.univ (fun i : Fin n => (R i).set.map M.view.emb) gs f₀
      (fun i _ j _ h => (Finset.disjoint_map _).mpr (hd h))
  rw [cover_map R M hc, hM.set_eq_univ] at h2
  refine h1.trans ?_
  iintro ⟨%gs, H⟩
  ihave H2 := (h2 gs) $$ H
  icases H2 with ⟨%g, %hg, H2⟩
  iexists g
  iexact H2

theorem chunkAt_slot32 (c : Dev nD) (M : Memref sig .tc .vmem S32x32x1024 .f32) (i : Fin 32) (q : PosShare TreeShare)
    (f : Buf (Elt F) (M.view.loc (c : Thread nD τ))) :
    (chunkAt c (slot32 M i) q f : sProp 𝕄) = (M.view.loc (c : Thread nD τ) ↦[(R32 i).set.map M.view.emb]{q} f) :=
  congrArg (fun I : Finset (Idx (M.view.loc (c : Thread nD τ))) => (M.view.loc (c : Thread nD τ) ↦[I]{q} f : sProp 𝕄))
    ((View.set_reshape (M.view.slice (R32 i)) squeezes_S1x32x1024_S32x1024.numel_eq).trans (View.set_slice M.view (R32 i)))
theorem chunkAt_slot16 (c : Dev nD) (M : Memref sig .tc .vmem S16x32x1024 .f32) (i : Fin 16) (q : PosShare TreeShare)
    (f : Buf (Elt F) (M.view.loc (c : Thread nD τ))) :
    (chunkAt c (slot16 M i) q f : sProp 𝕄) = (M.view.loc (c : Thread nD τ) ↦[(R16 i).set.map M.view.emb]{q} f) :=
  congrArg (fun I : Finset (Idx (M.view.loc (c : Thread nD τ))) => (M.view.loc (c : Thread nD τ) ↦[I]{q} f : sProp 𝕄))
    ((View.set_reshape (M.view.slice (R16 i)) squeezes_S1x32x1024_S32x1024.numel_eq).trans (View.set_slice M.view (R16 i)))

theorem land32_split (c : Dev nD) (M : Memref sig .tc .vmem S32x32x1024 .f32) (hM : M.IsWhole) (q : PosShare TreeShare)
    (f : Buf (Elt F) (M.view.loc (c : Thread nD τ))) :
    (M.view.loc (c : Thread nD τ) ↦{q} f : sProp 𝕄) = bigSep Finset.univ fun i : Fin 32 => chunkAt c (slot32 M i) q f :=
  (land_split R32 M R32_disjoint (fun x => ⟨_, R32_cover x⟩) c hM q f).trans (bigSep_congr fun i _ => (chunkAt_slot32 c M i q f).symm)
theorem land16_split (c : Dev nD) (M : Memref sig .tc .vmem S16x32x1024 .f32) (hM : M.IsWhole) (q : PosShare TreeShare)
    (f : Buf (Elt F) (M.view.loc (c : Thread nD τ))) :
    (M.view.loc (c : Thread nD τ) ↦{q} f : sProp 𝕄) = bigSep Finset.univ fun i : Fin 16 => chunkAt c (slot16 M i) q f :=
  (land_split R16 M R16_disjoint (fun x => ⟨_, R16_cover x⟩) c hM q f).trans (bigSep_congr fun i _ => (chunkAt_slot16 c M i q f).symm)

theorem land32_join (c : Dev nD) (M : Memref sig .tc .vmem S32x32x1024 .f32) (hM : M.IsWhole) (q : PosShare TreeShare)
    (f₀ : Buf (Elt F) (M.view.loc (c : Thread nD τ))) :
    (bigSep Finset.univ fun i : Fin 32 => iprop(∃ g, chunkAt c (slot32 M i) q g) : sProp 𝕄)
      ⊢ iprop(∃ f, M.view.loc (c : Thread nD τ) ↦{q} f) :=
  (bigSep_mono fun i _ => Entails.of_eq (congrArg (fun P : Buf (Elt F) (M.view.loc (c : Thread nD τ)) → sProp 𝕄 => iprop(∃ g, P g))
    (funext fun g => chunkAt_slot32 c M i q g))).trans (land_join R32 M R32_disjoint (fun x => ⟨_, R32_cover x⟩) c hM q f₀)
theorem land16_join (c : Dev nD) (M : Memref sig .tc .vmem S16x32x1024 .f32) (hM : M.IsWhole) (q : PosShare TreeShare)
    (f₀ : Buf (Elt F) (M.view.loc (c : Thread nD τ))) :
    (bigSep Finset.univ fun i : Fin 16 => iprop(∃ g, chunkAt c (slot16 M i) q g) : sProp 𝕄)
      ⊢ iprop(∃ f, M.view.loc (c : Thread nD τ) ↦{q} f) :=
  (bigSep_mono fun i _ => Entails.of_eq (congrArg (fun P : Buf (Elt F) (M.view.loc (c : Thread nD τ)) → sProp 𝕄 => iprop(∃ g, P g))
    (funext fun g => chunkAt_slot16 c M i q g))).trans (land_join R16 M R16_disjoint (fun x => ⟨_, R16_cover x⟩) c hM q f₀)

theorem share2 (c : Dev nD) (v : Memref sig .tc .vmem S32x1024 .f32) (f : Buf (Elt F) (v.view.loc (c : Thread nD τ))) :
    (chunkAt c v fullShare f : sProp 𝕄) ⊣⊢ iprop(chunkAt c v qa f ∗ chunkAt c v fullShare.right f) :=
  pointsTo_share (PosShare.mem_left_op_right fullShare)

theorem share_right (c : Dev nD) (v : Memref sig .tc .vmem S32x1024 .f32) (f : Buf (Elt F) (v.view.loc (c : Thread nD τ))) :
    (chunkAt c v fullShare.right f : sProp 𝕄) ⊣⊢ iprop(chunkAt c v qb f ∗ chunkAt c v qc f) :=
  pointsTo_share (PosShare.mem_left_op_right fullShare.right)

theorem share3 (c : Dev nD) (v : Memref sig .tc .vmem S32x1024 .f32) (f : Buf (Elt F) (v.view.loc (c : Thread nD τ))) :
    (chunkAt c v fullShare f : sProp 𝕄) ⊣⊢ iprop(chunkAt c v qa f ∗ chunkAt c v qb f ∗ chunkAt c v qc f) :=
  ⟨(share2 c v f).1.trans (sep_mono_right (share_right c v f).1),
   (sep_mono_right (share_right c v f).2).trans (share2 c v f).2⟩

abbrev rowR (c : Dev nD) (i : Fin 32) : Rect S4096x1024 :=
  Rect.unit (s := S4096x1024) (k0_off1 c (BitVec.ofNat 32 (32 * i.val))) S32x1024.size (k0_off1_inb c i)

theorem rowR_disjoint (c : Dev nD) {i j : Fin 32} (h : i ≠ j) : Disjoint (rowR c i).set (rowR c j).set := by
  have hv : i.val ≠ j.val := fun e => h (Fin.ext e)
  have hi : k0_off1 c (BitVec.ofNat 32 (32 * i.val)) 0 = base1 c + 32 * i.val := congrFun (off1_eq c i) 0
  have hj : k0_off1 c (BitVec.ofNat 32 (32 * j.val)) 0 = base1 c + 32 * j.val := congrFun (off1_eq c j) 0
  refine Rect.unit_disjoint (0 : Fin 2) ?_
  show k0_off1 c (BitVec.ofNat 32 (32 * i.val)) 0 + 32 ≤ k0_off1 c (BitVec.ofNat 32 (32 * j.val)) 0
    ∨ k0_off1 c (BitVec.ofNat 32 (32 * j.val)) 0 + 32 ≤ k0_off1 c (BitVec.ofNat 32 (32 * i.val)) 0
  rw [hi, hj]
  omega

def rowSet (c : Dev nD) (i : Fin 32) : Finset (xM : Memref sig .tc .vmem S4096x1024 .f32).view.ty.Idx := (rowR c i).set

theorem xrow_set (c : Dev nD) (i : Fin 32) :
    ((xrow c i).view.set : Finset (xM : Memref sig .tc .vmem S4096x1024 .f32).view.ty.Idx) = rowSet c i :=
  View.set_slice_whole cc0_stg0_0 (rowR c i)

theorem rowSet_disjoint (c : Dev nD) {i j : Fin 32} (h : i ≠ j) : Disjoint (rowSet c i) (rowSet c j) := rowR_disjoint c h

def restSet (c : Dev nD) : Finset (Idx ((c : Thread nD τ).loc cc0_stg0_0)) :=
  Finset.univ \ (Finset.univ : Finset (Fin 32)).biUnion (rowSet c)

theorem chunkAt_xrow (c : Dev nD) (i : Fin 32) (q : PosShare TreeShare) (X : Buf (Elt F) ((c : Thread nD τ).loc cc0_stg0_0)) :
    (chunkAt c (xrow c i) q X : sProp 𝕄) = ((c : Thread nD τ).loc cc0_stg0_0 ↦[rowSet c i]{q} X) :=
  congrArg (fun I : Finset (Idx ((c : Thread nD τ).loc cc0_stg0_0)) => ((c : Thread nD τ).loc cc0_stg0_0 ↦[I]{q} X : sProp 𝕄))
    (xrow_set c i)

theorem xrows_split (c : Dev nD) (X : Buf (Elt F) ((c : Thread nD τ).loc cc0_stg0_0)) :
    ((c : Thread nD τ).loc cc0_stg0_0 ↦{fullShare} X : sProp 𝕄)
      = iprop(((c : Thread nD τ).loc cc0_stg0_0 ↦{fullShare.right} X)
          ∗ (bigSep Finset.univ fun i : Fin 32 => chunkAt c (xrow c i) qa X)
          ∗ ((c : Thread nD τ).loc cc0_stg0_0 ↦[restSet c]{qa} X)) := by
  have h1 := pointsTo_share (U := UU) (Ix := Unit) (Name := ℕ) (Lvl := ℕ) (Val := Elt F)
    (ℓ := (c : Thread nD τ).loc cc0_stg0_0) (I := Finset.univ) (f := X) (PosShare.mem_left_op_right fullShare)
  have h2 := pointsTo_split_subset (U := UU) (Ix := Unit) (Name := ℕ) (Lvl := ℕ) (Val := Elt F)
    (ℓ := (c : Thread nD τ).loc cc0_stg0_0) (q := qa) (f := X) (S := Finset.univ)
    (I := (Finset.univ : Finset (Fin 32)).biUnion (rowSet c)) (Finset.subset_univ _)
  have h3 := pointsTo_biUnion (U := UU) (Ix := Unit) (Name := ℕ) (Lvl := ℕ) (Val := Elt F)
    (ℓ := (c : Thread nD τ).loc cc0_stg0_0) (q := qa) (f := X) Finset.univ (rowSet c) (fun i _ j _ h => rowSet_disjoint c h)
  have e1 := BI.equiv_iff.mp ⟨h1.1, h1.2⟩
  have e2 := BI.equiv_iff.mp ⟨h2.1, h2.2⟩
  have e3 := h3.trans (bigSep_congr (Ψ := fun i : Fin 32 => (chunkAt c (xrow c i) qa X : sProp 𝕄))
    fun i _ => (chunkAt_xrow c i qa X).symm)
  rw [e1, e2, e3]
  unfold restSet
  exact BI.equiv_iff.mp ⟨Idealize.SL.BI.sep_comm, Idealize.SL.BI.sep_comm⟩

/-- info: 'Cert.Kernel.Hand.xrows_split' depends on axioms: [propext, Classical.choice, Quot.sound] -/
#guard_msgs in #print axioms xrows_split

end Cert.Kernel.Hand

end
-- ==== Proof.HandKernel.Steps.lean ====
import proofs.«900716_g7700000000000717_dist_ar_v7x_xyz2x2x4_y_m4096_n1024_f32_1_alg».proof.Proof.HandKernel.Unpack
import proofs.«900716_g7700000000000717_dist_ar_v7x_xyz2x2x4_y_m4096_n1024_f32_1_alg».proof.Proof.HandKernel.Pieces

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

-- A cell with one round only is closed at zero once that round is past.
theorem close_own (c : Dev nD) (K : Dev nD × CK → ℕ) :
    iprop(records m K ∗ bigSep Finset.univ fun j : Fin 256 => atPos ER (kcell (c, some j)) 1 ∅ 0)
      ⊢ |={Set.univ}=> bigSep Finset.univ fun j : Fin 256 => semVal ((c : Thread nD τ), osem j) 0 := by
  refine (sep_mono_left (bigSep_of_persistent (Finset.univ : Finset (Fin 256)) (records m K))).trans ?_
  rw [← bigSep_sep']
  refine (bigSep_mono fun j _ => ?_).trans (bigSep_fupd _ _)
  exact (sep_mono_left (inv_at m K (c, some j))).trans
    (Rounds.cell_close ER (Rd m) (Set.mem_univ (K (c, some j))) (fun h => h) (R := 1) (duties_later m (kcell (c, some j))))

-- Transfer number a of device c: a chunk written whole over any contents holds what travelled, so both cells' payloads are met.
theorem step_at (c c' : Dev nD) (K : Dev nD × CK → ℕ) {src dst : Memref sig .tc .vmem S32x1024 .f32}
    (n₁ n₂ : ℕ) (h₁ : n₁ < 258) (h₂ : n₂ < 258) (g₁ : 2 ≤ n₁) (g₂ : 2 ≤ n₂)
    {hsc : (dst : Memref sig (Dev.tc c' : Thread nD τ).2.kind .vmem S32x1024 .f32).view.ref.isScScratch = false}
    {hsrc : src.view.WordExact} {hdst : dst.view.WordExact}
    {hsem : DmaTarget.Typed .vmem (.dma (dsem n₂ h₂)) (.remote (Dev.tc c' : Thread nD τ) dst (.dma (dsem n₁ h₁)) hsc)}
    {α : Type} {Q : α → sProp 𝕄} {k : PUnit → Prog (TpuEff nD τ sig (Elt F) Λ₀ .tc) α}
    (a : Fin 128) (ha : arrive c a = dcell c' n₂ h₂) (hr : τ.routes (c : Thread nD τ) (c' : Thread nD τ) = true)
    (q : PosShare TreeShare) (fs : Buf (Elt F) (src.view.loc (c : Thread nD τ)))
    (fd J : Buf (Elt F) (dst.view.loc (c' : Thread nD τ))) (V : S32x1024.Idx → Elt F .f32) (W : Waits sig Unit)
    (hpay₁ : (Rd m).payload (dcell c n₁ h₁) 0 0 = chunkAt c src q fs)
    (hpay₂ : (Rd m).payload (dcell c' n₂ h₂) 0 0 = chunkAt c' dst fullShare (dst.view.write (Elt F) J V Finset.univ))
    (hV : V = src.view.read (Elt F) fs) :
    iprop(records m K ∗ chunkAt c src q fs ∗ chunkAt c' dst fullShare fd
        ∗ owes (c : Thread nD τ) (Orem c a.val) W
        ∗ dutyTok ER (dcell c n₁ h₁) 0 (0 : Fin 3) ∗ dutyTok ER (dcell c' n₂ h₂) 0 (0 : Fin 3))
      ⊢ iprop(((cred (tallyAt (dcell c n₁ h₁) () N) ∗ owes (c : Thread nD τ) (Orem c (a.val + 1)) W)
              -∗ wp frame (wpE (defs₀ (F := F)) Variants.none (c : Thread nD τ) none) Set.univ (k ⟨⟩) Q)
          -∗ wp frame (wpE (defs₀ (F := F)) Variants.none (c : Thread nD τ) none) Set.univ
              (.op (.enqueueDma src (.remote (Dev.tc c' : Thread nD τ) dst (.dma (dsem n₁ h₁)) hsc) (.dma (dsem n₂ h₂)) hsrc hdst hsem) k) Q) := by
  subst hV
  rw [Orem_peel c a, ha]
  iintro ⟨#Hrec, Hsrc, Hdst, HO, Ht₁, Ht₂⟩
  iapply (Rounds.wp_send_pointsTo Variants.none ER (Rd m) (c : Thread nD τ) none
    (κ₁ := K (c, some ⟨n₁ - 2, by omega⟩)) (κ₂ := K (c', some ⟨n₂ - 2, by omega⟩))
    (r₁ := 0) (r₂ := 0) (d₁ := (0 : Fin 3)) (d₂ := (0 : Fin 3)) (fd := fd)
    (duties_dma m c n₁ h₁ g₁ ▸ Finset.mem_singleton_self _) (duties_dma m c' n₂ h₂ g₂ ▸ Finset.mem_singleton_self _) () () N rfl rfl rfl (Orem c (a.val + 1)) rfl (W := W)
    (Entails.of_eq hpay₁.symm) (Entails.of_eq ((chunk_landed dst c' fd J _).trans hpay₂.symm)) hr)
  ihave #H₁ := (inv_dma m K c ⟨n₁ - 2, by omega⟩ n₁ h₁ (Nat.add_sub_cancel' g₁)) $$ Hrec
  ihave #H₂ := (inv_dma m K c' ⟨n₂ - 2, by omega⟩ n₂ h₂ (Nat.add_sub_cancel' g₂)) $$ Hrec
  ihave #H₃ := (reached_dma m K c ⟨n₁ - 2, by omega⟩ n₁ h₁ (Nat.add_sub_cancel' g₁)) $$ Hrec
  ihave #H₄ := (reached_dma m K c' ⟨n₂ - 2, by omega⟩ n₂ h₂ (Nat.add_sub_cancel' g₂)) $$ Hrec
  iframe # ∗

theorem ystepAt (c : Dev nD) (K : Dev nD × CK → ℕ) (i : Fin 32) (n : Dev nD) (hn : n = yN c)
    {hsc : (slot32 yrM i : Memref sig (Dev.tc n : Thread nD τ).2.kind .vmem S32x1024 .f32).view.ref.isScScratch = false}
    {hsrc : (xrow c i).view.WordExact} {hdst : (slot32 yrM i).view.WordExact}
    {hsem : DmaTarget.Typed .vmem (.dma (dsem (34 + i.val) (by omega))) (.remote (Dev.tc n : Thread nD τ) (slot32 yrM i) (.dma (dsem (2 + i.val) (by omega))) hsc)}
    {α : Type} {Q : α → sProp 𝕄} {k : PUnit → Prog (TpuEff nD τ sig (Elt F) Λ₀ .tc) α}
    (fd : Buf (Elt F) ((slot32 yrM i).view.loc (yN c : Thread nD τ))) (W : Waits sig Unit) :
    iprop(records m K ∗ chunkAt c (xrow c i) qa (Xs m c) ∗ chunkAt (yN c) (slot32 yrM i) fullShare fd
        ∗ owes (c : Thread nD τ) (Orem c i.val) W
        ∗ dutyTok ER (ysendC c i) 0 (0 : Fin 3) ∗ dutyTok ER (yrecvC (yN c) i) 0 (0 : Fin 3))
      ⊢ iprop(((cred (tallyAt (ysendC c i) () N) ∗ owes (c : Thread nD τ) (Orem c (i.val + 1)) W)
              -∗ wp frame (wpE (defs₀ (F := F)) Variants.none (c : Thread nD τ) none) Set.univ (k ⟨⟩) Q)
          -∗ wp frame (wpE (defs₀ (F := F)) Variants.none (c : Thread nD τ) none) Set.univ
              (.op (.enqueueDma (xrow c i) (.remote (Dev.tc n : Thread nD τ) (slot32 yrM i) (.dma (dsem (2 + i.val) (by omega))) hsc)
                (.dma (dsem (34 + i.val) (by omega))) hsrc hdst hsem) k) Q) := by
  subst hn
  exact step_at m c (yN c) K (src := xrow c i) (dst := slot32 yrM i) (2 + i.val) (34 + i.val) _ _ (by omega) (by omega) ⟨i.val, by omega⟩ (arrive_y c i) (by routes)
    qa (Xs m c) fd (Jy m (yN c)) (Vy m (yN c) i) W (payload_ysend m c i 0) (payload_yrecv m (yN c) i 0)
    (congrArg (fun d => (xrow d i).view.read (Elt F) (Xs m d)) (yN_yN c))

theorem xsstepAt (c : Dev nD) (K : Dev nD × CK → ℕ) (i : Fin 32) (n : Dev nD) (hn : n = xN c)
    {hsc : (slot32 xsM i : Memref sig (Dev.tc n : Thread nD τ).2.kind .vmem S32x1024 .f32).view.ref.isScScratch = false}
    {hsrc : (slot32 yrM i).view.WordExact} {hdst : (slot32 xsM i).view.WordExact}
    {hsem : DmaTarget.Typed .vmem (.dma (dsem (114 + i.val) (by omega))) (.remote (Dev.tc n : Thread nD τ) (slot32 xsM i) (.dma (dsem (66 + i.val) (by omega))) hsc)}
    {α : Type} {Q : α → sProp 𝕄} {k : PUnit → Prog (TpuEff nD τ sig (Elt F) Λ₀ .tc) α}
    (fd : Buf (Elt F) ((slot32 xsM i).view.loc (xN c : Thread nD τ))) (W : Waits sig Unit) :
    iprop(records m K ∗ chunkAt c (slot32 yrM i) qa (Yc m c i) ∗ chunkAt (xN c) (slot32 xsM i) fullShare fd
        ∗ owes (c : Thread nD τ) (Orem c (32 + 2 * i.val)) W
        ∗ dutyTok ER (xsendC c ⟨i.val, by omega⟩) 0 (0 : Fin 3) ∗ dutyTok ER (xrecvSC (xN c) i) 0 (0 : Fin 3))
      ⊢ iprop(((cred (tallyAt (xsendC c ⟨i.val, by omega⟩) () N) ∗ owes (c : Thread nD τ) (Orem c (32 + 2 * i.val + 1)) W)
              -∗ wp frame (wpE (defs₀ (F := F)) Variants.none (c : Thread nD τ) none) Set.univ (k ⟨⟩) Q)
          -∗ wp frame (wpE (defs₀ (F := F)) Variants.none (c : Thread nD τ) none) Set.univ
              (.op (.enqueueDma (slot32 yrM i) (.remote (Dev.tc n : Thread nD τ) (slot32 xsM i) (.dma (dsem (66 + i.val) (by omega))) hsc)
                (.dma (dsem (114 + i.val) (by omega))) hsrc hdst hsem) k) Q) := by
  subst hn
  exact step_at m c (xN c) K (src := slot32 yrM i) (dst := slot32 xsM i) (66 + i.val) (114 + i.val) _ _ (by omega) (by omega) ⟨32 + 2 * i.val, by omega⟩ (arrive_xs c i) (by routes)
    qa (Yc m c i) fd (Jxs m (xN c)) (Vxs m (xN c) i) W ((payload_xsend m c _ 0).trans (payload_xsend_lo m c i)) (payload_xrecvS m (xN c) i 0)
    ((congrArg (fun d => Vy m d i) (xN_xN c)).trans (read_landed _ c _ _).symm)

theorem zsstepAt (c : Dev nD) (K : Dev nD × CK → ℕ) (i : Fin 32) (n : Dev nD) (hn : n = zN c)
    {hsc : (slot32 zsM i : Memref sig (Dev.tc n : Thread nD τ).2.kind .vmem S32x1024 .f32).view.ref.isScScratch = false}
    {hsrc : (slot32 yrM i).view.WordExact} {hdst : (slot32 zsM i).view.WordExact}
    {hsem : DmaTarget.Typed .vmem (.dma (dsem (210 + i.val) (by omega))) (.remote (Dev.tc n : Thread nD τ) (slot32 zsM i) (.dma (dsem (162 + i.val) (by omega))) hsc)}
    {α : Type} {Q : α → sProp 𝕄} {k : PUnit → Prog (TpuEff nD τ sig (Elt F) Λ₀ .tc) α}
    (fd : Buf (Elt F) ((slot32 zsM i).view.loc (zN c : Thread nD τ))) (W : Waits sig Unit) :
    iprop(records m K ∗ chunkAt c (slot32 yrM i) qb (Yc m c i) ∗ chunkAt (zN c) (slot32 zsM i) fullShare fd
        ∗ owes (c : Thread nD τ) (Orem c (33 + 2 * i.val)) W
        ∗ dutyTok ER (zsendC c ⟨i.val, by omega⟩) 0 (0 : Fin 3) ∗ dutyTok ER (zrecvSC (zN c) i) 0 (0 : Fin 3))
      ⊢ iprop(((cred (tallyAt (zsendC c ⟨i.val, by omega⟩) () N) ∗ owes (c : Thread nD τ) (Orem c (33 + 2 * i.val + 1)) W)
              -∗ wp frame (wpE (defs₀ (F := F)) Variants.none (c : Thread nD τ) none) Set.univ (k ⟨⟩) Q)
          -∗ wp frame (wpE (defs₀ (F := F)) Variants.none (c : Thread nD τ) none) Set.univ
              (.op (.enqueueDma (slot32 yrM i) (.remote (Dev.tc n : Thread nD τ) (slot32 zsM i) (.dma (dsem (162 + i.val) (by omega))) hsc)
                (.dma (dsem (210 + i.val) (by omega))) hsrc hdst hsem) k) Q) := by
  subst hn
  exact step_at m c (zN c) K (src := slot32 yrM i) (dst := slot32 zsM i) (162 + i.val) (210 + i.val) _ _ (by omega) (by omega) ⟨33 + 2 * i.val, by omega⟩ (arrive_zs c i) (by routes)
    qb (Yc m c i) fd (Jzs m (zN c)) (Vzs m (zN c) i) W ((payload_zsend m c _ 0).trans (payload_zsend_lo m c i)) (payload_zrecvS m (zN c) i 0)
    ((congrArg (fun d => Vy m d i) (zN_zN c)).trans (read_landed _ c _ _).symm)

theorem xdstepAt (c : Dev nD) (K : Dev nD × CK → ℕ) (i : Fin 16) (n : Dev nD) (hn : n = xN c)
    {hsc : (slot16 xdM i : Memref sig (Dev.tc n : Thread nD τ).2.kind .vmem S32x1024 .f32).view.ref.isScScratch = false}
    {hsrc : (slot32 zsM (lo i)).view.WordExact} {hdst : (slot16 xdM i).view.WordExact}
    {hsem : DmaTarget.Typed .vmem (.dma (dsem (146 + i.val) (by omega))) (.remote (Dev.tc n : Thread nD τ) (slot16 xdM i) (.dma (dsem (66 + (32 + i.val)) (by omega))) hsc)}
    {α : Type} {Q : α → sProp 𝕄} {k : PUnit → Prog (TpuEff nD τ sig (Elt F) Λ₀ .tc) α}
    (fd : Buf (Elt F) ((slot16 xdM i).view.loc (xN c : Thread nD τ))) (W : Waits sig Unit) :
    iprop(records m K ∗ chunkAt c (slot32 zsM (lo i)) qa (ZSc m c (lo i)) ∗ chunkAt (xN c) (slot16 xdM i) fullShare fd
        ∗ owes (c : Thread nD τ) (Orem c (96 + i.val)) W
        ∗ dutyTok ER (xsendC c ⟨32 + i.val, by omega⟩) 0 (0 : Fin 3) ∗ dutyTok ER (xrecvDC (xN c) i) 0 (0 : Fin 3))
      ⊢ iprop(((cred (tallyAt (xsendC c ⟨32 + i.val, by omega⟩) () N) ∗ owes (c : Thread nD τ) (Orem c (96 + i.val + 1)) W)
              -∗ wp frame (wpE (defs₀ (F := F)) Variants.none (c : Thread nD τ) none) Set.univ (k ⟨⟩) Q)
          -∗ wp frame (wpE (defs₀ (F := F)) Variants.none (c : Thread nD τ) none) Set.univ
              (.op (.enqueueDma (slot32 zsM (lo i)) (.remote (Dev.tc n : Thread nD τ) (slot16 xdM i) (.dma (dsem (66 + (32 + i.val)) (by omega))) hsc)
                (.dma (dsem (146 + i.val) (by omega))) hsrc hdst hsem) k) Q) := by
  subst hn
  exact step_at m c (xN c) K (src := slot32 zsM (lo i)) (dst := slot16 xdM i) (66 + (32 + i.val)) (146 + i.val) _ _ (by omega) (by omega) ⟨96 + i.val, by omega⟩ (arrive_xd c i) (by routes)
    qa (ZSc m c (lo i)) fd (Jxd m (xN c)) (Vxd m (xN c) i) W ((payload_xsend m c _ 0).trans (payload_xsend_hi m c i)) (payload_xrecvD m (xN c) i 0)
    ((congrArg (fun d => Vzs m d (lo i)) (xN_xN c)).trans (read_landed _ c _ _).symm)

theorem zdstepAt (c : Dev nD) (K : Dev nD × CK → ℕ) (i : Fin 16) (n : Dev nD) (hn : n = zN c)
    {hsc : (slot16 zdM i : Memref sig (Dev.tc n : Thread nD τ).2.kind .vmem S32x1024 .f32).view.ref.isScScratch = false}
    {hsrc : (slot32 xsM (hi i)).view.WordExact} {hdst : (slot16 zdM i).view.WordExact}
    {hsem : DmaTarget.Typed .vmem (.dma (dsem (242 + i.val) (by omega))) (.remote (Dev.tc n : Thread nD τ) (slot16 zdM i) (.dma (dsem (162 + (32 + i.val)) (by omega))) hsc)}
    {α : Type} {Q : α → sProp 𝕄} {k : PUnit → Prog (TpuEff nD τ sig (Elt F) Λ₀ .tc) α}
    (fd : Buf (Elt F) ((slot16 zdM i).view.loc (zN c : Thread nD τ))) (W : Waits sig Unit) :
    iprop(records m K ∗ chunkAt c (slot32 xsM (hi i)) qa (XSc m c (hi i)) ∗ chunkAt (zN c) (slot16 zdM i) fullShare fd
        ∗ owes (c : Thread nD τ) (Orem c (112 + i.val)) W
        ∗ dutyTok ER (zsendC c ⟨32 + i.val, by omega⟩) 0 (0 : Fin 3) ∗ dutyTok ER (zrecvDC (zN c) i) 0 (0 : Fin 3))
      ⊢ iprop(((cred (tallyAt (zsendC c ⟨32 + i.val, by omega⟩) () N) ∗ owes (c : Thread nD τ) (Orem c (112 + i.val + 1)) W)
              -∗ wp frame (wpE (defs₀ (F := F)) Variants.none (c : Thread nD τ) none) Set.univ (k ⟨⟩) Q)
          -∗ wp frame (wpE (defs₀ (F := F)) Variants.none (c : Thread nD τ) none) Set.univ
              (.op (.enqueueDma (slot32 xsM (hi i)) (.remote (Dev.tc n : Thread nD τ) (slot16 zdM i) (.dma (dsem (162 + (32 + i.val)) (by omega))) hsc)
                (.dma (dsem (242 + i.val) (by omega))) hsrc hdst hsem) k) Q) := by
  subst hn
  exact step_at m c (zN c) K (src := slot32 xsM (hi i)) (dst := slot16 zdM i) (162 + (32 + i.val)) (242 + i.val) _ _ (by omega) (by omega) ⟨112 + i.val, by omega⟩ (arrive_zd c i) (by routes)
    qa (XSc m c (hi i)) fd (Jzd m (zN c)) (Vzd m (zN c) i) W ((payload_zsend m c _ 0).trans (payload_zsend_hi m c i)) (payload_zrecvD m (zN c) i 0)
    ((congrArg (fun d => Vxs m d (hi i)) (zN_zN c)).trans (read_landed _ c _ _).symm)

/-- info: 'Cert.Kernel.Hand.zdstepAt' depends on axioms: [propext, Classical.choice, Quot.sound] -/
#guard_msgs in #print axioms zdstepAt

end Cert.Kernel.Hand

end
-- ==== Proof.HandKernel.Back.lean ====
import proofs.«900716_g7700000000000717_dist_ar_v7x_xyz2x2x4_y_m4096_n1024_f32_1_alg».proof.Proof.HandKernel.Pieces
import proofs.«900716_g7700000000000717_dist_ar_v7x_xyz2x2x4_y_m4096_n1024_f32_1_alg».proof.Proof.HandKernel.Unpack

noncomputable section

namespace Cert.Kernel.Hand

open Cert.Kernel Cert.Kernel.Gen Idealize.ShloMosaic Idealize.ShloMosaic.TcCoe Idealize.SL Idealize.SL.RA Idealize.SL.BI
open Idealize.SL.BI.BIBase Idealize.SL.BI.Laws
open scoped Idealize.SL.BI

variable {F : FTy → Type} [FloatOps F]

local notation "𝕄" => MT nD τ sig Unit (Elt F) ℕ UU ℕ

/-- A chunk held at given contents is held at some contents. -/
theorem chunk_some (c : Dev nD) (v : Memref sig .tc .vmem S32x1024 .f32) (q : PosShare TreeShare)
    (f : Buf (Elt F) (v.view.loc (c : Thread nD τ))) :
    (chunkAt c v q f : sProp 𝕄) ⊢ iprop(∃ g, chunkAt c v q g) :=
  exists_intro (Φ := fun g => chunkAt c v q g) f

/-- Sixteen whole chunks are their buffer, whole at some contents. -/
theorem back16 (c : Dev nD) (M : Memref sig .tc .vmem S16x32x1024 .f32) (hM : M.IsWhole) (J : Buf (Elt F) (M.view.loc (c : Thread nD τ)))
    (f : (i : Fin 16) → Buf (Elt F) ((slot16 M i).view.loc (c : Thread nD τ))) :
    (bigSep Finset.univ fun i : Fin 16 => chunkAt c (slot16 M i) fullShare (f i) : sProp 𝕄)
      ⊢ iprop(∃ g, M.view.loc (c : Thread nD τ) ↦{fullShare} g) :=
  (bigSep_mono fun i _ => chunk_some c _ fullShare (f i)).trans (land16_join c M hM fullShare J)

/-- Thirty-two chunks, the first and the last sixteen each given whole in their own way, are their buffer, whole at some contents. -/
theorem back32 (c : Dev nD) (M : Memref sig .tc .vmem S32x32x1024 .f32) (hM : M.IsWhole) (J : Buf (Elt F) (M.view.loc (c : Thread nD τ)))
    {Φ Ψ : Fin 16 → sProp 𝕄} (hΦ : ∀ i, Φ i ⊢ freeChunk c (slot32 M (i.castAdd 16))) (hΨ : ∀ i, Ψ i ⊢ freeChunk c (slot32 M (i.natAdd 16))) :
    iprop(bigSep Finset.univ Φ ∗ bigSep Finset.univ Ψ) ⊢ iprop(∃ g, M.view.loc (c : Thread nD τ) ↦{fullShare} g) :=
  ((sep_mono (bigSep_mono fun i _ => hΦ i) (bigSep_mono fun i _ => hΨ i)).trans
    (Entails.of_eq (bigSep_fin_add 16 16 fun i : Fin 32 => freeChunk c (slot32 M i)).symm)).trans (land32_join c M hM fullShare J)

/-- The staged block: its right half, the 32 row chunks at the left half and the other rows at the left half are the block whole. -/
theorem x_back (m : (ℓ : Loc nD τ sig) → Buf (Elt F) ℓ) (c : Dev nD) :
    (iprop(((c : Thread nD τ).loc cc0_stg0_0 ↦{fullShare.right} Xs m c)
        ∗ (bigSep Finset.univ fun i : Fin 32 => chunkAt c (xrow c i) qa (Xs m c))
        ∗ ((c : Thread nD τ).loc cc0_stg0_0 ↦[restSet c]{qa} Xs m c)) : sProp 𝕄)
      ⊢ ((c : Thread nD τ).loc cc0_stg0_0 ↦{fullShare} Xs m c) :=
  Entails.of_eq (xrows_split c (Xs m c)).symm

/-- info: 'Cert.Kernel.Hand.back32' depends on axioms: [propext, Classical.choice, Quot.sound] -/
#guard_msgs in #print axioms back32

/-- info: 'Cert.Kernel.Hand.x_back' depends on axioms: [propext, Classical.choice, Quot.sound] -/
#guard_msgs in #print axioms x_back

end Cert.Kernel.Hand

end
-- ==== Proof.HandKernel.Close.lean ====
import proofs.«900716_g7700000000000717_dist_ar_v7x_xyz2x2x4_y_m4096_n1024_f32_1_alg».proof.Proof.HandKernel.Ghost
import proofs.«900716_g7700000000000717_dist_ar_v7x_xyz2x2x4_y_m4096_n1024_f32_1_alg».proof.Proof.HandKernel.Pieces

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem writes_closed (g1 G : (cc0_stg1_0 : Ref sig .tc).ty.Contents (Elt F))
    (L : List (View.Piece (Elt F) S4096x1024 .f32))
    (hval : ∀ p ∈ L, ∀ x : p.1.shape.Idx, p.2 x = G (p.1.emb x))
    (hcov : ∀ y : S4096x1024.Idx, ∃ p ∈ L, y ∈ p.1.set) :
    (Memref.whole cc0_stg1_0 : Memref sig .tc .vmem S4096x1024 .f32).view.writes (Elt F) g1 L = G := by
  funext y
  exact View.read_writes_apply_of_pieces (Memref.whole cc0_stg1_0 : Memref sig .tc .vmem S4096x1024 .f32).view g1 G L hval y (hcov y)

theorem readAt_rows (b : Ref sig .tc) (R : Rect b.ty.shape) (f : b.ty.Contents (Elt F)) (x : R.shape.Idx) :
    View.readAt (Elt F) (Memref.whole b : Memref sig .tc b.space b.ty.shape b.ty.elt).view R.toLoadRect f x = f (R.emb x) := rfl

theorem readAt_slot32 (c : Dev nD) (M : Memref sig .tc .vmem S32x32x1024 .f32) (i : Fin 32) (f : Buf (Elt F) (M.view.loc (c : Thread nD τ))) :
    shapeCast S32x1024 (View.readAt (Elt F) M.view (R32 i).toLoadRect f) shapeCasts_S1x32x1024_S32x1024
      = (slot32 M i).view.read (Elt F) f := rfl
theorem readAt_slot16 (c : Dev nD) (M : Memref sig .tc .vmem S16x32x1024 .f32) (i : Fin 16) (f : Buf (Elt F) (M.view.loc (c : Thread nD τ))) :
    shapeCast S32x1024 (View.readAt (Elt F) M.view (R16 i).toLoadRect f) shapeCasts_S1x32x1024_S32x1024
      = (slot16 M i).view.read (Elt F) f := rfl

theorem shapeCast_same (a : Vec F S32x1024 .f32) (x : S32x1024.Idx) :
    shapeCast S32x1024 a shapeCasts_S32x1024_S32x1024 x = a x :=
  congrArg a (Shape.reshapeEquiv_self _ x)

omit [FloatOps F] in
theorem qOf_0 (c : Dev nD) (r : Nat) (h1 : base1 c ≤ r) (h2 : r < base1 c + 1024) : qOf c r = 0 := if_pos ⟨h1, h2⟩
omit [FloatOps F] in
theorem qOf_1 (c : Dev nD) (r : Nat) (h1 : base3 c ≤ r) (h2 : r < base3 c + 1024) : qOf c r = 1 := by
  have hc : c.val < 16 := c.isLt
  unfold qOf
  rw [if_neg (by unfold base1 base3 at *; omega), if_pos ⟨h1, h2⟩]
omit [FloatOps F] in
theorem qOf_2 (c : Dev nD) (r : Nat) (h1 : base4 c ≤ r) (h2 : r < base4 c + 1024) : qOf c r = 2 := by
  have hc : c.val < 16 := c.isLt
  unfold qOf
  rw [if_neg (by unfold base1 base4 at *; omega), if_neg (by unfold base3 base4 at *; omega), if_pos ⟨h1, h2⟩]
omit [FloatOps F] in
theorem qOf_3 (c : Dev nD) (r : Nat) (h1 : base5 c ≤ r) (h2 : r < base5 c + 1024) : qOf c r = 3 := by
  have hc : c.val < 16 := c.isLt
  unfold qOf
  rw [if_neg (by unfold base1 base5 at *; omega), if_neg (by unfold base3 base5 at *; omega), if_neg (by unfold base4 base5 at *; omega)]

omit [FloatOps F] in
theorem qOf_quarter (c : Dev nD) (j : Fin 4) (r : Nat) (h1 : quarter c j ≤ r) (h2 : r < quarter c j + 1024) : qOf c r = j := by
  match j with
  | ⟨0, _⟩ => exact qOf_0 c r h1 h2
  | ⟨1, _⟩ => exact qOf_1 c r h1 h2
  | ⟨2, _⟩ => exact qOf_2 c r h1 h2
  | ⟨3, _⟩ => exact qOf_3 c r h1 h2

omit [FloatOps F] in
theorem emb_unit_eq (off off' : Fin 2 → Nat) (h : ∀ a, off a + S32x1024.size a ≤ S4096x1024.size a)
    (h' : ∀ a, off' a + S32x1024.size a ≤ S4096x1024.size a) (e : off = off') (x : S32x1024.Idx) :
    (Rect.unit (s := S4096x1024) off S32x1024.size h).emb x = (Rect.unit (s := S4096x1024) off' S32x1024.size h').emb x := by
  subst e; rfl

theorem Vy_apply (d : Dev nD) (i : Fin 32) (x : S32x1024.Idx) :
    Vy m d i x = Xs m (yN d) ((Rect.unit (s := S4096x1024) (k0_off1 (yN d) (BitVec.ofNat 32 (32 * i.val))) S32x1024.size (k0_off1_inb (yN d) i)).emb x) := rfl

theorem piece_val (c d : Dev nD) (j : Fin 4) (hd : via c j = d) (hb : base1 d = quarter c j) (i : Fin 32)
    (off : Fin 2 → Nat) (h : ∀ a, off a + S32x1024.size a ≤ S4096x1024.size a)
    (hoff : off = ![quarter c j + 32 * i.val, 0]) (x : S32x1024.Idx) :
    addf (shapeCast S32x1024 (View.readAt (Elt F) (xM : Memref sig .tc .vmem S4096x1024 .f32).view
            (Rect.unit (s := S4096x1024) off S32x1024.size h).toLoadRect (Xs m c)) shapeCasts_S32x1024_S32x1024)
         (Vy m d i) x
      = outAt m c ((Rect.unit (s := S4096x1024) off S32x1024.size h).emb x) := by
  have hrow : (((Rect.unit (s := S4096x1024) off S32x1024.size h).emb x) 0).val = quarter c j + 32 * i.val + (x 0).val := by
    rw [Rect.emb_apply]; subst hoff; show quarter c j + 32 * i.val + 1 * (x 0).val = _; omega
  have hx0 : (x 0).val < 32 := (x 0).isLt
  have hq : qOf c (((Rect.unit (s := S4096x1024) off S32x1024.size h).emb x) 0).val = j :=
    qOf_quarter c j _ (by rw [hrow]; omega) (by rw [hrow]; have := i.isLt; omega)
  have he : (Rect.unit (s := S4096x1024) (k0_off1 (yN d) (BitVec.ofNat 32 (32 * i.val))) S32x1024.size (k0_off1_inb (yN d) i)).emb x
      = (Rect.unit (s := S4096x1024) off S32x1024.size h).emb x :=
    emb_unit_eq _ _ _ _ (by rw [off1_eq, base1_yN, hb, hoff]) x
  show FloatOps.addf (shapeCast S32x1024 _ shapeCasts_S32x1024_S32x1024 x) (Vy m d i x) = FloatOps.addf (Xs m c _) (other m c _)
  rw [shapeCast_same, readAt_rows, Vy_apply, he]
  unfold other
  rw [hq, hd]

def PieceOK (c : Dev nD) (k : Fin 4 × Fin 32) (p : View.Piece (Elt F) S4096x1024 .f32) : Prop :=
  p.1.off = ![quarter c k.1 + 32 * k.2.val, 0] ∧ p.1.size = S32x1024.size ∧ (∀ a, p.1.stride a = 1)
    ∧ ∀ x : p.1.shape.Idx, p.2 x = outAt m c (p.1.emb x)

-- A store of 32 rows of quarter j whose second summand is chunk i of the device the quarter came through writes the result's rows.
theorem ok_of (c d : Dev nD) (j : Fin 4) (hd : via c j = d) (hb : base1 d = quarter c j) (i : Fin 32)
    (off : Fin 2 → Nat) (h : ∀ a, off a + S32x1024.size a ≤ S4096x1024.size a) (e : off = ![quarter c j + 32 * i.val, 0])
    (l : Vec F S32x1024 .f32) (hl : l = Vy m d i) :
    PieceOK m c (j, i) ⟨Rect.unit (s := S4096x1024) off S32x1024.size h,
      addf (shapeCast S32x1024 (View.readAt (Elt F) (xM : Memref sig .tc .vmem S4096x1024 .f32).view
              (Rect.unit (s := S4096x1024) off S32x1024.size h).toLoadRect (Xs m c)) shapeCasts_S32x1024_S32x1024) l⟩ :=
  ⟨e, rfl, fun _ => rfl, fun x => by subst hl; exact piece_val m c d j hd hb i _ h e x⟩

theorem ok_y (c : Dev nD) (i : Fin 32) (w : BitVec 32) (hw : w = BitVec.ofNat 32 (32 * (i).val))
    (h : ∀ a, k0_off2 c w a + S32x1024.size a ≤ S4096x1024.size a)
    (h' : ∀ a, (![i.val, 0, 0] : Fin 3 → Nat) a + S1x32x1024.size a ≤ S32x32x1024.size a) :
    PieceOK m c (0, i) ⟨Rect.unit (s := S4096x1024) (k0_off2 c w) S32x1024.size h,
      addf (shapeCast S32x1024 (View.readAt (Elt F) (xM : Memref sig .tc .vmem S4096x1024 .f32).view
              (Rect.unit (s := S4096x1024) (k0_off2 c w) S32x1024.size h).toLoadRect (Xs m c)) shapeCasts_S32x1024_S32x1024)
           (shapeCast S32x1024 (View.readAt (Elt F) (yrM : Memref sig .tc .vmem S32x32x1024 .f32).view
              (Rect.unit (s := S32x32x1024) ![i.val, 0, 0] S1x32x1024.size h').toLoadRect (Yc m c i)) shapeCasts_S1x32x1024_S32x1024)⟩ := by
  subst hw
  exact ok_of m c c 0 rfl rfl i _ h (off2_eq c i) _ ((readAt_slot32 c yrM i (Yc m c i)).trans (read_landed (slot32 yrM i) c _ _))

theorem ok_zs (c : Dev nD) (i : Fin 32) (w : BitVec 32) (hw : w = BitVec.ofNat 32 (32 * (i).val))
    (h : ∀ a, k0_off3 c w a + S32x1024.size a ≤ S4096x1024.size a)
    (h' : ∀ a, (![i.val, 0, 0] : Fin 3 → Nat) a + S1x32x1024.size a ≤ S32x32x1024.size a) :
    PieceOK m c (1, i) ⟨Rect.unit (s := S4096x1024) (k0_off3 c w) S32x1024.size h,
      addf (shapeCast S32x1024 (View.readAt (Elt F) (xM : Memref sig .tc .vmem S4096x1024 .f32).view
              (Rect.unit (s := S4096x1024) (k0_off3 c w) S32x1024.size h).toLoadRect (Xs m c)) shapeCasts_S32x1024_S32x1024)
           (shapeCast S32x1024 (View.readAt (Elt F) (zsM : Memref sig .tc .vmem S32x32x1024 .f32).view
              (Rect.unit (s := S32x32x1024) ![i.val, 0, 0] S1x32x1024.size h').toLoadRect (ZSc m c i)) shapeCasts_S1x32x1024_S32x1024)⟩ := by
  subst hw
  exact ok_of m c (zN c) 1 rfl (base1_zN c) i _ h (off3_eq c i) _ ((readAt_slot32 c zsM i (ZSc m c i)).trans (read_landed (slot32 zsM i) c _ _))

theorem ok_xs (c : Dev nD) (i : Fin 32) (w : BitVec 32) (hw : w = BitVec.ofNat 32 (32 * (i).val))
    (h : ∀ a, k0_off4 c w a + S32x1024.size a ≤ S4096x1024.size a)
    (h' : ∀ a, (![i.val, 0, 0] : Fin 3 → Nat) a + S1x32x1024.size a ≤ S32x32x1024.size a) :
    PieceOK m c (2, i) ⟨Rect.unit (s := S4096x1024) (k0_off4 c w) S32x1024.size h,
      addf (shapeCast S32x1024 (View.readAt (Elt F) (xM : Memref sig .tc .vmem S4096x1024 .f32).view
              (Rect.unit (s := S4096x1024) (k0_off4 c w) S32x1024.size h).toLoadRect (Xs m c)) shapeCasts_S32x1024_S32x1024)
           (shapeCast S32x1024 (View.readAt (Elt F) (xsM : Memref sig .tc .vmem S32x32x1024 .f32).view
              (Rect.unit (s := S32x32x1024) ![i.val, 0, 0] S1x32x1024.size h').toLoadRect (XSc m c i)) shapeCasts_S1x32x1024_S32x1024)⟩ := by
  subst hw
  exact ok_of m c (xN c) 2 rfl (base1_xN c) i _ h (off4_eq c i) _ ((readAt_slot32 c xsM i (XSc m c i)).trans (read_landed (slot32 xsM i) c _ _))

theorem ok_xd (c : Dev nD) (i : Fin 16) (w : BitVec 32) (hw : w = BitVec.ofNat 32 (32 * (lo i).val))
    (h : ∀ a, k0_off5 c w a + S32x1024.size a ≤ S4096x1024.size a)
    (h' : ∀ a, (![i.val, 0, 0] : Fin 3 → Nat) a + S1x32x1024.size a ≤ S16x32x1024.size a) :
    PieceOK m c (3, lo i) ⟨Rect.unit (s := S4096x1024) (k0_off5 c w) S32x1024.size h,
      addf (shapeCast S32x1024 (View.readAt (Elt F) (xM : Memref sig .tc .vmem S4096x1024 .f32).view
              (Rect.unit (s := S4096x1024) (k0_off5 c w) S32x1024.size h).toLoadRect (Xs m c)) shapeCasts_S32x1024_S32x1024)
           (shapeCast S32x1024 (View.readAt (Elt F) (xdM : Memref sig .tc .vmem S16x32x1024 .f32).view
              (Rect.unit (s := S16x32x1024) ![i.val, 0, 0] S1x32x1024.size h').toLoadRect (XDc m c i)) shapeCasts_S1x32x1024_S32x1024)⟩ := by
  subst hw
  exact ok_of m c (xN (zN c)) 3 rfl (base1_xN_zN c) (lo i) _ h (off5_eq c (lo i)) _
    (((readAt_slot16 c xdM i (XDc m c i)).trans (read_landed (slot16 xdM i) c _ _)).trans (congrArg (fun d => Vy m d (lo i)) (zN_xN c)))

theorem ok_zd (c : Dev nD) (i : Fin 16) (w : BitVec 32) (hw : w = BitVec.ofNat 32 (32 * (hi i).val))
    (h : ∀ a, k0_off5 c w a + S32x1024.size a ≤ S4096x1024.size a)
    (h' : ∀ a, (![i.val, 0, 0] : Fin 3 → Nat) a + S1x32x1024.size a ≤ S16x32x1024.size a) :
    PieceOK m c (3, hi i) ⟨Rect.unit (s := S4096x1024) (k0_off5 c w) S32x1024.size h,
      addf (shapeCast S32x1024 (View.readAt (Elt F) (xM : Memref sig .tc .vmem S4096x1024 .f32).view
              (Rect.unit (s := S4096x1024) (k0_off5 c w) S32x1024.size h).toLoadRect (Xs m c)) shapeCasts_S32x1024_S32x1024)
           (shapeCast S32x1024 (View.readAt (Elt F) (zdM : Memref sig .tc .vmem S16x32x1024 .f32).view
              (Rect.unit (s := S16x32x1024) ![i.val, 0, 0] S1x32x1024.size h').toLoadRect (ZDc m c i)) shapeCasts_S1x32x1024_S32x1024)⟩ := by
  subst hw
  exact ok_of m c (xN (zN c)) 3 rfl (base1_xN_zN c) (hi i) _ h (off5_eq c (hi i)) _ ((readAt_slot16 c zdM i (ZDc m c i)).trans (read_landed (slot16 zdM i) c _ _))

omit [FloatOps F] in
theorem cover_of_quarters (c : Dev nD) (L : List (View.Piece (Elt F) S4096x1024 .f32))
    (h : ∀ (j : Fin 4) (i : Fin 32), ∃ p ∈ L, p.1.off = ![quarter c j + 32 * i.val, 0] ∧ p.1.size = S32x1024.size ∧ ∀ a, p.1.stride a = 1) :
    ∀ y : S4096x1024.Idx, ∃ p ∈ L, y ∈ p.1.set := by
  intro y
  have hr : (y 0).val < 4096 := (y 0).isLt
  have hcol : (y 1).val < 1024 := (y 1).isLt
  obtain ⟨j, ⟨hj1, hj2⟩, -⟩ := row_cover c (y 0).val hr
  obtain ⟨p, hp, hoff, hsize, hstride⟩ := h j ⟨((y 0).val - quarter c j) / 32, by omega⟩
  refine ⟨p, hp, p.1.mem_set.mpr ?_⟩
  show ∀ a : Fin 2, _
  rw [Fin.forall_fin_two]
  constructor
  · refine ⟨((y 0).val - quarter c j) % 32, ?_, ?_⟩
    · rw [hsize]; show _ < 32; omega
    · rw [hoff, hstride]
      show (y 0).val = quarter c j + 32 * (((y 0).val - quarter c j) / 32) + 1 * (((y 0).val - quarter c j) % 32)
      omega
  · refine ⟨(y 1).val, ?_, ?_⟩
    · rw [hsize]; exact hcol
    · rw [hoff, hstride]; show (y 1).val = 0 + 1 * (y 1).val; omega

theorem out_closed (c : Dev nD) (g1 : (cc0_stg1_0 : Ref sig .tc).ty.Contents (Elt F))
    (L : List (View.Piece (Elt F) S4096x1024 .f32)) (K : List (Fin 4 × Fin 32))
    (hK : ∀ (j : Fin 4) (i : Fin 32), (j, i) ∈ K)
    (hLK : List.Forall₂ (fun p k => PieceOK m c k p) L K) :
    (Memref.whole cc0_stg1_0 : Memref sig .tc .vmem S4096x1024 .f32).view.writes (Elt F) g1 L = outAt m c := by
  refine writes_closed g1 (outAt m c) L (fun p hp => ?_) (cover_of_quarters c L fun j i => ?_)
  · obtain ⟨n, rfl⟩ := List.mem_iff_get.mp hp
    exact (hLK.get n.2 (n.2.trans_eq hLK.length_eq)).2.2.2
  · obtain ⟨n, hn⟩ := List.mem_iff_get.mp (hK j i)
    have h := hLK.get (n.2.trans_eq hLK.length_eq.symm) n.2
    rw [hn] at h
    exact ⟨_, List.get_mem _ _, h.1, h.2.1, h.2.2.1⟩

def storeKeys : List (Fin 4 × Fin 32) :=
  [(3, 31), (3, 30), (3, 29), (3, 28), (3, 27), (3, 26), (3, 25), (3, 24), (3, 23), (3, 22), (3, 21), (3, 20), (3, 19), (3, 18), (3, 17), (3, 16), (3, 15), (3, 14), (3, 13), (3, 12), (3, 11), (3, 10), (3, 9), (3, 8), (3, 7), (3, 6), (3, 5), (3, 4), (3, 3), (3, 2), (3, 1), (3, 0), (2, 31), (2, 30), (2, 29), (2, 28), (2, 27), (2, 26), (2, 25), (2, 24), (2, 23), (2, 22), (2, 21), (2, 20), (2, 19), (2, 18), (2, 17), (2, 16), (2, 15), (2, 14), (2, 13), (2, 12), (2, 11), (2, 10), (2, 9), (2, 8), (2, 7), (2, 6), (2, 5), (2, 4), (2, 3), (2, 2), (2, 1), (2, 0), (1, 31), (1, 30), (1, 29), (1, 28), (1, 27), (1, 26), (1, 25), (1, 24), (1, 23), (1, 22), (1, 21), (1, 20), (1, 19), (1, 18), (1, 17), (1, 16), (1, 15), (1, 14), (1, 13), (1, 12), (1, 11), (1, 10), (1, 9), (1, 8), (1, 7), (1, 6), (1, 5), (1, 4), (1, 3), (1, 2), (1, 1), (1, 0), (0, 31), (0, 30), (0, 29), (0, 28), (0, 27), (0, 26), (0, 25), (0, 24), (0, 23), (0, 22), (0, 21), (0, 20), (0, 19), (0, 18), (0, 17), (0, 16), (0, 15), (0, 14), (0, 13), (0, 12), (0, 11), (0, 10), (0, 9), (0, 8), (0, 7), (0, 6), (0, 5), (0, 4), (0, 3), (0, 2), (0, 1), (0, 0)]

theorem storeKeys_all : ∀ (j : Fin 4) (i : Fin 32), (j, i) ∈ storeKeys := by decide

/-- info: 'Cert.Kernel.Hand.out_closed' depends on axioms: [propext, Classical.choice, Quot.sound] -/
#guard_msgs in #print axioms out_closed

end Cert.Kernel.Hand

end
-- ==== Proof.HandKernel.EpiCells.lean ====
import proofs.«900716_g7700000000000717_dist_ar_v7x_xyz2x2x4_y_m4096_n1024_f32_1_alg».proof.Proof.HandKernel.Steps
import proofs.«900716_g7700000000000717_dist_ar_v7x_xyz2x2x4_y_m4096_n1024_f32_1_alg».proof.Proof.HandKernel.Unpack

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

-- The eight families, in the order of the cells' numbers, are the device's 256 own cells; past its one round each closes at zero.
theorem epi_cells (c : Dev nD) (K : Dev nD × CK → ℕ) :
    iprop(records m K
        ∗ (bigSep Finset.univ fun i : Fin 32 => atPos ER (ysendC c i) 1 ∅ 0)
        ∗ (bigSep Finset.univ fun i : Fin 32 => atPos ER (yrecvC c i) 1 ∅ 0)
        ∗ (bigSep Finset.univ fun j : Fin 48 => atPos ER (xsendC c j) 1 ∅ 0)
        ∗ (bigSep Finset.univ fun i : Fin 32 => atPos ER (xrecvSC c i) 1 ∅ 0)
        ∗ (bigSep Finset.univ fun i : Fin 16 => atPos ER (xrecvDC c i) 1 ∅ 0)
        ∗ (bigSep Finset.univ fun j : Fin 48 => atPos ER (zsendC c j) 1 ∅ 0)
        ∗ (bigSep Finset.univ fun i : Fin 32 => atPos ER (zrecvSC c i) 1 ∅ 0)
        ∗ (bigSep Finset.univ fun i : Fin 16 => atPos ER (zrecvDC c i) 1 ∅ 0))
      ⊢ |={Set.univ}=> bigSep Finset.univ fun j : Fin 256 => semVal ((c : Thread nD τ), osem j) 0 :=
  (sep_mono_right (ownDma_fam (F := F) c 1).2).trans (close_own m c K)

/-- info: 'Cert.Kernel.Hand.epi_cells' depends on axioms: [propext, Classical.choice, Quot.sound] -/
#guard_msgs in #print axioms epi_cells

end Cert.Kernel.Hand

end
-- ==== Proof.HandKernel.EpiLanding.lean ====
import proofs.«900716_g7700000000000717_dist_ar_v7x_xyz2x2x4_y_m4096_n1024_f32_1_alg».proof.Proof.HandKernel.Back

noncomputable section

namespace Cert.Kernel.Hand

open Cert.Kernel Cert.Kernel.Gen Idealize.ShloMosaic Idealize.ShloMosaic.TcCoe Idealize.SL Idealize.SL.RA Idealize.SL.BI
open Idealize.SL.BI.BIBase Idealize.SL.BI.Laws
open scoped Idealize.SL.BI

variable {F : FTy → Type} [FloatOps F]

local notation "𝕄" => MT nD τ sig Unit (Elt F) ℕ UU ℕ

/-- The shares handed back rejoin the shares that stayed, so every chunk and hence each landing buffer is whole. -/
theorem epi_landing (m : (ℓ : Loc nD τ sig) → Buf (Elt F) ℓ) (c : Dev nD) :
    (iprop((bigSep Finset.univ fun i : Fin 32 => iprop(xsendPay m c (i.castAdd 16) ∗ zsendPay m c (i.castAdd 16)
          ∗ chunkAt c (slot32 yrM i) qc (Yc m c i)))
        ∗ ((bigSep Finset.univ fun i : Fin 16 => chunkAt c (slot32 xsM (i.castAdd 16)) fullShare (XSc m c (i.castAdd 16)))
          ∗ bigSep Finset.univ fun i : Fin 16 => iprop(zsendPay m c (i.natAdd 32)
            ∗ chunkAt c (slot32 xsM (i.natAdd 16)) fullShare.right (XSc m c (i.natAdd 16))))
        ∗ (bigSep Finset.univ fun i : Fin 16 => chunkAt c (slot16 xdM i) fullShare (XDc m c i))
        ∗ ((bigSep Finset.univ fun i : Fin 16 => iprop(xsendPay m c (i.natAdd 32)
            ∗ chunkAt c (slot32 zsM (i.castAdd 16)) fullShare.right (ZSc m c (i.castAdd 16))))
          ∗ bigSep Finset.univ fun i : Fin 16 => chunkAt c (slot32 zsM (i.natAdd 16)) fullShare (ZSc m c (i.natAdd 16)))
        ∗ bigSep Finset.univ fun i : Fin 16 => chunkAt c (slot16 zdM i) fullShare (ZDc m c i)) : sProp 𝕄)
      ⊢ landing (F := F) c := by
  have e1 : ∀ i : Fin 32, xsendPay m c (i.castAdd 16) = chunkAt c (slot32 yrM i) qa (Yc m c i) := payload_xsend_lo m c
  have e2 : ∀ i : Fin 32, zsendPay m c (i.castAdd 16) = chunkAt c (slot32 yrM i) qb (Yc m c i) := payload_zsend_lo m c
  have e3 : ∀ i : Fin 16, xsendPay m c (i.natAdd 32) = chunkAt c (slot32 zsM (i.castAdd 16)) qa (ZSc m c (i.castAdd 16)) := payload_xsend_hi m c
  have e4 : ∀ i : Fin 16, zsendPay m c (i.natAdd 32) = chunkAt c (slot32 xsM (i.natAdd 16)) qa (XSc m c (i.natAdd 16)) := payload_zsend_hi m c
  simp only [e1, e2, e3, e4]
  exact Laws.sep_mono ((bigSep_mono fun i _ => (share3 c _ _).2.trans (chunk_some c _ _ _)).trans (land32_join c yrM (Memref.isWhole_whole _) fullShare (Jy m c)))
    (Laws.sep_mono (back32 c xsM (Memref.isWhole_whole _) (Jxs m c) (fun i => chunk_some c _ _ _) fun i => (share2 c _ _).2.trans (chunk_some c _ _ _))
    (Laws.sep_mono (back16 c xdM (Memref.isWhole_whole _) (Jxd m c) (XDc m c))
    (Laws.sep_mono (back32 c zsM (Memref.isWhole_whole _) (Jzs m c) (fun i => (share2 c _ _).2.trans (chunk_some c _ _ _)) fun i => chunk_some c _ _ _)
      (back16 c zdM (Memref.isWhole_whole _) (Jzd m c) (ZDc m c)))))

/-- info: 'Cert.Kernel.Hand.epi_landing' depends on axioms: [propext, Classical.choice, Quot.sound] -/
#guard_msgs in #print axioms epi_landing

end Cert.Kernel.Hand

end
-- ==== Proof.HandKernel.Body.lean ====
import proofs.«900716_g7700000000000717_dist_ar_v7x_xyz2x2x4_y_m4096_n1024_f32_1_alg».proof.Proof.HandKernel.Steps
import proofs.«900716_g7700000000000717_dist_ar_v7x_xyz2x2x4_y_m4096_n1024_f32_1_alg».proof.Proof.HandKernel.Unpack
import proofs.«900716_g7700000000000717_dist_ar_v7x_xyz2x2x4_y_m4096_n1024_f32_1_alg».proof.Proof.HandKernel.Back
import proofs.«900716_g7700000000000717_dist_ar_v7x_xyz2x2x4_y_m4096_n1024_f32_1_alg».proof.Proof.HandKernel.Close
import proofs.«900716_g7700000000000717_dist_ar_v7x_xyz2x2x4_y_m4096_n1024_f32_1_alg».proof.Proof.HandKernel.EpiCells
import proofs.«900716_g7700000000000717_dist_ar_v7x_xyz2x2x4_y_m4096_n1024_f32_1_alg».proof.Proof.HandKernel.EpiLanding

noncomputable section

namespace Cert.Kernel.Hand

open Cert.Kernel Cert.Kernel.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

attribute [-sl_rounds] payload_bar payload_bar0 payload_bar1 payload_bar2
attribute [local sl_rounds] ysendPay yrecvPay xrecvSPay xrecvDPay zrecvSPay zrecvDPay payload_xsend_lo payload_xsend_hi payload_zsend_lo payload_zsend_hi

omit [FloatOps F] in
theorem bigSep_fin3' (Φ : Fin 3 → sProp 𝕄) : bigSep Finset.univ Φ = iprop(Φ 0 ∗ Φ 1 ∗ Φ 2) := bigSep_univ_eq_bigSepL [0, 1, 2] (by decide) (by decide) Φ

omit [FloatOps F] in

theorem stg_view (c : Dev nD) (b : Ref sig .tc) (q : PosShare TreeShare) (f : Buf (Elt F) ((c : Thread nD τ).loc b)) :
    (((c : Thread nD τ).loc b) ↦{q} f : sProp 𝕄) = ((Memref.whole b : Memref sig .tc b.space b.ty.shape b.ty.elt).view.loc (c : Thread nD τ) ↦{q} f) := rfl

theorem free32 (c : Dev nD) (M : Memref sig .tc .vmem S32x32x1024 .f32) (hM : M.IsWhole) (f : Buf (Elt F) (M.view.loc (c : Thread nD τ))) :
    (M.view.loc (c : Thread nD τ) ↦{fullShare} f : sProp 𝕄) ⊢ bigSep Finset.univ fun i : Fin 32 => freeChunk c (slot32 M i) := by
  rw [land32_split c M hM fullShare f]
  exact bigSep_mono fun i _ => chunk_some c (slot32 M i) fullShare f
theorem free16 (c : Dev nD) (M : Memref sig .tc .vmem S16x32x1024 .f32) (hM : M.IsWhole) (f : Buf (Elt F) (M.view.loc (c : Thread nD τ))) :
    (M.view.loc (c : Thread nD τ) ↦{fullShare} f : sProp 𝕄) ⊢ bigSep Finset.univ fun i : Fin 16 => freeChunk c (slot16 M i) := by
  rw [land16_split c M hM fullShare f]
  exact bigSep_mono fun i _ => chunk_some c (slot16 M i) fullShare f

omit [FloatOps F] in
@[local sl_rounds] theorem payload_bar0p (c : Dev nD) : (Rd (F := F) m).payload (barCell (yN c)) 0 0 = (bigSep Finset.univ fun i : Fin 32 => freeChunk c (slot32 yrM i) : sProp 𝕄) := by
  rw [payload_bar0, yN_yN]
omit [FloatOps F] in
@[local sl_rounds] theorem payload_bar1p (c : Dev nD) : (Rd (F := F) m).payload (barCell (xN c)) 0 1 = (iprop((bigSep Finset.univ fun i : Fin 32 => freeChunk c (slot32 xsM i)) ∗ bigSep Finset.univ fun i : Fin 16 => freeChunk c (slot16 xdM i)) : sProp 𝕄) := by
  rw [payload_bar1, xN_xN]
omit [FloatOps F] in
@[local sl_rounds] theorem payload_bar2p (c : Dev nD) : (Rd (F := F) m).payload (barCell (zN c)) 0 2 = (iprop((bigSep Finset.univ fun i : Fin 32 => freeChunk c (slot32 zsM i)) ∗ bigSep Finset.univ fun i : Fin 16 => freeChunk c (slot16 zdM i)) : sProp 𝕄) := by
  rw [payload_bar2, zN_zN]

set_option maxHeartbeats 8000000 in
set_option maxRecDepth 100000 in
theorem sound_body (c : Dev nD) (K : Dev nD × CK → ℕ) (Kt : PUnit → sProp 𝕄) (W : Waits sig Unit)
    (g1 : (cc0_stg1_0 : Ref sig .tc).ty.Contents (Elt F))
    (f0 : Buf (Elt F) ((c : Thread nD τ).loc cc0_scratch0)) (f1 : Buf (Elt F) ((c : Thread nD τ).loc cc0_scratch1))
    (f2 : Buf (Elt F) ((c : Thread nD τ).loc cc0_scratch2)) (f3 : Buf (Elt F) ((c : Thread nD τ).loc cc0_scratch3))
    (f4 : Buf (Elt F) ((c : Thread nD τ).loc cc0_scratch4)) :
    iprop(records m K ∗ ownPos c ∗ payToks c ∗ ownCred c ∗ levAts L lv
        ∗ (((c : Thread nD τ).loc cc0_scratch0) ↦{fullShare} f0) ∗ (((c : Thread nD τ).loc cc0_scratch1) ↦{fullShare} f1)
        ∗ (((c : Thread nD τ).loc cc0_scratch2) ↦{fullShare} f2) ∗ (((c : Thread nD τ).loc cc0_scratch3) ↦{fullShare} f3)
        ∗ (((c : Thread nD τ).loc cc0_scratch4) ↦{fullShare} f4)
        ∗ owes (c : Thread nD τ) (O₀ c) W
        ∗ (((c : Thread nD τ).loc cc0_stg0_0) ↦{fullShare} Xs m c)
        ∗ (((c : Thread nD τ).loc cc0_stg1_0) ↦{fullShare} g1)
        ∗ (iprop(landing c ∗ (bigSep Finset.univ fun j : Fin 256 => semVal ((c : Thread nD τ), osem j) 0)
              ∗ (∃ W', owes (c : Thread nD τ) 0 W')
              ∗ (((c : Thread nD τ).loc cc0_stg0_0) ↦{fullShare} Xs m c)
              ∗ (((c : Thread nD τ).loc cc0_stg1_0) ↦{fullShare} outAt m c)) -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12) Kt := by
  iintro ⟨#Hrec, Hpos, Htok, Hcred, #Hlev, Hs0, Hs1, Hs2, Hs3, Hs4, HO, Hx, Hout, Hk⟩
  have hmw : ∀ (k : Nat) (sm : SemLoc sig), lv ((c : Thread nD τ), sm) () < (if k < 32 then 2 else if k < 96 then 3 else if k < 128 then 4 else 5) →
      ((levAts L lv : sProp 𝕄) ⊢ MayWait (c : Thread nD τ) sm () (Orem c k)) := fun k sm h => mayWait_rem (F := F) c k sm h
  unfold ownPos

  ihave Hch0 := (free32 (F := F) c yrM (Memref.isWhole_whole _) f0) $$ Hs0
  ihave Hch1 := (free32 (F := F) c xsM (Memref.isWhole_whole _) f1) $$ Hs1
  ihave Hch2 := (free16 (F := F) c xdM (Memref.isWhole_whole _) f2) $$ Hs2
  ihave Hch3 := (free32 (F := F) c zsM (Memref.isWhole_whole _) f3) $$ Hs3
  ihave Hch4 := (free16 (F := F) c zdM (Memref.isWhole_whole _) f4) $$ Hs4

  ihave Hx' := (Entails.of_eq (xrows_split (F := F) c (Xs m c))) $$ Hx
  icases Hx' with ⟨Hx, HxRows, HxRest⟩
  ihave Hxv := (Entails.of_eq (stg_view (F := F) c cc0_stg0_0 fullShare.right (Xs m c))) $$ Hx
  ihave Houtv := (Entails.of_eq (stg_view (F := F) c cc0_stg1_0 fullShare g1)) $$ Hout
  ihave HxRows' := (Entails.of_eq (bigSep_fin32 (F := F) fun i : Fin 32 => chunkAt c (xrow c i) qa (Xs m c))) $$ HxRows
  icases HxRows' with ⟨HxR0, HxR1, HxR2, HxR3, HxR4, HxR5, HxR6, HxR7, HxR8, HxR9, HxR10, HxR11, HxR12, HxR13, HxR14, HxR15, HxR16, HxR17, HxR18, HxR19, HxR20, HxR21, HxR22, HxR23, HxR24, HxR25, HxR26, HxR27, HxR28, HxR29, HxR30, HxR31⟩

  unfold payToks
  icases Htok with ⟨Htby, Htbx, Htbz, HtY, HtXS, HtXR, HtXD, HtZS, HtZR, HtZD⟩
  ihave HtY' := (Entails.of_eq (bigSep_fin32 (F := F) fun i : Fin 32 => iprop(dutyTok ER (ysendC c i) 0 (0 : Fin 3) ∗ dutyTok ER (yrecvC (yN c) i) 0 (0 : Fin 3)))) $$ HtY
  icases HtY' with ⟨⟨HtYS0, HtYR0⟩, ⟨HtYS1, HtYR1⟩, ⟨HtYS2, HtYR2⟩, ⟨HtYS3, HtYR3⟩, ⟨HtYS4, HtYR4⟩, ⟨HtYS5, HtYR5⟩, ⟨HtYS6, HtYR6⟩, ⟨HtYS7, HtYR7⟩, ⟨HtYS8, HtYR8⟩, ⟨HtYS9, HtYR9⟩, ⟨HtYS10, HtYR10⟩, ⟨HtYS11, HtYR11⟩, ⟨HtYS12, HtYR12⟩, ⟨HtYS13, HtYR13⟩, ⟨HtYS14, HtYR14⟩, ⟨HtYS15, HtYR15⟩, ⟨HtYS16, HtYR16⟩, ⟨HtYS17, HtYR17⟩, ⟨HtYS18, HtYR18⟩, ⟨HtYS19, HtYR19⟩, ⟨HtYS20, HtYR20⟩, ⟨HtYS21, HtYR21⟩, ⟨HtYS22, HtYR22⟩, ⟨HtYS23, HtYR23⟩, ⟨HtYS24, HtYR24⟩, ⟨HtYS25, HtYR25⟩, ⟨HtYS26, HtYR26⟩, ⟨HtYS27, HtYR27⟩, ⟨HtYS28, HtYR28⟩, ⟨HtYS29, HtYR29⟩, ⟨HtYS30, HtYR30⟩, ⟨HtYS31, HtYR31⟩⟩
  unfold ownCred
  icases Hcred with ⟨HcB, HcY, HcXS, HcXD, HcZS, HcZD⟩
  ihave Hpos' := (ownPos_fam (F := F) c 0).1 $$ Hpos
  icases Hpos' with ⟨HatB, HpYS, HpYR, HpXS, HpXR, HpXD, HpZS, HpZR, HpZD⟩
  ihave #HIb := (inv_bar (F := F) m K c) $$ Hrec
  ihave #HIby := (inv_bar (F := F) m K (yN c)) $$ Hrec
  ihave #HIbx := (inv_bar (F := F) m K (xN c)) $$ Hrec
  ihave #HIbz := (inv_bar (F := F) m K (zN c)) $$ Hrec
  ihave #Hrby := (reached_bar (F := F) m K (yN c)) $$ Hrec
  ihave #Hrbx := (reached_bar (F := F) m K (xN c)) $$ Hrec
  ihave #Hrbz := (reached_bar (F := F) m K (zN c)) $$ Hrec
  unfold O₀
  sl_unfold [cc0_body]
  sl_exec

  have hbar : (bigSep Finset.univ fun d : Fin 3 => (Rd (F := F) m).payload (barCell c) 0 d)
      = iprop((bigSep Finset.univ fun i : Fin 32 => freeChunk (yN c) (slot32 yrM i))
          ∗ ((bigSep Finset.univ fun i : Fin 32 => freeChunk (xN c) (slot32 xsM i)) ∗ bigSep Finset.univ fun i : Fin 16 => freeChunk (xN c) (slot16 xdM i))
          ∗ ((bigSep Finset.univ fun i : Fin 32 => freeChunk (zN c) (slot32 zsM i)) ∗ bigSep Finset.univ fun i : Fin 16 => freeChunk (zN c) (slot16 zdM i))) := by
    rw [bigSep_fin3', payload_bar0, payload_bar1, payload_bar2]
  ihave Hp := (Entails.of_eq hbar) $$ HatB_pay1
  icases Hp with ⟨HdY, ⟨HdXS, HdXD⟩, ⟨HdZS, HdZD⟩⟩
  ihave HdY' := (Entails.of_eq (bigSep_fin32 (F := F) fun i : Fin 32 => freeChunk (yN c) (slot32 yrM i))) $$ HdY
  icases HdY' with ⟨⟨%fdy0, HdY0⟩, ⟨%fdy1, HdY1⟩, ⟨%fdy2, HdY2⟩, ⟨%fdy3, HdY3⟩, ⟨%fdy4, HdY4⟩, ⟨%fdy5, HdY5⟩, ⟨%fdy6, HdY6⟩, ⟨%fdy7, HdY7⟩, ⟨%fdy8, HdY8⟩, ⟨%fdy9, HdY9⟩, ⟨%fdy10, HdY10⟩, ⟨%fdy11, HdY11⟩, ⟨%fdy12, HdY12⟩, ⟨%fdy13, HdY13⟩, ⟨%fdy14, HdY14⟩, ⟨%fdy15, HdY15⟩, ⟨%fdy16, HdY16⟩, ⟨%fdy17, HdY17⟩, ⟨%fdy18, HdY18⟩, ⟨%fdy19, HdY19⟩, ⟨%fdy20, HdY20⟩, ⟨%fdy21, HdY21⟩, ⟨%fdy22, HdY22⟩, ⟨%fdy23, HdY23⟩, ⟨%fdy24, HdY24⟩, ⟨%fdy25, HdY25⟩, ⟨%fdy26, HdY26⟩, ⟨%fdy27, HdY27⟩, ⟨%fdy28, HdY28⟩, ⟨%fdy29, HdY29⟩, ⟨%fdy30, HdY30⟩, ⟨%fdy31, HdY31⟩⟩

  iapply (ystepAt m c K 0 _ (dev4_eq c) fdy0 _) $$ [$Hrec $HxR0 $HdY0 HO $HtYS0 $HtYR0]
  · iexact HO
  iintro ⟨HcrYS0, HO⟩
  sl_exec

  iapply (ystepAt m c K 1 _ (dev5_eq c) fdy1 _) $$ [$Hrec $HxR1 $HdY1 HO $HtYS1 $HtYR1]
  · iexact HO
  iintro ⟨HcrYS1, HO⟩
  sl_exec

  iapply (ystepAt m c K 2 _ (dev6_eq c) fdy2 _) $$ [$Hrec $HxR2 $HdY2 HO $HtYS2 $HtYR2]
  · iexact HO
  iintro ⟨HcrYS2, HO⟩
  sl_exec

  iapply (ystepAt m c K 3 _ (dev7_eq c) fdy3 _) $$ [$Hrec $HxR3 $HdY3 HO $HtYS3 $HtYR3]
  · iexact HO
  iintro ⟨HcrYS3, HO⟩
  sl_exec

  iapply (ystepAt m c K 4 _ (dev8_eq c) fdy4 _) $$ [$Hrec $HxR4 $HdY4 HO $HtYS4 $HtYR4]
  · iexact HO
  iintro ⟨HcrYS4, HO⟩
  sl_exec

  iapply (ystepAt m c K 5 _ (dev9_eq c) fdy5 _) $$ [$Hrec $HxR5 $HdY5 HO $HtYS5 $HtYR5]
  · iexact HO
  iintro ⟨HcrYS5, HO⟩
  sl_exec

  iapply (ystepAt m c K 6 _ (dev10_eq c) fdy6 _) $$ [$Hrec $HxR6 $HdY6 HO $HtYS6 $HtYR6]
  · iexact HO
  iintro ⟨HcrYS6, HO⟩
  sl_exec

  iapply (ystepAt m c K 7 _ (dev11_eq c) fdy7 _) $$ [$Hrec $HxR7 $HdY7 HO $HtYS7 $HtYR7]
  · iexact HO
  iintro ⟨HcrYS7, HO⟩
  sl_exec

  iapply (ystepAt m c K 8 _ (dev12_eq c) fdy8 _) $$ [$Hrec $HxR8 $HdY8 HO $HtYS8 $HtYR8]
  · iexact HO
  iintro ⟨HcrYS8, HO⟩
  sl_exec

  iapply (ystepAt m c K 9 _ (dev13_eq c) fdy9 _) $$ [$Hrec $HxR9 $HdY9 HO $HtYS9 $HtYR9]
  · iexact HO
  iintro ⟨HcrYS9, HO⟩
  sl_exec

  iapply (ystepAt m c K 10 _ (dev14_eq c) fdy10 _) $$ [$Hrec $HxR10 $HdY10 HO $HtYS10 $HtYR10]
  · iexact HO
  iintro ⟨HcrYS10, HO⟩
  sl_exec

  iapply (ystepAt m c K 11 _ (dev15_eq c) fdy11 _) $$ [$Hrec $HxR11 $HdY11 HO $HtYS11 $HtYR11]
  · iexact HO
  iintro ⟨HcrYS11, HO⟩
  sl_exec

  iapply (ystepAt m c K 12 _ (dev16_eq c) fdy12 _) $$ [$Hrec $HxR12 $HdY12 HO $HtYS12 $HtYR12]
  · iexact HO
  iintro ⟨HcrYS12, HO⟩
  sl_exec

  iapply (ystepAt m c K 13 _ (dev17_eq c) fdy13 _) $$ [$Hrec $HxR13 $HdY13 HO $HtYS13 $HtYR13]
  · iexact HO
  iintro ⟨HcrYS13, HO⟩
  sl_exec

  iapply (ystepAt m c K 14 _ (dev18_eq c) fdy14 _) $$ [$Hrec $HxR14 $HdY14 HO $HtYS14 $HtYR14]
  · iexact HO
  iintro ⟨HcrYS14, HO⟩
  sl_exec

  iapply (ystepAt m c K 15 _ (dev19_eq c) fdy15 _) $$ [$Hrec $HxR15 $HdY15 HO $HtYS15 $HtYR15]
  · iexact HO
  iintro ⟨HcrYS15, HO⟩
  sl_exec

  iapply (ystepAt m c K 16 _ (dev20_eq c) fdy16 _) $$ [$Hrec $HxR16 $HdY16 HO $HtYS16 $HtYR16]
  · iexact HO
  iintro ⟨HcrYS16, HO⟩
  sl_exec

  iapply (ystepAt m c K 17 _ (dev21_eq c) fdy17 _) $$ [$Hrec $HxR17 $HdY17 HO $HtYS17 $HtYR17]
  · iexact HO
  iintro ⟨HcrYS17, HO⟩
  sl_exec

  iapply (ystepAt m c K 18 _ (dev22_eq c) fdy18 _) $$ [$Hrec $HxR18 $HdY18 HO $HtYS18 $HtYR18]
  · iexact HO
  iintro ⟨HcrYS18, HO⟩
  sl_exec

  iapply (ystepAt m c K 19 _ (dev23_eq c) fdy19 _) $$ [$Hrec $HxR19 $HdY19 HO $HtYS19 $HtYR19]
  · iexact HO
  iintro ⟨HcrYS19, HO⟩
  sl_exec

  iapply (ystepAt m c K 20 _ (dev24_eq c) fdy20 _) $$ [$Hrec $HxR20 $HdY20 HO $HtYS20 $HtYR20]
  · iexact HO
  iintro ⟨HcrYS20, HO⟩
  sl_exec

  iapply (ystepAt m c K 21 _ (dev25_eq c) fdy21 _) $$ [$Hrec $HxR21 $HdY21 HO $HtYS21 $HtYR21]
  · iexact HO
  iintro ⟨HcrYS21, HO⟩
  sl_exec

  iapply (ystepAt m c K 22 _ (dev26_eq c) fdy22 _) $$ [$Hrec $HxR22 $HdY22 HO $HtYS22 $HtYR22]
  · iexact HO
  iintro ⟨HcrYS22, HO⟩
  sl_exec

  iapply (ystepAt m c K 23 _ (dev27_eq c) fdy23 _) $$ [$Hrec $HxR23 $HdY23 HO $HtYS23 $HtYR23]
  · iexact HO
  iintro ⟨HcrYS23, HO⟩
  sl_exec

  iapply (ystepAt m c K 24 _ (dev28_eq c) fdy24 _) $$ [$Hrec $HxR24 $HdY24 HO $HtYS24 $HtYR24]
  · iexact HO
  iintro ⟨HcrYS24, HO⟩
  sl_exec

  iapply (ystepAt m c K 25 _ (dev29_eq c) fdy25 _) $$ [$Hrec $HxR25 $HdY25 HO $HtYS25 $HtYR25]
  · iexact HO
  iintro ⟨HcrYS25, HO⟩
  sl_exec

  iapply (ystepAt m c K 26 _ (dev30_eq c) fdy26 _) $$ [$Hrec $HxR26 $HdY26 HO $HtYS26 $HtYR26]
  · iexact HO
  iintro ⟨HcrYS26, HO⟩
  sl_exec

  iapply (ystepAt m c K 27 _ (dev31_eq c) fdy27 _) $$ [$Hrec $HxR27 $HdY27 HO $HtYS27 $HtYR27]
  · iexact HO
  iintro ⟨HcrYS27, HO⟩
  sl_exec

  iapply (ystepAt m c K 28 _ (dev32_eq c) fdy28 _) $$ [$Hrec $HxR28 $HdY28 HO $HtYS28 $HtYR28]
  · iexact HO
  iintro ⟨HcrYS28, HO⟩
  sl_exec

  iapply (ystepAt m c K 29 _ (dev33_eq c) fdy29 _) $$ [$Hrec $HxR29 $HdY29 HO $HtYS29 $HtYR29]
  · iexact HO
  iintro ⟨HcrYS29, HO⟩
  sl_exec

  iapply (ystepAt m c K 30 _ (dev34_eq c) fdy30 _) $$ [$Hrec $HxR30 $HdY30 HO $HtYS30 $HtYR30]
  · iexact HO
  iintro ⟨HcrYS30, HO⟩
  sl_exec

  iapply (ystepAt m c K 31 _ (dev35_eq c) fdy31 _) $$ [$Hrec $HxR31 $HdY31 HO $HtYS31 $HtYR31]
  · iexact HO
  iintro ⟨HcrYS31, HO⟩

  ihave HpYR' := (Entails.of_eq (bigSep_fin32 (F := F) fun i : Fin 32 => atPos ER (yrecvC c i) 0 ∅ 0)) $$ HpYR
  icases HpYR' with ⟨HaYR0, HaYR1, HaYR2, HaYR3, HaYR4, HaYR5, HaYR6, HaYR7, HaYR8, HaYR9, HaYR10, HaYR11, HaYR12, HaYR13, HaYR14, HaYR15, HaYR16, HaYR17, HaYR18, HaYR19, HaYR20, HaYR21, HaYR22, HaYR23, HaYR24, HaYR25, HaYR26, HaYR27, HaYR28, HaYR29, HaYR30, HaYR31⟩
  ihave HcY' := (Entails.of_eq (bigSep_fin32 (F := F) fun i : Fin 32 => cred (tallyAt (yrecvC c i) () N))) $$ HcY
  icases HcY' with ⟨HcY0, HcY1, HcY2, HcY3, HcY4, HcY5, HcY6, HcY7, HcY8, HcY9, HcY10, HcY11, HcY12, HcY13, HcY14, HcY15, HcY16, HcY17, HcY18, HcY19, HcY20, HcY21, HcY22, HcY23, HcY24, HcY25, HcY26, HcY27, HcY28, HcY29, HcY30, HcY31⟩
  ihave #H := ((rec_fam (F := F) m K _ (inv_yrecv (F := F) m K c)).trans (Entails.of_eq (bigSep_fin32 (F := F) _))) $$ Hrec
  icases H with ⟨#HI_yrecv0, #HI_yrecv1, #HI_yrecv2, #HI_yrecv3, #HI_yrecv4, #HI_yrecv5, #HI_yrecv6, #HI_yrecv7, #HI_yrecv8, #HI_yrecv9, #HI_yrecv10, #HI_yrecv11, #HI_yrecv12, #HI_yrecv13, #HI_yrecv14, #HI_yrecv15, #HI_yrecv16, #HI_yrecv17, #HI_yrecv18, #HI_yrecv19, #HI_yrecv20, #HI_yrecv21, #HI_yrecv22, #HI_yrecv23, #HI_yrecv24, #HI_yrecv25, #HI_yrecv26, #HI_yrecv27, #HI_yrecv28, #HI_yrecv29, #HI_yrecv30, #HI_yrecv31⟩
  ihave HtXS' := (Entails.of_eq (bigSep_fin48 (F := F) fun j : Fin 48 => dutyTok ER (xsendC c j) 0 (0 : Fin 3))) $$ HtXS
  icases HtXS' with ⟨HtXS0, HtXS1, HtXS2, HtXS3, HtXS4, HtXS5, HtXS6, HtXS7, HtXS8, HtXS9, HtXS10, HtXS11, HtXS12, HtXS13, HtXS14, HtXS15, HtXS16, HtXS17, HtXS18, HtXS19, HtXS20, HtXS21, HtXS22, HtXS23, HtXS24, HtXS25, HtXS26, HtXS27, HtXS28, HtXS29, HtXS30, HtXS31, HtXS32, HtXS33, HtXS34, HtXS35, HtXS36, HtXS37, HtXS38, HtXS39, HtXS40, HtXS41, HtXS42, HtXS43, HtXS44, HtXS45, HtXS46, HtXS47⟩
  ihave HtXR' := (Entails.of_eq (bigSep_fin32 (F := F) fun i : Fin 32 => dutyTok ER (xrecvSC (xN c) i) 0 (0 : Fin 3))) $$ HtXR
  icases HtXR' with ⟨HtXR0, HtXR1, HtXR2, HtXR3, HtXR4, HtXR5, HtXR6, HtXR7, HtXR8, HtXR9, HtXR10, HtXR11, HtXR12, HtXR13, HtXR14, HtXR15, HtXR16, HtXR17, HtXR18, HtXR19, HtXR20, HtXR21, HtXR22, HtXR23, HtXR24, HtXR25, HtXR26, HtXR27, HtXR28, HtXR29, HtXR30, HtXR31⟩
  ihave HtZS' := (Entails.of_eq (bigSep_fin48 (F := F) fun j : Fin 48 => dutyTok ER (zsendC c j) 0 (0 : Fin 3))) $$ HtZS
  icases HtZS' with ⟨HtZS0, HtZS1, HtZS2, HtZS3, HtZS4, HtZS5, HtZS6, HtZS7, HtZS8, HtZS9, HtZS10, HtZS11, HtZS12, HtZS13, HtZS14, HtZS15, HtZS16, HtZS17, HtZS18, HtZS19, HtZS20, HtZS21, HtZS22, HtZS23, HtZS24, HtZS25, HtZS26, HtZS27, HtZS28, HtZS29, HtZS30, HtZS31, HtZS32, HtZS33, HtZS34, HtZS35, HtZS36, HtZS37, HtZS38, HtZS39, HtZS40, HtZS41, HtZS42, HtZS43, HtZS44, HtZS45, HtZS46, HtZS47⟩
  ihave HtZR' := (Entails.of_eq (bigSep_fin32 (F := F) fun i : Fin 32 => dutyTok ER (zrecvSC (zN c) i) 0 (0 : Fin 3))) $$ HtZR
  icases HtZR' with ⟨HtZR0, HtZR1, HtZR2, HtZR3, HtZR4, HtZR5, HtZR6, HtZR7, HtZR8, HtZR9, HtZR10, HtZR11, HtZR12, HtZR13, HtZR14, HtZR15, HtZR16, HtZR17, HtZR18, HtZR19, HtZR20, HtZR21, HtZR22, HtZR23, HtZR24, HtZR25, HtZR26, HtZR27, HtZR28, HtZR29, HtZR30, HtZR31⟩
  ihave HdXS' := (Entails.of_eq (bigSep_fin32 (F := F) fun i : Fin 32 => freeChunk (xN c) (slot32 xsM i))) $$ HdXS
  icases HdXS' with ⟨⟨%fdxs0, HdXS0⟩, ⟨%fdxs1, HdXS1⟩, ⟨%fdxs2, HdXS2⟩, ⟨%fdxs3, HdXS3⟩, ⟨%fdxs4, HdXS4⟩, ⟨%fdxs5, HdXS5⟩, ⟨%fdxs6, HdXS6⟩, ⟨%fdxs7, HdXS7⟩, ⟨%fdxs8, HdXS8⟩, ⟨%fdxs9, HdXS9⟩, ⟨%fdxs10, HdXS10⟩, ⟨%fdxs11, HdXS11⟩, ⟨%fdxs12, HdXS12⟩, ⟨%fdxs13, HdXS13⟩, ⟨%fdxs14, HdXS14⟩, ⟨%fdxs15, HdXS15⟩, ⟨%fdxs16, HdXS16⟩, ⟨%fdxs17, HdXS17⟩, ⟨%fdxs18, HdXS18⟩, ⟨%fdxs19, HdXS19⟩, ⟨%fdxs20, HdXS20⟩, ⟨%fdxs21, HdXS21⟩, ⟨%fdxs22, HdXS22⟩, ⟨%fdxs23, HdXS23⟩, ⟨%fdxs24, HdXS24⟩, ⟨%fdxs25, HdXS25⟩, ⟨%fdxs26, HdXS26⟩, ⟨%fdxs27, HdXS27⟩, ⟨%fdxs28, HdXS28⟩, ⟨%fdxs29, HdXS29⟩, ⟨%fdxs30, HdXS30⟩, ⟨%fdxs31, HdXS31⟩⟩
  ihave HdZS' := (Entails.of_eq (bigSep_fin32 (F := F) fun i : Fin 32 => freeChunk (zN c) (slot32 zsM i))) $$ HdZS
  icases HdZS' with ⟨⟨%fdzs0, HdZS0⟩, ⟨%fdzs1, HdZS1⟩, ⟨%fdzs2, HdZS2⟩, ⟨%fdzs3, HdZS3⟩, ⟨%fdzs4, HdZS4⟩, ⟨%fdzs5, HdZS5⟩, ⟨%fdzs6, HdZS6⟩, ⟨%fdzs7, HdZS7⟩, ⟨%fdzs8, HdZS8⟩, ⟨%fdzs9, HdZS9⟩, ⟨%fdzs10, HdZS10⟩, ⟨%fdzs11, HdZS11⟩, ⟨%fdzs12, HdZS12⟩, ⟨%fdzs13, HdZS13⟩, ⟨%fdzs14, HdZS14⟩, ⟨%fdzs15, HdZS15⟩, ⟨%fdzs16, HdZS16⟩, ⟨%fdzs17, HdZS17⟩, ⟨%fdzs18, HdZS18⟩, ⟨%fdzs19, HdZS19⟩, ⟨%fdzs20, HdZS20⟩, ⟨%fdzs21, HdZS21⟩, ⟨%fdzs22, HdZS22⟩, ⟨%fdzs23, HdZS23⟩, ⟨%fdzs24, HdZS24⟩, ⟨%fdzs25, HdZS25⟩, ⟨%fdzs26, HdZS26⟩, ⟨%fdzs27, HdZS27⟩, ⟨%fdzs28, HdZS28⟩, ⟨%fdzs29, HdZS29⟩, ⟨%fdzs30, HdZS30⟩, ⟨%fdzs31, HdZS31⟩⟩
  sl_exec

  ihave Hy0' := (share3 (F := F) c (slot32 yrM 0) (Yc m c 0)).1 $$ HaYR0_pay1
  icases Hy0' with ⟨HyA0, HyB0, HyC0⟩
  iapply (xsstepAt m c K 0 _ (dev36_eq c) fdxs0 _) $$ [$Hrec $HyA0 $HdXS0 HO HtXS0 $HtXR0]
  · isplitl [HO]; · iexact HO
    iexact HtXS0
  iintro ⟨HcrXS0, HO⟩
  sl_exec
  iapply (zsstepAt m c K 0 _ (dev37_eq c) fdzs0 _) $$ [$Hrec $HyB0 $HdZS0 HO HtZS0 $HtZR0]
  · isplitl [HO]; · iexact HO
    iexact HtZS0
  iintro ⟨HcrZS0, HO⟩
  sl_exec

  ihave Hy1' := (share3 (F := F) c (slot32 yrM 1) (Yc m c 1)).1 $$ HaYR1_pay1
  icases Hy1' with ⟨HyA1, HyB1, HyC1⟩
  iapply (xsstepAt m c K 1 _ (dev38_eq c) fdxs1 _) $$ [$Hrec $HyA1 $HdXS1 HO HtXS1 $HtXR1]
  · isplitl [HO]; · iexact HO
    iexact HtXS1
  iintro ⟨HcrXS1, HO⟩
  sl_exec
  iapply (zsstepAt m c K 1 _ (dev39_eq c) fdzs1 _) $$ [$Hrec $HyB1 $HdZS1 HO HtZS1 $HtZR1]
  · isplitl [HO]; · iexact HO
    iexact HtZS1
  iintro ⟨HcrZS1, HO⟩
  sl_exec

  ihave Hy2' := (share3 (F := F) c (slot32 yrM 2) (Yc m c 2)).1 $$ HaYR2_pay1
  icases Hy2' with ⟨HyA2, HyB2, HyC2⟩
  iapply (xsstepAt m c K 2 _ (dev40_eq c) fdxs2 _) $$ [$Hrec $HyA2 $HdXS2 HO HtXS2 $HtXR2]
  · isplitl [HO]; · iexact HO
    iexact HtXS2
  iintro ⟨HcrXS2, HO⟩
  sl_exec
  iapply (zsstepAt m c K 2 _ (dev41_eq c) fdzs2 _) $$ [$Hrec $HyB2 $HdZS2 HO HtZS2 $HtZR2]
  · isplitl [HO]; · iexact HO
    iexact HtZS2
  iintro ⟨HcrZS2, HO⟩
  sl_exec

  ihave Hy3' := (share3 (F := F) c (slot32 yrM 3) (Yc m c 3)).1 $$ HaYR3_pay1
  icases Hy3' with ⟨HyA3, HyB3, HyC3⟩
  iapply (xsstepAt m c K 3 _ (dev42_eq c) fdxs3 _) $$ [$Hrec $HyA3 $HdXS3 HO HtXS3 $HtXR3]
  · isplitl [HO]; · iexact HO
    iexact HtXS3
  iintro ⟨HcrXS3, HO⟩
  sl_exec
  iapply (zsstepAt m c K 3 _ (dev43_eq c) fdzs3 _) $$ [$Hrec $HyB3 $HdZS3 HO HtZS3 $HtZR3]
  · isplitl [HO]; · iexact HO
    iexact HtZS3
  iintro ⟨HcrZS3, HO⟩
  sl_exec

  ihave Hy4' := (share3 (F := F) c (slot32 yrM 4) (Yc m c 4)).1 $$ HaYR4_pay1
  icases Hy4' with ⟨HyA4, HyB4, HyC4⟩
  iapply (xsstepAt m c K 4 _ (dev44_eq c) fdxs4 _) $$ [$Hrec $HyA4 $HdXS4 HO HtXS4 $HtXR4]
  · isplitl [HO]; · iexact HO
    iexact HtXS4
  iintro ⟨HcrXS4, HO⟩
  sl_exec
  iapply (zsstepAt m c K 4 _ (dev45_eq c) fdzs4 _) $$ [$Hrec $HyB4 $HdZS4 HO HtZS4 $HtZR4]
  · isplitl [HO]; · iexact HO
    iexact HtZS4
  iintro ⟨HcrZS4, HO⟩
  sl_exec

  ihave Hy5' := (share3 (F := F) c (slot32 yrM 5) (Yc m c 5)).1 $$ HaYR5_pay1
  icases Hy5' with ⟨HyA5, HyB5, HyC5⟩
  iapply (xsstepAt m c K 5 _ (dev46_eq c) fdxs5 _) $$ [$Hrec $HyA5 $HdXS5 HO HtXS5 $HtXR5]
  · isplitl [HO]; · iexact HO
    iexact HtXS5
  iintro ⟨HcrXS5, HO⟩
  sl_exec
  iapply (zsstepAt m c K 5 _ (dev47_eq c) fdzs5 _) $$ [$Hrec $HyB5 $HdZS5 HO HtZS5 $HtZR5]
  · isplitl [HO]; · iexact HO
    iexact HtZS5
  iintro ⟨HcrZS5, HO⟩
  sl_exec

  ihave Hy6' := (share3 (F := F) c (slot32 yrM 6) (Yc m c 6)).1 $$ HaYR6_pay1
  icases Hy6' with ⟨HyA6, HyB6, HyC6⟩
  iapply (xsstepAt m c K 6 _ (dev48_eq c) fdxs6 _) $$ [$Hrec $HyA6 $HdXS6 HO HtXS6 $HtXR6]
  · isplitl [HO]; · iexact HO
    iexact HtXS6
  iintro ⟨HcrXS6, HO⟩
  sl_exec
  iapply (zsstepAt m c K 6 _ (dev49_eq c) fdzs6 _) $$ [$Hrec $HyB6 $HdZS6 HO HtZS6 $HtZR6]
  · isplitl [HO]; · iexact HO
    iexact HtZS6
  iintro ⟨HcrZS6, HO⟩
  sl_exec

  ihave Hy7' := (share3 (F := F) c (slot32 yrM 7) (Yc m c 7)).1 $$ HaYR7_pay1
  icases Hy7' with ⟨HyA7, HyB7, HyC7⟩
  iapply (xsstepAt m c K 7 _ (dev50_eq c) fdxs7 _) $$ [$Hrec $HyA7 $HdXS7 HO HtXS7 $HtXR7]
  · isplitl [HO]; · iexact HO
    iexact HtXS7
  iintro ⟨HcrXS7, HO⟩
  sl_exec
  iapply (zsstepAt m c K 7 _ (dev51_eq c) fdzs7 _) $$ [$Hrec $HyB7 $HdZS7 HO HtZS7 $HtZR7]
  · isplitl [HO]; · iexact HO
    iexact HtZS7
  iintro ⟨HcrZS7, HO⟩
  sl_exec

  ihave Hy8' := (share3 (F := F) c (slot32 yrM 8) (Yc m c 8)).1 $$ HaYR8_pay1
  icases Hy8' with ⟨HyA8, HyB8, HyC8⟩
  iapply (xsstepAt m c K 8 _ (dev52_eq c) fdxs8 _) $$ [$Hrec $HyA8 $HdXS8 HO HtXS8 $HtXR8]
  · isplitl [HO]; · iexact HO
    iexact HtXS8
  iintro ⟨HcrXS8, HO⟩
  sl_exec
  iapply (zsstepAt m c K 8 _ (dev53_eq c) fdzs8 _) $$ [$Hrec $HyB8 $HdZS8 HO HtZS8 $HtZR8]
  · isplitl [HO]; · iexact HO
    iexact HtZS8
  iintro ⟨HcrZS8, HO⟩
  sl_exec

  ihave Hy9' := (share3 (F := F) c (slot32 yrM 9) (Yc m c 9)).1 $$ HaYR9_pay1
  icases Hy9' with ⟨HyA9, HyB9, HyC9⟩
  iapply (xsstepAt m c K 9 _ (dev54_eq c) fdxs9 _) $$ [$Hrec $HyA9 $HdXS9 HO HtXS9 $HtXR9]
  · isplitl [HO]; · iexact HO
    iexact HtXS9
  iintro ⟨HcrXS9, HO⟩
  sl_exec
  iapply (zsstepAt m c K 9 _ (dev55_eq c) fdzs9 _) $$ [$Hrec $HyB9 $HdZS9 HO HtZS9 $HtZR9]
  · isplitl [HO]; · iexact HO
    iexact HtZS9
  iintro ⟨HcrZS9, HO⟩
  sl_exec

  ihave Hy10' := (share3 (F := F) c (slot32 yrM 10) (Yc m c 10)).1 $$ HaYR10_pay1
  icases Hy10' with ⟨HyA10, HyB10, HyC10⟩
  iapply (xsstepAt m c K 10 _ (dev56_eq c) fdxs10 _) $$ [$Hrec $HyA10 $HdXS10 HO HtXS10 $HtXR10]
  · isplitl [HO]; · iexact HO
    iexact HtXS10
  iintro ⟨HcrXS10, HO⟩
  sl_exec
  iapply (zsstepAt m c K 10 _ (dev57_eq c) fdzs10 _) $$ [$Hrec $HyB10 $HdZS10 HO HtZS10 $HtZR10]
  · isplitl [HO]; · iexact HO
    iexact HtZS10
  iintro ⟨HcrZS10, HO⟩
  sl_exec

  ihave Hy11' := (share3 (F := F) c (slot32 yrM 11) (Yc m c 11)).1 $$ HaYR11_pay1
  icases Hy11' with ⟨HyA11, HyB11, HyC11⟩
  iapply (xsstepAt m c K 11 _ (dev58_eq c) fdxs11 _) $$ [$Hrec $HyA11 $HdXS11 HO HtXS11 $HtXR11]
  · isplitl [HO]; · iexact HO
    iexact HtXS11
  iintro ⟨HcrXS11, HO⟩
  sl_exec
  iapply (zsstepAt m c K 11 _ (dev59_eq c) fdzs11 _) $$ [$Hrec $HyB11 $HdZS11 HO HtZS11 $HtZR11]
  · isplitl [HO]; · iexact HO
    iexact HtZS11
  iintro ⟨HcrZS11, HO⟩
  sl_exec

  ihave Hy12' := (share3 (F := F) c (slot32 yrM 12) (Yc m c 12)).1 $$ HaYR12_pay1
  icases Hy12' with ⟨HyA12, HyB12, HyC12⟩
  iapply (xsstepAt m c K 12 _ (dev60_eq c) fdxs12 _) $$ [$Hrec $HyA12 $HdXS12 HO HtXS12 $HtXR12]
  · isplitl [HO]; · iexact HO
    iexact HtXS12
  iintro ⟨HcrXS12, HO⟩
  sl_exec
  iapply (zsstepAt m c K 12 _ (dev61_eq c) fdzs12 _) $$ [$Hrec $HyB12 $HdZS12 HO HtZS12 $HtZR12]
  · isplitl [HO]; · iexact HO
    iexact HtZS12
  iintro ⟨HcrZS12, HO⟩
  sl_exec

  ihave Hy13' := (share3 (F := F) c (slot32 yrM 13) (Yc m c 13)).1 $$ HaYR13_pay1
  icases Hy13' with ⟨HyA13, HyB13, HyC13⟩
  iapply (xsstepAt m c K 13 _ (dev62_eq c) fdxs13 _) $$ [$Hrec $HyA13 $HdXS13 HO HtXS13 $HtXR13]
  · isplitl [HO]; · iexact HO
    iexact HtXS13
  iintro ⟨HcrXS13, HO⟩
  sl_exec
  iapply (zsstepAt m c K 13 _ (dev63_eq c) fdzs13 _) $$ [$Hrec $HyB13 $HdZS13 HO HtZS13 $HtZR13]
  · isplitl [HO]; · iexact HO
    iexact HtZS13
  iintro ⟨HcrZS13, HO⟩
  sl_exec

  ihave Hy14' := (share3 (F := F) c (slot32 yrM 14) (Yc m c 14)).1 $$ HaYR14_pay1
  icases Hy14' with ⟨HyA14, HyB14, HyC14⟩
  iapply (xsstepAt m c K 14 _ (dev64_eq c) fdxs14 _) $$ [$Hrec $HyA14 $HdXS14 HO HtXS14 $HtXR14]
  · isplitl [HO]; · iexact HO
    iexact HtXS14
  iintro ⟨HcrXS14, HO⟩
  sl_exec
  iapply (zsstepAt m c K 14 _ (dev65_eq c) fdzs14 _) $$ [$Hrec $HyB14 $HdZS14 HO HtZS14 $HtZR14]
  · isplitl [HO]; · iexact HO
    iexact HtZS14
  iintro ⟨HcrZS14, HO⟩
  sl_exec

  ihave Hy15' := (share3 (F := F) c (slot32 yrM 15) (Yc m c 15)).1 $$ HaYR15_pay1
  icases Hy15' with ⟨HyA15, HyB15, HyC15⟩
  iapply (xsstepAt m c K 15 _ (dev66_eq c) fdxs15 _) $$ [$Hrec $HyA15 $HdXS15 HO HtXS15 $HtXR15]
  · isplitl [HO]; · iexact HO
    iexact HtXS15
  iintro ⟨HcrXS15, HO⟩
  sl_exec
  iapply (zsstepAt m c K 15 _ (dev67_eq c) fdzs15 _) $$ [$Hrec $HyB15 $HdZS15 HO HtZS15 $HtZR15]
  · isplitl [HO]; · iexact HO
    iexact HtZS15
  iintro ⟨HcrZS15, HO⟩
  sl_exec

  ihave Hy16' := (share3 (F := F) c (slot32 yrM 16) (Yc m c 16)).1 $$ HaYR16_pay1
  icases Hy16' with ⟨HyA16, HyB16, HyC16⟩
  iapply (xsstepAt m c K 16 _ (dev68_eq c) fdxs16 _) $$ [$Hrec $HyA16 $HdXS16 HO HtXS16 $HtXR16]
  · isplitl [HO]; · iexact HO
    iexact HtXS16
  iintro ⟨HcrXS16, HO⟩
  sl_exec
  iapply (zsstepAt m c K 16 _ (dev69_eq c) fdzs16 _) $$ [$Hrec $HyB16 $HdZS16 HO HtZS16 $HtZR16]
  · isplitl [HO]; · iexact HO
    iexact HtZS16
  iintro ⟨HcrZS16, HO⟩
  sl_exec

  ihave Hy17' := (share3 (F := F) c (slot32 yrM 17) (Yc m c 17)).1 $$ HaYR17_pay1
  icases Hy17' with ⟨HyA17, HyB17, HyC17⟩
  iapply (xsstepAt m c K 17 _ (dev70_eq c) fdxs17 _) $$ [$Hrec $HyA17 $HdXS17 HO HtXS17 $HtXR17]
  · isplitl [HO]; · iexact HO
    iexact HtXS17
  iintro ⟨HcrXS17, HO⟩
  sl_exec
  iapply (zsstepAt m c K 17 _ (dev71_eq c) fdzs17 _) $$ [$Hrec $HyB17 $HdZS17 HO HtZS17 $HtZR17]
  · isplitl [HO]; · iexact HO
    iexact HtZS17
  iintro ⟨HcrZS17, HO⟩
  sl_exec

  ihave Hy18' := (share3 (F := F) c (slot32 yrM 18) (Yc m c 18)).1 $$ HaYR18_pay1
  icases Hy18' with ⟨HyA18, HyB18, HyC18⟩
  iapply (xsstepAt m c K 18 _ (dev72_eq c) fdxs18 _) $$ [$Hrec $HyA18 $HdXS18 HO HtXS18 $HtXR18]
  · isplitl [HO]; · iexact HO
    iexact HtXS18
  iintro ⟨HcrXS18, HO⟩
  sl_exec
  iapply (zsstepAt m c K 18 _ (dev73_eq c) fdzs18 _) $$ [$Hrec $HyB18 $HdZS18 HO HtZS18 $HtZR18]
  · isplitl [HO]; · iexact HO
    iexact HtZS18
  iintro ⟨HcrZS18, HO⟩
  sl_exec

  ihave Hy19' := (share3 (F := F) c (slot32 yrM 19) (Yc m c 19)).1 $$ HaYR19_pay1
  icases Hy19' with ⟨HyA19, HyB19, HyC19⟩
  iapply (xsstepAt m c K 19 _ (dev74_eq c) fdxs19 _) $$ [$Hrec $HyA19 $HdXS19 HO HtXS19 $HtXR19]
  · isplitl [HO]; · iexact HO
    iexact HtXS19
  iintro ⟨HcrXS19, HO⟩
  sl_exec
  iapply (zsstepAt m c K 19 _ (dev75_eq c) fdzs19 _) $$ [$Hrec $HyB19 $HdZS19 HO HtZS19 $HtZR19]
  · isplitl [HO]; · iexact HO
    iexact HtZS19
  iintro ⟨HcrZS19, HO⟩
  sl_exec

  ihave Hy20' := (share3 (F := F) c (slot32 yrM 20) (Yc m c 20)).1 $$ HaYR20_pay1
  icases Hy20' with ⟨HyA20, HyB20, HyC20⟩
  iapply (xsstepAt m c K 20 _ (dev76_eq c) fdxs20 _) $$ [$Hrec $HyA20 $HdXS20 HO HtXS20 $HtXR20]
  · isplitl [HO]; · iexact HO
    iexact HtXS20
  iintro ⟨HcrXS20, HO⟩
  sl_exec
  iapply (zsstepAt m c K 20 _ (dev77_eq c) fdzs20 _) $$ [$Hrec $HyB20 $HdZS20 HO HtZS20 $HtZR20]
  · isplitl [HO]; · iexact HO
    iexact HtZS20
  iintro ⟨HcrZS20, HO⟩
  sl_exec

  ihave Hy21' := (share3 (F := F) c (slot32 yrM 21) (Yc m c 21)).1 $$ HaYR21_pay1
  icases Hy21' with ⟨HyA21, HyB21, HyC21⟩
  iapply (xsstepAt m c K 21 _ (dev78_eq c) fdxs21 _) $$ [$Hrec $HyA21 $HdXS21 HO HtXS21 $HtXR21]
  · isplitl [HO]; · iexact HO
    iexact HtXS21
  iintro ⟨HcrXS21, HO⟩
  sl_exec
  iapply (zsstepAt m c K 21 _ (dev79_eq c) fdzs21 _) $$ [$Hrec $HyB21 $HdZS21 HO HtZS21 $HtZR21]
  · isplitl [HO]; · iexact HO
    iexact HtZS21
  iintro ⟨HcrZS21, HO⟩
  sl_exec

  ihave Hy22' := (share3 (F := F) c (slot32 yrM 22) (Yc m c 22)).1 $$ HaYR22_pay1
  icases Hy22' with ⟨HyA22, HyB22, HyC22⟩
  iapply (xsstepAt m c K 22 _ (dev80_eq c) fdxs22 _) $$ [$Hrec $HyA22 $HdXS22 HO HtXS22 $HtXR22]
  · isplitl [HO]; · iexact HO
    iexact HtXS22
  iintro ⟨HcrXS22, HO⟩
  sl_exec
  iapply (zsstepAt m c K 22 _ (dev81_eq c) fdzs22 _) $$ [$Hrec $HyB22 $HdZS22 HO HtZS22 $HtZR22]
  · isplitl [HO]; · iexact HO
    iexact HtZS22
  iintro ⟨HcrZS22, HO⟩
  sl_exec

  ihave Hy23' := (share3 (F := F) c (slot32 yrM 23) (Yc m c 23)).1 $$ HaYR23_pay1
  icases Hy23' with ⟨HyA23, HyB23, HyC23⟩
  iapply (xsstepAt m c K 23 _ (dev82_eq c) fdxs23 _) $$ [$Hrec $HyA23 $HdXS23 HO HtXS23 $HtXR23]
  · isplitl [HO]; · iexact HO
    iexact HtXS23
  iintro ⟨HcrXS23, HO⟩
  sl_exec
  iapply (zsstepAt m c K 23 _ (dev83_eq c) fdzs23 _) $$ [$Hrec $HyB23 $HdZS23 HO HtZS23 $HtZR23]
  · isplitl [HO]; · iexact HO
    iexact HtZS23
  iintro ⟨HcrZS23, HO⟩
  sl_exec

  ihave Hy24' := (share3 (F := F) c (slot32 yrM 24) (Yc m c 24)).1 $$ HaYR24_pay1
  icases Hy24' with ⟨HyA24, HyB24, HyC24⟩
  iapply (xsstepAt m c K 24 _ (dev84_eq c) fdxs24 _) $$ [$Hrec $HyA24 $HdXS24 HO HtXS24 $HtXR24]
  · isplitl [HO]; · iexact HO
    iexact HtXS24
  iintro ⟨HcrXS24, HO⟩
  sl_exec
  iapply (zsstepAt m c K 24 _ (dev85_eq c) fdzs24 _) $$ [$Hrec $HyB24 $HdZS24 HO HtZS24 $HtZR24]
  · isplitl [HO]; · iexact HO
    iexact HtZS24
  iintro ⟨HcrZS24, HO⟩
  sl_exec

  ihave Hy25' := (share3 (F := F) c (slot32 yrM 25) (Yc m c 25)).1 $$ HaYR25_pay1
  icases Hy25' with ⟨HyA25, HyB25, HyC25⟩
  iapply (xsstepAt m c K 25 _ (dev86_eq c) fdxs25 _) $$ [$Hrec $HyA25 $HdXS25 HO HtXS25 $HtXR25]
  · isplitl [HO]; · iexact HO
    iexact HtXS25
  iintro ⟨HcrXS25, HO⟩
  sl_exec
  iapply (zsstepAt m c K 25 _ (dev87_eq c) fdzs25 _) $$ [$Hrec $HyB25 $HdZS25 HO HtZS25 $HtZR25]
  · isplitl [HO]; · iexact HO
    iexact HtZS25
  iintro ⟨HcrZS25, HO⟩
  sl_exec

  ihave Hy26' := (share3 (F := F) c (slot32 yrM 26) (Yc m c 26)).1 $$ HaYR26_pay1
  icases Hy26' with ⟨HyA26, HyB26, HyC26⟩
  iapply (xsstepAt m c K 26 _ (dev88_eq c) fdxs26 _) $$ [$Hrec $HyA26 $HdXS26 HO HtXS26 $HtXR26]
  · isplitl [HO]; · iexact HO
    iexact HtXS26
  iintro ⟨HcrXS26, HO⟩
  sl_exec
  iapply (zsstepAt m c K 26 _ (dev89_eq c) fdzs26 _) $$ [$Hrec $HyB26 $HdZS26 HO HtZS26 $HtZR26]
  · isplitl [HO]; · iexact HO
    iexact HtZS26
  iintro ⟨HcrZS26, HO⟩
  sl_exec

  ihave Hy27' := (share3 (F := F) c (slot32 yrM 27) (Yc m c 27)).1 $$ HaYR27_pay1
  icases Hy27' with ⟨HyA27, HyB27, HyC27⟩
  iapply (xsstepAt m c K 27 _ (dev90_eq c) fdxs27 _) $$ [$Hrec $HyA27 $HdXS27 HO HtXS27 $HtXR27]
  · isplitl [HO]; · iexact HO
    iexact HtXS27
  iintro ⟨HcrXS27, HO⟩
  sl_exec
  iapply (zsstepAt m c K 27 _ (dev91_eq c) fdzs27 _) $$ [$Hrec $HyB27 $HdZS27 HO HtZS27 $HtZR27]
  · isplitl [HO]; · iexact HO
    iexact HtZS27
  iintro ⟨HcrZS27, HO⟩
  sl_exec

  ihave Hy28' := (share3 (F := F) c (slot32 yrM 28) (Yc m c 28)).1 $$ HaYR28_pay1
  icases Hy28' with ⟨HyA28, HyB28, HyC28⟩
  iapply (xsstepAt m c K 28 _ (dev92_eq c) fdxs28 _) $$ [$Hrec $HyA28 $HdXS28 HO HtXS28 $HtXR28]
  · isplitl [HO]; · iexact HO
    iexact HtXS28
  iintro ⟨HcrXS28, HO⟩
  sl_exec
  iapply (zsstepAt m c K 28 _ (dev93_eq c) fdzs28 _) $$ [$Hrec $HyB28 $HdZS28 HO HtZS28 $HtZR28]
  · isplitl [HO]; · iexact HO
    iexact HtZS28
  iintro ⟨HcrZS28, HO⟩
  sl_exec

  ihave Hy29' := (share3 (F := F) c (slot32 yrM 29) (Yc m c 29)).1 $$ HaYR29_pay1
  icases Hy29' with ⟨HyA29, HyB29, HyC29⟩
  iapply (xsstepAt m c K 29 _ (dev94_eq c) fdxs29 _) $$ [$Hrec $HyA29 $HdXS29 HO HtXS29 $HtXR29]
  · isplitl [HO]; · iexact HO
    iexact HtXS29
  iintro ⟨HcrXS29, HO⟩
  sl_exec
  iapply (zsstepAt m c K 29 _ (dev95_eq c) fdzs29 _) $$ [$Hrec $HyB29 $HdZS29 HO HtZS29 $HtZR29]
  · isplitl [HO]; · iexact HO
    iexact HtZS29
  iintro ⟨HcrZS29, HO⟩
  sl_exec

  ihave Hy30' := (share3 (F := F) c (slot32 yrM 30) (Yc m c 30)).1 $$ HaYR30_pay1
  icases Hy30' with ⟨HyA30, HyB30, HyC30⟩
  iapply (xsstepAt m c K 30 _ (dev96_eq c) fdxs30 _) $$ [$Hrec $HyA30 $HdXS30 HO HtXS30 $HtXR30]
  · isplitl [HO]; · iexact HO
    iexact HtXS30
  iintro ⟨HcrXS30, HO⟩
  sl_exec
  iapply (zsstepAt m c K 30 _ (dev97_eq c) fdzs30 _) $$ [$Hrec $HyB30 $HdZS30 HO HtZS30 $HtZR30]
  · isplitl [HO]; · iexact HO
    iexact HtZS30
  iintro ⟨HcrZS30, HO⟩
  sl_exec

  ihave Hy31' := (share3 (F := F) c (slot32 yrM 31) (Yc m c 31)).1 $$ HaYR31_pay1
  icases Hy31' with ⟨HyA31, HyB31, HyC31⟩
  iapply (xsstepAt m c K 31 _ (dev98_eq c) fdxs31 _) $$ [$Hrec $HyA31 $HdXS31 HO HtXS31 $HtXR31]
  · isplitl [HO]; · iexact HO
    iexact HtXS31
  iintro ⟨HcrXS31, HO⟩
  sl_exec
  iapply (zsstepAt m c K 31 _ (dev99_eq c) fdzs31 _) $$ [$Hrec $HyB31 $HdZS31 HO HtZS31 $HtZR31]
  · isplitl [HO]; · iexact HO
    iexact HtZS31
  iintro ⟨HcrZS31, HO⟩

  ihave HpZR' := (Entails.of_eq (bigSep_fin32 (F := F) fun i : Fin 32 => atPos ER (zrecvSC c i) 0 ∅ 0)) $$ HpZR
  icases HpZR' with ⟨HaZR0, HaZR1, HaZR2, HaZR3, HaZR4, HaZR5, HaZR6, HaZR7, HaZR8, HaZR9, HaZR10, HaZR11, HaZR12, HaZR13, HaZR14, HaZR15, HaZR16, HaZR17, HaZR18, HaZR19, HaZR20, HaZR21, HaZR22, HaZR23, HaZR24, HaZR25, HaZR26, HaZR27, HaZR28, HaZR29, HaZR30, HaZR31⟩
  ihave HcZS' := (Entails.of_eq (bigSep_fin32 (F := F) fun i : Fin 32 => cred (tallyAt (zrecvSC c i) () N))) $$ HcZS
  icases HcZS' with ⟨HcZS0, HcZS1, HcZS2, HcZS3, HcZS4, HcZS5, HcZS6, HcZS7, HcZS8, HcZS9, HcZS10, HcZS11, HcZS12, HcZS13, HcZS14, HcZS15, HcZS16, HcZS17, HcZS18, HcZS19, HcZS20, HcZS21, HcZS22, HcZS23, HcZS24, HcZS25, HcZS26, HcZS27, HcZS28, HcZS29, HcZS30, HcZS31⟩
  ihave #H := ((rec_fam (F := F) m K _ (inv_zrecvS (F := F) m K c)).trans (Entails.of_eq (bigSep_fin32 (F := F) _))) $$ Hrec
  icases H with ⟨#HI_zrecvS0, #HI_zrecvS1, #HI_zrecvS2, #HI_zrecvS3, #HI_zrecvS4, #HI_zrecvS5, #HI_zrecvS6, #HI_zrecvS7, #HI_zrecvS8, #HI_zrecvS9, #HI_zrecvS10, #HI_zrecvS11, #HI_zrecvS12, #HI_zrecvS13, #HI_zrecvS14, #HI_zrecvS15, #HI_zrecvS16, #HI_zrecvS17, #HI_zrecvS18, #HI_zrecvS19, #HI_zrecvS20, #HI_zrecvS21, #HI_zrecvS22, #HI_zrecvS23, #HI_zrecvS24, #HI_zrecvS25, #HI_zrecvS26, #HI_zrecvS27, #HI_zrecvS28, #HI_zrecvS29, #HI_zrecvS30, #HI_zrecvS31⟩
  ihave HtXD' := (Entails.of_eq (bigSep_fin16 (F := F) fun i : Fin 16 => dutyTok ER (xrecvDC (xN c) i) 0 (0 : Fin 3))) $$ HtXD
  icases HtXD' with ⟨HtXD0, HtXD1, HtXD2, HtXD3, HtXD4, HtXD5, HtXD6, HtXD7, HtXD8, HtXD9, HtXD10, HtXD11, HtXD12, HtXD13, HtXD14, HtXD15⟩
  ihave HdXD' := (Entails.of_eq (bigSep_fin16 (F := F) fun i : Fin 16 => freeChunk (xN c) (slot16 xdM i))) $$ HdXD
  icases HdXD' with ⟨⟨%fdxd0, HdXD0⟩, ⟨%fdxd1, HdXD1⟩, ⟨%fdxd2, HdXD2⟩, ⟨%fdxd3, HdXD3⟩, ⟨%fdxd4, HdXD4⟩, ⟨%fdxd5, HdXD5⟩, ⟨%fdxd6, HdXD6⟩, ⟨%fdxd7, HdXD7⟩, ⟨%fdxd8, HdXD8⟩, ⟨%fdxd9, HdXD9⟩, ⟨%fdxd10, HdXD10⟩, ⟨%fdxd11, HdXD11⟩, ⟨%fdxd12, HdXD12⟩, ⟨%fdxd13, HdXD13⟩, ⟨%fdxd14, HdXD14⟩, ⟨%fdxd15, HdXD15⟩⟩
  sl_exec

  ihave Hzs0' := (share2 (F := F) c (slot32 zsM 0) (ZSc m c 0)).1 $$ HaZR0_pay1
  icases Hzs0' with ⟨HzsA0, HzsR0⟩
  iapply (xdstepAt m c K 0 _ (dev100_eq c) fdxd0 _) $$ [$Hrec HzsA0 $HdXD0 HO HtXS32 $HtXD0]
  · isplitl [HzsA0]; · iexact HzsA0
    isplitl [HO]; · iexact HO
    iexact HtXS32
  iintro ⟨HcrXS32, HO⟩
  sl_exec

  ihave Hzs1' := (share2 (F := F) c (slot32 zsM 1) (ZSc m c 1)).1 $$ HaZR1_pay1
  icases Hzs1' with ⟨HzsA1, HzsR1⟩
  iapply (xdstepAt m c K 1 _ (dev101_eq c) fdxd1 _) $$ [$Hrec HzsA1 $HdXD1 HO HtXS33 $HtXD1]
  · isplitl [HzsA1]; · iexact HzsA1
    isplitl [HO]; · iexact HO
    iexact HtXS33
  iintro ⟨HcrXS33, HO⟩
  sl_exec

  ihave Hzs2' := (share2 (F := F) c (slot32 zsM 2) (ZSc m c 2)).1 $$ HaZR2_pay1
  icases Hzs2' with ⟨HzsA2, HzsR2⟩
  iapply (xdstepAt m c K 2 _ (dev102_eq c) fdxd2 _) $$ [$Hrec HzsA2 $HdXD2 HO HtXS34 $HtXD2]
  · isplitl [HzsA2]; · iexact HzsA2
    isplitl [HO]; · iexact HO
    iexact HtXS34
  iintro ⟨HcrXS34, HO⟩
  sl_exec

  ihave Hzs3' := (share2 (F := F) c (slot32 zsM 3) (ZSc m c 3)).1 $$ HaZR3_pay1
  icases Hzs3' with ⟨HzsA3, HzsR3⟩
  iapply (xdstepAt m c K 3 _ (dev103_eq c) fdxd3 _) $$ [$Hrec HzsA3 $HdXD3 HO HtXS35 $HtXD3]
  · isplitl [HzsA3]; · iexact HzsA3
    isplitl [HO]; · iexact HO
    iexact HtXS35
  iintro ⟨HcrXS35, HO⟩
  sl_exec

  ihave Hzs4' := (share2 (F := F) c (slot32 zsM 4) (ZSc m c 4)).1 $$ HaZR4_pay1
  icases Hzs4' with ⟨HzsA4, HzsR4⟩
  iapply (xdstepAt m c K 4 _ (dev104_eq c) fdxd4 _) $$ [$Hrec HzsA4 $HdXD4 HO HtXS36 $HtXD4]
  · isplitl [HzsA4]; · iexact HzsA4
    isplitl [HO]; · iexact HO
    iexact HtXS36
  iintro ⟨HcrXS36, HO⟩
  sl_exec

  ihave Hzs5' := (share2 (F := F) c (slot32 zsM 5) (ZSc m c 5)).1 $$ HaZR5_pay1
  icases Hzs5' with ⟨HzsA5, HzsR5⟩
  iapply (xdstepAt m c K 5 _ (dev105_eq c) fdxd5 _) $$ [$Hrec HzsA5 $HdXD5 HO HtXS37 $HtXD5]
  · isplitl [HzsA5]; · iexact HzsA5
    isplitl [HO]; · iexact HO
    iexact HtXS37
  iintro ⟨HcrXS37, HO⟩
  sl_exec

  ihave Hzs6' := (share2 (F := F) c (slot32 zsM 6) (ZSc m c 6)).1 $$ HaZR6_pay1
  icases Hzs6' with ⟨HzsA6, HzsR6⟩
  iapply (xdstepAt m c K 6 _ (dev106_eq c) fdxd6 _) $$ [$Hrec HzsA6 $HdXD6 HO HtXS38 $HtXD6]
  · isplitl [HzsA6]; · iexact HzsA6
    isplitl [HO]; · iexact HO
    iexact HtXS38
  iintro ⟨HcrXS38, HO⟩
  sl_exec

  ihave Hzs7' := (share2 (F := F) c (slot32 zsM 7) (ZSc m c 7)).1 $$ HaZR7_pay1
  icases Hzs7' with ⟨HzsA7, HzsR7⟩
  iapply (xdstepAt m c K 7 _ (dev107_eq c) fdxd7 _) $$ [$Hrec HzsA7 $HdXD7 HO HtXS39 $HtXD7]
  · isplitl [HzsA7]; · iexact HzsA7
    isplitl [HO]; · iexact HO
    iexact HtXS39
  iintro ⟨HcrXS39, HO⟩
  sl_exec

  ihave Hzs8' := (share2 (F := F) c (slot32 zsM 8) (ZSc m c 8)).1 $$ HaZR8_pay1
  icases Hzs8' with ⟨HzsA8, HzsR8⟩
  iapply (xdstepAt m c K 8 _ (dev108_eq c) fdxd8 _) $$ [$Hrec HzsA8 $HdXD8 HO HtXS40 $HtXD8]
  · isplitl [HzsA8]; · iexact HzsA8
    isplitl [HO]; · iexact HO
    iexact HtXS40
  iintro ⟨HcrXS40, HO⟩
  sl_exec

  ihave Hzs9' := (share2 (F := F) c (slot32 zsM 9) (ZSc m c 9)).1 $$ HaZR9_pay1
  icases Hzs9' with ⟨HzsA9, HzsR9⟩
  iapply (xdstepAt m c K 9 _ (dev109_eq c) fdxd9 _) $$ [$Hrec HzsA9 $HdXD9 HO HtXS41 $HtXD9]
  · isplitl [HzsA9]; · iexact HzsA9
    isplitl [HO]; · iexact HO
    iexact HtXS41
  iintro ⟨HcrXS41, HO⟩
  sl_exec

  ihave Hzs10' := (share2 (F := F) c (slot32 zsM 10) (ZSc m c 10)).1 $$ HaZR10_pay1
  icases Hzs10' with ⟨HzsA10, HzsR10⟩
  iapply (xdstepAt m c K 10 _ (dev110_eq c) fdxd10 _) $$ [$Hrec HzsA10 $HdXD10 HO HtXS42 $HtXD10]
  · isplitl [HzsA10]; · iexact HzsA10
    isplitl [HO]; · iexact HO
    iexact HtXS42
  iintro ⟨HcrXS42, HO⟩
  sl_exec

  ihave Hzs11' := (share2 (F := F) c (slot32 zsM 11) (ZSc m c 11)).1 $$ HaZR11_pay1
  icases Hzs11' with ⟨HzsA11, HzsR11⟩
  iapply (xdstepAt m c K 11 _ (dev111_eq c) fdxd11 _) $$ [$Hrec HzsA11 $HdXD11 HO HtXS43 $HtXD11]
  · isplitl [HzsA11]; · iexact HzsA11
    isplitl [HO]; · iexact HO
    iexact HtXS43
  iintro ⟨HcrXS43, HO⟩
  sl_exec

  ihave Hzs12' := (share2 (F := F) c (slot32 zsM 12) (ZSc m c 12)).1 $$ HaZR12_pay1
  icases Hzs12' with ⟨HzsA12, HzsR12⟩
  iapply (xdstepAt m c K 12 _ (dev112_eq c) fdxd12 _) $$ [$Hrec HzsA12 $HdXD12 HO HtXS44 $HtXD12]
  · isplitl [HzsA12]; · iexact HzsA12
    isplitl [HO]; · iexact HO
    iexact HtXS44
  iintro ⟨HcrXS44, HO⟩
  sl_exec

  ihave Hzs13' := (share2 (F := F) c (slot32 zsM 13) (ZSc m c 13)).1 $$ HaZR13_pay1
  icases Hzs13' with ⟨HzsA13, HzsR13⟩
  iapply (xdstepAt m c K 13 _ (dev113_eq c) fdxd13 _) $$ [$Hrec HzsA13 $HdXD13 HO HtXS45 $HtXD13]
  · isplitl [HzsA13]; · iexact HzsA13
    isplitl [HO]; · iexact HO
    iexact HtXS45
  iintro ⟨HcrXS45, HO⟩
  sl_exec

  ihave Hzs14' := (share2 (F := F) c (slot32 zsM 14) (ZSc m c 14)).1 $$ HaZR14_pay1
  icases Hzs14' with ⟨HzsA14, HzsR14⟩
  iapply (xdstepAt m c K 14 _ (dev114_eq c) fdxd14 _) $$ [$Hrec HzsA14 $HdXD14 HO HtXS46 $HtXD14]
  · isplitl [HzsA14]; · iexact HzsA14
    isplitl [HO]; · iexact HO
    iexact HtXS46
  iintro ⟨HcrXS46, HO⟩
  sl_exec

  ihave Hzs15' := (share2 (F := F) c (slot32 zsM 15) (ZSc m c 15)).1 $$ HaZR15_pay1
  icases Hzs15' with ⟨HzsA15, HzsR15⟩
  iapply (xdstepAt m c K 15 _ (dev115_eq c) fdxd15 _) $$ [$Hrec HzsA15 $HdXD15 HO HtXS47 $HtXD15]
  · isplitl [HzsA15]; · iexact HzsA15
    isplitl [HO]; · iexact HO
    iexact HtXS47
  iintro ⟨HcrXS47, HO⟩

  ihave HpXR' := (Entails.of_eq (bigSep_fin32 (F := F) fun i : Fin 32 => atPos ER (xrecvSC c i) 0 ∅ 0)) $$ HpXR
  icases HpXR' with ⟨HaXR0, HaXR1, HaXR2, HaXR3, HaXR4, HaXR5, HaXR6, HaXR7, HaXR8, HaXR9, HaXR10, HaXR11, HaXR12, HaXR13, HaXR14, HaXR15, HaXR16, HaXR17, HaXR18, HaXR19, HaXR20, HaXR21, HaXR22, HaXR23, HaXR24, HaXR25, HaXR26, HaXR27, HaXR28, HaXR29, HaXR30, HaXR31⟩
  ihave HcXS' := (Entails.of_eq (bigSep_fin32 (F := F) fun i : Fin 32 => cred (tallyAt (xrecvSC c i) () N))) $$ HcXS
  icases HcXS' with ⟨HcXS0, HcXS1, HcXS2, HcXS3, HcXS4, HcXS5, HcXS6, HcXS7, HcXS8, HcXS9, HcXS10, HcXS11, HcXS12, HcXS13, HcXS14, HcXS15, HcXS16, HcXS17, HcXS18, HcXS19, HcXS20, HcXS21, HcXS22, HcXS23, HcXS24, HcXS25, HcXS26, HcXS27, HcXS28, HcXS29, HcXS30, HcXS31⟩
  ihave #H := ((rec_fam (F := F) m K _ (inv_xrecvS (F := F) m K c)).trans (Entails.of_eq (bigSep_fin32 (F := F) _))) $$ Hrec
  icases H with ⟨#HI_xrecvS0, #HI_xrecvS1, #HI_xrecvS2, #HI_xrecvS3, #HI_xrecvS4, #HI_xrecvS5, #HI_xrecvS6, #HI_xrecvS7, #HI_xrecvS8, #HI_xrecvS9, #HI_xrecvS10, #HI_xrecvS11, #HI_xrecvS12, #HI_xrecvS13, #HI_xrecvS14, #HI_xrecvS15, #HI_xrecvS16, #HI_xrecvS17, #HI_xrecvS18, #HI_xrecvS19, #HI_xrecvS20, #HI_xrecvS21, #HI_xrecvS22, #HI_xrecvS23, #HI_xrecvS24, #HI_xrecvS25, #HI_xrecvS26, #HI_xrecvS27, #HI_xrecvS28, #HI_xrecvS29, #HI_xrecvS30, #HI_xrecvS31⟩
  ihave HtZD' := (Entails.of_eq (bigSep_fin16 (F := F) fun i : Fin 16 => dutyTok ER (zrecvDC (zN c) i) 0 (0 : Fin 3))) $$ HtZD
  icases HtZD' with ⟨HtZD0, HtZD1, HtZD2, HtZD3, HtZD4, HtZD5, HtZD6, HtZD7, HtZD8, HtZD9, HtZD10, HtZD11, HtZD12, HtZD13, HtZD14, HtZD15⟩
  ihave HdZD' := (Entails.of_eq (bigSep_fin16 (F := F) fun i : Fin 16 => freeChunk (zN c) (slot16 zdM i))) $$ HdZD
  icases HdZD' with ⟨⟨%fdzd0, HdZD0⟩, ⟨%fdzd1, HdZD1⟩, ⟨%fdzd2, HdZD2⟩, ⟨%fdzd3, HdZD3⟩, ⟨%fdzd4, HdZD4⟩, ⟨%fdzd5, HdZD5⟩, ⟨%fdzd6, HdZD6⟩, ⟨%fdzd7, HdZD7⟩, ⟨%fdzd8, HdZD8⟩, ⟨%fdzd9, HdZD9⟩, ⟨%fdzd10, HdZD10⟩, ⟨%fdzd11, HdZD11⟩, ⟨%fdzd12, HdZD12⟩, ⟨%fdzd13, HdZD13⟩, ⟨%fdzd14, HdZD14⟩, ⟨%fdzd15, HdZD15⟩⟩
  sl_exec

  ihave Hxs16' := (share2 (F := F) c (slot32 xsM 16) (XSc m c 16)).1 $$ HaXR16_pay1
  icases Hxs16' with ⟨HxsA16, HxsR16⟩
  iapply (zdstepAt m c K 0 _ (dev116_eq c) fdzd0 _) $$ [$Hrec HxsA16 $HdZD0 HO HtZS32 $HtZD0]
  · isplitl [HxsA16]; · iexact HxsA16
    isplitl [HO]; · iexact HO
    iexact HtZS32
  iintro ⟨HcrZS32, HO⟩
  sl_exec

  ihave Hxs17' := (share2 (F := F) c (slot32 xsM 17) (XSc m c 17)).1 $$ HaXR17_pay1
  icases Hxs17' with ⟨HxsA17, HxsR17⟩
  iapply (zdstepAt m c K 1 _ (dev117_eq c) fdzd1 _) $$ [$Hrec HxsA17 $HdZD1 HO HtZS33 $HtZD1]
  · isplitl [HxsA17]; · iexact HxsA17
    isplitl [HO]; · iexact HO
    iexact HtZS33
  iintro ⟨HcrZS33, HO⟩
  sl_exec

  ihave Hxs18' := (share2 (F := F) c (slot32 xsM 18) (XSc m c 18)).1 $$ HaXR18_pay1
  icases Hxs18' with ⟨HxsA18, HxsR18⟩
  iapply (zdstepAt m c K 2 _ (dev118_eq c) fdzd2 _) $$ [$Hrec HxsA18 $HdZD2 HO HtZS34 $HtZD2]
  · isplitl [HxsA18]; · iexact HxsA18
    isplitl [HO]; · iexact HO
    iexact HtZS34
  iintro ⟨HcrZS34, HO⟩
  sl_exec

  ihave Hxs19' := (share2 (F := F) c (slot32 xsM 19) (XSc m c 19)).1 $$ HaXR19_pay1
  icases Hxs19' with ⟨HxsA19, HxsR19⟩
  iapply (zdstepAt m c K 3 _ (dev119_eq c) fdzd3 _) $$ [$Hrec HxsA19 $HdZD3 HO HtZS35 $HtZD3]
  · isplitl [HxsA19]; · iexact HxsA19
    isplitl [HO]; · iexact HO
    iexact HtZS35
  iintro ⟨HcrZS35, HO⟩
  sl_exec

  ihave Hxs20' := (share2 (F := F) c (slot32 xsM 20) (XSc m c 20)).1 $$ HaXR20_pay1
  icases Hxs20' with ⟨HxsA20, HxsR20⟩
  iapply (zdstepAt m c K 4 _ (dev120_eq c) fdzd4 _) $$ [$Hrec HxsA20 $HdZD4 HO HtZS36 $HtZD4]
  · isplitl [HxsA20]; · iexact HxsA20
    isplitl [HO]; · iexact HO
    iexact HtZS36
  iintro ⟨HcrZS36, HO⟩
  sl_exec

  ihave Hxs21' := (share2 (F := F) c (slot32 xsM 21) (XSc m c 21)).1 $$ HaXR21_pay1
  icases Hxs21' with ⟨HxsA21, HxsR21⟩
  iapply (zdstepAt m c K 5 _ (dev121_eq c) fdzd5 _) $$ [$Hrec HxsA21 $HdZD5 HO HtZS37 $HtZD5]
  · isplitl [HxsA21]; · iexact HxsA21
    isplitl [HO]; · iexact HO
    iexact HtZS37
  iintro ⟨HcrZS37, HO⟩
  sl_exec

  ihave Hxs22' := (share2 (F := F) c (slot32 xsM 22) (XSc m c 22)).1 $$ HaXR22_pay1
  icases Hxs22' with ⟨HxsA22, HxsR22⟩
  iapply (zdstepAt m c K 6 _ (dev122_eq c) fdzd6 _) $$ [$Hrec HxsA22 $HdZD6 HO HtZS38 $HtZD6]
  · isplitl [HxsA22]; · iexact HxsA22
    isplitl [HO]; · iexact HO
    iexact HtZS38
  iintro ⟨HcrZS38, HO⟩
  sl_exec

  ihave Hxs23' := (share2 (F := F) c (slot32 xsM 23) (XSc m c 23)).1 $$ HaXR23_pay1
  icases Hxs23' with ⟨HxsA23, HxsR23⟩
  iapply (zdstepAt m c K 7 _ (dev123_eq c) fdzd7 _) $$ [$Hrec HxsA23 $HdZD7 HO HtZS39 $HtZD7]
  · isplitl [HxsA23]; · iexact HxsA23
    isplitl [HO]; · iexact HO
    iexact HtZS39
  iintro ⟨HcrZS39, HO⟩
  sl_exec

  ihave Hxs24' := (share2 (F := F) c (slot32 xsM 24) (XSc m c 24)).1 $$ HaXR24_pay1
  icases Hxs24' with ⟨HxsA24, HxsR24⟩
  iapply (zdstepAt m c K 8 _ (dev124_eq c) fdzd8 _) $$ [$Hrec HxsA24 $HdZD8 HO HtZS40 $HtZD8]
  · isplitl [HxsA24]; · iexact HxsA24
    isplitl [HO]; · iexact HO
    iexact HtZS40
  iintro ⟨HcrZS40, HO⟩
  sl_exec

  ihave Hxs25' := (share2 (F := F) c (slot32 xsM 25) (XSc m c 25)).1 $$ HaXR25_pay1
  icases Hxs25' with ⟨HxsA25, HxsR25⟩
  iapply (zdstepAt m c K 9 _ (dev125_eq c) fdzd9 _) $$ [$Hrec HxsA25 $HdZD9 HO HtZS41 $HtZD9]
  · isplitl [HxsA25]; · iexact HxsA25
    isplitl [HO]; · iexact HO
    iexact HtZS41
  iintro ⟨HcrZS41, HO⟩
  sl_exec

  ihave Hxs26' := (share2 (F := F) c (slot32 xsM 26) (XSc m c 26)).1 $$ HaXR26_pay1
  icases Hxs26' with ⟨HxsA26, HxsR26⟩
  iapply (zdstepAt m c K 10 _ (dev126_eq c) fdzd10 _) $$ [$Hrec HxsA26 $HdZD10 HO HtZS42 $HtZD10]
  · isplitl [HxsA26]; · iexact HxsA26
    isplitl [HO]; · iexact HO
    iexact HtZS42
  iintro ⟨HcrZS42, HO⟩
  sl_exec

  ihave Hxs27' := (share2 (F := F) c (slot32 xsM 27) (XSc m c 27)).1 $$ HaXR27_pay1
  icases Hxs27' with ⟨HxsA27, HxsR27⟩
  iapply (zdstepAt m c K 11 _ (dev127_eq c) fdzd11 _) $$ [$Hrec HxsA27 $HdZD11 HO HtZS43 $HtZD11]
  · isplitl [HxsA27]; · iexact HxsA27
    isplitl [HO]; · iexact HO
    iexact HtZS43
  iintro ⟨HcrZS43, HO⟩
  sl_exec

  ihave Hxs28' := (share2 (F := F) c (slot32 xsM 28) (XSc m c 28)).1 $$ HaXR28_pay1
  icases Hxs28' with ⟨HxsA28, HxsR28⟩
  iapply (zdstepAt m c K 12 _ (dev128_eq c) fdzd12 _) $$ [$Hrec HxsA28 $HdZD12 HO HtZS44 $HtZD12]
  · isplitl [HxsA28]; · iexact HxsA28
    isplitl [HO]; · iexact HO
    iexact HtZS44
  iintro ⟨HcrZS44, HO⟩
  sl_exec

  ihave Hxs29' := (share2 (F := F) c (slot32 xsM 29) (XSc m c 29)).1 $$ HaXR29_pay1
  icases Hxs29' with ⟨HxsA29, HxsR29⟩
  iapply (zdstepAt m c K 13 _ (dev129_eq c) fdzd13 _) $$ [$Hrec HxsA29 $HdZD13 HO HtZS45 $HtZD13]
  · isplitl [HxsA29]; · iexact HxsA29
    isplitl [HO]; · iexact HO
    iexact HtZS45
  iintro ⟨HcrZS45, HO⟩
  sl_exec

  ihave Hxs30' := (share2 (F := F) c (slot32 xsM 30) (XSc m c 30)).1 $$ HaXR30_pay1
  icases Hxs30' with ⟨HxsA30, HxsR30⟩
  iapply (zdstepAt m c K 14 _ (dev130_eq c) fdzd14 _) $$ [$Hrec HxsA30 $HdZD14 HO HtZS46 $HtZD14]
  · isplitl [HxsA30]; · iexact HxsA30
    isplitl [HO]; · iexact HO
    iexact HtZS46
  iintro ⟨HcrZS46, HO⟩
  sl_exec

  ihave Hxs31' := (share2 (F := F) c (slot32 xsM 31) (XSc m c 31)).1 $$ HaXR31_pay1
  icases Hxs31' with ⟨HxsA31, HxsR31⟩
  iapply (zdstepAt m c K 15 _ (dev131_eq c) fdzd15 _) $$ [$Hrec HxsA31 $HdZD15 HO HtZS47 $HtZD15]
  · isplitl [HxsA31]; · iexact HxsA31
    isplitl [HO]; · iexact HO
    iexact HtZS47
  iintro ⟨HcrZS47, HO⟩

  ihave HpXD' := (Entails.of_eq (bigSep_fin16 (F := F) fun i : Fin 16 => atPos ER (xrecvDC c i) 0 ∅ 0)) $$ HpXD
  icases HpXD' with ⟨HaXD0, HaXD1, HaXD2, HaXD3, HaXD4, HaXD5, HaXD6, HaXD7, HaXD8, HaXD9, HaXD10, HaXD11, HaXD12, HaXD13, HaXD14, HaXD15⟩
  ihave HcXD' := (Entails.of_eq (bigSep_fin16 (F := F) fun i : Fin 16 => cred (tallyAt (xrecvDC c i) () N))) $$ HcXD
  icases HcXD' with ⟨HcXD0, HcXD1, HcXD2, HcXD3, HcXD4, HcXD5, HcXD6, HcXD7, HcXD8, HcXD9, HcXD10, HcXD11, HcXD12, HcXD13, HcXD14, HcXD15⟩
  ihave #H := ((rec_fam (F := F) m K _ (inv_xrecvD (F := F) m K c)).trans (Entails.of_eq (bigSep_fin16 (F := F) _))) $$ Hrec
  icases H with ⟨#HI_xrecvD0, #HI_xrecvD1, #HI_xrecvD2, #HI_xrecvD3, #HI_xrecvD4, #HI_xrecvD5, #HI_xrecvD6, #HI_xrecvD7, #HI_xrecvD8, #HI_xrecvD9, #HI_xrecvD10, #HI_xrecvD11, #HI_xrecvD12, #HI_xrecvD13, #HI_xrecvD14, #HI_xrecvD15⟩
  ihave HpZD' := (Entails.of_eq (bigSep_fin16 (F := F) fun i : Fin 16 => atPos ER (zrecvDC c i) 0 ∅ 0)) $$ HpZD
  icases HpZD' with ⟨HaZD0, HaZD1, HaZD2, HaZD3, HaZD4, HaZD5, HaZD6, HaZD7, HaZD8, HaZD9, HaZD10, HaZD11, HaZD12, HaZD13, HaZD14, HaZD15⟩
  ihave HcZD' := (Entails.of_eq (bigSep_fin16 (F := F) fun i : Fin 16 => cred (tallyAt (zrecvDC c i) () N))) $$ HcZD
  icases HcZD' with ⟨HcZD0, HcZD1, HcZD2, HcZD3, HcZD4, HcZD5, HcZD6, HcZD7, HcZD8, HcZD9, HcZD10, HcZD11, HcZD12, HcZD13, HcZD14, HcZD15⟩
  ihave #H := ((rec_fam (F := F) m K _ (inv_zrecvD (F := F) m K c)).trans (Entails.of_eq (bigSep_fin16 (F := F) _))) $$ Hrec
  icases H with ⟨#HI_zrecvD0, #HI_zrecvD1, #HI_zrecvD2, #HI_zrecvD3, #HI_zrecvD4, #HI_zrecvD5, #HI_zrecvD6, #HI_zrecvD7, #HI_zrecvD8, #HI_zrecvD9, #HI_zrecvD10, #HI_zrecvD11, #HI_zrecvD12, #HI_zrecvD13, #HI_zrecvD14, #HI_zrecvD15⟩
  ihave HpYS' := (Entails.of_eq (bigSep_fin32 (F := F) fun i : Fin 32 => atPos ER (ysendC c i) 0 ∅ 0)) $$ HpYS
  icases HpYS' with ⟨HaYS0, HaYS1, HaYS2, HaYS3, HaYS4, HaYS5, HaYS6, HaYS7, HaYS8, HaYS9, HaYS10, HaYS11, HaYS12, HaYS13, HaYS14, HaYS15, HaYS16, HaYS17, HaYS18, HaYS19, HaYS20, HaYS21, HaYS22, HaYS23, HaYS24, HaYS25, HaYS26, HaYS27, HaYS28, HaYS29, HaYS30, HaYS31⟩
  ihave #H := ((rec_fam (F := F) m K _ (inv_ysend (F := F) m K c)).trans (Entails.of_eq (bigSep_fin32 (F := F) _))) $$ Hrec
  icases H with ⟨#HI_ysend0, #HI_ysend1, #HI_ysend2, #HI_ysend3, #HI_ysend4, #HI_ysend5, #HI_ysend6, #HI_ysend7, #HI_ysend8, #HI_ysend9, #HI_ysend10, #HI_ysend11, #HI_ysend12, #HI_ysend13, #HI_ysend14, #HI_ysend15, #HI_ysend16, #HI_ysend17, #HI_ysend18, #HI_ysend19, #HI_ysend20, #HI_ysend21, #HI_ysend22, #HI_ysend23, #HI_ysend24, #HI_ysend25, #HI_ysend26, #HI_ysend27, #HI_ysend28, #HI_ysend29, #HI_ysend30, #HI_ysend31⟩
  ihave HpXS' := (Entails.of_eq (bigSep_fin48 (F := F) fun j : Fin 48 => atPos ER (xsendC c j) 0 ∅ 0)) $$ HpXS
  icases HpXS' with ⟨HaXS0, HaXS1, HaXS2, HaXS3, HaXS4, HaXS5, HaXS6, HaXS7, HaXS8, HaXS9, HaXS10, HaXS11, HaXS12, HaXS13, HaXS14, HaXS15, HaXS16, HaXS17, HaXS18, HaXS19, HaXS20, HaXS21, HaXS22, HaXS23, HaXS24, HaXS25, HaXS26, HaXS27, HaXS28, HaXS29, HaXS30, HaXS31, HaXS32, HaXS33, HaXS34, HaXS35, HaXS36, HaXS37, HaXS38, HaXS39, HaXS40, HaXS41, HaXS42, HaXS43, HaXS44, HaXS45, HaXS46, HaXS47⟩
  ihave #H := ((rec_fam (F := F) m K _ (inv_xsend (F := F) m K c)).trans (Entails.of_eq (bigSep_fin48 (F := F) _))) $$ Hrec
  icases H with ⟨#HI_xsend0, #HI_xsend1, #HI_xsend2, #HI_xsend3, #HI_xsend4, #HI_xsend5, #HI_xsend6, #HI_xsend7, #HI_xsend8, #HI_xsend9, #HI_xsend10, #HI_xsend11, #HI_xsend12, #HI_xsend13, #HI_xsend14, #HI_xsend15, #HI_xsend16, #HI_xsend17, #HI_xsend18, #HI_xsend19, #HI_xsend20, #HI_xsend21, #HI_xsend22, #HI_xsend23, #HI_xsend24, #HI_xsend25, #HI_xsend26, #HI_xsend27, #HI_xsend28, #HI_xsend29, #HI_xsend30, #HI_xsend31, #HI_xsend32, #HI_xsend33, #HI_xsend34, #HI_xsend35, #HI_xsend36, #HI_xsend37, #HI_xsend38, #HI_xsend39, #HI_xsend40, #HI_xsend41, #HI_xsend42, #HI_xsend43, #HI_xsend44, #HI_xsend45, #HI_xsend46, #HI_xsend47⟩
  ihave HpZS' := (Entails.of_eq (bigSep_fin48 (F := F) fun j : Fin 48 => atPos ER (zsendC c j) 0 ∅ 0)) $$ HpZS
  icases HpZS' with ⟨HaZS0, HaZS1, HaZS2, HaZS3, HaZS4, HaZS5, HaZS6, HaZS7, HaZS8, HaZS9, HaZS10, HaZS11, HaZS12, HaZS13, HaZS14, HaZS15, HaZS16, HaZS17, HaZS18, HaZS19, HaZS20, HaZS21, HaZS22, HaZS23, HaZS24, HaZS25, HaZS26, HaZS27, HaZS28, HaZS29, HaZS30, HaZS31, HaZS32, HaZS33, HaZS34, HaZS35, HaZS36, HaZS37, HaZS38, HaZS39, HaZS40, HaZS41, HaZS42, HaZS43, HaZS44, HaZS45, HaZS46, HaZS47⟩
  ihave #H := ((rec_fam (F := F) m K _ (inv_zsend (F := F) m K c)).trans (Entails.of_eq (bigSep_fin48 (F := F) _))) $$ Hrec
  icases H with ⟨#HI_zsend0, #HI_zsend1, #HI_zsend2, #HI_zsend3, #HI_zsend4, #HI_zsend5, #HI_zsend6, #HI_zsend7, #HI_zsend8, #HI_zsend9, #HI_zsend10, #HI_zsend11, #HI_zsend12, #HI_zsend13, #HI_zsend14, #HI_zsend15, #HI_zsend16, #HI_zsend17, #HI_zsend18, #HI_zsend19, #HI_zsend20, #HI_zsend21, #HI_zsend22, #HI_zsend23, #HI_zsend24, #HI_zsend25, #HI_zsend26, #HI_zsend27, #HI_zsend28, #HI_zsend29, #HI_zsend30, #HI_zsend31, #HI_zsend32, #HI_zsend33, #HI_zsend34, #HI_zsend35, #HI_zsend36, #HI_zsend37, #HI_zsend38, #HI_zsend39, #HI_zsend40, #HI_zsend41, #HI_zsend42, #HI_zsend43, #HI_zsend44, #HI_zsend45, #HI_zsend46, #HI_zsend47⟩

  rw [show Orem c (112 + (15 : Fin 16).val + 1) = 0 from Orem_end c]
  sl_exec

  imod (epi_cells (F := F) m c K) $$ [HaYS0 HaYS1 HaYS2 HaYS3 HaYS4 HaYS5 HaYS6 HaYS7 HaYS8 HaYS9 HaYS10 HaYS11 HaYS12 HaYS13 HaYS14 HaYS15 HaYS16 HaYS17 HaYS18 HaYS19 HaYS20 HaYS21 HaYS22 HaYS23 HaYS24 HaYS25 HaYS26 HaYS27 HaYS28 HaYS29 HaYS30 HaYS31 HaYR0 HaYR1 HaYR2 HaYR3 HaYR4 HaYR5 HaYR6 HaYR7 HaYR8 HaYR9 HaYR10 HaYR11 HaYR12 HaYR13 HaYR14 HaYR15 HaYR16 HaYR17 HaYR18 HaYR19 HaYR20 HaYR21 HaYR22 HaYR23 HaYR24 HaYR25 HaYR26 HaYR27 HaYR28 HaYR29 HaYR30 HaYR31 HaXS0 HaXS1 HaXS2 HaXS3 HaXS4 HaXS5 HaXS6 HaXS7 HaXS8 HaXS9 HaXS10 HaXS11 HaXS12 HaXS13 HaXS14 HaXS15 HaXS16 HaXS17 HaXS18 HaXS19 HaXS20 HaXS21 HaXS22 HaXS23 HaXS24 HaXS25 HaXS26 HaXS27 HaXS28 HaXS29 HaXS30 HaXS31 HaXS32 HaXS33 HaXS34 HaXS35 HaXS36 HaXS37 HaXS38 HaXS39 HaXS40 HaXS41 HaXS42 HaXS43 HaXS44 HaXS45 HaXS46 HaXS47 HaXR0 HaXR1 HaXR2 HaXR3 HaXR4 HaXR5 HaXR6 HaXR7 HaXR8 HaXR9 HaXR10 HaXR11 HaXR12 HaXR13 HaXR14 HaXR15 HaXR16 HaXR17 HaXR18 HaXR19 HaXR20 HaXR21 HaXR22 HaXR23 HaXR24 HaXR25 HaXR26 HaXR27 HaXR28 HaXR29 HaXR30 HaXR31 HaXD0 HaXD1 HaXD2 HaXD3 HaXD4 HaXD5 HaXD6 HaXD7 HaXD8 HaXD9 HaXD10 HaXD11 HaXD12 HaXD13 HaXD14 HaXD15 HaZS0 HaZS1 HaZS2 HaZS3 HaZS4 HaZS5 HaZS6 HaZS7 HaZS8 HaZS9 HaZS10 HaZS11 HaZS12 HaZS13 HaZS14 HaZS15 HaZS16 HaZS17 HaZS18 HaZS19 HaZS20 HaZS21 HaZS22 HaZS23 HaZS24 HaZS25 HaZS26 HaZS27 HaZS28 HaZS29 HaZS30 HaZS31 HaZS32 HaZS33 HaZS34 HaZS35 HaZS36 HaZS37 HaZS38 HaZS39 HaZS40 HaZS41 HaZS42 HaZS43 HaZS44 HaZS45 HaZS46 HaZS47 HaZR0 HaZR1 HaZR2 HaZR3 HaZR4 HaZR5 HaZR6 HaZR7 HaZR8 HaZR9 HaZR10 HaZR11 HaZR12 HaZR13 HaZR14 HaZR15 HaZR16 HaZR17 HaZR18 HaZR19 HaZR20 HaZR21 HaZR22 HaZR23 HaZR24 HaZR25 HaZR26 HaZR27 HaZR28 HaZR29 HaZR30 HaZR31 HaZD0 HaZD1 HaZD2 HaZD3 HaZD4 HaZD5 HaZD6 HaZD7 HaZD8 HaZD9 HaZD10 HaZD11 HaZD12 HaZD13 HaZD14 HaZD15] with Hsem
  · simp only [bigSep_fin32, bigSep_fin48, bigSep_fin16]
    iframe Hrec ∗
  sl_step
  iapply Hk

  isplitl [HaXS0_pay1 HaZS0_pay1 HyC0 HaXS1_pay1 HaZS1_pay1 HyC1 HaXS2_pay1 HaZS2_pay1 HyC2 HaXS3_pay1 HaZS3_pay1 HyC3 HaXS4_pay1 HaZS4_pay1 HyC4 HaXS5_pay1 HaZS5_pay1 HyC5 HaXS6_pay1 HaZS6_pay1 HyC6 HaXS7_pay1 HaZS7_pay1 HyC7 HaXS8_pay1 HaZS8_pay1 HyC8 HaXS9_pay1 HaZS9_pay1 HyC9 HaXS10_pay1 HaZS10_pay1 HyC10 HaXS11_pay1 HaZS11_pay1 HyC11 HaXS12_pay1 HaZS12_pay1 HyC12 HaXS13_pay1 HaZS13_pay1 HyC13 HaXS14_pay1 HaZS14_pay1 HyC14 HaXS15_pay1 HaZS15_pay1 HyC15 HaXS16_pay1 HaZS16_pay1 HyC16 HaXS17_pay1 HaZS17_pay1 HyC17 HaXS18_pay1 HaZS18_pay1 HyC18 HaXS19_pay1 HaZS19_pay1 HyC19 HaXS20_pay1 HaZS20_pay1 HyC20 HaXS21_pay1 HaZS21_pay1 HyC21 HaXS22_pay1 HaZS22_pay1 HyC22 HaXS23_pay1 HaZS23_pay1 HyC23 HaXS24_pay1 HaZS24_pay1 HyC24 HaXS25_pay1 HaZS25_pay1 HyC25 HaXS26_pay1 HaZS26_pay1 HyC26 HaXS27_pay1 HaZS27_pay1 HyC27 HaXS28_pay1 HaZS28_pay1 HyC28 HaXS29_pay1 HaZS29_pay1 HyC29 HaXS30_pay1 HaZS30_pay1 HyC30 HaXS31_pay1 HaZS31_pay1 HyC31 HaXR0_pay1 HaXR1_pay1 HaXR2_pay1 HaXR3_pay1 HaXR4_pay1 HaXR5_pay1 HaXR6_pay1 HaXR7_pay1 HaXR8_pay1 HaXR9_pay1 HaXR10_pay1 HaXR11_pay1 HaXR12_pay1 HaXR13_pay1 HaXR14_pay1 HaXR15_pay1 HaZS32_pay1 HxsR16 HaZS33_pay1 HxsR17 HaZS34_pay1 HxsR18 HaZS35_pay1 HxsR19 HaZS36_pay1 HxsR20 HaZS37_pay1 HxsR21 HaZS38_pay1 HxsR22 HaZS39_pay1 HxsR23 HaZS40_pay1 HxsR24 HaZS41_pay1 HxsR25 HaZS42_pay1 HxsR26 HaZS43_pay1 HxsR27 HaZS44_pay1 HxsR28 HaZS45_pay1 HxsR29 HaZS46_pay1 HxsR30 HaZS47_pay1 HxsR31 HaXD0_pay1 HaXD1_pay1 HaXD2_pay1 HaXD3_pay1 HaXD4_pay1 HaXD5_pay1 HaXD6_pay1 HaXD7_pay1 HaXD8_pay1 HaXD9_pay1 HaXD10_pay1 HaXD11_pay1 HaXD12_pay1 HaXD13_pay1 HaXD14_pay1 HaXD15_pay1 HaXS32_pay1 HzsR0 HaXS33_pay1 HzsR1 HaXS34_pay1 HzsR2 HaXS35_pay1 HzsR3 HaXS36_pay1 HzsR4 HaXS37_pay1 HzsR5 HaXS38_pay1 HzsR6 HaXS39_pay1 HzsR7 HaXS40_pay1 HzsR8 HaXS41_pay1 HzsR9 HaXS42_pay1 HzsR10 HaXS43_pay1 HzsR11 HaXS44_pay1 HzsR12 HaXS45_pay1 HzsR13 HaXS46_pay1 HzsR14 HaXS47_pay1 HzsR15 HaZR16_pay1 HaZR17_pay1 HaZR18_pay1 HaZR19_pay1 HaZR20_pay1 HaZR21_pay1 HaZR22_pay1 HaZR23_pay1 HaZR24_pay1 HaZR25_pay1 HaZR26_pay1 HaZR27_pay1 HaZR28_pay1 HaZR29_pay1 HaZR30_pay1 HaZR31_pay1 HaZD0_pay1 HaZD1_pay1 HaZD2_pay1 HaZD3_pay1 HaZD4_pay1 HaZD5_pay1 HaZD6_pay1 HaZD7_pay1 HaZD8_pay1 HaZD9_pay1 HaZD10_pay1 HaZD11_pay1 HaZD12_pay1 HaZD13_pay1 HaZD14_pay1 HaZD15_pay1]
  · iapply (epi_landing (F := F) m c)
    simp only [bigSep_fin32, bigSep_fin16, Fin.reduceCastAdd, Fin.reduceNatAdd]
    iframe
  isplitl [Hsem]; · iexact Hsem
  isplitl [HO]; · iexists _; iexact HO

  isplitl [Hxv HxRest HaYS0_pay1 HaYS1_pay1 HaYS2_pay1 HaYS3_pay1 HaYS4_pay1 HaYS5_pay1 HaYS6_pay1 HaYS7_pay1 HaYS8_pay1 HaYS9_pay1 HaYS10_pay1 HaYS11_pay1 HaYS12_pay1 HaYS13_pay1 HaYS14_pay1 HaYS15_pay1 HaYS16_pay1 HaYS17_pay1 HaYS18_pay1 HaYS19_pay1 HaYS20_pay1 HaYS21_pay1 HaYS22_pay1 HaYS23_pay1 HaYS24_pay1 HaYS25_pay1 HaYS26_pay1 HaYS27_pay1 HaYS28_pay1 HaYS29_pay1 HaYS30_pay1 HaYS31_pay1]
  · iapply (x_back (F := F) m c)
    rw [bigSep_fin32]
    iframe

  rw [out_closed m c g1 _ storeKeys storeKeys_all]
  swap
  · unfold storeKeys
    refine List.Forall₂.cons (ok_zd m c 15 _ rfl _ _) ?_
    refine List.Forall₂.cons (ok_zd m c 14 _ rfl _ _) ?_
    refine List.Forall₂.cons (ok_zd m c 13 _ rfl _ _) ?_
    refine List.Forall₂.cons (ok_zd m c 12 _ rfl _ _) ?_
    refine List.Forall₂.cons (ok_zd m c 11 _ rfl _ _) ?_
    refine List.Forall₂.cons (ok_zd m c 10 _ rfl _ _) ?_
    refine List.Forall₂.cons (ok_zd m c 9 _ rfl _ _) ?_
    refine List.Forall₂.cons (ok_zd m c 8 _ rfl _ _) ?_
    refine List.Forall₂.cons (ok_zd m c 7 _ rfl _ _) ?_
    refine List.Forall₂.cons (ok_zd m c 6 _ rfl _ _) ?_
    refine List.Forall₂.cons (ok_zd m c 5 _ rfl _ _) ?_
    refine List.Forall₂.cons (ok_zd m c 4 _ rfl _ _) ?_
    refine List.Forall₂.cons (ok_zd m c 3 _ rfl _ _) ?_
    refine List.Forall₂.cons (ok_zd m c 2 _ rfl _ _) ?_
    refine List.Forall₂.cons (ok_zd m c 1 _ rfl _ _) ?_
    refine List.Forall₂.cons (ok_zd m c 0 _ rfl _ _) ?_
    refine List.Forall₂.cons (ok_xd m c 15 _ rfl _ _) ?_
    refine List.Forall₂.cons (ok_xd m c 14 _ rfl _ _) ?_
    refine List.Forall₂.cons (ok_xd m c 13 _ rfl _ _) ?_
    refine List.Forall₂.cons (ok_xd m c 12 _ rfl _ _) ?_
    refine List.Forall₂.cons (ok_xd m c 11 _ rfl _ _) ?_
    refine List.Forall₂.cons (ok_xd m c 10 _ rfl _ _) ?_
    refine List.Forall₂.cons (ok_xd m c 9 _ rfl _ _) ?_
    refine List.Forall₂.cons (ok_xd m c 8 _ rfl _ _) ?_
    refine List.Forall₂.cons (ok_xd m c 7 _ rfl _ _) ?_
    refine List.Forall₂.cons (ok_xd m c 6 _ rfl _ _) ?_
    refine List.Forall₂.cons (ok_xd m c 5 _ rfl _ _) ?_
    refine List.Forall₂.cons (ok_xd m c 4 _ rfl _ _) ?_
    refine List.Forall₂.cons (ok_xd m c 3 _ rfl _ _) ?_
    refine List.Forall₂.cons (ok_xd m c 2 _ rfl _ _) ?_
    refine List.Forall₂.cons (ok_xd m c 1 _ rfl _ _) ?_
    refine List.Forall₂.cons (ok_xd m c 0 _ rfl _ _) ?_
    refine List.Forall₂.cons (ok_xs m c 31 _ rfl _ _) ?_
    refine List.Forall₂.cons (ok_xs m c 30 _ rfl _ _) ?_
    refine List.Forall₂.cons (ok_xs m c 29 _ rfl _ _) ?_
    refine List.Forall₂.cons (ok_xs m c 28 _ rfl _ _) ?_
    refine List.Forall₂.cons (ok_xs m c 27 _ rfl _ _) ?_
    refine List.Forall₂.cons (ok_xs m c 26 _ rfl _ _) ?_
    refine List.Forall₂.cons (ok_xs m c 25 _ rfl _ _) ?_
    refine List.Forall₂.cons (ok_xs m c 24 _ rfl _ _) ?_
    refine List.Forall₂.cons (ok_xs m c 23 _ rfl _ _) ?_
    refine List.Forall₂.cons (ok_xs m c 22 _ rfl _ _) ?_
    refine List.Forall₂.cons (ok_xs m c 21 _ rfl _ _) ?_
    refine List.Forall₂.cons (ok_xs m c 20 _ rfl _ _) ?_
    refine List.Forall₂.cons (ok_xs m c 19 _ rfl _ _) ?_
    refine List.Forall₂.cons (ok_xs m c 18 _ rfl _ _) ?_
    refine List.Forall₂.cons (ok_xs m c 17 _ rfl _ _) ?_
    refine List.Forall₂.cons (ok_xs m c 16 _ rfl _ _) ?_
    refine List.Forall₂.cons (ok_xs m c 15 _ rfl _ _) ?_
    refine List.Forall₂.cons (ok_xs m c 14 _ rfl _ _) ?_
    refine List.Forall₂.cons (ok_xs m c 13 _ rfl _ _) ?_
    refine List.Forall₂.cons (ok_xs m c 12 _ rfl _ _) ?_
    refine List.Forall₂.cons (ok_xs m c 11 _ rfl _ _) ?_
    refine List.Forall₂.cons (ok_xs m c 10 _ rfl _ _) ?_
    refine List.Forall₂.cons (ok_xs m c 9 _ rfl _ _) ?_
    refine List.Forall₂.cons (ok_xs m c 8 _ rfl _ _) ?_
    refine List.Forall₂.cons (ok_xs m c 7 _ rfl _ _) ?_
    refine List.Forall₂.cons (ok_xs m c 6 _ rfl _ _) ?_
    refine List.Forall₂.cons (ok_xs m c 5 _ rfl _ _) ?_
    refine List.Forall₂.cons (ok_xs m c 4 _ rfl _ _) ?_
    refine List.Forall₂.cons (ok_xs m c 3 _ rfl _ _) ?_
    refine List.Forall₂.cons (ok_xs m c 2 _ rfl _ _) ?_
    refine List.Forall₂.cons (ok_xs m c 1 _ rfl _ _) ?_
    refine List.Forall₂.cons (ok_xs m c 0 _ rfl _ _) ?_
    refine List.Forall₂.cons (ok_zs m c 31 _ rfl _ _) ?_
    refine List.Forall₂.cons (ok_zs m c 30 _ rfl _ _) ?_
    refine List.Forall₂.cons (ok_zs m c 29 _ rfl _ _) ?_
    refine List.Forall₂.cons (ok_zs m c 28 _ rfl _ _) ?_
    refine List.Forall₂.cons (ok_zs m c 27 _ rfl _ _) ?_
    refine List.Forall₂.cons (ok_zs m c 26 _ rfl _ _) ?_
    refine List.Forall₂.cons (ok_zs m c 25 _ rfl _ _) ?_
    refine List.Forall₂.cons (ok_zs m c 24 _ rfl _ _) ?_
    refine List.Forall₂.cons (ok_zs m c 23 _ rfl _ _) ?_
    refine List.Forall₂.cons (ok_zs m c 22 _ rfl _ _) ?_
    refine List.Forall₂.cons (ok_zs m c 21 _ rfl _ _) ?_
    refine List.Forall₂.cons (ok_zs m c 20 _ rfl _ _) ?_
    refine List.Forall₂.cons (ok_zs m c 19 _ rfl _ _) ?_
    refine List.Forall₂.cons (ok_zs m c 18 _ rfl _ _) ?_
    refine List.Forall₂.cons (ok_zs m c 17 _ rfl _ _) ?_
    refine List.Forall₂.cons (ok_zs m c 16 _ rfl _ _) ?_
    refine List.Forall₂.cons (ok_zs m c 15 _ rfl _ _) ?_
    refine List.Forall₂.cons (ok_zs m c 14 _ rfl _ _) ?_
    refine List.Forall₂.cons (ok_zs m c 13 _ rfl _ _) ?_
    refine List.Forall₂.cons (ok_zs m c 12 _ rfl _ _) ?_
    refine List.Forall₂.cons (ok_zs m c 11 _ rfl _ _) ?_
    refine List.Forall₂.cons (ok_zs m c 10 _ rfl _ _) ?_
    refine List.Forall₂.cons (ok_zs m c 9 _ rfl _ _) ?_
    refine List.Forall₂.cons (ok_zs m c 8 _ rfl _ _) ?_
    refine List.Forall₂.cons (ok_zs m c 7 _ rfl _ _) ?_
    refine List.Forall₂.cons (ok_zs m c 6 _ rfl _ _) ?_
    refine List.Forall₂.cons (ok_zs m c 5 _ rfl _ _) ?_
    refine List.Forall₂.cons (ok_zs m c 4 _ rfl _ _) ?_
    refine List.Forall₂.cons (ok_zs m c 3 _ rfl _ _) ?_
    refine List.Forall₂.cons (ok_zs m c 2 _ rfl _ _) ?_
    refine List.Forall₂.cons (ok_zs m c 1 _ rfl _ _) ?_
    refine List.Forall₂.cons (ok_zs m c 0 _ rfl _ _) ?_
    refine List.Forall₂.cons (ok_y m c 31 _ rfl _ _) ?_
    refine List.Forall₂.cons (ok_y m c 30 _ rfl _ _) ?_
    refine List.Forall₂.cons (ok_y m c 29 _ rfl _ _) ?_
    refine List.Forall₂.cons (ok_y m c 28 _ rfl _ _) ?_
    refine List.Forall₂.cons (ok_y m c 27 _ rfl _ _) ?_
    refine List.Forall₂.cons (ok_y m c 26 _ rfl _ _) ?_
    refine List.Forall₂.cons (ok_y m c 25 _ rfl _ _) ?_
    refine List.Forall₂.cons (ok_y m c 24 _ rfl _ _) ?_
    refine List.Forall₂.cons (ok_y m c 23 _ rfl _ _) ?_
    refine List.Forall₂.cons (ok_y m c 22 _ rfl _ _) ?_
    refine List.Forall₂.cons (ok_y m c 21 _ rfl _ _) ?_
    refine List.Forall₂.cons (ok_y m c 20 _ rfl _ _) ?_
    refine List.Forall₂.cons (ok_y m c 19 _ rfl _ _) ?_
    refine List.Forall₂.cons (ok_y m c 18 _ rfl _ _) ?_
    refine List.Forall₂.cons (ok_y m c 17 _ rfl _ _) ?_
    refine List.Forall₂.cons (ok_y m c 16 _ rfl _ _) ?_
    refine List.Forall₂.cons (ok_y m c 15 _ rfl _ _) ?_
    refine List.Forall₂.cons (ok_y m c 14 _ rfl _ _) ?_
    refine List.Forall₂.cons (ok_y m c 13 _ rfl _ _) ?_
    refine List.Forall₂.cons (ok_y m c 12 _ rfl _ _) ?_
    refine List.Forall₂.cons (ok_y m c 11 _ rfl _ _) ?_
    refine List.Forall₂.cons (ok_y m c 10 _ rfl _ _) ?_
    refine List.Forall₂.cons (ok_y m c 9 _ rfl _ _) ?_
    refine List.Forall₂.cons (ok_y m c 8 _ rfl _ _) ?_
    refine List.Forall₂.cons (ok_y m c 7 _ rfl _ _) ?_
    refine List.Forall₂.cons (ok_y m c 6 _ rfl _ _) ?_
    refine List.Forall₂.cons (ok_y m c 5 _ rfl _ _) ?_
    refine List.Forall₂.cons (ok_y m c 4 _ rfl _ _) ?_
    refine List.Forall₂.cons (ok_y m c 3 _ rfl _ _) ?_
    refine List.Forall₂.cons (ok_y m c 2 _ rfl _ _) ?_
    refine List.Forall₂.cons (ok_y m c 1 _ rfl _ _) ?_
    refine List.Forall₂.cons (ok_y m c 0 _ rfl _ _) ?_
    exact List.Forall₂.nil
  iexact Houtv

omit [FloatOps F] in

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in

def bodyPre' (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ (F := F) c ∗ (dats m ρ 0 c).owesAt () t₀.succ ∗ stg c cc0_stg0_0 (Xs m c) ∗ stg c cc0_stg1_0 (outAt m c))

set_option maxRecDepth 65536 in

theorem body_obligation (c : Dev nD) : BodyObligation (dats (F := F) m ρ 0 c) (defs₀ (F := F)) 𝒱₀ () Set.univ := fun t => by
  rw [fin_N t]
  rw [Gen.bigSep_W0, Gen.bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12) (fun _ => bodyPost m ρ c)
  unfold bodyPre' Φ₀ start ghost landing
  iintro ⟨⟨⟨⟨%K, Hrec, Hpos, Htok⟩, Hcred, Hlev⟩, ⟨%f0, H0⟩, ⟨%f1, H1⟩, ⟨%f2, H2⟩, ⟨%f3, H3⟩, ⟨%f4, H4⟩⟩,
    Ho, ⟨%d0, %g0, %hg0, Hx⟩, ⟨%d1, %g1, %hg1, Hout⟩⟩
  have hx : g0 = Xs m c := by rw [hg0]; unfold Dat.before; rw [if_pos (Gen.fetch0_0 t₀)]; rfl
  subst hx
  unfold Dat.owesAt Pipeline.owesWithin
  icases Ho with ⟨%W, %hW, HO⟩
  rw [show (dats m ρ 0 c).owed t₀.castSucc = O₀ c from rfl]
  iapply (sound_body m c K (fun _ => bodyPost m ρ c) W g1 f0 f1 f2 f3 f4)
  isplitl [Hrec]; · iexact Hrec
  isplitl [Hpos]; · iexact Hpos
  isplitl [Htok]; · iexact Htok
  isplitl [Hcred]; · iexact Hcred
  isplitl [Hlev]; · iexact Hlev
  isplitl [H0]; · iexact H0
  isplitl [H1]; · iexact H1
  isplitl [H2]; · iexact H2
  isplitl [H3]; · iexact H3
  isplitl [H4]; · iexact H4
  isplitl [HO]; · iexact HO
  isplitl [Hx]; · iexact Hx
  isplitl [Hout]; · iexact Hout
  iintro ⟨Hland, Hz, ⟨%W', HO⟩, Hx, Hout⟩
  unfold bodyPost Φ₁ Dat.owesAt Pipeline.owesWithin
  rw [show (dats m ρ 0 c).owed t₀.succ = 0 from rfl]
  isplitl [Hland Hz]
  · isplitl [Hland]; · iexact Hland
    iexact Hz
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

end Cert.Kernel.Hand

end
-- ==== Proof.Value.lean ====
import proofs.«900716_g7700000000000717_dist_ar_v7x_xyz2x2x4_y_m4096_n1024_f32_1_alg».proof.Defs
import proofs.«900716_g7700000000000717_dist_ar_v7x_xyz2x2x4_y_m4096_n1024_f32_1_alg».proof.Proof.Gen.ReferenceIdeal
import proofs.«900716_g7700000000000717_dist_ar_v7x_xyz2x2x4_y_m4096_n1024_f32_1_alg».proof.Proof.Gen.ReferenceIdeal.Run
import proofs.«900716_g7700000000000717_dist_ar_v7x_xyz2x2x4_y_m4096_n1024_f32_1_alg».proof.Proof.Gen.ReferenceIdeal.Read
import proofs.«900716_g7700000000000717_dist_ar_v7x_xyz2x2x4_y_m4096_n1024_f32_1_alg».proof.Proof.Gen.Pre_finite_inputs_ReferenceIdeal
import Idealize.ShloMosaic.Lib.Layout
import Idealize.ShloMosaic.Lib.IdealHost

noncomputable section

namespace Cert.Value

open Idealize.ShloMosaic Idealize.SL.Sem

abbrev Blk : Type := (⟨Cert.KernelIdeal.S4096x1024, .f32⟩ : BufTy).Contents (Elt Ideal)

abbrev Whole : Type := (⟨Cert.ReferenceIdeal.S8192x1024, .f32⟩ : BufTy).Contents (Elt Ideal)

abbrev KMem : Type := (ℓ : Loc Cert.KernelIdeal.nD Cert.KernelIdeal.τ Cert.KernelIdeal.sig) → Buf (Elt Ideal) ℓ
abbrev RMem : Type := (ℓ : Loc Cert.ReferenceIdeal.nD Cert.ReferenceIdeal.τ Cert.ReferenceIdeal.sig) → Buf (Elt Ideal) ℓ

-- Every device's block is its block of the reference's whole array.
abbrev Agree (m : KMem) (m' : RMem) : Prop := ∀ c : Dev Cert.KernelIdeal.nD,
  m ((c.tc : Thread Cert.KernelIdeal.nD Cert.KernelIdeal.τ).loc Cert.KernelIdeal.main_arg0) = Layout.blockN ⟨2, ![4096, 1024]⟩ ⟨2, ![8192, 1024]⟩ (Layout.meshBlock [2, 2, 4] ![[1], []] c) (m' (((0 : Dev Cert.ReferenceIdeal.nD).tc : Thread Cert.ReferenceIdeal.nD Cert.ReferenceIdeal.τ).loc Cert.ReferenceIdeal.main_arg0))

def yFlip (c : Dev Cert.KernelIdeal.nD) : Dev Cert.KernelIdeal.nD := ⟨(c.val ^^^ 4) % 16, Nat.mod_lt _ (by decide)⟩

def sumBlk (a b : Blk) : Blk := addf (F := Ideal) (s := Cert.KernelIdeal.S4096x1024) (φ := .f32) a b

theorem sumBlk_apply (a b : Blk) (i : Cert.KernelIdeal.S4096x1024.Idx) :
    sumBlk a b i = (show EReal from a i) + (show EReal from b i) := rfl

def refVal (m' : (ℓ : Loc Cert.ReferenceIdeal.nD Cert.ReferenceIdeal.τ Cert.ReferenceIdeal.sig) → Buf (Elt Ideal) ℓ) :
    Buf (Elt Ideal) (((0 : Dev Cert.ReferenceIdeal.nD).tc : Thread Cert.ReferenceIdeal.nD Cert.ReferenceIdeal.τ).loc Cert.ReferenceIdeal.main_v1) :=
  Cert.ReferenceIdeal.Read.val_main_v1 (F := Ideal)
    (m' (((0 : Dev Cert.ReferenceIdeal.nD).tc : Thread Cert.ReferenceIdeal.nD Cert.ReferenceIdeal.τ).loc Cert.ReferenceIdeal.main_arg0))

def rowAt (y : Fin 2) (i : Cert.KernelIdeal.S4096x1024.Idx) : Cert.ReferenceIdeal.S8192x1024.Idx :=
  Shape.pair (d := ![8192, 1024])
    ⟨y.val * 4096 + (i 0).val, by
      have h0 : (i 0).val < 4096 := (i 0).isLt; have hy := y.isLt; show y.val * 4096 + (i 0).val < 8192; omega⟩
    ⟨(i 1).val, (i 1).isLt⟩

def yOf (c : Dev Cert.KernelIdeal.nD) : Fin 2 := ⟨(c.val / 4) % 2, Nat.mod_lt _ (by decide)⟩

theorem meshLin_y : ∀ c : Fin 16, Layout.meshLin [2, 2, 4] c.val [1] = (c.val / 4) % 2 := by decide

theorem blockN_apply_rowAt (c : Dev Cert.KernelIdeal.nD) (x : Whole) (i : Cert.KernelIdeal.S4096x1024.Idx) :
    (Layout.blockN ⟨2, ![4096, 1024]⟩ ⟨2, ![8192, 1024]⟩ (Layout.meshBlock [2, 2, 4] ![[1], []] c) x) i
      = x (rowAt (yOf c) i) := by
  rw [Layout.blockN_apply]
  refine congrArg x (funext fun b => Fin.ext ?_)
  rw [Layout.TilesN.idx_val]
  match b with
  | ⟨0, _⟩ =>
    show Layout.meshLin [2, 2, 4] c.val [1] * 4096 + (i 0).val = (c.val / 4) % 2 * 4096 + (i 0).val
    rw [meshLin_y c]
  | ⟨1, _⟩ =>
    show 0 * 1024 + (i 1).val = (i 1).val
    omega

theorem idx_ref (i : Cert.ReferenceIdeal.S4096x1024.Idx) (k : Fin 2) :
    Cert.ReferenceIdeal.Read.idx_main_v0 (Cert.ReferenceIdeal.Read.idx_main_v1 i k) = rowAt k i := by
  refine funext fun a => Fin.ext ?_
  have h1 : (i 1).val < 1024 := (i 1).isLt
  match a with
  | ⟨0, _⟩ =>
    show ((k.val * 4096 + (i 0).val) * 1024 + (i 1).val) / 1024 = k.val * 4096 + (i 0).val
    omega
  | ⟨1, _⟩ =>
    show ((k.val * 4096 + (i 0).val) * 1024 + (i 1).val) % 1024 = (i 1).val
    omega

theorem refVal_apply (x : Whole) (i : Cert.ReferenceIdeal.S4096x1024.Idx) :
    Cert.ReferenceIdeal.Read.val_main_v1 (F := Ideal) x i
      = (show EReal from x (rowAt 0 i)) + (show EReal from x (rowAt 1 i)) := by
  rw [Cert.ReferenceIdeal.Read.val_main_v1_apply, Fin.sum_univ_two, Cert.ReferenceIdeal.Read.val_main_v0_apply,
    Cert.ReferenceIdeal.Read.val_main_v0_apply, Cert.ReferenceIdeal.Read.val_main_cst_apply, idx_ref, idx_ref,
    Ideal.ofBits_def, Ideal.ofBits_zero_f32]
  exact zero_add (M := EReal) _

theorem value_eq (m : KMem) (m' : RMem) (hagree : Agree m m') (c : Dev Cert.KernelIdeal.nD) :
    sumBlk (m ((c.tc : Thread Cert.KernelIdeal.nD Cert.KernelIdeal.τ).loc Cert.KernelIdeal.main_arg0))
        (m (((yFlip c).tc : Thread Cert.KernelIdeal.nD Cert.KernelIdeal.τ).loc Cert.KernelIdeal.main_arg0))
      = refVal m' := by
  funext i
  rw [hagree c, hagree (yFlip c), sumBlk_apply]
  unfold refVal
  rw [refVal_apply]
  show (show EReal from (Layout.blockN ⟨2, ![4096, 1024]⟩ ⟨2, ![8192, 1024]⟩ (Layout.meshBlock [2, 2, 4] ![[1], []] c) _) i)
      + (show EReal from (Layout.blockN ⟨2, ![4096, 1024]⟩ ⟨2, ![8192, 1024]⟩ (Layout.meshBlock [2, 2, 4] ![[1], []] (yFlip c)) _) i) = _
  rw [blockN_apply_rowAt, blockN_apply_rowAt]
  obtain ⟨e0, e1⟩ | ⟨e0, e1⟩ : (yOf c = 0 ∧ yOf (yFlip c) = 1) ∨ (yOf c = 1 ∧ yOf (yFlip c) = 0) := by revert c; decide
  · rw [e0, e1]
  · rw [e0, e1]; exact add_comm (G := EReal) _ _

theorem ref_run
    (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v1) = refVal m'
      ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)) :=
  (θ_run Cert.ReferenceIdeal.defs _ _).mono
    (fun _ h => ⟨(h 0).1.trans (Cert.ReferenceIdeal.Read.val_main_v1_eq (F := Ideal) _), (h 0).2⟩)
    (Cert.ReferenceIdeal.Value.run (F := Ideal) m' g')

theorem ref_frame :
    Cert.frame_ReferenceIdeal (hReferenceIdeal := Cert.ReferenceIdeal.Gen.facts)
      (hPre_finite_inputs_ReferenceIdeal := Cert.Pre_finite_inputs_ReferenceIdeal.Gen.facts) :=
  fun m ρ _ => (θ_run Cert.ReferenceIdeal.defs _ _).mono (fun _ h c => (h c).2)
    (Cert.ReferenceIdeal.Value.run (F := Ideal) m ρ)

/-- info: 'Cert.Value.value_eq' depends on axioms: [propext, Classical.choice, Quot.sound] -/
#guard_msgs in #print axioms value_eq

end Cert.Value

end
-- ==== Proof.OutValue.lean ====
import proofs.«900716_g7700000000000717_dist_ar_v7x_xyz2x2x4_y_m4096_n1024_f32_1_alg».proof.Proof.HandKernelIdeal.Ghost
import proofs.«900716_g7700000000000717_dist_ar_v7x_xyz2x2x4_y_m4096_n1024_f32_1_alg».proof.Proof.HandKernelIdeal.Mesh
import proofs.«900716_g7700000000000717_dist_ar_v7x_xyz2x2x4_y_m4096_n1024_f32_1_alg».proof.Proof.Value

noncomputable section

namespace Cert.OutValue

open Idealize.ShloMosaic Idealize.SL.Sem
open Cert.KernelIdeal Cert.KernelIdeal.Gen Cert.KernelIdeal.Hand
open Cert.Value (KMem RMem Agree)

theorem Xs_eq {F : FTy → Type} [FloatOps F] (m : (ℓ : Loc nD τ sig) → Buf (Elt F) ℓ) (d : Dev nD) :
    Xs (F := F) m d = m ((d.tc : Thread nD τ).loc main_arg0) := by
  have hz : (fun a => (win0_0.index t0_0) a * main_arg0.ty.shape.size a) = fun _ => 0 :=
    funext fun a => by fin_cases a <;> decide
  exact Memref.read_access_unit_zero (Elt F) main_arg0 hz (fun a => by fin_cases a <;> decide) _

theorem blocks_eq_of_y (m : KMem) (m' : RMem)
    (hagree : Agree m m')
    (d d' : Dev Cert.KernelIdeal.nD) (h : Cert.Value.yOf d = Cert.Value.yOf d') :
    (m ((d.tc : Thread nD τ).loc main_arg0) : Cert.Value.Blk) = m ((d'.tc : Thread nD τ).loc main_arg0) := by
  rw [hagree d, hagree d']
  funext i
  rw [Cert.Value.blockN_apply_rowAt, Cert.Value.blockN_apply_rowAt, h]

theorem yOf_yN_via : ∀ (c : Dev nD) (j : Fin 4), Cert.Value.yOf (yN (via c j)) = Cert.Value.yOf (yN c) := by
  decide

theorem other_eq (m : KMem) (m' : RMem)
    (hagree : Agree m m')
    (c : Dev Cert.KernelIdeal.nD) :
    other (F := Ideal) m c = m (((yN c).tc : Thread nD τ).loc main_arg0) := by
  funext idx
  unfold other
  rw [Xs_eq]
  exact congrFun (blocks_eq_of_y m m' hagree (yN (via c (qOf c (idx 0).val))) (yN c) (yOf_yN_via c _)) idx

theorem outAt_eq (m : KMem) (m' : RMem)
    (hagree : Agree m m')
    (c : Dev Cert.KernelIdeal.nD) :
    Cert.KernelIdeal.Hand.outAt (F := Ideal) m c
      = Cert.Value.sumBlk (m ((c.tc : Thread Cert.KernelIdeal.nD Cert.KernelIdeal.τ).loc Cert.KernelIdeal.main_arg0))
          (m (((Cert.Value.yFlip c).tc : Thread Cert.KernelIdeal.nD Cert.KernelIdeal.τ).loc Cert.KernelIdeal.main_arg0)) := by
  unfold outAt Cert.Value.sumBlk
  rw [Xs_eq, other_eq m m' hagree c]
  rfl

theorem outAt_eq_refVal (m : KMem) (m' : RMem)
    (hagree : ∀ c : Dev Cert.KernelIdeal.nD,
      m ((c.tc : Thread Cert.KernelIdeal.nD Cert.KernelIdeal.τ).loc Cert.KernelIdeal.main_arg0) = Layout.blockN ⟨2, ![4096, 1024]⟩ ⟨2, ![8192, 1024]⟩ (Layout.meshBlock [2, 2, 4] ![[1], []] c) (m' (((0 : Dev Cert.ReferenceIdeal.nD).tc : Thread Cert.ReferenceIdeal.nD Cert.ReferenceIdeal.τ).loc Cert.ReferenceIdeal.main_arg0)))
    (c : Dev Cert.KernelIdeal.nD) :
    Cert.KernelIdeal.Hand.outAt (F := Ideal) m c = Cert.Value.refVal m' :=
  (outAt_eq m m' hagree c).trans (Cert.Value.value_eq m m' hagree c)

/-- info: 'Cert.OutValue.outAt_eq_refVal' depends on axioms: [propext, Classical.choice, Quot.sound] -/
#guard_msgs in #print axioms outAt_eq_refVal

end Cert.OutValue

end
-- ==== Proof.lean ====
/- On the 2 × 2 × 4 mesh the result on every device is its own row block plus the row block of the device across y:
   the reference's sum of the two halves of the rows. -/
import proofs.«900716_g7700000000000717_dist_ar_v7x_xyz2x2x4_y_m4096_n1024_f32_1_alg».proof.Defs
import proofs.«900716_g7700000000000717_dist_ar_v7x_xyz2x2x4_y_m4096_n1024_f32_1_alg».proof.Proof.Gen.Kernel
import proofs.«900716_g7700000000000717_dist_ar_v7x_xyz2x2x4_y_m4096_n1024_f32_1_alg».proof.Proof.Gen.KernelIdeal
import proofs.«900716_g7700000000000717_dist_ar_v7x_xyz2x2x4_y_m4096_n1024_f32_1_alg».proof.Proof.Gen.ReferenceIdeal
import proofs.«900716_g7700000000000717_dist_ar_v7x_xyz2x2x4_y_m4096_n1024_f32_1_alg».proof.Proof.Gen.Pre_finite_inputs_Kernel
import proofs.«900716_g7700000000000717_dist_ar_v7x_xyz2x2x4_y_m4096_n1024_f32_1_alg».proof.Proof.Gen.Pre_finite_inputs_ReferenceIdeal
import proofs.«900716_g7700000000000717_dist_ar_v7x_xyz2x2x4_y_m4096_n1024_f32_1_alg».proof.Proof.HandKernelIdeal.Launch
import proofs.«900716_g7700000000000717_dist_ar_v7x_xyz2x2x4_y_m4096_n1024_f32_1_alg».proof.Proof.HandKernelIdeal.Body
import proofs.«900716_g7700000000000717_dist_ar_v7x_xyz2x2x4_y_m4096_n1024_f32_1_alg».proof.Proof.HandKernel.Launch
import proofs.«900716_g7700000000000717_dist_ar_v7x_xyz2x2x4_y_m4096_n1024_f32_1_alg».proof.Proof.HandKernel.Body
import proofs.«900716_g7700000000000717_dist_ar_v7x_xyz2x2x4_y_m4096_n1024_f32_1_alg».proof.Proof.Value
import proofs.«900716_g7700000000000717_dist_ar_v7x_xyz2x2x4_y_m4096_n1024_f32_1_alg».proof.Proof.OutValue

noncomputable section

namespace Cert.Proof

open Idealize.ShloMosaic Idealize.SL.Sem

theorem frame_Kernel : Cert.frame_Kernel (hKernel := Cert.Kernel.Gen.facts) (hPre_finite_inputs_Kernel := Cert.Pre_finite_inputs_Kernel.Gen.facts) :=
  fun m g _ => (θ_run _ _ _).mono (fun r h c => (h c 0).trans (Cert.Kernel.Hand.finalA_x m g c))
    (Cert.Kernel.Hand.run_main (F := Bits) m g (Cert.Kernel.Hand.body_obligation m g))

theorem frame_KernelIdeal : Cert.frame_KernelIdeal (hKernelIdeal := Cert.KernelIdeal.Gen.facts) (hPre_finite_inputs_Kernel := Cert.Pre_finite_inputs_Kernel.Gen.facts) :=
  fun m g _ => (θ_run _ _ _).mono (fun r h c => (h c 0).trans (Cert.KernelIdeal.Hand.finalA_x m g c))
    (Cert.KernelIdeal.Hand.run_main (F := Ideal) m g (Cert.KernelIdeal.Hand.body_obligation m g))

theorem algebraic : Cert.algebraic_KernelIdeal_ReferenceIdeal (hKernelIdeal := Cert.KernelIdeal.Gen.facts) (hReferenceIdeal := Cert.ReferenceIdeal.Gen.facts)
    (hPre_finite_inputs_Kernel := Cert.Pre_finite_inputs_Kernel.Gen.facts) :=
  fun m g m' g' _ hagree => ⟨Cert.Value.refVal m',
    (θ_run _ _ _).mono
      (fun r h c => ⟨((h c 1).trans (Cert.KernelIdeal.Hand.finalA_out m g c)).trans (Cert.OutValue.outAt_eq_refVal m m' hagree c),
        (h c 0).trans (Cert.KernelIdeal.Hand.finalA_x m g c)⟩)
      (Cert.KernelIdeal.Hand.run_main (F := Ideal) m g (Cert.KernelIdeal.Hand.body_obligation m g)),
    Cert.Value.ref_run m' g'⟩

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_Kernel, frame_KernelIdeal, Cert.Value.ref_frame, trivial, algebraic⟩

end Cert.Proof

end
